-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v43)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1x128x10000x1 : Shape := ⟨4, ![1, 128, 10000, 1]⟩
abbrev S1x16x10000x16 : Shape := ⟨4, ![1, 16, 10000, 16]⟩
abbrev S2x1x10000x16 : Shape := ⟨4, ![2, 1, 10000, 16]⟩
abbrev S256x272 : Shape := ⟨2, ![256, 272]⟩
abbrev S256 : Shape := ⟨1, ![256]⟩
abbrev S128x256 : Shape := ⟨2, ![128, 256]⟩
abbrev S128 : Shape := ⟨1, ![128]⟩
abbrev S256x256 : Shape := ⟨2, ![256, 256]⟩
abbrev S_ : Shape := ⟨0, ![]⟩

class Facts : Prop where
  bcast_S_S1x128x10000x1 : S_.BroadcastsInDim S1x128x10000x1 (![] : Fin 0 → Fin S1x128x10000x1.rank)
  reducesTo_S1x128x10000x1_S_d0_1_2_3 : S1x128x10000x1.ReducesTo [0, 1, 2, 3] S_
  h_S_ : 0 < S_.numel
  bcast_S_S1x16x10000x16 : S_.BroadcastsInDim S1x16x10000x16 (![] : Fin 0 → Fin S1x16x10000x16.rank)
  reducesTo_S1x16x10000x16_S_d0_1_2_3 : S1x16x10000x16.ReducesTo [0, 1, 2, 3] S_
  bcast_S_S256x272 : S_.BroadcastsInDim S256x272 (![] : Fin 0 → Fin S256x272.rank)
  reducesTo_S256x272_S_d0_1 : S256x272.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S2x1x10000x16 : S_.BroadcastsInDim S2x1x10000x16 (![] : Fin 0 → Fin S2x1x10000x16.rank)
  reducesTo_S2x1x10000x16_S_d0_1_2_3 : S2x1x10000x16.ReducesTo [0, 1, 2, 3] S_

variable [Facts]

def fn_part5 {F : FTy → Type} [FloatOps F] (main_arg2 : IVec S2x1x10000x16 32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_c_34 : IVec S_ 32 := constantI S_ 32 0#32
  let main_v89 : IVec S2x1x10000x16 32 := broadcastInDim S2x1x10000x16 ![] bcast_S_S2x1x10000x16 main_c_34
  let main_v90 : IVec S2x1x10000x16 1 := cmpi .sge main_arg2 main_v89
  let main_c_35 : IVec S_ 32 := constantI S_ 32 9999#32
  let main_v91 : IVec S2x1x10000x16 32 := broadcastInDim S2x1x10000x16 ![] bcast_S_S2x1x10000x16 main_c_35
  let main_v92 : IVec S2x1x10000x16 1 := cmpi .sle main_arg2 main_v91
  let main_v93 : IVec S2x1x10000x16 1 := andi main_v90 main_v92
  let main_c_36 : IVec S_ 1 := constantI S_ 1 1#1
  let main_v94 : IVec S_ 1 := (fun x v => Host.reduce IntOp.andi x v reducesTo_S2x1x10000x16_S_d0_1_2_3 h_S_) main_v93 main_c_36
  let main_v95 : IVec S_ 1 := andi main_v88 main_v94
  main_v95

def fn_part4 {F : FTy → Type} [FloatOps F] (main_arg2 : IVec S2x1x10000x16 32) (main_arg15 : FVec F S128x256 .f32) (main_arg16 : FVec F S128 .f32) (main_arg17 : FVec F S128 .f32) (main_arg18 : FVec F S128 .f32) (main_v63 : IVec S_ 1) (main_v67 : IVec S_ 1) : IVec S_ 1 :=
  let main_v68 : IVec S_ 1 := andi main_v63 main_v67
  let main_v69 : FVec F S128x256 .f32 := Host.absf main_arg15
  let main_cst_26 : FVec F S_ .f32 := constant S_ .f32 0x7F800000#32
  let main_v70 : FVec F S128x256 .f32 := broadcastInDim S128x256 ![] bcast_S_S128x256 main_cst_26
  let main_v71 : IVec S128x256 1 := cmpf .olt main_v69 main_v70
  let main_c_27 : IVec S_ 1 := constantI S_ 1 1#1
  let main_v72 : IVec S_ 1 := (fun x v => Host.reduce IntOp.andi x v reducesTo_S128x256_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg2 main_v83 main_v84 main_cst_32

def fn_part3 {F : FTy → Type} [FloatOps F] (main_arg2 : IVec S2x1x10000x16 32) (main_arg12 : FVec F S256 .f32) (main_arg13 : FVec F S256 .f32) (main_arg14 : FVec F S256 .f32) (main_arg15 : FVec F S128x256 .f32) (main_arg16 : FVec F S128 .f32) (main_arg17 : FVec F S128 .f32) (main_arg18 : FVec F S128 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg2 main_arg15 main_arg16 main_arg17 main_arg18 main_v63 main_v67

def fn_part2 {F : FTy → Type} [FloatOps F] (main_arg2 : IVec S2x1x10000x16 32) (main_arg8 : FVec F S128 .f32) (main_arg9 : FVec F S128 .f32) (main_arg10 : FVec F S128 .f32) (main_arg11 : FVec F S256x256 .f32) (main_arg12 : FVec F S256 .f32) (main_arg13 : FVec F S256 .f32) (main_arg14 : FVec F S256 .f32) (main_arg15 : FVec F S128x256 .f32) (main_arg16 : FVec F S128 .f32) (main_arg17 : FVec F S128 .f32) (main_arg18 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg2 main_arg12 main_arg13 main_arg14 main_arg15 main_arg16 main_arg17 main_arg18 main_v48 main_v49 main_v50

def fn_part1 {F : FTy → Type} [FloatOps F] (main_arg2 : IVec S2x1x10000x16 32) (main_arg5 : FVec F S256 .f32) (main_arg6 : FVec F S256 .f32) (main_arg7 : FVec F S128x256 .f32) (main_arg8 : FVec F S128 .f32) (main_arg9 : FVec F S128 .f32) (main_arg10 : FVec F S128 .f32) (main_arg11 : FVec F S256x256 .f32) (main_arg12 : FVec F S256 .f32) (main_arg13 : FVec F S256 .f32) (main_arg14 : FVec F S256 .f32) (main_arg15 : FVec F S128x256 .f32) (main_arg16 : FVec F S128 .f32) (main_arg17 : FVec F S128 .f32) (main_arg18 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_v33

def fn {F : FTy → Type} [FloatOps F] (main_arg0 : FVec F S1x128x10000x1 .f32) (main_arg1 : FVec F S1x16x10000x16 .f32) (main_arg2 : IVec S2x1x10000x16 32) (main_arg3 : FVec F S256x272 .f32) (main_arg4 : FVec F S256 .f32) (main_arg5 : FVec F S256 .f32) (main_arg6 : FVec F S256 .f32) (main_arg7 : FVec F S128x256 .f32) (main_arg8 : FVec F S128 .f32) (main_arg9 : FVec F S128 .f32) (main_arg10 : FVec F S128 .f32) (main_arg11 : FVec F S256x256 .f32) (main_arg12 : FVec F S256 .f32) (main_arg13 : FVec F S256 .f32) (main_arg14 : FVec F S256 .f32) (main_arg15 : FVec F S128x256 .f32) (main_arg16 : FVec F S128 .f32) (main_arg17 : FVec F S128 .f32) (main_arg18 : FVec F S128 .f32) : IVec S_ 1 :=
  let main_v0 : FVec F S1x128x10000x1 .f32 := Host.absf main_arg0
  let main_cst : FVec F S_ .f32 := constant S_ .f32 0x7F800000#32
  let main_v1 : FVec F S1x128x10000x1 .f32 := broadcastInDim S1x128x10000x1 ![] bcast_S_S1x128x10000x1 main_cst
  let main_v2 : IVec S1x128x10000x1 1 := cmpf .olt main_v0 main_v1
  let main_c : IVec S_ 1 := constantI S_ 1 1#1
  let main_v3 : IVec S_ 1 := (fun x v => Host.reduce IntOp.andi x v reducesTo_S1x128x10000x1_S_d0_1_2_3 h_S_) main_v2 main_c
  let main_v4 : FVec F S1x16x10000x16 .f32 := Host.absf main_arg1
  let main_cst_0 : FVec F S_ .f32 := constant S_ .f32 0x7F800000#32
  let main_v5 : FVec F S1x16x10000x16 .f32 := broadcastInDim S1x16x10000x16 ![] bcast_S_S1x16x10000x16 main_cst_0
  let main_v6 : IVec S1x16x10000x16 1 := cmpf .olt main_v4 main_v5
  let main_c_1 : IVec S_ 1 := constantI S_ 1 1#1
  let main_v7 : IVec S_ 1 := (fun x v => Host.reduce IntOp.andi x v reducesTo_S1x16x10000x16_S_d0_1_2_3 h_S_) main_v6 main_c_1
  let main_v8 : IVec S_ 1 := andi main_v3 main_v7
  let main_v9 : FVec F S256x272 .f32 := Host.absf main_arg3
  let main_cst_2 : FVec F S_ .f32 := constant S_ .f32 0x7F800000#32
  let main_v10 : FVec F S256x272 .f32 := broadcastInDim S256x272 ![] bcast_S_S256x272 main_cst_2
  let main_v11 : IVec S256x272 1 := cmpf .olt main_v9 main_v10
  let main_c_3 : IVec S_ 1 := constantI S_ 1 1#1
  let main_v12 : IVec S_ 1 := (fun x v => Host.reduce IntOp.andi x v reducesTo_S256x272_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_v13 main_v16
-- ==== Kernel.lean ====
abbrev S1x128x10000x1 : Shape := ⟨4, ![1, 128, 10000, 1]⟩
abbrev S1x16x10000x16 : Shape := ⟨4, ![1, 16, 10000, 16]⟩
abbrev S2x1x10000x16 : Shape := ⟨4, ![2, 1, 10000, 16]⟩
abbrev S256x272 : Shape := ⟨2, ![256, 272]⟩
abbrev S256 : Shape := ⟨1, ![256]⟩
abbrev S128x256 : Shape := ⟨2, ![128, 256]⟩
abbrev S128 : Shape := ⟨1, ![128]⟩
abbrev S256x256 : Shape := ⟨2, ![256, 256]⟩
abbrev S128x10000 : Shape := ⟨2, ![128, 10000]⟩
abbrev S10000x128 : Shape := ⟨2, ![10000, 128]⟩
abbrev S16x10000x16 : Shape := ⟨3, ![16, 10000, 16]⟩
abbrev S16x160000 : Shape := ⟨2, ![16, 160000]⟩
abbrev S1x1x10000x16 : Shape := ⟨4, ![1, 1, 10000, 16]⟩
abbrev S10000x16 : Shape := ⟨2, ![10000, 16]⟩
abbrev S160000 : Shape := ⟨1, ![160000]⟩
abbrev S160000x128 : Shape := ⟨2, ![160000, 128]⟩
abbrev S200 : Shape := ⟨1, ![200]⟩
abbrev S200x128 : Shape := ⟨2, ![200, 128]⟩
abbrev S_ : Shape := ⟨0, ![]⟩
abbrev S256x16 : Shape := ⟨2, ![256, 16]⟩
abbrev S16x256 : Shape := ⟨2, ![16, 256]⟩
abbrev S256x128 : Shape := ⟨2, ![256, 128]⟩
abbrev S128x128 : Shape := ⟨2, ![128, 128]⟩
abbrev S1x256 : Shape := ⟨2, ![1, 256]⟩
abbrev S1x128 : Shape := ⟨2, ![1, 128]⟩
abbrev S160000x256 : Shape := ⟨2, ![160000, 256]⟩
abbrev S2x256 : Shape := ⟨2, ![2, 256]⟩
abbrev S16x3200 : Shape := ⟨2, ![16, 3200]⟩
abbrev S3200x128 : Shape := ⟨2, ![3200, 128]⟩
abbrev S3200x256 : Shape := ⟨2, ![3200, 256]⟩
abbrev S2x128 : Shape := ⟨2, ![2, 128]⟩
abbrev S128x160000 : Shape := ⟨2, ![128, 160000]⟩
abbrev S10000x256 : Shape := ⟨2, ![10000, 256]⟩
abbrev S128x3200 : Shape := ⟨2, ![128, 3200]⟩
abbrev S200x256 : Shape := ⟨2, ![200, 256]⟩
abbrev S200x16x128 : Shape := ⟨3, ![200, 16, 128]⟩
abbrev S200x1x256 : Shape := ⟨3, ![200, 1, 256]⟩
abbrev S200x16x256 : Shape := ⟨3, ![200, 16, 256]⟩
abbrev S200x1x128 : Shape := ⟨3, ![200, 1, 128]⟩
abbrev S128x10000x16 : Shape := ⟨3, ![128, 10000, 16]⟩
abbrev S1x128x10000x16 : Shape := ⟨4, ![1, 128, 10000, 16]⟩

abbrev nBuf : Table → Nat
  | .hbm => 71
  | .local .tc .vmem => 62
  | .local .scVector .vmem => 4
  | _ => 0

abbrev bufTy : (tb : Table) → Fin (nBuf tb) → BufTy
  | .hbm, ⟨0, _⟩ => ⟨S1x128x10000x1, .f32⟩
  | .hbm, ⟨1, _⟩ => ⟨S1x16x10000x16, .f32⟩
  | .hbm, ⟨2, _⟩ => ⟨S2x1x10000x16, .i32⟩
  | .hbm, ⟨3, _⟩ => ⟨S256x272, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S256x256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S128x256, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128x10000, .f32⟩
  | .hbm, ⟨20, _⟩ => ⟨S10000x128, .f32⟩
  | .hbm, ⟨21, _⟩ => ⟨S16x10000x16, .f32⟩
  | .hbm, ⟨22, _⟩ => ⟨S16x160000, .f32⟩
  | .hbm, ⟨23, _⟩ => ⟨S1x1x10000x16, .i32⟩
  | .hbm, ⟨24, _⟩ => ⟨S10000x16, .i32⟩
  | .hbm, ⟨25, _⟩ => ⟨S160000, .i32⟩
  | .hbm, ⟨26, _⟩ => ⟨S1x1x10000x16, .i32⟩
  | .hbm, ⟨27, _⟩ => ⟨S10000x16, .i32⟩
  | .hbm, ⟨28, _⟩ => ⟨S160000, .i32⟩
  | .hbm, ⟨29, _⟩ => ⟨S160000x128, .f32⟩
  | .hbm, ⟨30, _⟩ => ⟨S160000x128, .f32⟩
  | .hbm, ⟨31, _⟩ => ⟨S256x16, .f32⟩
  | .hbm, ⟨32, _⟩ => ⟨S16x256, .f32⟩
  | .hbm, ⟨33, _⟩ => ⟨S256x128, .f32⟩
  | .hbm, ⟨34, _⟩ => ⟨S128x256, .f32⟩
  | .hbm, ⟨35, _⟩ => ⟨S256x128, .f32⟩
  | .hbm, ⟨36, _⟩ => ⟨S128x256, .f32⟩
  | .hbm, ⟨37, _⟩ => ⟨S256x128, .f32⟩
  | .hbm, ⟨38, _⟩ => ⟨S128x256, .f32⟩
  | .hbm, ⟨39, _⟩ => ⟨S256x128, .f32⟩
  | .hbm, ⟨40, _⟩ => ⟨S128x256, .f32⟩
  | .hbm, ⟨41, _⟩ => ⟨S128x128, .i32⟩
  | .hbm, ⟨42, _⟩ => ⟨S128x128, .i32⟩
  | .hbm, ⟨43, _⟩ => ⟨S_, .i32⟩
  | .hbm, ⟨44, _⟩ => ⟨S128x128, .i32⟩
  | .hbm, ⟨45, _⟩ => ⟨S128x128, .i32⟩
  | .hbm, ⟨46, _⟩ => ⟨S128x128, .i1⟩
  | .hbm, ⟨47, _⟩ => ⟨S128x128, .f32⟩
  | .hbm, ⟨48, _⟩ => ⟨S1x256, .f32⟩
  | .hbm, ⟨49, _⟩ => ⟨S1x256, .f32⟩
  | .hbm, ⟨50, _⟩ => ⟨S256x128, .f32⟩
  | .hbm, ⟨51, _⟩ => ⟨S1x128, .f32⟩
  | .hbm, ⟨52, _⟩ => ⟨S1x128, .f32⟩
  | .hbm, ⟨53, _⟩ => ⟨S1x256, .f32⟩
  | .hbm, ⟨54, _⟩ => ⟨S1x256, .f32⟩
  | .hbm, ⟨55, _⟩ => ⟨S256x128, .f32⟩
  | .hbm, ⟨56, _⟩ => ⟨S1x128, .f32⟩
  | .hbm, ⟨57, _⟩ => ⟨S1x128, .f32⟩
  | .hbm, ⟨58, _⟩ => ⟨S160000x256, .f32⟩
  | .hbm, ⟨59, _⟩ => ⟨S2x256, .f32⟩
  | .hbm, ⟨60, _⟩ => ⟨S160000x128, .f32⟩
  | .hbm, ⟨61, _⟩ => ⟨S2x128, .f32⟩
  | .hbm, ⟨62, _⟩ => ⟨S128x160000, .f32⟩
  | .hbm, ⟨63, _⟩ => ⟨S10000x256, .f32⟩
  | .hbm, ⟨64, _⟩ => ⟨S2x256, .f32⟩
  | .hbm, ⟨65, _⟩ => ⟨S10000x128, .f32⟩
  | .hbm, ⟨66, _⟩ => ⟨S2x128, .f32⟩
  | .hbm, ⟨67, _⟩ => ⟨S128x10000, .f32⟩
  | .hbm, ⟨68, _⟩ => ⟨S128x10000x16, .f32⟩
  | .hbm, ⟨69, _⟩ => ⟨S1x128x10000x16, .f32⟩
  | .hbm, ⟨70, _⟩ => ⟨S1x128x10000x1, .f32⟩
  | .local .tc .vmem, ⟨0, _⟩ => ⟨S16x3200, .f32⟩
  | .local .tc .vmem, ⟨1, _⟩ => ⟨S16x3200, .f32⟩
  | .local .tc .vmem, ⟨2, _⟩ => ⟨S3200x128, .f32⟩
  | .local .tc .vmem, ⟨3, _⟩ => ⟨S3200x128, .f32⟩
  | .local .tc .vmem, ⟨4, _⟩ => ⟨S3200x128, .f32⟩
  | .local .tc .vmem, ⟨5, _⟩ => ⟨S3200x128, .f32⟩
  | .local .tc .vmem, ⟨6, _⟩ => ⟨S128x256, .f32⟩
  | .local .tc .vmem, ⟨7, _⟩ => ⟨S128x256, .f32⟩
  | .local .tc .vmem, ⟨8, _⟩ => ⟨S16x256, .f32⟩
  | .local .tc .vmem, ⟨9, _⟩ => ⟨S3200x256, .f32⟩
  | .local .tc .vmem, ⟨10, _⟩ => ⟨S3200x256, .f32⟩
  | .local .tc .vmem, ⟨11, _⟩ => ⟨S2x256, .f32⟩
  | .local .tc .vmem, ⟨12, _⟩ => ⟨S1x256, .f32⟩
  | .local .tc .vmem, ⟨13, _⟩ => ⟨S1x256, .f32⟩
  | .local .tc .vmem, ⟨14, _⟩ => ⟨S3200x256, .f32⟩
  | .local .tc .vmem, ⟨15, _⟩ => ⟨S3200x256, .f32⟩
  | .local .tc .vmem, ⟨16, _⟩ => ⟨S2x256, .f32⟩
  | .local .tc .vmem, ⟨17, _⟩ => ⟨S1x256, .f32⟩
  | .local .tc .vmem, ⟨18, _⟩ => ⟨S1x256, .f32⟩
  | .local .tc .vmem, ⟨19, _⟩ => ⟨S256x128, .f32⟩
  | .local .tc .vmem, ⟨20, _⟩ => ⟨S3200x128, .f32⟩
  | .local .tc .vmem, ⟨21, _⟩ => ⟨S3200x128, .f32⟩
  | .local .tc .vmem, ⟨22, _⟩ => ⟨S2x128, .f32⟩
  | .local .tc .vmem, ⟨23, _⟩ => ⟨S1x128, .f32⟩
  | .local .tc .vmem, ⟨24, _⟩ => ⟨S1x128, .f32⟩
  | .local .tc .vmem, ⟨25, _⟩ => ⟨S3200x128, .f32⟩
  | .local .tc .vmem, ⟨26, _⟩ => ⟨S3200x128, .f32⟩
  | .local .tc .vmem, ⟨27, _⟩ => ⟨S2x128, .f32⟩
  | .local .tc .vmem, ⟨28, _⟩ => ⟨S1x128, .f32⟩
  | .local .tc .vmem, ⟨29, _⟩ => ⟨S1x128, .f32⟩
  | .local .tc .vmem, ⟨30, _⟩ => ⟨S3200x128, .f32⟩
  | .local .tc .vmem, ⟨31, _⟩ => ⟨S3200x128, .f32⟩
  | .local .tc .vmem, ⟨32, _⟩ => ⟨S128x256, .f32⟩
  | .local .tc .vmem, ⟨33, _⟩ => ⟨S128x256, .f32⟩
  | .local .tc .vmem, ⟨34, _⟩ => ⟨S128x128, .f32⟩
  | .local .tc .vmem, ⟨35, _⟩ => ⟨S128x3200, .f32⟩
  | .local .tc .vmem, ⟨36, _⟩ => ⟨S128x3200, .f32⟩
  | .local .tc .vmem, ⟨37, _⟩ => ⟨S200x256, .f32⟩
  | .local .tc .vmem, ⟨38, _⟩ => ⟨S200x256, .f32⟩
  | .local .tc .vmem, ⟨39, _⟩ => ⟨S2x256, .f32⟩
  | .local .tc .vmem, ⟨40, _⟩ => ⟨S1x256, .f32⟩
  | .local .tc .vmem, ⟨41, _⟩ => ⟨S1x256, .f32⟩
  | .local .tc .vmem, ⟨42, _⟩ => ⟨S200x256, .f32⟩
  | .local .tc .vmem, ⟨43, _⟩ => ⟨S200x256, .f32⟩
  | .local .tc .vmem, ⟨44, _⟩ => ⟨S2x256, .f32⟩
  | .local .tc .vmem, ⟨45, _⟩ => ⟨S1x256, .f32⟩
  | .local .tc .vmem, ⟨46, _⟩ => ⟨S1x256, .f32⟩
  | .local .tc .vmem, ⟨47, _⟩ => ⟨S3200x128, .f32⟩
  | .local .tc .vmem, ⟨48, _⟩ => ⟨S3200x128, .f32⟩
  | .local .tc .vmem, ⟨49, _⟩ => ⟨S128x256, .f32⟩
  | .local .tc .vmem, ⟨50, _⟩ => ⟨S256x128, .f32⟩
  | .local .tc .vmem, ⟨51, _⟩ => ⟨S200x128, .f32⟩
  | .local .tc .vmem, ⟨52, _⟩ => ⟨S200x128, .f32⟩
  | .local .tc .vmem, ⟨53, _⟩ => ⟨S2x128, .f32⟩
  | .local .tc .vmem, ⟨54, _⟩ => ⟨S1x128, .f32⟩
  | .local .tc .vmem, ⟨55, _⟩ => ⟨S1x128, .f32⟩
  | .local .tc .vmem, ⟨56, _⟩ => ⟨S10000x128, .f32⟩
  | .local .tc .vmem, ⟨57, _⟩ => ⟨S2x128, .f32⟩
  | .local .tc .vmem, ⟨58, _⟩ => ⟨S1x128, .f32⟩
  | .local .tc .vmem, ⟨59, _⟩ => ⟨S1x128, .f32⟩
  | .local .tc .vmem, ⟨60, _⟩ => ⟨S128x128, .f32⟩
  | .local .tc .vmem, ⟨61, _⟩ => ⟨S128x10000, .f32⟩
  | .local .scVector .vmem, ⟨0, _⟩ => ⟨S200, .i32⟩
  | .local .scVector .vmem, ⟨1, _⟩ => ⟨S200x128, .f32⟩
  | .local .scVector .vmem, ⟨2, _⟩ => ⟨S200, .i32⟩
  | .local .scVector .vmem, ⟨3, _⟩ => ⟨S200x128, .f32⟩
  | _, _ => ⟨S1x128x10000x1, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 60 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTables nBuf rfl bufTy 4 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37_0 : Ref sig .tc := ⟨.hbm, 58, rfl⟩
abbrev main_v37_1 : Ref sig .tc := ⟨.hbm, 59, rfl⟩
abbrev main_v38_0 : Ref sig .tc := ⟨.hbm, 60, rfl⟩
abbrev main_v38_1 : Ref sig .tc := ⟨.hbm, 61, rfl⟩
abbrev main_v39_0 : Ref sig .tc := ⟨.hbm, 62, rfl⟩
abbrev main_v39_1 : Ref sig .tc := ⟨.hbm, 63, rfl⟩
abbrev main_v39_2 : Ref sig .tc := ⟨.hbm, 64, rfl⟩
abbrev main_v40_0 : Ref sig .tc := ⟨.hbm, 65, rfl⟩
abbrev main_v40_1 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v1_scv : Ref sig .scVector := ⟨.hbm, 20, rfl⟩
abbrev main_v6_scv : Ref sig .scVector := ⟨.hbm, 25, rfl⟩
abbrev main_v9_scv : Ref sig .scVector := ⟨.hbm, 28, rfl⟩
abbrev main_v10_0_scv : Ref sig .scVector := ⟨.hbm, 29, rfl⟩
abbrev main_v10_1_scv : Ref sig .scVector := ⟨.hbm, 30, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg6_1 : Ref sig .tc := ⟨.vmem, 10, rfl⟩
abbrev cc1_stg7_0 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_scratch0 : Ref sig .tc := ⟨.vmem, 23, rfl⟩
abbrev cc2_scratch1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg8_0 : Ref sig .tc := ⟨.vmem, 35, rfl⟩
abbrev cc3_stg8_1 : Ref sig .tc := ⟨.vmem, 36, rfl⟩
abbrev cc3_stg9_0 : Ref sig .tc := ⟨.vmem, 37, rfl⟩
abbrev cc3_stg9_1 : Ref sig .tc := ⟨.vmem, 38, rfl⟩
abbrev cc3_stg10_0 : Ref sig .tc := ⟨.vmem, 39, rfl⟩
abbrev cc3_scratch0 : Ref sig .tc := ⟨.vmem, 40, rfl⟩
abbrev cc3_scratch1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg4_1 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg7_0 : Ref sig .tc := ⟨.vmem, 51, rfl⟩
abbrev cc4_stg7_1 : Ref sig .tc := ⟨.vmem, 52, rfl⟩
abbrev cc4_stg8_0 : Ref sig .tc := ⟨.vmem, 53, rfl⟩
abbrev cc4_scratch0 : Ref sig .tc := ⟨.vmem, 54, rfl⟩
abbrev cc4_scratch1 : Ref sig .tc := ⟨.vmem, 55, rfl⟩
abbrev cc5_stg0_0 : Ref sig .tc := ⟨.vmem, 56, rfl⟩
abbrev cc5_stg1_0 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem4_1 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem8_1 : DmaSem sig := 38
abbrev cc3_sem9_0 : DmaSem sig := 39
abbrev cc3_sem9_1 : DmaSem sig := 40
abbrev cc3_sem10_0 : DmaSem sig := 41
abbrev cc4_sem0_0 : DmaSem sig := 42
abbrev cc4_sem0_1 : DmaSem sig := 43
abbrev cc4_sem1_0 : DmaSem sig := 44
abbrev cc4_sem2_0 : DmaSem sig := 45
abbrev cc4_sem3_0 : DmaSem sig := 46
abbrev cc4_sem4_0 : DmaSem sig := 47
abbrev cc4_sem4_1 : DmaSem sig := 48
abbrev cc4_sem5_0 : DmaSem sig := 49
abbrev cc4_sem6_0 : DmaSem sig := 50
abbrev cc4_sem7_0 : DmaSem sig := 51
abbrev cc4_sem7_1 : DmaSem sig := 52
abbrev cc4_sem8_0 : DmaSem sig := 53
abbrev cc5_sem0_0 : DmaSem sig := 54
abbrev cc5_sem1_0 : DmaSem sig := 55
abbrev cc5_sem2_0 : DmaSem sig := 56
abbrev cc5_sem3_0 : DmaSem sig := 57
abbrev cc5_sem4_0 : DmaSem sig := 58
abbrev cc5_sem5_0 : DmaSem sig := 59
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c25_i32 : BitVec 32 := 25#32
  let v3 : BitVec 32 := Scalar.addi c0_i32 c25_i32
  let c1_i32 : BitVec 32 := 1#32
  ⟨c0_i32, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5000_i32 : BitVec 32 := 5000#32
  let v2 : BitVec 32 := Scalar.muli v1 c5000_i32
  let c0_i32 : BitVec 32 := 0#32
  let c1_i32 : BitVec 32 := 1#32
  let arg13 : BitVec 32 := Scf.iv c0_i32 c1_i32 k0_t1
  let c200_i32 : BitVec 32 := 200#32
  let v4 : BitVec 32 := Scalar.muli arg13 c200_i32
  let v5 : BitVec 32 := Scalar.addi v2 v4
  ![v5.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5000_i32 : BitVec 32 := 5000#32
  let v2 : BitVec 32 := Scalar.muli v1 c5000_i32
  let c0_i32 : BitVec 32 := 0#32
  let c1_i32 : BitVec 32 := 1#32
  let arg13 : BitVec 32 := Scf.iv c0_i32 c1_i32 k0_t1
  let c200_i32 : BitVec 32 := 200#32
  let v4 : BitVec 32 := Scalar.muli arg13 c200_i32
  let v5 : BitVec 32 := Scalar.addi v2 v4
  let c0_i32_9_r2 : BitVec 32 := 0#32
  ![v5.toNat, 0]
abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v36 : BitVec 1 := Scalar.cmpi .eq arg0 c49_i32
  let v37 : BitVec 32 := Scalar.extui v36
  let c0_i32_26 : BitVec 32 := 0#32
  let v38 : BitVec 1 := Scalar.cmpi .ne v37 c0_i32_26
  v38

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16x3200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S3200x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S2x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v50 : BitVec 1 := Scalar.cmpi .eq arg0 c49_i32
  let v51 : BitVec 32 := Scalar.extui v50
  let c0_i32_26 : BitVec 32 := 0#32
  let v52 : BitVec 1 := Scalar.cmpi .ne v51 c0_i32_26
  v52

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S3200x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S3200x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S2x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![50], ![false]⟩

def k3_cond2 (i : grid3.Coords) : BitVec 1 :=
  let arg0 : BitVec 32 := BitVec.ofNat 32 (i 0).val
  let c49_i32 : BitVec 32 := 49#32
  let v66 : BitVec 1 := Scalar.cmpi .eq arg0 c49_i32
  let v67 : BitVec 32 := Scalar.extui v66
  let c0_i32_37 : BitVec 32 := 0#32
  let v68 : BitVec 1 := Scalar.cmpi .ne v67 c0_i32_37
  v68

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S3200x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S3200x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S128x3200 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S200x256 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 1 → Memref sig .tc .vmem S2x256 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v63 : BitVec 1 := Scalar.cmpi .eq arg0 c49_i32
  let v64 : BitVec 32 := Scalar.extui v63
  let c0_i32_31 : BitVec 32 := 0#32
  let v65 : BitVec 1 := Scalar.cmpi .ne v64 c0_i32_31
  v65

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S200x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S3200x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S128x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S256x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S200x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S2x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := .none

abbrev stage5_0 : Fin 1 → Memref sig .tc .vmem S10000x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S2x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S128x10000 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1x128x10000x1_S128x10000 : S1x128x10000x1.ShapeCasts S128x10000
  transposes_S128x10000_S10000x128_1_0 : S128x10000.Transposes [1, 0] S10000x128
  shapeCasts_S1x16x10000x16_S16x10000x16 : S1x16x10000x16.ShapeCasts S16x10000x16
  shapeCasts_S16x10000x16_S16x160000 : S16x10000x16.ShapeCasts S16x160000
  slices_S2x1x10000x16_S1x1x10000x16_1_0_0_0 : S2x1x10000x16.Slices ![1, 0, 0, 0] S1x1x10000x16
  shapeCasts_S1x1x10000x16_S10000x16 : S1x1x10000x16.ShapeCasts S10000x16
  shapeCasts_S10000x16_S160000 : S10000x16.ShapeCasts S160000
  slices_S2x1x10000x16_S1x1x10000x16_0_0_0_0 : S2x1x10000x16.Slices ![0, 0, 0, 0] S1x1x10000x16
  inb_S10000x128_S10000x128_0_0 : ∀ a, (![0, 0] : Fin 2 → Nat) a + S10000x128.size a ≤ S10000x128.size a
  gathers_S10000x128_S200x128 : S10000x128.Gathers 0 S200x128
  slices_S256x272_S256x16_0_0 : S256x272.Slices ![0, 0] S256x16
  transposes_S256x16_S16x256_1_0 : S256x16.Transposes [1, 0] S16x256
  slices_S256x272_S256x128_0_16 : S256x272.Slices ![0, 16] S256x128
  transposes_S256x128_S128x256_1_0 : S256x128.Transposes [1, 0] S128x256
  slices_S256x272_S256x128_0_144 : S256x272.Slices ![0, 144] S256x128
  slices_S256x256_S256x128_0_0 : S256x256.Slices ![0, 0] S256x128
  slices_S256x256_S256x128_0_128 : S256x256.Slices ![0, 128] S256x128
  bcast_S_S128x128 : S_.BroadcastsInDim S128x128 (![] : Fin 0 → Fin S128x128.rank)
  shapeCasts_S256_S1x256 : S256.ShapeCasts S1x256
  transposes_S128x256_S256x128_1_0 : S128x256.Transposes [1, 0] S256x128
  shapeCasts_S128_S1x128 : S128.ShapeCasts S1x128
  inb_S16x3200_S16x3200_0_0 : ∀ a, (![0, 0] : Fin 2 → Nat) a + S16x3200.size a ≤ S16x3200.size a
  h_S16x3200 : 0 < S16x3200.numel
  shapeCasts_S16x3200_S16x3200 : S16x3200.ShapeCasts S16x3200
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S3200x256_S3200x256_0_0 : ∀ a, (![0, 0] : Fin 2 → Nat) a + S3200x256.size a ≤ S3200x256.size a
  h_S3200x256 : 0 < S3200x256.numel
  reduces_S3200x256_S256 : S3200x256.Reduces [0] S256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2x256_S1x256_0_0 : ∀ a, (![0, 0] : Fin 2 → Nat) a + S1x256.size a ≤ S2x256.size a
  inb_S2x256_S1x256_1_0 : ∀ a, (![1, 0] : Fin 2 → Nat) a + S1x256.size a ≤ S2x256.size a
  inb_S2x256_S2x256_0_0 : ∀ a, (![0, 0] : Fin 2 → Nat) a + S2x256.size a ≤ S2x256.size a
  h_S2x256 : 0 < S2x256.numel
  shapeCasts_S2x256_S2x256 : S2x256.ShapeCasts S2x256
  slices_S2x256_o0_0_S1x256 : S2x256.Slices ![0, 0] S1x256
  slices_S2x256_o1_0_S1x256 : S2x256.Slices ![1, 0] S1x256
  shapeCasts_S3200x256_S3200x256 : S3200x256.ShapeCasts S3200x256
  broadcasts_S1x256_S3200x256 : S1x256.Broadcasts S3200x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reduces_S3200x128_S128 : S3200x128.Reduces [0] S128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2x128_S1x128_0_0 : ∀ a, (![0, 0] : Fin 2 → Nat) a + S1x128.size a ≤ S2x128.size a
  inb_S2x128_S1x128_1_0 : ∀ a, (![1, 0] : Fin 2 → Nat) a + S1x128.size a ≤ S2x128.size a
  inb_S2x128_S2x128_0_0 : ∀ a, (![0, 0] : Fin 2 → Nat) a + S2x128.size a ≤ S2x128.size a
  h_S2x128 : 0 < S2x128.numel
  shapeCasts_S2x128_S2x128 : S2x128.ShapeCasts S2x128
  slices_S2x128_o0_0_S1x128 : S2x128.Slices ![0, 0] S1x128
  slices_S2x128_o1_0_S1x128 : S2x128.Slices ![1, 0] S1x128
  broadcasts_S1x128_S3200x128 : S1x128.Broadcasts S3200x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x3200_S128x3200_0_0 : ∀ a, (![0, 0] : Fin 2 → Nat) a + S128x3200.size a ≤ S128x3200.size a
  h_S128x3200 : 0 < S128x3200.numel
  shapeCasts_S3200x128_S200x16x128 : S3200x128.ShapeCasts S200x16x128
  reduces_S200x16x128_S200x128 : S200x16x128.Reduces [1] S200x128
  inb_S200x256_S200x256_0_0 : ∀ a, (![0, 0] : Fin 2 → Nat) a + S200x256.size a ≤ S200x256.size a
  h_S200x256 : 0 < S200x256.numel
  shapeCasts_S200x256_S200x1x256 : S200x256.ShapeCasts S200x1x256
  shapeCasts_S200x1x256_S200x1x256 : S200x1x256.ShapeCasts S200x1x256
  broadcasts_S200x1x256_S200x16x256 : S200x1x256.Broadcasts S200x16x256
  shapeCasts_S200x16x256_S3200x256 : S200x16x256.ShapeCasts S3200x256
  shapeCasts_S200x256_S200x256 : S200x256.ShapeCasts S200x256
  slices_S200x16x128_o0_0_0_S200x1x128 : S200x16x128.Slices ![0, 0, 0] S200x1x128
  shapeCasts_S200x1x128_S200x128 : S200x1x128.ShapeCasts S200x128
  inb_S200x128_S200x128_0_0 : ∀ a, (![0, 0] : Fin 2 → Nat) a + S200x128.size a ≤ S200x128.size a
  h_S200x128 : 0 < S200x128.numel
  h_S10000x128 : 0 < S10000x128.numel
  shapeCasts_S10000x128_S10000x128 : S10000x128.ShapeCasts S10000x128
  broadcasts_S1x128_S10000x128 : S1x128.Broadcasts S10000x128
  inb_S128x10000_S128x10000_0_0 : ∀ a, (![0, 0] : Fin 2 → Nat) a + S128x10000.size a ≤ S128x10000.size a
  h_S128x10000 : 0 < S128x10000.numel
  shapeCasts_S128x160000_S128x10000x16 : S128x160000.ShapeCasts S128x10000x16
  bcast_S128x10000x16_S1x128x10000x16_1_2_3 : S128x10000x16.BroadcastsInDim S1x128x10000x16 (![1, 2, 3] : Fin 3 → Fin S1x128x10000x16.rank)
  bcast_S128x10000_S1x128x10000x1_1_2 : S128x10000.BroadcastsInDim S1x128x10000x1 (![1, 2] : Fin 2 → Fin S1x128x10000x1.rank)
  dot_S16x3200_S16x256_S3200x256_0_0_1_1_n_n_wf : DotDims.WF S16x3200 S16x256 S3200x256 [0] [0] [1] [1] [] []
  dot_S3200x128_S128x256_S3200x256_1_0_0_1_n_n_wf : DotDims.WF S3200x128 S128x256 S3200x256 [1] [0] [0] [1] [] []
  dot_S3200x256_S256x128_S3200x128_1_0_0_1_n_n_wf : DotDims.WF S3200x256 S256x128 S3200x128 [1] [0] [0] [1] [] []
  dot_S128x128_S3200x128_S128x3200_1_1_0_0_n_n_wf : DotDims.WF S128x128 S3200x128 S128x3200 [1] [1] [0] [0] [] []
  dot_S200x128_S128x256_S200x256_1_0_0_1_n_n_wf : DotDims.WF S200x128 S128x256 S200x256 [1] [0] [0] [1] [] []
  dot_S128x128_S10000x128_S128x10000_1_1_0_0_n_n_wf : DotDims.WF S128x128 S10000x128 S128x10000 [1] [1] [0] [0] [] []
  hcc0_scratch4 : 0 + S_.numel ≤ 60
  hcc0_scratch5 : 1 + S_.numel ≤ 60
  hcc0_scoped0 : 2 + S_.numel ≤ 60
  hcc0_scoped1 : 3 + S_.numel ≤ 60
  hcc0_scoped2 : 4 + S_.numel ≤ 60
  hcc0_scoped3 : 5 + S_.numel ≤ 60
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S200.size a ≤ S160000.size a
  k0_off2_inb : ∀ (i : grid0.Coords) (k0_t1 : Fin k0_t1_loop.trips), ∀ a, (k0_off2 i k0_t1) a + S200x128.size a ≤ S160000x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x3200.size a ≤ S16x160000.size a
  hwx1_0 : ∀ i : grid1.Coords, EltTy.bits .f32 = 32 ∨ (Rect.block (s := S16x160000) S16x3200.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x128.size a ≤ S160000x128.size a
  hwx1_1 : ∀ i : grid1.Coords, EltTy.bits .f32 = 32 ∨ (Rect.block (s := S160000x128) S3200x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x128.size a ≤ S160000x128.size a
  hwx1_2 : ∀ i : grid1.Coords, EltTy.bits .f32 = 32 ∨ (Rect.block (s := S160000x128) S3200x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x256.size a ≤ S16x256.size a
  hwx1_5 : ∀ i : grid1.Coords, EltTy.bits .f32 = 32 ∨ (Rect.block (s := S16x256) S16x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S3200x256.size a ≤ S160000x256.size a
  hwx1_6 : ∀ i : grid1.Coords, EltTy.bits .f32 = 32 ∨ (Rect.block (s := S160000x256) S3200x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2x256.size a ≤ S2x256.size a
  hwx1_7 : ∀ i : grid1.Coords, EltTy.bits .f32 = 32 ∨ (Rect.block (s := S2x256) S2x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3200x256.size a ≤ S160000x256.size a
  hwx2_0 : ∀ i : grid2.Coords, EltTy.bits .f32 = 32 ∨ (Rect.block (s := S160000x256) S3200x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x256.size a ≤ S2x256.size a
  hwx2_1 : ∀ i : grid2.Coords, EltTy.bits .f32 = 32 ∨ (Rect.block (s := S2x256) S2x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S3200x128.size a ≤ S160000x128.size a
  hwx2_5 : ∀ i : grid2.Coords, EltTy.bits .f32 = 32 ∨ (Rect.block (s := S160000x128) S3200x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S2x128.size a ≤ S2x128.size a
  hwx2_6 : ∀ i : grid2.Coords, EltTy.bits .f32 = 32 ∨ (Rect.block (s := S2x128) S2x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3200x128.size a ≤ S160000x128.size a
  hwx3_0 : ∀ i : grid3.Coords, EltTy.bits .f32 = 32 ∨ (Rect.block (s := S160000x128) S3200x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2x128.size a ≤ S2x128.size a
  hwx3_1 : ∀ i : grid3.Coords, EltTy.bits .f32 = 32 ∨ (Rect.block (s := S2x128) S2x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S3200x128.size a ≤ S160000x128.size a
  hwx3_4 : ∀ i : grid3.Coords, EltTy.bits .f32 = 32 ∨ (Rect.block (s := S160000x128) S3200x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x256.size a ≤ S128x256.size a
  hwx3_5 : ∀ i : grid3.Coords, EltTy.bits .f32 = 32 ∨ (Rect.block (s := S128x256) S128x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x256.size a ≤ S128x256.size a
  hwx3_6 : ∀ i : grid3.Coords, EltTy.bits .f32 = 32 ∨ (Rect.block (s := S128x256) S128x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S128x3200.size a ≤ S128x160000.size a
  hwx3_8 : ∀ i : grid3.Coords, EltTy.bits .f32 = 32 ∨ (Rect.block (s := S128x160000) S128x3200.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S200x256.size a ≤ S10000x256.size a
  hwx3_9 : ∀ i : grid3.Coords, EltTy.bits .f32 = 32 ∨ (Rect.block (s := S10000x256) S200x256.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S2x256.size a ≤ S2x256.size a
  hwx3_10 : ∀ i : grid3.Coords, EltTy.bits .f32 = 32 ∨ (Rect.block (s := S2x256) S2x256.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S200x256.size a ≤ S10000x256.size a
  hwx4_0 : ∀ i : grid4.Coords, EltTy.bits .f32 = 32 ∨ (Rect.block (s := S10000x256) S200x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2x256.size a ≤ S2x256.size a
  hwx4_1 : ∀ i : grid4.Coords, EltTy.bits .f32 = 32 ∨ (Rect.block (s := S2x256) S2x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S3200x128.size a ≤ S160000x128.size a
  hwx4_4 : ∀ i : grid4.Coords, EltTy.bits .f32 = 32 ∨ (Rect.block (s := S160000x128) S3200x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x256.size a ≤ S128x256.size a
  hwx4_5 : ∀ i : grid4.Coords, EltTy.bits .f32 = 32 ∨ (Rect.block (s := S128x256) S128x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S256x128.size a ≤ S256x128.size a
  hwx4_6 : ∀ i : grid4.Coords, EltTy.bits .f32 = 32 ∨ (Rect.block (s := S256x128) S256x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S200x128.size a ≤ S10000x128.size a
  hwx4_7 : ∀ i : grid4.Coords, EltTy.bits .f32 = 32 ∨ (Rect.block (s := S10000x128) S200x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S2x128.size a ≤ S2x128.size a
  hwx4_8 : ∀ i : grid4.Coords, EltTy.bits .f32 = 32 ∨ (Rect.block (s := S2x128) S2x128.size (cc4_transform_8 i) (hinb4_8 i)).WholeWords (EltTy.packing .f32)
  hstage5_0 : ∀ j, (stage5_0 j).IsWhole
  hstage5_1 : ∀ j, (stage5_1 j).IsWhole
  hstage5_2 : ∀ j, (stage5_2 j).IsWhole
  hstage5_3 : ∀ j, (stage5_3 j).IsWhole
  hstage5_4 : ∀ j, (stage5_4 j).IsWhole
  hstage5_5 : ∀ j, (stage5_5 j).IsWhole

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3
def dot_S16x3200_S16x256_S3200x256_0_0_1_1_n_n : DotDims S16x3200 S16x256 S3200x256 where
  lhsContracting := [0]
  rhsContracting := [0]
  lhsNonContracting := [1]
  rhsNonContracting := [1]
  lhsBatch := []
  rhsBatch := []
  wf := dot_S16x3200_S16x256_S3200x256_0_0_1_1_n_n_wf
def dot_S3200x128_S128x256_S3200x256_1_0_0_1_n_n : DotDims S3200x128 S128x256 S3200x256 where
  lhsContracting := [1]
  rhsContracting := [0]
  lhsNonContracting := [0]
  rhsNonContracting := [1]
  lhsBatch := []
  rhsBatch := []
  wf := dot_S3200x128_S128x256_S3200x256_1_0_0_1_n_n_wf
def dot_S3200x256_S256x128_S3200x128_1_0_0_1_n_n : DotDims S3200x256 S256x128 S3200x128 where
  lhsContracting := [1]
  rhsContracting := [0]
  lhsNonContracting := [0]
  rhsNonContracting := [1]
  lhsBatch := []
  rhsBatch := []
  wf := dot_S3200x256_S256x128_S3200x128_1_0_0_1_n_n_wf
def dot_S128x128_S3200x128_S128x3200_1_1_0_0_n_n : DotDims S128x128 S3200x128 S128x3200 where
  lhsContracting := [1]
  rhsContracting := [1]
  lhsNonContracting := [0]
  rhsNonContracting := [0]
  lhsBatch := []
  rhsBatch := []
  wf := dot_S128x128_S3200x128_S128x3200_1_1_0_0_n_n_wf
def dot_S200x128_S128x256_S200x256_1_0_0_1_n_n : DotDims S200x128 S128x256 S200x256 where
  lhsContracting := [1]
  rhsContracting := [0]
  lhsNonContracting := [0]
  rhsNonContracting := [1]
  lhsBatch := []
  rhsBatch := []
  wf := dot_S200x128_S128x256_S200x256_1_0_0_1_n_n_wf
def dot_S128x128_S10000x128_S128x10000_1_1_0_0_n_n : DotDims S128x128 S10000x128 S128x10000 where
  lhsContracting := [1]
  rhsContracting := [1]
  lhsNonContracting := [0]
  rhsNonContracting := [0]
  lhsBatch := []
  rhsBatch := []
  wf := dot_S128x128_S10000x128_S128x10000_1_1_0_0_n_n_wf

abbrev win1_0 : Pipeline.Window sig grid1 :=
  Pipeline.Window.ofSpec (Memref.whole main_v3) S16x3200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_0) S3200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10_1) S3200x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S16x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37_0) S3200x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v37_1) S2x256.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v37_0) S3200x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37_1) S2x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38_0) S3200x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v38_1) S2x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v38_0) S3200x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38_1) S2x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v30) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v31) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v10_0) S3200x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v18) S128x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v20) S128x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v26) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v39_0) S128x3200.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v39_1) S200x256.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v39_2) S2x256.size cc3_transform_10 reads3_10 true true 1 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev idle3 : Fin 11 → grid3.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k3_cond2 i == 1#1) | ⟨_ + 11, h⟩ => absurd h (Nat.not_lt.2 (Nat.le_add_left _ _))

abbrev win4_0 : Pipeline.Window sig grid4 :=
  Pipeline.Window.ofSpec (Memref.whole main_v39_1) S200x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v39_2) S2x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v32) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v33) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v10_0) S3200x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v18) S128x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v34) S256x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v40_0) S200x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v40_1) S2x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun _ => false | 8 => fun i => !(k4_cond2 i == 1#1) | ⟨_ + 9, h⟩ => absurd h (Nat.not_lt.2 (Nat.le_add_left _ _))

abbrev win5_0 : Pipeline.Window sig grid5 :=
  Pipeline.Window.whole (Memref.whole main_v40_0) false false (stage5_0 0) (sem5_0 0) (Memref.isWhole_whole _) (hstage5_0 0)

abbrev win5_1 : Pipeline.Window sig grid5 :=
  Pipeline.Window.whole (Memref.whole main_v40_1) false false (stage5_1 0) (sem5_1 0) (Memref.isWhole_whole _) (hstage5_1 0)

abbrev win5_2 : Pipeline.Window sig grid5 :=
  Pipeline.Window.whole (Memref.whole main_v35) false false (stage5_2 0) (sem5_2 0) (Memref.isWhole_whole _) (hstage5_2 0)

abbrev win5_3 : Pipeline.Window sig grid5 :=
  Pipeline.Window.whole (Memref.whole main_v36) false false (stage5_3 0) (sem5_3 0) (Memref.isWhole_whole _) (hstage5_3 0)

abbrev win5_4 : Pipeline.Window sig grid5 :=
  Pipeline.Window.whole (Memref.whole main_v26) false false (stage5_4 0) (sem5_4 0) (Memref.isWhole_whole _) (hstage5_4 0)

abbrev win5_5 : Pipeline.Window sig grid5 :=
  Pipeline.Window.whole (Memref.whole main_v41) true false (stage5_5 0) (sem5_5 0) (Memref.isWhole_whole _) (hstage5_5 0)

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S1x128x10000x1 : Shape := ⟨4, ![1, 128, 10000, 1]⟩
abbrev S1x16x10000x16 : Shape := ⟨4, ![1, 16, 10000, 16]⟩
abbrev S2x1x10000x16 : Shape := ⟨4, ![2, 1, 10000, 16]⟩
abbrev S256x272 : Shape := ⟨2, ![256, 272]⟩
abbrev S256 : Shape := ⟨1, ![256]⟩
abbrev S128x256 : Shape := ⟨2, ![128, 256]⟩
abbrev S128 : Shape := ⟨1, ![128]⟩
abbrev S256x256 : Shape := ⟨2, ![256, 256]⟩
abbrev S1x1x10000x16 : Shape := ⟨4, ![1, 1, 10000, 16]⟩
abbrev S1x10000x16 : Shape := ⟨3, ![1, 10000, 16]⟩
abbrev S1x128x10000 : Shape := ⟨3, ![1, 128, 10000]⟩
abbrev S_ : Shape := ⟨0, ![]⟩
abbrev S1x10000x16x1 : Shape := ⟨4, ![1, 10000, 16, 1]⟩
abbrev S1x128x10000x16 : Shape := ⟨4, ![1, 128, 10000, 16]⟩
abbrev S1x272x10000x16 : Shape := ⟨4, ![1, 272, 10000, 16]⟩
abbrev S1x10000x16x256 : Shape := ⟨4, ![1, 10000, 16, 256]⟩
abbrev S1x256x10000x16 : Shape := ⟨4, ![1, 256, 10000, 16]⟩
abbrev S1x256x1x1 : Shape := ⟨4, ![1, 256, 1, 1]⟩
abbrev S1x10000x16x128 : Shape := ⟨4, ![1, 10000, 16, 128]⟩
abbrev S1x128x1x1 : Shape := ⟨4, ![1, 128, 1, 1]⟩

abbrev nBuf : Space → Nat
  | .hbm => 260
  | .vmem => 0
  | .smem => 0
  | _ => 0

abbrev hbmTy0_0 (i : Nat) : BufTy := match i % 128 with
  | 0 => ⟨S1x128x10000x1, .f32⟩
  | 1 => ⟨S1x16x10000x16, .f32⟩
  | 2 => ⟨S2x1x10000x16, .i32⟩
  | 3 => ⟨S256x272, .f32⟩
  | 4 => ⟨S256, .f32⟩
  | 5 => ⟨S256, .f32⟩
  | 6 => ⟨S256, .f32⟩
  | 7 => ⟨S128x256, .f32⟩
  | 8 => ⟨S128, .f32⟩
  | 9 => ⟨S128, .f32⟩
  | 10 => ⟨S128, .f32⟩
  | 11 => ⟨S256x256, .f32⟩
  | 12 => ⟨S256, .f32⟩
  | 13 => ⟨S256, .f32⟩
  | 14 => ⟨S256, .f32⟩
  | 15 => ⟨S128x256, .f32⟩
  | 16 => ⟨S128, .f32⟩
  | 17 => ⟨S128, .f32⟩
  | 18 => ⟨S128, .f32⟩
  | 19 => ⟨S1x1x10000x16, .i32⟩
  | 20 => ⟨S1x10000x16, .i32⟩
  | 21 => ⟨S1x128x10000, .f32⟩
  | 22 => ⟨S_, .i32⟩
  | 23 => ⟨S1x10000x16, .i32⟩
  | 24 => ⟨S1x10000x16, .i1⟩
  | 25 => ⟨S_, .i32⟩
  | 26 => ⟨S1x10000x16, .i32⟩
  | 27 => ⟨S1x10000x16, .i32⟩
  | 28 => ⟨S1x10000x16, .i32⟩
  | 29 => ⟨S1x10000x16x1, .i32⟩
  | 30 => ⟨S1x128x10000x16, .f32⟩
  | 31 => ⟨S1x1x10000x16, .i32⟩
  | 32 => ⟨S1x10000x16, .i32⟩
  | 33 => ⟨S1x128x10000, .f32⟩
  | 34 => ⟨S_, .i32⟩
  | 35 => ⟨S1x10000x16, .i32⟩
  | 36 => ⟨S1x10000x16, .i1⟩
  | 37 => ⟨S_, .i32⟩
  | 38 => ⟨S1x10000x16, .i32⟩
  | 39 => ⟨S1x10000x16, .i32⟩
  | 40 => ⟨S1x10000x16, .i32⟩
  | 41 => ⟨S1x10000x16x1, .i32⟩
  | 42 => ⟨S1x128x10000x16, .f32⟩
  | 43 => ⟨S1x272x10000x16, .f32⟩
  | 44 => ⟨S1x10000x16x256, .f32⟩
  | 45 => ⟨S1x256x10000x16, .f32⟩
  | 46 => ⟨S1x256x1x1, .f32⟩
  | 47 => ⟨S1x256x10000x16, .f32⟩
  | 48 => ⟨S1x256x10000x16, .f32⟩
  | 49 => ⟨S_, .f32⟩
  | 50 => ⟨S256, .f32⟩
  | 51 => ⟨S1x256x1x1, .f32⟩
  | 52 => ⟨S_, .f32⟩
  | 53 => ⟨S1x256x1x1, .f32⟩
  | 54 => ⟨S1x256x1x1, .f32⟩
  | 55 => ⟨S_, .i32⟩
  | 56 => ⟨S_, .f32⟩
  | 57 => ⟨S256, .f32⟩
  | 58 => ⟨S1x256x1x1, .f32⟩
  | 59 => ⟨S_, .f32⟩
  | 60 => ⟨S1x256x1x1, .f32⟩
  | 61 => ⟨S1x256x1x1, .f32⟩
  | 62 => ⟨S1x256x10000x16, .f32⟩
  | 63 => ⟨S1x256x10000x16, .f32⟩
  | 64 => ⟨S1x256x10000x16, .f32⟩
  | 65 => ⟨S_, .f32⟩
  | 66 => ⟨S_, .f32⟩
  | 67 => ⟨S_, .f32⟩
  | 68 => ⟨S_, .f32⟩
  | 69 => ⟨S256, .f32⟩
  | 70 => ⟨S1x256x1x1, .f32⟩
  | 71 => ⟨S1x256x1x1, .f32⟩
  | 72 => ⟨S1x256x1x1, .f32⟩
  | 73 => ⟨S_, .f32⟩
  | 74 => ⟨S_, .i1⟩
  | 75 => ⟨S_, .f32⟩
  | 76 => ⟨S_, .f32⟩
  | 77 => ⟨S1x256x1x1, .f32⟩
  | 78 => ⟨S1x256x1x1, .f32⟩
  | 79 => ⟨S1x256x10000x16, .f32⟩
  | 80 => ⟨S1x256x10000x16, .f32⟩
  | 81 => ⟨S_, .f32⟩
  | 82 => ⟨S1x256x1x1, .f32⟩
  | 83 => ⟨S1x256x1x1, .f32⟩
  | 84 => ⟨S1x256x1x1, .f32⟩
  | 85 => ⟨S1x256x10000x16, .f32⟩
  | 86 => ⟨S1x256x10000x16, .f32⟩
  | 87 => ⟨S1x256x1x1, .f32⟩
  | 88 => ⟨S1x256x10000x16, .f32⟩
  | 89 => ⟨S1x256x10000x16, .f32⟩
  | 90 => ⟨S1x256x1x1, .f32⟩
  | 91 => ⟨S1x256x10000x16, .f32⟩
  | 92 => ⟨S1x256x10000x16, .f32⟩
  | 93 => ⟨S_, .f32⟩
  | 94 => ⟨S1x256x10000x16, .f32⟩
  | 95 => ⟨S1x256x10000x16, .f32⟩
  | 96 => ⟨S1x10000x16x128, .f32⟩
  | 97 => ⟨S1x128x10000x16, .f32⟩
  | 98 => ⟨S1x128x1x1, .f32⟩
  | 99 => ⟨S1x128x10000x16, .f32⟩
  | 100 => ⟨S1x128x10000x16, .f32⟩
  | 101 => ⟨S_, .f32⟩
  | 102 => ⟨S128, .f32⟩
  | 103 => ⟨S1x128x1x1, .f32⟩
  | 104 => ⟨S_, .f32⟩
  | 105 => ⟨S1x128x1x1, .f32⟩
  | 106 => ⟨S1x128x1x1, .f32⟩
  | 107 => ⟨S_, .i32⟩
  | 108 => ⟨S_, .f32⟩
  | 109 => ⟨S128, .f32⟩
  | 110 => ⟨S1x128x1x1, .f32⟩
  | 111 => ⟨S_, .f32⟩
  | 112 => ⟨S1x128x1x1, .f32⟩
  | 113 => ⟨S1x128x1x1, .f32⟩
  | 114 => ⟨S1x128x10000x16, .f32⟩
  | 115 => ⟨S1x128x10000x16, .f32⟩
  | 116 => ⟨S1x128x10000x16, .f32⟩
  | 117 => ⟨S_, .f32⟩
  | 118 => ⟨S_, .f32⟩
  | 119 => ⟨S_, .f32⟩
  | 120 => ⟨S_, .f32⟩
  | 121 => ⟨S128, .f32⟩
  | 122 => ⟨S1x128x1x1, .f32⟩
  | 123 => ⟨S1x128x1x1, .f32⟩
  | 124 => ⟨S1x128x1x1, .f32⟩
  | 125 => ⟨S_, .f32⟩
  | 126 => ⟨S_, .i1⟩
  | 127 => ⟨S_, .f32⟩
  | _ => ⟨S1x128x10000x1, .f32⟩

abbrev hbmTy0_1 (i : Nat) : BufTy := match i % 128 with
  | 0 => ⟨S_, .f32⟩
  | 1 => ⟨S1x128x1x1, .f32⟩
  | 2 => ⟨S1x128x1x1, .f32⟩
  | 3 => ⟨S1x128x10000x16, .f32⟩
  | 4 => ⟨S1x128x10000x16, .f32⟩
  | 5 => ⟨S_, .f32⟩
  | 6 => ⟨S1x128x1x1, .f32⟩
  | 7 => ⟨S1x128x1x1, .f32⟩
  | 8 => ⟨S1x128x1x1, .f32⟩
  | 9 => ⟨S1x128x10000x16, .f32⟩
  | 10 => ⟨S1x128x10000x16, .f32⟩
  | 11 => ⟨S1x128x1x1, .f32⟩
  | 12 => ⟨S1x128x10000x16, .f32⟩
  | 13 => ⟨S1x128x10000x16, .f32⟩
  | 14 => ⟨S1x128x1x1, .f32⟩
  | 15 => ⟨S1x128x10000x16, .f32⟩
  | 16 => ⟨S1x128x10000x16, .f32⟩
  | 17 => ⟨S_, .f32⟩
  | 18 => ⟨S1x128x10000x16, .f32⟩
  | 19 => ⟨S1x128x10000x16, .f32⟩
  | 20 => ⟨S_, .f32⟩
  | 21 => ⟨S1x128x10000, .f32⟩
  | 22 => ⟨S1x128x10000x1, .f32⟩
  | 23 => ⟨S1x128x10000x16, .f32⟩
  | 24 => ⟨S1x256x10000x16, .f32⟩
  | 25 => ⟨S1x10000x16x256, .f32⟩
  | 26 => ⟨S1x256x10000x16, .f32⟩
  | 27 => ⟨S1x256x1x1, .f32⟩
  | 28 => ⟨S1x256x10000x16, .f32⟩
  | 29 => ⟨S1x256x10000x16, .f32⟩
  | 30 => ⟨S_, .f32⟩
  | 31 => ⟨S256, .f32⟩
  | 32 => ⟨S1x256x1x1, .f32⟩
  | 33 => ⟨S_, .f32⟩
  | 34 => ⟨S1x256x1x1, .f32⟩
  | 35 => ⟨S1x256x1x1, .f32⟩
  | 36 => ⟨S_, .i32⟩
  | 37 => ⟨S_, .f32⟩
  | 38 => ⟨S256, .f32⟩
  | 39 => ⟨S1x256x1x1, .f32⟩
  | 40 => ⟨S_, .f32⟩
  | 41 => ⟨S1x256x1x1, .f32⟩
  | 42 => ⟨S1x256x1x1, .f32⟩
  | 43 => ⟨S1x256x10000x16, .f32⟩
  | 44 => ⟨S1x256x10000x16, .f32⟩
  | 45 => ⟨S1x256x10000x16, .f32⟩
  | 46 => ⟨S_, .f32⟩
  | 47 => ⟨S_, .f32⟩
  | 48 => ⟨S_, .f32⟩
  | 49 => ⟨S_, .f32⟩
  | 50 => ⟨S256, .f32⟩
  | 51 => ⟨S1x256x1x1, .f32⟩
  | 52 => ⟨S1x256x1x1, .f32⟩
  | 53 => ⟨S1x256x1x1, .f32⟩
  | 54 => ⟨S_, .f32⟩
  | 55 => ⟨S_, .i1⟩
  | 56 => ⟨S_, .f32⟩
  | 57 => ⟨S_, .f32⟩
  | 58 => ⟨S1x256x1x1, .f32⟩
  | 59 => ⟨S1x256x1x1, .f32⟩
  | 60 => ⟨S1x256x10000x16, .f32⟩
  | 61 => ⟨S1x256x10000x16, .f32⟩
  | 62 => ⟨S_, .f32⟩
  | 63 => ⟨S1x256x1x1, .f32⟩
  | 64 => ⟨S1x256x1x1, .f32⟩
  | 65 => ⟨S1x256x1x1, .f32⟩
  | 66 => ⟨S1x256x10000x16, .f32⟩
  | 67 => ⟨S1x256x10000x16, .f32⟩
  | 68 => ⟨S1x256x1x1, .f32⟩
  | 69 => ⟨S1x256x10000x16, .f32⟩
  | 70 => ⟨S1x256x10000x16, .f32⟩
  | 71 => ⟨S1x256x1x1, .f32⟩
  | 72 => ⟨S1x256x10000x16, .f32⟩
  | 73 => ⟨S1x256x10000x16, .f32⟩
  | 74 => ⟨S_, .f32⟩
  | 75 => ⟨S1x256x10000x16, .f32⟩
  | 76 => ⟨S1x256x10000x16, .f32⟩
  | 77 => ⟨S1x10000x16x128, .f32⟩
  | 78 => ⟨S1x128x10000x16, .f32⟩
  | 79 => ⟨S1x128x1x1, .f32⟩
  | 80 => ⟨S1x128x10000x16, .f32⟩
  | 81 => ⟨S1x128x10000x16, .f32⟩
  | 82 => ⟨S_, .f32⟩
  | 83 => ⟨S128, .f32⟩
  | 84 => ⟨S1x128x1x1, .f32⟩
  | 85 => ⟨S_, .f32⟩
  | 86 => ⟨S1x128x1x1, .f32⟩
  | 87 => ⟨S1x128x1x1, .f32⟩
  | 88 => ⟨S_, .i32⟩
  | 89 => ⟨S_, .f32⟩
  | 90 => ⟨S128, .f32⟩
  | 91 => ⟨S1x128x1x1, .f32⟩
  | 92 => ⟨S_, .f32⟩
  | 93 => ⟨S1x128x1x1, .f32⟩
  | 94 => ⟨S1x128x1x1, .f32⟩
  | 95 => ⟨S1x128x10000x16, .f32⟩
  | 96 => ⟨S1x128x10000x16, .f32⟩
  | 97 => ⟨S1x128x10000x16, .f32⟩
  | 98 => ⟨S_, .f32⟩
  | 99 => ⟨S_, .f32⟩
  | 100 => ⟨S_, .f32⟩
  | 101 => ⟨S_, .f32⟩
  | 102 => ⟨S128, .f32⟩
  | 103 => ⟨S1x128x1x1, .f32⟩
  | 104 => ⟨S1x128x1x1, .f32⟩
  | 105 => ⟨S1x128x1x1, .f32⟩
  | 106 => ⟨S_, .f32⟩
  | 107 => ⟨S_, .i1⟩
  | 108 => ⟨S_, .f32⟩
  | 109 => ⟨S_, .f32⟩
  | 110 => ⟨S1x128x1x1, .f32⟩
  | 111 => ⟨S1x128x1x1, .f32⟩
  | 112 => ⟨S1x128x10000x16, .f32⟩
  | 113 => ⟨S1x128x10000x16, .f32⟩
  | 114 => ⟨S_, .f32⟩
  | 115 => ⟨S1x128x1x1, .f32⟩
  | 116 => ⟨S1x128x1x1, .f32⟩
  | 117 => ⟨S1x128x1x1, .f32⟩
  | 118 => ⟨S1x128x10000x16, .f32⟩
  | 119 => ⟨S1x128x10000x16, .f32⟩
  | 120 => ⟨S1x128x1x1, .f32⟩
  | 121 => ⟨S1x128x10000x16, .f32⟩
  | 122 => ⟨S1x128x10000x16, .f32⟩
  | 123 => ⟨S1x128x1x1, .f32⟩
  | 124 => ⟨S1x128x10000x16, .f32⟩
  | 125 => ⟨S1x128x10000x16, .f32⟩
  | 126 => ⟨S_, .f32⟩
  | 127 => ⟨S1x128x10000x16, .f32⟩
  | _ => ⟨S1x128x10000x1, .f32⟩

abbrev hbmTy0_2 (i : Nat) : BufTy := match i % 128 with
  | 0 => ⟨S1x128x10000x16, .f32⟩
  | 1 => ⟨S1x128x10000x1, .f32⟩
  | 2 => ⟨S1x128x10000, .f32⟩
  | 3 => ⟨S1x128x10000x1, .f32⟩
  | _ => ⟨S1x128x10000x1, .f32⟩

abbrev hbmTy (i : Nat) : BufTy := match i / 128 with
  | 0 => hbmTy0_0 i
  | 1 => hbmTy0_1 i
  | 2 => hbmTy0_2 i
  | _ => ⟨S1x128x10000x1, .f32⟩

abbrev bufTy : (tb : Table) → Fin (tcTables nBuf tb) → BufTy
  | .hbm, ⟨i, _⟩ => hbmTy i
  | _, _ => ⟨S1x128x10000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_c : Ref sig .tc := ⟨.hbm, 22, rfl⟩
abbrev main_v3 : Ref sig .tc := ⟨.hbm, 23, rfl⟩
abbrev main_v4 : Ref sig .tc := ⟨.hbm, 24, rfl⟩
abbrev main_c_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_1 : Ref sig .tc := ⟨.hbm, 34, rfl⟩
abbrev main_v13 : Ref sig .tc := ⟨.hbm, 35, rfl⟩
abbrev main_v14 : Ref sig .tc := ⟨.hbm, 36, rfl⟩
abbrev main_c_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_c_4 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_cst_1 : Ref sig .tc := ⟨.hbm, 66, rfl⟩
abbrev main_call0_v8 : Ref sig .tc := ⟨.hbm, 67, rfl⟩
abbrev main_call0_cst_2 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_v12 : Ref sig .tc := ⟨.hbm, 72, rfl⟩
abbrev main_call0_cst_3 : Ref sig .tc := ⟨.hbm, 73, rfl⟩
abbrev main_call0_v13 : Ref sig .tc := ⟨.hbm, 74, rfl⟩
abbrev main_call0_cst_4 : Ref sig .tc := ⟨.hbm, 75, rfl⟩
abbrev main_call0_call0_v0 : Ref sig .tc := ⟨.hbm, 76, rfl⟩
abbrev main_call0_call0_v1 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_cst_5 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_call1_cst : Ref sig .tc := ⟨.hbm, 93, rfl⟩
abbrev main_call1_v0 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_cst_6 : Ref sig .tc := ⟨.hbm, 101, rfl⟩
abbrev main_v50 : Ref sig .tc := ⟨.hbm, 102, rfl⟩
abbrev main_v51 : Ref sig .tc := ⟨.hbm, 103, rfl⟩
abbrev main_cst_7 : Ref sig .tc := ⟨.hbm, 104, rfl⟩
abbrev main_v52 : Ref sig .tc := ⟨.hbm, 105, rfl⟩
abbrev main_v53 : Ref sig .tc := ⟨.hbm, 106, rfl⟩
abbrev main_c_8 : Ref sig .tc := ⟨.hbm, 107, rfl⟩
abbrev main_call2_cst : Ref sig .tc := ⟨.hbm, 108, rfl⟩
abbrev main_call2_v0 : Ref sig .tc := ⟨.hbm, 109, rfl⟩
abbrev main_call2_v1 : Ref sig .tc := ⟨.hbm, 110, rfl⟩
abbrev main_call2_cst_0 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_v7 : Ref sig .tc := ⟨.hbm, 117, rfl⟩
abbrev main_call2_cst_1 : Ref sig .tc := ⟨.hbm, 118, rfl⟩
abbrev main_call2_v8 : Ref sig .tc := ⟨.hbm, 119, rfl⟩
abbrev main_call2_cst_2 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_v12 : Ref sig .tc := ⟨.hbm, 124, rfl⟩
abbrev main_call2_cst_3 : Ref sig .tc := ⟨.hbm, 125, rfl⟩
abbrev main_call2_v13 : Ref sig .tc := ⟨.hbm, 126, rfl⟩
abbrev main_call2_cst_4 : Ref sig .tc := ⟨.hbm, 127, rfl⟩
abbrev main_call2_call0_v0 : Ref sig .tc := ⟨.hbm, 128, rfl⟩
abbrev main_call2_call0_v1 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_cst_9 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_call3_cst : Ref sig .tc := ⟨.hbm, 145, rfl⟩
abbrev main_call3_v0 : Ref sig .tc := ⟨.hbm, 146, rfl⟩
abbrev main_v68 : Ref sig .tc := ⟨.hbm, 147, rfl⟩
abbrev main_cst_10 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_cst_11 : Ref sig .tc := ⟨.hbm, 158, rfl⟩
abbrev main_v78 : Ref sig .tc := ⟨.hbm, 159, rfl⟩
abbrev main_v79 : Ref sig .tc := ⟨.hbm, 160, rfl⟩
abbrev main_cst_12 : Ref sig .tc := ⟨.hbm, 161, rfl⟩
abbrev main_v80 : Ref sig .tc := ⟨.hbm, 162, rfl⟩
abbrev main_v81 : Ref sig .tc := ⟨.hbm, 163, rfl⟩
abbrev main_c_13 : Ref sig .tc := ⟨.hbm, 164, rfl⟩
abbrev main_call4_cst : Ref sig .tc := ⟨.hbm, 165, rfl⟩
abbrev main_call4_v0 : Ref sig .tc := ⟨.hbm, 166, rfl⟩
abbrev main_call4_v1 : Ref sig .tc := ⟨.hbm, 167, rfl⟩
abbrev main_call4_cst_0 : Ref sig .tc := ⟨.hbm, 168, rfl⟩
abbrev main_call4_v2 : Ref sig .tc := ⟨.hbm, 169, rfl⟩
abbrev main_call4_v3 : Ref sig .tc := ⟨.hbm, 170, rfl⟩
abbrev main_call4_v4 : Ref sig .tc := ⟨.hbm, 171, rfl⟩
abbrev main_call4_v5 : Ref sig .tc := ⟨.hbm, 172, rfl⟩
abbrev main_call4_v6 : Ref sig .tc := ⟨.hbm, 173, rfl⟩
abbrev main_call4_v7 : Ref sig .tc := ⟨.hbm, 174, rfl⟩
abbrev main_call4_cst_1 : Ref sig .tc := ⟨.hbm, 175, rfl⟩
abbrev main_call4_v8 : Ref sig .tc := ⟨.hbm, 176, rfl⟩
abbrev main_call4_cst_2 : Ref sig .tc := ⟨.hbm, 177, rfl⟩
abbrev main_call4_v9 : Ref sig .tc := ⟨.hbm, 178, rfl⟩
abbrev main_call4_v10 : Ref sig .tc := ⟨.hbm, 179, rfl⟩
abbrev main_call4_v11 : Ref sig .tc := ⟨.hbm, 180, rfl⟩
abbrev main_call4_v12 : Ref sig .tc := ⟨.hbm, 181, rfl⟩
abbrev main_call4_cst_3 : Ref sig .tc := ⟨.hbm, 182, rfl⟩
abbrev main_call4_v13 : Ref sig .tc := ⟨.hbm, 183, rfl⟩
abbrev main_call4_cst_4 : Ref sig .tc := ⟨.hbm, 184, rfl⟩
abbrev main_call4_call0_v0 : Ref sig .tc := ⟨.hbm, 185, rfl⟩
abbrev main_call4_call0_v1 : Ref sig .tc := ⟨.hbm, 186, rfl⟩
abbrev main_v82 : Ref sig .tc := ⟨.hbm, 187, rfl⟩
abbrev main_v83 : Ref sig .tc := ⟨.hbm, 188, rfl⟩
abbrev main_v84 : Ref sig .tc := ⟨.hbm, 189, rfl⟩
abbrev main_cst_14 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_call5_cst : Ref sig .tc := ⟨.hbm, 202, rfl⟩
abbrev main_call5_v0 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_cst_15 : Ref sig .tc := ⟨.hbm, 210, rfl⟩
abbrev main_v102 : Ref sig .tc := ⟨.hbm, 211, rfl⟩
abbrev main_v103 : Ref sig .tc := ⟨.hbm, 212, rfl⟩
abbrev main_cst_16 : Ref sig .tc := ⟨.hbm, 213, rfl⟩
abbrev main_v104 : Ref sig .tc := ⟨.hbm, 214, rfl⟩
abbrev main_v105 : Ref sig .tc := ⟨.hbm, 215, rfl⟩
abbrev main_c_17 : Ref sig .tc := ⟨.hbm, 216, rfl⟩
abbrev main_call6_cst : Ref sig .tc := ⟨.hbm, 217, rfl⟩
abbrev main_call6_v0 : Ref sig .tc := ⟨.hbm, 218, rfl⟩
abbrev main_call6_v1 : Ref sig .tc := ⟨.hbm, 219, rfl⟩
abbrev main_call6_cst_0 : Ref sig .tc := ⟨.hbm, 220, rfl⟩
abbrev main_call6_v2 : Ref sig .tc := ⟨.hbm, 221, rfl⟩
abbrev main_call6_v3 : Ref sig .tc := ⟨.hbm, 222, rfl⟩
abbrev main_call6_v4 : Ref sig .tc := ⟨.hbm, 223, rfl⟩
abbrev main_call6_v5 : Ref sig .tc := ⟨.hbm, 224, rfl⟩
abbrev main_call6_v6 : Ref sig .tc := ⟨.hbm, 225, rfl⟩
abbrev main_call6_v7 : Ref sig .tc := ⟨.hbm, 226, rfl⟩
abbrev main_call6_cst_1 : Ref sig .tc := ⟨.hbm, 227, rfl⟩
abbrev main_call6_v8 : Ref sig .tc := ⟨.hbm, 228, rfl⟩
abbrev main_call6_cst_2 : Ref sig .tc := ⟨.hbm, 229, rfl⟩
abbrev main_call6_v9 : Ref sig .tc := ⟨.hbm, 230, rfl⟩
abbrev main_call6_v10 : Ref sig .tc := ⟨.hbm, 231, rfl⟩
abbrev main_call6_v11 : Ref sig .tc := ⟨.hbm, 232, rfl⟩
abbrev main_call6_v12 : Ref sig .tc := ⟨.hbm, 233, rfl⟩
abbrev main_call6_cst_3 : Ref sig .tc := ⟨.hbm, 234, rfl⟩
abbrev main_call6_v13 : Ref sig .tc := ⟨.hbm, 235, rfl⟩
abbrev main_call6_cst_4 : Ref sig .tc := ⟨.hbm, 236, rfl⟩
abbrev main_call6_call0_v0 : Ref sig .tc := ⟨.hbm, 237, rfl⟩
abbrev main_call6_call0_v1 : Ref sig .tc := ⟨.hbm, 238, rfl⟩
abbrev main_v106 : Ref sig .tc := ⟨.hbm, 239, rfl⟩
abbrev main_v107 : Ref sig .tc := ⟨.hbm, 240, rfl⟩
abbrev main_v108 : Ref sig .tc := ⟨.hbm, 241, rfl⟩
abbrev main_cst_18 : Ref sig .tc := ⟨.hbm, 242, rfl⟩
abbrev main_v109 : Ref sig .tc := ⟨.hbm, 243, rfl⟩
abbrev main_v110 : Ref sig .tc := ⟨.hbm, 244, rfl⟩
abbrev main_v111 : Ref sig .tc := ⟨.hbm, 245, rfl⟩
abbrev main_v112 : Ref sig .tc := ⟨.hbm, 246, rfl⟩
abbrev main_v113 : Ref sig .tc := ⟨.hbm, 247, rfl⟩
abbrev main_v114 : Ref sig .tc := ⟨.hbm, 248, rfl⟩
abbrev main_v115 : Ref sig .tc := ⟨.hbm, 249, rfl⟩
abbrev main_v116 : Ref sig .tc := ⟨.hbm, 250, rfl⟩
abbrev main_v117 : Ref sig .tc := ⟨.hbm, 251, rfl⟩
abbrev main_v118 : Ref sig .tc := ⟨.hbm, 252, rfl⟩
abbrev main_v119 : Ref sig .tc := ⟨.hbm, 253, rfl⟩
abbrev main_call7_cst : Ref sig .tc := ⟨.hbm, 254, rfl⟩
abbrev main_call7_v0 : Ref sig .tc := ⟨.hbm, 255, rfl⟩
abbrev main_v120 : Ref sig .tc := ⟨.hbm, 256, rfl⟩
abbrev main_v121 : Ref sig .tc := ⟨.hbm, 257, rfl⟩
abbrev main_v122 : Ref sig .tc := ⟨.hbm, 258, rfl⟩
abbrev main_v123 : Ref sig .tc := ⟨.hbm, 259, rfl⟩

abbrev nD : Nat := 1
abbrev τ : Topo := Topo.v7x

variable {F : FTy → Type} [FloatOps F]

class Facts₀ : Prop where
  slices_S2x1x10000x16_S1x1x10000x16_1_0_0_0 : S2x1x10000x16.Slices ![1, 0, 0, 0] S1x1x10000x16
  shapeCasts_S1x1x10000x16_S1x10000x16 : S1x1x10000x16.ShapeCasts S1x10000x16
  shapeCasts_S1x128x10000x1_S1x128x10000 : S1x128x10000x1.ShapeCasts S1x128x10000
  bcast_S_S1x10000x16 : S_.BroadcastsInDim S1x10000x16 (![] : Fin 0 → Fin S1x10000x16.rank)
  bcast_S1x10000x16_S1x10000x16x1_0_1_2 : S1x10000x16.BroadcastsInDim S1x10000x16x1 (![0, 1, 2] : Fin 3 → Fin S1x10000x16x1.rank)
  slices_S2x1x10000x16_S1x1x10000x16_0_0_0_0 : S2x1x10000x16.Slices ![0, 0, 0, 0] S1x1x10000x16
  concatenates_S1x16x10000x16_S1x128x10000x16_S1x128x10000x16_S1x272x10000x16_d1 : Shape.Concatenates [S1x16x10000x16, S1x128x10000x16, S1x128x10000x16] S1x272x10000x16 1
  transposes_S1x10000x16x256_S1x256x10000x16_0_3_1_2 : S1x10000x16x256.Transposes [0, 3, 1, 2] S1x256x10000x16
  bcast_S256_S1x256x1x1_1 : S256.BroadcastsInDim S1x256x1x1 (![1] : Fin 1 → Fin S1x256x1x1.rank)
  bcast_S1x256x1x1_S1x256x10000x16_0_1_2_3 : S1x256x1x1.BroadcastsInDim S1x256x10000x16 (![0, 1, 2, 3] : Fin 4 → Fin S1x256x10000x16.rank)
  reducesTo_S1x256x10000x16_S256_d0_2_3 : S1x256x10000x16.ReducesTo [0, 2, 3] S256
  h_S_ : 0 < S_.numel
  bcast_S_S1x256x1x1 : S_.BroadcastsInDim S1x256x1x1 (![] : Fin 0 → Fin S1x256x1x1.rank)
  bcast_S_S1x256x10000x16 : S_.BroadcastsInDim S1x256x10000x16 (![] : Fin 0 → Fin S1x256x10000x16.rank)
  transposes_S1x10000x16x128_S1x128x10000x16_0_3_1_2 : S1x10000x16x128.Transposes [0, 3, 1, 2] S1x128x10000x16
  bcast_S128_S1x128x1x1_1 : S128.BroadcastsInDim S1x128x1x1 (![1] : Fin 1 → Fin S1x128x1x1.rank)
  bcast_S1x128x1x1_S1x128x10000x16_0_1_2_3 : S1x128x1x1.BroadcastsInDim S1x128x10000x16 (![0, 1, 2, 3] : Fin 4 → Fin S1x128x10000x16.rank)
  reducesTo_S1x128x10000x16_S128_d0_2_3 : S1x128x10000x16.ReducesTo [0, 2, 3] S128
  bcast_S_S1x128x1x1 : S_.BroadcastsInDim S1x128x1x1 (![] : Fin 0 → Fin S1x128x1x1.rank)
  bcast_S_S1x128x10000x16 : S_.BroadcastsInDim S1x128x10000x16 (![] : Fin 0 → Fin S1x128x10000x16.rank)
  reducesTo_S1x128x10000x16_S1x128x10000_d3 : S1x128x10000x16.ReducesTo [3] S1x128x10000
  bcast_S1x128x10000_S1x128x10000x1_0_1_2 : S1x128x10000.BroadcastsInDim S1x128x10000x1 (![0, 1, 2] : Fin 3 → Fin S1x128x10000x1.rank)
  bcast_S1x128x10000x1_S1x128x10000x16_0_1_2_3 : S1x128x10000x1.BroadcastsInDim S1x128x10000x16 (![0, 1, 2, 3] : Fin 4 → Fin S1x128x10000x16.rank)
  concatenates_S1x128x10000x16_S1x128x10000x16_S1x256x10000x16_d1 : Shape.Concatenates [S1x128x10000x16, S1x128x10000x16] S1x256x10000x16 1
  slices_S1x128x10000x16_S1x128x10000x1_0_0_0_0 : S1x128x10000x16.Slices ![0, 0, 0, 0] S1x128x10000x1
  gather_S1x128x10000_S1x10000x16x1_S1x128x10000x16_1_2_0_0_2_3_11281_wf : GatherDims.WF S1x128x10000 S1x10000x16x1 S1x128x10000x16 [1] [2] [0] [2] [0] 3 ![1, 128, 1]
  dot_S1x272x10000x16_S256x272_S1x10000x16x256_1_1_023_0_n_n_wf : DotDims.WF S1x272x10000x16 S256x272 S1x10000x16x256 [1] [1] [0, 2, 3] [0] [] []
  dot_S1x256x10000x16_S128x256_S1x10000x16x128_1_1_023_0_n_n_wf : DotDims.WF S1x256x10000x16 S128x256 S1x10000x16x128 [1] [1] [0, 2, 3] [0] [] []
  dot_S1x256x10000x16_S256x256_S1x10000x16x256_1_1_023_0_n_n_wf : DotDims.WF S1x256x10000x16 S256x256 S1x10000x16x256 [1] [1] [0, 2, 3] [0] [] []

variable [Facts₀]

def gather_S1x128x10000_S1x10000x16x1_S1x128x10000x16_1_2_0_0_2_3_11281 : GatherDims S1x128x10000 S1x10000x16x1 S1x128x10000x16 where
  offsetDims := [1]
  collapsedSliceDims := [2]
  operandBatchingDims := [0]
  startIndicesBatchingDims := [0]
  startIndexMap := [2]
  indexVectorDim := 3
  sliceSizes := ![1, 128, 1]
  wf := gather_S1x128x10000_S1x10000x16x1_S1x128x10000x16_1_2_0_0_2_3_11281_wf
def dot_S1x272x10000x16_S256x272_S1x10000x16x256_1_1_023_0_n_n : DotDims S1x272x10000x16 S256x272 S1x10000x16x256 where
  lhsContracting := [1]
  rhsContracting := [1]
  lhsNonContracting := [0, 2, 3]
  rhsNonContracting := [0]
  lhsBatch := []
  rhsBatch := []
  wf := dot_S1x272x10000x16_S256x272_S1x10000x16x256_1_1_023_0_n_n_wf
def dot_S1x256x10000x16_S128x256_S1x10000x16x128_1_1_023_0_n_n : DotDims S1x256x10000x16 S128x256 S1x10000x16x128 where
  lhsContracting := [1]
  rhsContracting := [1]
  lhsNonContracting := [0, 2, 3]
  rhsNonContracting := [0]
  lhsBatch := []
  rhsBatch := []
  wf := dot_S1x256x10000x16_S128x256_S1x10000x16x128_1_1_023_0_n_n_wf
def dot_S1x256x10000x16_S256x256_S1x10000x16x256_1_1_023_0_n_n : DotDims S1x256x10000x16 S256x256 S1x10000x16x256 where
  lhsContracting := [1]
  rhsContracting := [1]
  lhsNonContracting := [0, 2, 3]
  rhsNonContracting := [0]
  lhsBatch := []
  rhsBatch := []
  wf := dot_S1x256x10000x16_S256x256_S1x10000x16x256_1_1_023_0_n_n_wf

class Facts : Prop extends Facts₀ where

variable [Facts]
-- ==== Proof.Spec.lean ====
import Idealize.ShloMosaic.PureOps.Ideal
import Idealize.ShloMosaic.PureOps.Ideal.Laws

noncomputable section

namespace Cert.Spec

open Idealize.ShloMosaic

abbrev cnt : EReal := Ideal.ofBits .f32 0x481C4000#32

abbrev eps : EReal := Ideal.ofBits .f32 0x3727C5AC#32

def bnA (s q g : EReal) : EReal :=
  g * Ideal.rsqrt ((Ideal.div q cnt - Ideal.div s cnt * Ideal.div s cnt) + eps)

def bnC (s q g be : EReal) : EReal := be - Ideal.div s cnt * bnA s q g

def bnRelu {P C : Type} [Fintype P] (y : P → C → EReal) (g be : C → EReal) : P → C → EReal := fun p o =>
  max (y p o * bnA (∑ p', y p' o) (∑ p', y p' o * y p' o) (g o)
        + bnC (∑ p', y p' o) (∑ p', y p' o * y p' o) (g o) (be o)) 0

abbrev Pos : Type := Fin 10000 × Fin 16

structure Inputs where
  nf : Fin 128 → Fin 10000 → EReal
  ef : Fin 16 → Pos → EReal
  i1 : Pos → Fin 10000
  i0 : Pos → Fin 10000
  W1 : Fin 256 → Fin 272 → EReal
  g1 : Fin 256 → EReal
  be1 : Fin 256 → EReal
  W2 : Fin 128 → Fin 256 → EReal
  g2 : Fin 128 → EReal
  be2 : Fin 128 → EReal
  W3 : Fin 256 → Fin 256 → EReal
  g3 : Fin 256 → EReal
  be3 : Fin 256 → EReal
  W4 : Fin 128 → Fin 256 → EReal
  g4 : Fin 128 → EReal
  be4 : Fin 128 → EReal

variable (I : Inputs)

def hi : Pos → Fin 128 → EReal := fun p c => I.nf c (I.i1 p)
def hj : Pos → Fin 128 → EReal := fun p c => I.nf c (I.i0 p)

def y1 : Pos → Fin 256 → EReal := fun p o =>
  (∑ c : Fin 16, I.ef c p * I.W1 o ⟨c.val, by omega⟩)
    + (∑ c : Fin 128, hi I p c * I.W1 o ⟨16 + c.val, by omega⟩)
    + (∑ c : Fin 128, hj I p c * I.W1 o ⟨144 + c.val, by omega⟩)
def e1 : Pos → Fin 256 → EReal := bnRelu (y1 I) I.g1 I.be1
def y2 : Pos → Fin 128 → EReal := fun p o => ∑ c : Fin 256, e1 I p c * I.W2 o c

def e2 : Pos → Fin 128 → EReal := bnRelu (y2 I) I.g2 I.be2

def msum : Fin 10000 → Fin 128 → EReal := fun n c => ∑ k : Fin 16, e2 I (n, k) c

def y3 : Pos → Fin 256 → EReal := fun p o =>
  (∑ c : Fin 128, hi I p c * I.W3 o ⟨c.val, by omega⟩) + (∑ c : Fin 128, msum I p.1 c * I.W3 o ⟨128 + c.val, by omega⟩)
def n1 : Pos → Fin 256 → EReal := bnRelu (y3 I) I.g3 I.be3
def y4 : Pos → Fin 128 → EReal := fun p o => ∑ c : Fin 256, n1 I p c * I.W4 o c
def h4 : Pos → Fin 128 → EReal := bnRelu (y4 I) I.g4 I.be4

def outEdge : Fin 128 → Fin 10000 → Fin 16 → EReal := fun c n k => e2 I (n, k) c

def outNode : Fin 128 → Fin 10000 → EReal := fun c n => h4 I (n, 0) c

end Cert.Spec

end
-- ==== Proof.BnAlgebra.lean ====
import Idealize.ShloMosaic.PureOps.Ideal
import Idealize.ShloMosaic.PureOps.Ideal.Laws
import proofs.«210907_g44332652429893_cont_8to1_b_736_41_alg».proof.Proof.Spec
import Mathlib.Data.EReal.Operations
import Mathlib.Data.EReal.Inv
import Mathlib.Analysis.Real.Sqrt
import Mathlib.Algebra.BigOperators.Group.Finset.Basic
import Mathlib.Algebra.BigOperators.Ring.Finset
import Mathlib.Algebra.Order.BigOperators.Group.Finset
import Mathlib.Tactic.Ring
import Mathlib.Tactic.Linarith
import Mathlib.Tactic.FieldSimp
import Mathlib.Tactic.Positivity

noncomputable section

namespace Cert.BnAlgebra

open Idealize.ShloMosaic
open scoped BigOperators

variable {κ : Type*}

def refMean (s : Finset κ) (y : κ → ℝ) (b N : ℝ) : ℝ := (∑ j ∈ s, (y j + b)) / N

def refVar (s : Finset κ) (y : κ → ℝ) (b N : ℝ) : ℝ :=
  (∑ j ∈ s, (y j + b - refMean s y b N) * (y j + b - refMean s y b N)) / N

def refOut (s : Finset κ) (y : κ → ℝ) (b γ β ε N : ℝ) (i : κ) : ℝ :=
  max ((y i + b - refMean s y b N) / Real.sqrt (refVar s y b N + ε) * γ + β) 0

def kerMean (s : Finset κ) (y : κ → ℝ) (N : ℝ) : ℝ := (∑ j ∈ s, y j) / N

def kerVar (s : Finset κ) (y : κ → ℝ) (N : ℝ) : ℝ :=
  (∑ j ∈ s, y j * y j) / N - kerMean s y N * kerMean s y N

def kerScale (s : Finset κ) (y : κ → ℝ) (γ ε N : ℝ) : ℝ := γ * (Real.sqrt (kerVar s y N + ε))⁻¹

def kerShift (s : Finset κ) (y : κ → ℝ) (γ β ε N : ℝ) : ℝ := β - kerMean s y N * kerScale s y γ ε N

def kerOut (s : Finset κ) (y : κ → ℝ) (γ β ε N : ℝ) (i : κ) : ℝ :=
  max (y i * kerScale s y γ ε N + kerShift s y γ β ε N) 0

theorem refMean_eq (s : Finset κ) (y : κ → ℝ) (b : ℝ) {N : ℝ} (hc : (s.card : ℝ) = N) (hN : N ≠ 0) :
    refMean s y b N = kerMean s y N + b := by
  unfold refMean kerMean
  rw [Finset.sum_add_distrib, Finset.sum_const, nsmul_eq_mul, hc, add_div, mul_div_cancel_left₀ b hN]

theorem refVar_eq (s : Finset κ) (y : κ → ℝ) (b : ℝ) {N : ℝ} (hc : (s.card : ℝ) = N) (hN : N ≠ 0) :
    refVar s y b N = kerVar s y N := by
  have hm := refMean_eq s y b hc hN
  have hS : ∑ j ∈ s, y j = kerMean s y N * N := by
    unfold kerMean
    rw [div_mul_cancel₀ _ hN]
  have h1 : ∀ j ∈ s, (y j + b - (kerMean s y N + b)) * (y j + b - (kerMean s y N + b))
      = y j * y j - 2 * kerMean s y N * y j + kerMean s y N * kerMean s y N := fun j _ => by ring
  unfold refVar kerVar
  rw [hm, Finset.sum_congr rfl h1, Finset.sum_add_distrib, Finset.sum_sub_distrib, Finset.sum_const, nsmul_eq_mul,
    hc, ← Finset.mul_sum, hS]
  field_simp
  ring

theorem refVar_nonneg (s : Finset κ) (y : κ → ℝ) (b : ℝ) {N : ℝ} (hN : 0 ≤ N) : 0 ≤ refVar s y b N := by
  exact div_nonneg (Finset.sum_nonneg fun j _ => mul_self_nonneg _) hN

theorem kerVar_nonneg (s : Finset κ) (y : κ → ℝ) {N : ℝ} (hc : (s.card : ℝ) = N) (hN : 0 < N) :
    0 ≤ kerVar s y N := by
  rw [← refVar_eq s y 0 hc hN.ne']
  exact refVar_nonneg s y 0 hN.le

theorem bn_real (s : Finset κ) (y : κ → ℝ) (b γ β ε : ℝ) {N : ℝ} (hc : (s.card : ℝ) = N) (hN : N ≠ 0) (i : κ) :
    refOut s y b γ β ε N i = kerOut s y γ β ε N i := by
  unfold refOut kerOut kerShift kerScale
  rw [refMean_eq s y b hc hN, refVar_eq s y b hc hN]
  congr 1
  rw [div_eq_mul_inv]
  ring

def IsReal (x : EReal) : Prop := ∃ r : ℝ, x = (r : EReal)

theorem isReal_zero : IsReal 0 := ⟨0, rfl⟩
theorem IsReal.coe_toReal {x : EReal} (h : IsReal x) : ((x.toReal : ℝ) : EReal) = x := by
  obtain ⟨r, rfl⟩ := h
  rw [EReal.toReal_coe]
theorem IsReal.add {x y : EReal} (hx : IsReal x) (hy : IsReal y) : IsReal (x + y) := by
  obtain ⟨a, rfl⟩ := hx
  obtain ⟨c, rfl⟩ := hy
  exact ⟨a + c, (EReal.coe_add a c).symm⟩
theorem IsReal.mul {x y : EReal} (hx : IsReal x) (hy : IsReal y) : IsReal (x * y) := by
  obtain ⟨a, rfl⟩ := hx
  obtain ⟨c, rfl⟩ := hy
  exact ⟨a * c, (EReal.coe_mul a c).symm⟩
theorem IsReal.sum (s : Finset κ) (f : κ → EReal) (h : ∀ j ∈ s, IsReal (f j)) : IsReal (∑ j ∈ s, f j) := by
  exact Finset.sum_induction f IsReal (fun _ _ => IsReal.add) isReal_zero h

theorem div_coe_coe (x : ℝ) {N : ℝ} (hN : N ≠ 0) : Ideal.div (x : EReal) (N : EReal) = ((x / N : ℝ) : EReal) := by
  rw [Ideal.div_coe hN, ← EReal.coe_mul, mul_one_div]

theorem coe_sum (s : Finset κ) (f : κ → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

theorem sum_eq_coe (s : Finset κ) (f : κ → EReal) (g : κ → ℝ) (h : ∀ j ∈ s, f j = (g j : EReal)) :
    ∑ j ∈ s, f j = ((∑ j ∈ s, g j : ℝ) : EReal) := by
  rw [coe_sum]
  exact Finset.sum_congr rfl h

theorem sqrt_coe_nonneg {r : ℝ} (h : 0 ≤ r) : Ideal.sqrt (r : EReal) = ((Real.sqrt r : ℝ) : EReal) := by
  rw [Ideal.sqrt_coe, if_neg (not_lt.mpr h)]

theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem max_coe_zero (r : ℝ) : max (r : EReal) 0 = ((max r 0 : ℝ) : EReal) := by
  rw [← EReal.coe_zero]
  exact (EReal.coe_strictMono.monotone.map_max).symm

theorem ofBits_count : Ideal.ofBits .f32 0x481C4000#32 = ((160000 : ℝ) : EReal) := by
  simp [Ideal.ofBits, Ideal.ieee, -EReal.coe_mul]
  norm_num

theorem ofBits_eps : ∃ e : ℝ, 0 < e ∧ Ideal.ofBits .f32 0x3727C5AC#32 = (e : EReal) := by
  have h : Ideal.ofBits .f32 0x3727C5AC#32 = (((10995116 : ℝ) * (2 : ℝ) ^ (-40 : ℤ) : ℝ) : EReal) := by
    simp [Ideal.ofBits, Ideal.ieee, -EReal.coe_mul]
  exact ⟨_, by positivity, h⟩

def epsR : ℝ := (Ideal.ofBits .f32 0x3727C5AC#32).toReal

theorem ofBits_eps_eq : Ideal.ofBits .f32 0x3727C5AC#32 = ((epsR : ℝ) : EReal) := by
  obtain ⟨e, _, he⟩ := ofBits_eps
  unfold epsR
  rw [he, EReal.toReal_coe]

theorem epsR_pos : 0 < epsR := by
  obtain ⟨e, hpos, he⟩ := ofBits_eps
  unfold epsR
  rw [he, EReal.toReal_coe]
  exact hpos

theorem refMean_ideal (s : Finset κ) (y : κ → ℝ) (b : ℝ) {N : ℝ} (hN : N ≠ 0) :
    Ideal.div (∑ j ∈ s, ((y j : EReal) + (b : EReal))) (N : EReal) = ((refMean s y b N : ℝ) : EReal) := by
  have h : ∀ j ∈ s, (y j : EReal) + (b : EReal) = ((y j + b : ℝ) : EReal) := fun j _ => (EReal.coe_add _ _).symm
  rw [sum_eq_coe s _ _ h, div_coe_coe _ hN, refMean]

theorem refVar_ideal (s : Finset κ) (y : κ → ℝ) (b : ℝ) {N : ℝ} (hN : N ≠ 0) :
    Ideal.div (∑ j ∈ s, ((y j : EReal) + (b : EReal) - ((refMean s y b N : ℝ) : EReal))
        * ((y j : EReal) + (b : EReal) - ((refMean s y b N : ℝ) : EReal))) (N : EReal)
      = ((refVar s y b N : ℝ) : EReal) := by
  have h : ∀ j ∈ s, ((y j : EReal) + (b : EReal) - ((refMean s y b N : ℝ) : EReal))
        * ((y j : EReal) + (b : EReal) - ((refMean s y b N : ℝ) : EReal))
      = (((y j + b - refMean s y b N) * (y j + b - refMean s y b N) : ℝ) : EReal) := fun j _ => by
    rw [EReal.coe_mul, EReal.coe_sub, EReal.coe_add]
  rw [sum_eq_coe s _ _ h, div_coe_coe _ hN, refVar]

theorem refOut_ideal (s : Finset κ) (y : κ → ℝ) (b γ β : ℝ) {ε N : ℝ} (hN : 0 ≤ N) (hε : 0 < ε) (i : κ) :
    max (Ideal.div ((y i : EReal) + (b : EReal) - ((refMean s y b N : ℝ) : EReal))
          (Ideal.sqrt (((refVar s y b N : ℝ) : EReal) + (ε : EReal))) * (γ : EReal) + (β : EReal)) 0
      = ((refOut s y b γ β ε N i : ℝ) : EReal) := by
  have hv : 0 < refVar s y b N + ε := add_pos_of_nonneg_of_pos (refVar_nonneg s y b hN) hε
  rw [← EReal.coe_add (refVar s y b N) ε, sqrt_coe_nonneg hv.le, ← EReal.coe_add (y i) b, ← EReal.coe_sub,
    div_coe_coe _ (Real.sqrt_ne_zero'.mpr hv), ← EReal.coe_mul, ← EReal.coe_add, max_coe_zero, refOut]

theorem kerMean_ideal (s : Finset κ) (y : κ → ℝ) {N : ℝ} (hN : N ≠ 0) :
    Ideal.div (∑ j ∈ s, (y j : EReal)) (N : EReal) = ((kerMean s y N : ℝ) : EReal) := by
  rw [← coe_sum s y, div_coe_coe _ hN, kerMean]

theorem kerVar_ideal (s : Finset κ) (y : κ → ℝ) {N : ℝ} (hN : N ≠ 0) :
    Ideal.div (∑ j ∈ s, (y j : EReal) * (y j : EReal)) (N : EReal)
        - ((kerMean s y N : ℝ) : EReal) * ((kerMean s y N : ℝ) : EReal)
      = ((kerVar s y N : ℝ) : EReal) := by
  have h : ∀ j ∈ s, (y j : EReal) * (y j : EReal) = ((y j * y j : ℝ) : EReal) := fun j _ => (EReal.coe_mul _ _).symm
  rw [sum_eq_coe s _ _ h, div_coe_coe _ hN, ← EReal.coe_mul, ← EReal.coe_sub, kerVar]

theorem kerScale_ideal (s : Finset κ) (y : κ → ℝ) (γ : ℝ) {ε N : ℝ} (hc : (s.card : ℝ) = N) (hN : 0 < N)
    (hε : 0 < ε) :
    (γ : EReal) * Ideal.rsqrt (((kerVar s y N : ℝ) : EReal) + (ε : EReal)) = ((kerScale s y γ ε N : ℝ) : EReal) := by
  have hv : 0 < kerVar s y N + ε := add_pos_of_nonneg_of_pos (kerVar_nonneg s y hc hN) hε
  rw [← EReal.coe_add, rsqrt_coe_pos hv, ← EReal.coe_mul, kerScale]

theorem kerShift_ideal (s : Finset κ) (y : κ → ℝ) (γ β ε N : ℝ) :
    (β : EReal) - ((kerMean s y N : ℝ) : EReal) * ((kerScale s y γ ε N : ℝ) : EReal)
      = ((kerShift s y γ β ε N : ℝ) : EReal) := by
  rw [← EReal.coe_mul, ← EReal.coe_sub, kerShift]

theorem kerOut_ideal (s : Finset κ) (y : κ → ℝ) (γ β ε N : ℝ) (i : κ) :
    max ((y i : EReal) * ((kerScale s y γ ε N : ℝ) : EReal) + ((kerShift s y γ β ε N : ℝ) : EReal)) 0
      = ((kerOut s y γ β ε N i : ℝ) : EReal) := by
  rw [← EReal.coe_mul, ← EReal.coe_add, max_coe_zero, kerOut]

section Spec

variable {P C : Type} [Fintype P]

theorem card_univ_real (hP : Fintype.card P = 160000) : ((Finset.univ : Finset P).card : ℝ) = 160000 := by
  rw [Finset.card_univ, hP]
  norm_num

theorem bnRelu_coe (hP : Fintype.card P = 160000) (y : P → C → ℝ) (g be : C → ℝ) (p : P) (o : C) :
    Cert.Spec.bnRelu (fun p o => ((y p o : ℝ) : EReal)) (fun o => ((g o : ℝ) : EReal)) (fun o => ((be o : ℝ) : EReal)) p o
      = ((kerOut Finset.univ (fun p' => y p' o) (g o) (be o) epsR 160000 p : ℝ) : EReal) := by
  have hN : (0 : ℝ) < 160000 := by norm_num
  have hc := card_univ_real hP
  unfold Cert.Spec.bnRelu Cert.Spec.bnC Cert.Spec.bnA
  rw [show Cert.Spec.cnt = ((160000 : ℝ) : EReal) from ofBits_count, show Cert.Spec.eps = ((epsR : ℝ) : EReal) from ofBits_eps_eq]
  rw [kerMean_ideal Finset.univ (fun p' => y p' o) hN.ne', kerVar_ideal Finset.univ (fun p' => y p' o) hN.ne',
    kerScale_ideal Finset.univ (fun p' => y p' o) (g o) hc hN epsR_pos, kerShift_ideal]
  exact kerOut_ideal Finset.univ (fun p' => y p' o) (g o) (be o) epsR 160000 p

theorem exists_real_fun₂ (Y : P → C → EReal) (hY : ∀ p o, IsReal (Y p o)) :
    ∃ y : P → C → ℝ, Y = fun p o => ((y p o : ℝ) : EReal) :=
  ⟨fun p o => (Y p o).toReal, funext fun p => funext fun o => ((hY p o).coe_toReal).symm⟩

theorem exists_real_fun (G : C → EReal) (hG : ∀ o, IsReal (G o)) : ∃ g : C → ℝ, G = fun o => ((g o : ℝ) : EReal) :=
  ⟨fun o => (G o).toReal, funext fun o => ((hG o).coe_toReal).symm⟩

theorem ref_eq_bnRelu (hP : Fintype.card P = 160000) (Y : P → C → EReal) (B G Be : C → EReal)
    (hY : ∀ p o, IsReal (Y p o)) (hB : ∀ o, IsReal (B o)) (hG : ∀ o, IsReal (G o)) (hBe : ∀ o, IsReal (Be o))
    (p : P) (o : C) :
    max (Ideal.div (Y p o + B o - Ideal.div (∑ p', (Y p' o + B o)) Cert.Spec.cnt)
          (Ideal.sqrt (Ideal.div (∑ p', (Y p' o + B o - Ideal.div (∑ p'', (Y p'' o + B o)) Cert.Spec.cnt)
              * (Y p' o + B o - Ideal.div (∑ p'', (Y p'' o + B o)) Cert.Spec.cnt)) Cert.Spec.cnt
            + Cert.Spec.eps)) * G o + Be o) 0
      = Cert.Spec.bnRelu Y G Be p o := by
  obtain ⟨y, rfl⟩ := exists_real_fun₂ Y hY
  obtain ⟨b, rfl⟩ := exists_real_fun B hB
  obtain ⟨g, rfl⟩ := exists_real_fun G hG
  obtain ⟨be, rfl⟩ := exists_real_fun Be hBe
  have hN : (0 : ℝ) < 160000 := by norm_num
  rw [show Cert.Spec.cnt = ((160000 : ℝ) : EReal) from ofBits_count, show Cert.Spec.eps = ((epsR : ℝ) : EReal) from ofBits_eps_eq,
    refMean_ideal Finset.univ (fun p' => y p' o) (b o) hN.ne', refVar_ideal Finset.univ (fun p' => y p' o) (b o) hN.ne',
    refOut_ideal Finset.univ (fun p' => y p' o) (b o) (g o) (be o) hN.le epsR_pos p, bnRelu_coe hP,
    bn_real Finset.univ _ _ _ _ _ (card_univ_real hP) hN.ne' p]

theorem bnRelu_isReal (hP : Fintype.card P = 160000) (Y : P → C → EReal) (G Be : C → EReal)
    (hY : ∀ p o, IsReal (Y p o)) (hG : ∀ o, IsReal (G o)) (hBe : ∀ o, IsReal (Be o)) (p : P) (o : C) :
    IsReal (Cert.Spec.bnRelu Y G Be p o) := by
  obtain ⟨y, rfl⟩ := exists_real_fun₂ Y hY
  obtain ⟨g, rfl⟩ := exists_real_fun G hG
  obtain ⟨be, rfl⟩ := exists_real_fun Be hBe
  exact ⟨_, bnRelu_coe hP y g be p o⟩

end Spec

end Cert.BnAlgebra

end
-- ==== Proof.PreFacts.lean ====
import proofs.«210907_g44332652429893_cont_8to1_b_736_41_alg».proof.Pre_input_domain
import proofs.«210907_g44332652429893_cont_8to1_b_736_41_alg».proof.Proof.Gen.Pre_input_domain
import proofs.«210907_g44332652429893_cont_8to1_b_736_41_alg».proof.Proof.BnAlgebra
import Idealize.ShloMosaic.Lib.ReduceAll
import Idealize.ShloMosaic.Lib.ValueIdx
import Idealize.ShloMosaic.Lib.StableHlo.Predicate
import Idealize.ShloMosaic.PureOps.Ideal
import Mathlib.Data.EReal.Basic

noncomputable section

namespace Cert.PreFacts

open Idealize.ShloMosaic Cert.Pre_input_domain Cert.BnAlgebra

instance : Subsingleton S_.Idx := ⟨fun a b => funext fun d => d.elim0⟩

def FinAt {F : FTy → Type} [FloatOps F] (x : F .f32) : Prop :=
  FloatOps.cmpf .olt (FloatOps.hostAbsf x) (FloatOps.ofBits .f32 0x7F800000#32 : F .f32) = 1#1

def RangeAt (w : BitVec 32) : Prop :=
  IntOp.cmpi .sge w 0#32 = 1#1 ∧ IntOp.cmpi .sle w 9999#32 = 1#1

structure Conj {F : FTy → Type} [FloatOps F] (a0 : FVec F S1x128x10000x1 .f32) (a1 : FVec F S1x16x10000x16 .f32) (a2 : IVec S2x1x10000x16 32) (a3 : FVec F S256x272 .f32) (a4 : FVec F S256 .f32) (a5 : FVec F S256 .f32) (a6 : FVec F S256 .f32) (a7 : FVec F S128x256 .f32) (a8 : FVec F S128 .f32) (a9 : FVec F S128 .f32) (a10 : FVec F S128 .f32) (a11 : FVec F S256x256 .f32) (a12 : FVec F S256 .f32) (a13 : FVec F S256 .f32) (a14 : FVec F S256 .f32) (a15 : FVec F S128x256 .f32) (a16 : FVec F S128 .f32) (a17 : FVec F S128 .f32) (a18 : FVec F S128 .f32) : Prop where
  f0 : ∀ j, FinAt (a0 j)
  f1 : ∀ j, FinAt (a1 j)
  f3 : ∀ j, FinAt (a3 j)
  f4 : ∀ j, FinAt (a4 j)
  f5 : ∀ j, FinAt (a5 j)
  f6 : ∀ j, FinAt (a6 j)
  f7 : ∀ j, FinAt (a7 j)
  f8 : ∀ j, FinAt (a8 j)
  f9 : ∀ j, FinAt (a9 j)
  f10 : ∀ j, FinAt (a10 j)
  f11 : ∀ j, FinAt (a11 j)
  f12 : ∀ j, FinAt (a12 j)
  f13 : ∀ j, FinAt (a13 j)
  f14 : ∀ j, FinAt (a14 j)
  f15 : ∀ j, FinAt (a15 j)
  f16 : ∀ j, FinAt (a16 j)
  f17 : ∀ j, FinAt (a17 j)
  f18 : ∀ j, FinAt (a18 j)
  r2 : ∀ j, RangeAt (a2 j)

section Generic
variable {F : FTy → Type} [FloatOps F] {a0 : FVec F S1x128x10000x1 .f32} {a1 : FVec F S1x16x10000x16 .f32} {a2 : IVec S2x1x10000x16 32} {a3 : FVec F S256x272 .f32} {a4 : FVec F S256 .f32} {a5 : FVec F S256 .f32} {a6 : FVec F S256 .f32} {a7 : FVec F S128x256 .f32} {a8 : FVec F S128 .f32} {a9 : FVec F S128 .f32} {a10 : FVec F S128 .f32} {a11 : FVec F S256x256 .f32} {a12 : FVec F S256 .f32} {a13 : FVec F S256 .f32} {a14 : FVec F S256 .f32} {a15 : FVec F S128x256 .f32} {a16 : FVec F S128 .f32} {a17 : FVec F S128 .f32} {a18 : FVec F S128 .f32}

theorem conj_of_pre (h : fn (F := F) a0 a1 a2 a3 a4 a5 a6 a7 a8 a9 a10 a11 a12 a13 a14 a15 a16 a17 a18 = fun _ => 1#1) : Conj a0 a1 a2 a3 a4 a5 a6 a7 a8 a9 a10 a11 a12 a13 a14 a15 a16 a17 a18 := by
  have e := congrFun h ValueIdx.ix0
  simp only [fn, fn_part1, fn_part2, fn_part3, fn_part4, fn_part5, andi, IntOp.andi_eq_one] at e
  obtain ⟨⟨⟨⟨⟨⟨⟨⟨⟨⟨⟨⟨⟨⟨⟨⟨⟨⟨c0, c1⟩, c3⟩, c4⟩, c5⟩, c6⟩, c7⟩, c8⟩, c9⟩, c10⟩, c11⟩, c12⟩, c13⟩, c14⟩, c15⟩, c16⟩, c17⟩, c18⟩, c2⟩ := e
  exact
    { f0 := fun j => Host.reduce_andi_all _ _ _ _ _ c0 j
      f1 := fun j => Host.reduce_andi_all _ _ _ _ _ c1 j
      f3 := fun j => Host.reduce_andi_all _ _ _ _ _ c3 j
      f4 := fun j => Host.reduce_andi_all _ _ _ _ _ c4 j
      f5 := fun j => Host.reduce_andi_all _ _ _ _ _ c5 j
      f6 := fun j => Host.reduce_andi_all _ _ _ _ _ c6 j
      f7 := fun j => Host.reduce_andi_all _ _ _ _ _ c7 j
      f8 := fun j => Host.reduce_andi_all _ _ _ _ _ c8 j
      f9 := fun j => Host.reduce_andi_all _ _ _ _ _ c9 j
      f10 := fun j => Host.reduce_andi_all _ _ _ _ _ c10 j
      f11 := fun j => Host.reduce_andi_all _ _ _ _ _ c11 j
      f12 := fun j => Host.reduce_andi_all _ _ _ _ _ c12 j
      f13 := fun j => Host.reduce_andi_all _ _ _ _ _ c13 j
      f14 := fun j => Host.reduce_andi_all _ _ _ _ _ c14 j
      f15 := fun j => Host.reduce_andi_all _ _ _ _ _ c15 j
      f16 := fun j => Host.reduce_andi_all _ _ _ _ _ c16 j
      f17 := fun j => Host.reduce_andi_all _ _ _ _ _ c17 j
      f18 := fun j => Host.reduce_andi_all _ _ _ _ _ c18 j
      r2 := fun j => IntOp.andi_eq_one.1 (Host.reduce_andi_all _ _ _ _ _ c2 j) }

theorem toInt_of_rangeAt {w : BitVec 32} (hw : RangeAt w) : 0 ≤ w.toInt ∧ w.toInt ≤ 9999 := by
  obtain ⟨h0, h1⟩ := hw
  have h0' : (0#32 : BitVec 32).sle w = true := (StableHlo.Predicate.ofBool_eq_one_iff _).1 h0
  have h1' : w.sle 9999#32 = true := (StableHlo.Predicate.ofBool_eq_one_iff _).1 h1
  simp only [BitVec.sle, decide_eq_true_eq] at h0' h1'
  have z0 : (0#32 : BitVec 32).toInt = 0 := by decide
  have z1 : (9999#32 : BitVec 32).toInt = 9999 := by decide
  rw [z0] at h0'
  rw [z1] at h1'
  exact ⟨h0', h1'⟩

theorem toNat_of_rangeAt {w : BitVec 32} (hw : RangeAt w) : w.toNat < 10000 := by
  obtain ⟨h0, h1⟩ := toInt_of_rangeAt hw
  have hlt := w.isLt
  rw [BitVec.toInt_eq_toNat_cond] at h0 h1
  split at h0 <;> omega

theorem arg2_toNat (h : fn (F := F) a0 a1 a2 a3 a4 a5 a6 a7 a8 a9 a10 a11 a12 a13 a14 a15 a16 a17 a18 = fun _ => 1#1) (j : S2x1x10000x16.Idx) :
    (a2 j).toNat < 10000 :=
  toNat_of_rangeAt ((conj_of_pre h).r2 j)

end Generic

theorem ofBits_inf : Ideal.ofBits .f32 0x7F800000#32 = (⊤ : EReal) := by
  simp [Ideal.ofBits, Ideal.ieee]

theorem isReal_of_finAt {x : EReal} (hx : FinAt (F := Ideal) x) : IsReal x := by
  have hx' : Ideal.cmp .olt (max x (-x)) (Ideal.ofBits .f32 0x7F800000#32) = 1#1 := hx
  rw [ofBits_inf] at hx'
  have hlt : max x (-x) < ⊤ := of_decide_eq_true ((StableHlo.Predicate.ofBool_eq_one_iff _).1 hx')
  induction x using EReal.rec with
  | bot => simp at hlt
  | top => simp at hlt
  | coe r => exact ⟨r, rfl⟩

end Cert.PreFacts

end
-- ==== Proof.BClaims.lean ====
import proofs.«210907_g44332652429893_cont_8to1_b_736_41_alg».proof.Defs
import proofs.«210907_g44332652429893_cont_8to1_b_736_41_alg».proof.Proof.Gen.Kernel
import proofs.«210907_g44332652429893_cont_8to1_b_736_41_alg».proof.Proof.BFrame

noncomputable section

namespace Cert.BClaims

open Idealize.ShloMosaic Idealize.SL.Sem

theorem frame_k : Cert.frame_Kernel (hKernel := Cert.Kernel.Gen.facts) (hPre_input_domain := Cert.Pre_input_domain.Gen.facts) :=
  fun m g hpre => Cert.Proof.KB.frame_of_pre m g hpre

end Cert.BClaims

end
-- ==== Proof.KBase.lean ====
import proofs.«210907_g44332652429893_cont_8to1_b_736_41_alg».proof.Defs
import proofs.«210907_g44332652429893_cont_8to1_b_736_41_alg».proof.Proof.Gen.KernelIdeal
import proofs.«210907_g44332652429893_cont_8to1_b_736_41_alg».proof.Proof.Gen.KernelIdeal.Skeleton
import proofs.«210907_g44332652429893_cont_8to1_b_736_41_alg».proof.Proof.Gen.KernelIdeal.Launch
import proofs.«210907_g44332652429893_cont_8to1_b_736_41_alg».proof.Proof.Gen.KernelIdeal.Points
import Idealize.ShloMosaic.Lib.SparseCore.Launch
import Idealize.ShloMosaic.Lib.SparseCore.Ops
import Idealize.ShloMosaic.Lib.Pipeline.Regions
import Idealize.ShloMosaic.Lib.StableHlo.Run
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 5) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UK : Type := Counters
abbrev UU : Type := UH × (UP × UK)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × UK)).trans (Emb.inr : Emb (UP × UK) UU)).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance countersIn_UU : CountersIn UU := inferInstance
instance EP_landsIn : (EP : Emb UP 𝕄).LandsIn (upEmb : UEmb _ 𝕄) := by unfold EP; infer_instance

end Cert.Proof.KI

end
-- ==== Proof.KLaunchDefs.lean ====
import proofs.«210907_g44332652429893_cont_8to1_b_736_41_alg».proof.Proof.KBase

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

abbrev adm : (p : Fin 5) → (pcfgs (F := F) p).Adm := fun p => (cfgs p).toPCfg_adm

def recB (c : Dev nD) : Set (SemLoc sig × HIx 1) := {p | (K (F := F)).lev (T c, p.1) p.2 ≤ 8}

section Dats

variable [FloatOps F]

def dat1 (Vv : Valuation τ sig (Elt F)) (c : Dev nD)
    (aft : (w : Fin cfg1.W) → Fin cfg1.N → (cfg1.win w).block.Idx → Elt F (cfg1.win w).elt) (Φ : Fin (cfg1.N + 1) → sProp 𝕄) :
    Pipeline.Dat τ (Elt F) (HIx 1) ℕ UU ℕ cfg1 c where
  A w := Vv (Proc.devRef .tc (Pipeline.arrRef spec1 w))
  after := aft
  Φ := Φ
  q _ := fullShare
  owed _ := 0
  recorded _ := recB (F := F) c

def dat2 (Vv : Valuation τ sig (Elt F)) (c : Dev nD)
    (aft : (w : Fin cfg2.W) → Fin cfg2.N → (cfg2.win w).block.Idx → Elt F (cfg2.win w).elt) (Φ : Fin (cfg2.N + 1) → sProp 𝕄) :
    Pipeline.Dat τ (Elt F) (HIx 1) ℕ UU ℕ cfg2 c where
  A w := Vv (Proc.devRef .tc (Pipeline.arrRef spec2 w))
  after := aft
  Φ := Φ
  q _ := fullShare
  owed _ := 0
  recorded _ := recB (F := F) c

def dat3 (Vv : Valuation τ sig (Elt F)) (c : Dev nD)
    (aft : (w : Fin cfg3.W) → Fin cfg3.N → (cfg3.win w).block.Idx → Elt F (cfg3.win w).elt) (Φ : Fin (cfg3.N + 1) → sProp 𝕄) :
    Pipeline.Dat τ (Elt F) (HIx 1) ℕ UU ℕ cfg3 c where
  A w := Vv (Proc.devRef .tc (Pipeline.arrRef spec3 w))
  after := aft
  Φ := Φ
  q _ := fullShare
  owed _ := 0
  recorded _ := recB (F := F) c

def dat4 (Vv : Valuation τ sig (Elt F)) (c : Dev nD)
    (aft : (w : Fin cfg4.W) → Fin cfg4.N → (cfg4.win w).block.Idx → Elt F (cfg4.win w).elt) (Φ : Fin (cfg4.N + 1) → sProp 𝕄) :
    Pipeline.Dat τ (Elt F) (HIx 1) ℕ UU ℕ cfg4 c where
  A w := Vv (Proc.devRef .tc (Pipeline.arrRef spec4 w))
  after := aft
  Φ := Φ
  q _ := fullShare
  owed _ := 0
  recorded _ := recB (F := F) c

def dat5 (Vv : Valuation τ sig (Elt F)) (c : Dev nD)
    (aft : (w : Fin cfg5.W) → Fin cfg5.N → (cfg5.win w).block.Idx → Elt F (cfg5.win w).elt) (Φ : Fin (cfg5.N + 1) → sProp 𝕄) :
    Pipeline.Dat τ (Elt F) (HIx 1) ℕ UU ℕ cfg5 c where
  A w := Vv (Proc.devRef .tc (Pipeline.arrRef spec5 w))
  after := aft
  Φ := Φ
  q _ := fullShare
  owed _ := 0
  recorded _ := recB (F := F) c

end Dats

section Ops

variable [FloatOps F]

def ops1 : List (HloOp τ sig (Elt F)) := [
    (StableHlo.reshape main_arg0 main_v0 rfl shapeCasts_S1x128x10000x1_S128x10000),
    (StableHlo.unary main_v0 main_v1 ((transpose S10000x128 [1, 0] · transposes_S128x10000_S10000x128_1_0))),
    (StableHlo.reshape main_arg1 main_v2 rfl shapeCasts_S1x16x10000x16_S16x10000x16),
    (StableHlo.reshape main_v2 main_v3 rfl shapeCasts_S16x10000x16_S16x160000),
    (StableHlo.unary main_arg2 main_v4 ((extractStridedSlice S1x1x10000x16 ![1, 0, 0, 0] · slices_S2x1x10000x16_S1x1x10000x16_1_0_0_0))),
    (StableHlo.reshape main_v4 main_v5 rfl shapeCasts_S1x1x10000x16_S10000x16),
    (StableHlo.reshape main_v5 main_v6 rfl shapeCasts_S10000x16_S160000),
    (StableHlo.unary main_arg2 main_v7 ((extractStridedSlice S1x1x10000x16 ![0, 0, 0, 0] · slices_S2x1x10000x16_S1x1x10000x16_0_0_0_0))),
    (StableHlo.reshape main_v7 main_v8 rfl shapeCasts_S1x1x10000x16_S10000x16),
    (StableHlo.reshape main_v8 main_v9 rfl shapeCasts_S10000x16_S160000)]

def ops2 : List (HloOp τ sig (Elt F)) := [
    (StableHlo.unary main_arg3 main_v11 ((extractStridedSlice S256x16 ![0, 0] · slices_S256x272_S256x16_0_0))),
    (StableHlo.unary main_v11 main_v12 ((transpose S16x256 [1, 0] · transposes_S256x16_S16x256_1_0))),
    (StableHlo.unary main_arg3 main_v13 ((extractStridedSlice S256x128 ![0, 16] · slices_S256x272_S256x128_0_16))),
    (StableHlo.unary main_v13 main_v14 ((transpose S128x256 [1, 0] · transposes_S256x128_S128x256_1_0))),
    (StableHlo.unary main_arg3 main_v15 ((extractStridedSlice S256x128 ![0, 144] · slices_S256x272_S256x128_0_144))),
    (StableHlo.unary main_v15 main_v16 ((transpose S128x256 [1, 0] · transposes_S256x128_S128x256_1_0))),
    (StableHlo.unary main_arg11 main_v17 ((extractStridedSlice S256x128 ![0, 0] · slices_S256x256_S256x128_0_0))),
    (StableHlo.unary main_v17 main_v18 ((transpose S128x256 [1, 0] · transposes_S256x128_S128x256_1_0))),
    (StableHlo.unary main_arg11 main_v19 ((extractStridedSlice S256x128 ![0, 128] · slices_S256x256_S256x128_0_128))),
    (StableHlo.unary main_v19 main_v20 ((transpose S128x256 [1, 0] · transposes_S256x128_S128x256_1_0))),
    (StableHlo.nullary main_v21 (iotaInDim S128x128 32 0)),
    (StableHlo.nullary main_v22 (iotaInDim S128x128 32 1)),
    (StableHlo.nullary main_c (constantI S_ 32 0#32)),
    (StableHlo.unary main_c main_v23 (broadcastInDim S128x128 ![] bcast_S_S128x128)),
    (StableHlo.binary main_v21 main_v23 main_v24 (addi)),
    (StableHlo.binary main_v24 main_v22 main_v25 (cmpi .eq)),
    (StableHlo.unary main_v25 main_v26 (uitofp .f32)),
    (StableHlo.reshape main_arg5 main_v27 rfl shapeCasts_S256_S1x256),
    (StableHlo.reshape main_arg6 main_v28 rfl shapeCasts_S256_S1x256),
    (StableHlo.unary main_arg7 main_v29 ((transpose S256x128 [1, 0] · transposes_S128x256_S256x128_1_0))),
    (StableHlo.reshape main_arg9 main_v30 rfl shapeCasts_S128_S1x128),
    (StableHlo.reshape main_arg10 main_v31 rfl shapeCasts_S128_S1x128),
    (StableHlo.reshape main_arg13 main_v32 rfl shapeCasts_S256_S1x256),
    (StableHlo.reshape main_arg14 main_v33 rfl shapeCasts_S256_S1x256),
    (StableHlo.unary main_arg15 main_v34 ((transpose S256x128 [1, 0] · transposes_S128x256_S256x128_1_0))),
    (StableHlo.reshape main_arg17 main_v35 rfl shapeCasts_S128_S1x128),
    (StableHlo.reshape main_arg18 main_v36 rfl shapeCasts_S128_S1x128)]

def ops3 : List (HloOp τ sig (Elt F)) := [
    (StableHlo.reshape main_v39_0 main_v42 rfl shapeCasts_S128x160000_S128x10000x16),
    (StableHlo.unary main_v42 main_v43 (broadcastInDim S1x128x10000x16 ![1, 2, 3] bcast_S128x10000x16_S1x128x10000x16_1_2_3)),
    (StableHlo.unary main_v41 main_v44 (broadcastInDim S1x128x10000x1 ![1, 2] bcast_S128x10000_S1x128x10000x1_1_2))]

end Ops

end Cert.Proof.KI

end
-- ==== Proof.KTileDefs.lean ====
import proofs.«210907_g44332652429893_cont_8to1_b_736_41_alg».proof.Proof.KBase
import Idealize.ShloMosaic.Lib.SparseCore.Stream
import Idealize.ShloMosaic.Lib.Transfers
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase

variable {F : FTy → Type}

local notation "𝕄" => MT nD τ sig (HIx 1) (Elt F) ℕ UU ℕ

variable (m : (ℓ : Loc nD τ sig) → Buf (Elt F) ℓ)

abbrev tabLoc (d : Dev nD) : Loc nD τ sig := (SparseCore.T d).loc main_v1
abbrev ixALoc (d : Dev nD) : Loc nD τ sig := (SparseCore.T d).loc main_v6
abbrev ixBLoc (d : Dev nD) : Loc nD τ sig := (SparseCore.T d).loc main_v9
abbrev resALoc (d : Dev nD) : Loc nD τ sig := (SparseCore.T d).loc main_v10_0
abbrev resBLoc (d : Dev nD) : Loc nD τ sig := (SparseCore.T d).loc main_v10_1

abbrev cV (L : grid0.Coords) : Fin τ.nSC := (L 0).castLE hcore0
abbrev jV (L : grid0.Coords) : Fin τ.nSub := (L 1).castLE hsub0

abbrev thrV (d : Dev nD) (L : grid0.Coords) : Thread nD τ := V d (cV L) (jV L)

abbrev tq (L : grid0.Coords) : PosShare TreeShare := Transfers.shareTokN (Transfers.shareTokN fullShare (L 0).val) (L 1).val

abbrev ixAK (L : grid0.Coords) (k : Fin k0_t1_loop.trips) : Memref sig .scVector .hbm S200 .i32 :=
  (Memref.whole main_v6_scv).slice (Rect.unit (s := S160000) (k0_off1 L k) S200.size (k0_off1_inb L k)) (fun _ => rfl)
abbrev ixBK (L : grid0.Coords) (k : Fin k0_t1_loop.trips) : Memref sig .scVector .hbm S200 .i32 :=
  (Memref.whole main_v9_scv).slice (Rect.unit (s := S160000) (k0_off1 L k) S200.size (k0_off1_inb L k)) (fun _ => rfl)
abbrev resAK (L : grid0.Coords) (k : Fin k0_t1_loop.trips) : Memref sig .scVector .hbm S200x128 .f32 :=
  (Memref.whole main_v10_0_scv).slice (Rect.unit (s := S160000x128) (k0_off2 L k) S200x128.size (k0_off2_inb L k)) (fun _ => rfl)
abbrev resBK (L : grid0.Coords) (k : Fin k0_t1_loop.trips) : Memref sig .scVector .hbm S200x128 .f32 :=
  (Memref.whole main_v10_1_scv).slice (Rect.unit (s := S160000x128) (k0_off2 L k) S200x128.size (k0_off2_inb L k)) (fun _ => rfl)
abbrev tabK : Memref sig .scVector .hbm S10000x128 .f32 :=
  (Memref.whole main_v1_scv).slice (Rect.unit (s := S10000x128) ![0, 0] S10000x128.size inb_S10000x128_S10000x128_0_0) (fun _ => rfl)

abbrev tripRows (L : grid0.Coords) (k : Fin k0_t1_loop.trips) : Finset S160000x128.Idx := (resAK L k).view.set

def rowsBelow (L : grid0.Coords) (n : ℕ) : Finset S160000x128.Idx :=
  (Finset.univ.filter fun k : Fin k0_t1_loop.trips => k.val < n).biUnion (tripRows L)

def tileRows (L : grid0.Coords) : Finset S160000x128.Idx := Finset.univ.biUnion (tripRows L)

theorem gathersW : S10000x128.Gathers 0 S160000x128 := Shape.Gathers.rank2 10000 160000 128

def rowsT (ix : S160000.Idx → Elt F .i32) (k : Fin (S160000x128.size gathersW.axis')) : Fin (S10000x128.size gathersW.axis) :=
  if h : (ix (S160000.rowMajor.symm (k.cast (show S160000x128.size gathersW.axis' = S160000.numel from rfl)))).toNat < S10000x128.size gathersW.axis
  then ⟨_, h⟩ else ⟨0, by decide⟩

def gathered (tab : S10000x128.Idx → Elt F .f32) (ix : S160000.Idx → Elt F .i32) : S160000x128.Idx → Elt F .f32 :=
  SparseCore.gatherPayload gathersW tab (rowsT ix)

abbrev gatheredA (d : Dev nD) : Buf (Elt F) (resALoc d) := gathered (m (tabLoc d)) (m (ixALoc d))
abbrev gatheredB (d : Dev nD) : Buf (Elt F) (resBLoc d) := gathered (m (tabLoc d)) (m (ixBLoc d))

def PreOK : Prop := ∀ d : Dev nD, (∀ j : S160000.Idx, (m (ixALoc d) j).toNat < 10000) ∧ (∀ j : S160000.Idx, (m (ixBLoc d) j).toNat < 10000)

abbrev tileReads (d : Dev nD) (L : grid0.Coords) : sProp 𝕄 :=
  iprop((tabLoc d ↦{tq L} m (tabLoc d)) ∗ (ixALoc d ↦{tq L} m (ixALoc d)) ∗ (ixBLoc d ↦{tq L} m (ixBLoc d)))

def tileGo (d : Dev nD) (L : grid0.Coords) : sProp 𝕄 :=
  iprop(tileReads m d L ∗ (∃ f, resALoc d ↦[tileRows L]{fullShare} f) ∗ (∃ f, resBLoc d ↦[tileRows L]{fullShare} f))

def tileDone (d : Dev nD) (L : grid0.Coords) : sProp 𝕄 :=
  iprop(tileReads m d L ∗ (resALoc d ↦[tileRows L]{fullShare} gatheredA m d) ∗ (resBLoc d ↦[tileRows L]{fullShare} gatheredB m d))

section Rows

variable (L : grid0.Coords)

theorem rowsBelow_zero : rowsBelow L 0 = ∅ := by
  unfold rowsBelow
  rw [Finset.filter_false_of_mem (fun k _ => Nat.not_lt_zero k.val), Finset.biUnion_empty]

theorem rowsBelow_succ (k : Fin k0_t1_loop.trips) : rowsBelow L (k.val + 1) = rowsBelow L k.val ∪ tripRows L k := by
  unfold rowsBelow
  rw [Finset.union_comm, ← Finset.biUnion_insert]
  congr 1; ext j
  simp only [Finset.mem_filter, Finset.mem_univ, true_and, Finset.mem_insert, Fin.ext_iff]
  omega

theorem rowsBelow_trips : rowsBelow L k0_t1_loop.trips = tileRows L := by
  unfold rowsBelow tileRows
  rw [Finset.filter_true_of_mem (fun k _ => k.isLt)]

theorem tripRows_subset (k : Fin k0_t1_loop.trips) : tripRows L k ⊆ tileRows L :=
  Finset.subset_biUnion_of_mem (tripRows L) (Finset.mem_univ k)

end Rows

section Closed

variable (L : grid0.Coords) (k : Fin k0_t1_loop.trips)

theorem off1_0 : k0_off1 L k 0 = 10000 * (L 1).val + 5000 * (L 0).val + 200 * k.val := by rw [k0_off1_eq]; rfl
theorem off2_0 : k0_off2 L k 0 = 10000 * (L 1).val + 5000 * (L 0).val + 200 * k.val := by rw [k0_off2_eq]; rfl
theorem off2_1 : k0_off2 L k 1 = 0 := by rw [k0_off2_eq]; rfl

theorem trips_eq : k0_t1_loop.trips = 25 := by decide

theorem mem_tripRows (x : S160000x128.Idx) :
    x ∈ tripRows L k ↔ 10000 * (L 1).val + 5000 * (L 0).val + 200 * k.val ≤ (x 0).val
      ∧ (x 0).val < 10000 * (L 1).val + 5000 * (L 0).val + 200 * k.val + 200 := by
  show x ∈ ((View.whole main_v10_0_scv).slice (Rect.unit (s := S160000x128) (k0_off2 L k) S200x128.size (k0_off2_inb L k))).set ↔ _
  rw [View.set_slice_whole, Rect.mem_set_unit]
  refine Fin.forall_fin_two.trans ?_
  show (k0_off2 L k 0 ≤ (x 0).val ∧ (x 0).val < k0_off2 L k 0 + 200) ∧ (k0_off2 L k 1 ≤ (x 1).val ∧ (x 1).val < k0_off2 L k 1 + 128) ↔ _
  rw [off2_0, off2_1]
  have h1 : (x 1).val < 128 := (x 1).isLt
  omega

theorem mem_tileRows (x : S160000x128.Idx) :
    x ∈ tileRows L ↔ 10000 * (L 1).val + 5000 * (L 0).val ≤ (x 0).val ∧ (x 0).val < 10000 * (L 1).val + 5000 * (L 0).val + 5000 := by
  simp only [tileRows, Finset.mem_biUnion, Finset.mem_univ, true_and, mem_tripRows]
  constructor
  · rintro ⟨k, hk⟩
    have hk25 : k.val < 25 := trips_eq ▸ k.isLt
    omega
  · intro h
    exact ⟨⟨((x 0).val - (10000 * (L 1).val + 5000 * (L 0).val)) / 200, by rw [trips_eq]; omega⟩, by dsimp only; omega⟩

end Closed

end Cert.Proof.KI

end
-- ==== Proof.KHost.lean ====
import proofs.«210907_g44332652429893_cont_8to1_b_736_41_alg».proof.KernelIdeal
import proofs.«210907_g44332652429893_cont_8to1_b_736_41_alg».proof.Proof.Gen.KernelIdeal
import proofs.«210907_g44332652429893_cont_8to1_b_736_41_alg».proof.Proof.PreFacts
import Idealize.ShloMosaic.Lib.ValueIdx
import Idealize.ShloMosaic.Lib.Pipeline.Value
import Idealize.ShloMosaic.PureOps.Ideal

noncomputable section

namespace Cert.Proof.KI.Host

open Idealize.ShloMosaic Idealize.ShloMosaic.ValueIdx Cert.KernelIdeal

variable [Facts]
open Facts₀ Facts

variable {α : Type}

def idxA (a2 : S2x1x10000x16.Idx → α) : S160000.Idx → α :=
  shapeCast S160000
    (shapeCast S10000x16
      (extractStridedSlice S1x1x10000x16 ![1, 0, 0, 0] a2 slices_S2x1x10000x16_S1x1x10000x16_1_0_0_0)
      shapeCasts_S1x1x10000x16_S10000x16)
    shapeCasts_S10000x16_S160000

def idxB (a2 : S2x1x10000x16.Idx → α) : S160000.Idx → α :=
  shapeCast S160000
    (shapeCast S10000x16
      (extractStridedSlice S1x1x10000x16 ![0, 0, 0, 0] a2 slices_S2x1x10000x16_S1x1x10000x16_0_0_0_0)
      shapeCasts_S1x1x10000x16_S10000x16)
    shapeCasts_S10000x16_S160000

theorem idxH_apply (h : Fin 2) (a2 : S2x1x10000x16.Idx → α) (hs : S2x1x10000x16.Slices ![h.val, 0, 0, 0] S1x1x10000x16) (k : Fin 160000) :
    shapeCast S160000 (shapeCast S10000x16 (extractStridedSlice S1x1x10000x16 ![h.val, 0, 0, 0] a2 hs) shapeCasts_S1x1x10000x16_S10000x16)
        shapeCasts_S10000x16_S160000 (ix1 k)
      = a2 (ix4 h (0 : Fin 1) (⟨k.val / 16, by omega⟩ : Fin 10000) (⟨k.val % 16, by omega⟩ : Fin 16)) := by
  have hq : k.val / 16 < 10000 := by omega
  have hr : k.val % 16 < 16 := by omega
  refine (shapeCast_apply _ _ (ix1 k) (ix2 ⟨_, hq⟩ ⟨_, hr⟩)
    (by rw [Shape.rowMajor_val_two, Shape.rowMajor_val_one]
        show k.val / 16 * 16 + k.val % 16 = k.val
        omega)).trans ?_
  refine (shapeCast_apply _ _ _ (ix4 (0 : Fin 1) (0 : Fin 1) ⟨_, hq⟩ ⟨_, hr⟩)
    (by rw [Shape.rowMajor_val_four, Shape.rowMajor_val_two]
        show ((0 * 1 + 0) * 10000 + k.val / 16) * 16 + k.val % 16 = k.val / 16 * 16 + k.val % 16
        omega)).trans ?_
  exact extractStridedSlice_apply _ _ _ _ _ (fun a => match a with
    | ⟨0, _⟩ => rfl
    | ⟨1, _⟩ => rfl
    | ⟨2, _⟩ => (Nat.zero_add _).symm
    | ⟨3, _⟩ => (Nat.zero_add _).symm)

theorem idxA_apply (a2 : S2x1x10000x16.Idx → α) (k : Fin 160000) :
    idxA a2 (ix1 k) = a2 (ix4 (1 : Fin 2) (0 : Fin 1) (⟨k.val / 16, by omega⟩ : Fin 10000) (⟨k.val % 16, by omega⟩ : Fin 16)) :=
  idxH_apply 1 a2 _ k

theorem idxB_apply (a2 : S2x1x10000x16.Idx → α) (k : Fin 160000) :
    idxB a2 (ix1 k) = a2 (ix4 (0 : Fin 2) (0 : Fin 1) (⟨k.val / 16, by omega⟩ : Fin 10000) (⟨k.val % 16, by omega⟩ : Fin 16)) :=
  idxH_apply 0 a2 _ k

theorem idxA_lt {a2 : IVec S2x1x10000x16 32} {N : Nat} (h : ∀ j, (a2 j).toNat < N) (j : S160000.Idx) :
    (idxA a2 j).toNat < N := h _

theorem idxB_lt {a2 : IVec S2x1x10000x16 32} {N : Nat} (h : ∀ j, (a2 j).toNat < N) (j : S160000.Idx) :
    (idxB a2 j).toNat < N := h _

theorem tr2_apply {A B : ℕ} (x : (⟨2, ![A, B]⟩ : Shape).Idx → α) (ht : (⟨2, ![A, B]⟩ : Shape).Transposes [1, 0] ⟨2, ![B, A]⟩)
    (b : Fin B) (a : Fin A) : transpose _ [1, 0] x ht (ix2 b a) = x (ix2 a b) :=
  transpose_apply _ _ _ _ _ (fun i => match i with | ⟨0, _⟩ => rfl | ⟨1, _⟩ => rfl)

theorem trSlice_apply {R C N : ℕ} (q : ℕ) (x : (⟨2, ![R, C]⟩ : Shape).Idx → α) (hs : (⟨2, ![R, C]⟩ : Shape).Slices ![0, q] ⟨2, ![R, N]⟩)
    (ht : (⟨2, ![R, N]⟩ : Shape).Transposes [1, 0] ⟨2, ![N, R]⟩) (c : Fin N) (o : Fin R) (j : Fin C) (hj : j.val = q + c.val) :
    transpose _ [1, 0] (extractStridedSlice _ ![0, q] x hs) ht (ix2 c o) = x (ix2 o j) :=
  (tr2_apply _ ht c o).trans (extractStridedSlice_apply _ _ _ _ _ (fun a => match a with
    | ⟨0, _⟩ => (Nat.zero_add _).symm
    | ⟨1, _⟩ => hj))

def nodeTab (a0 : S1x128x10000x1.Idx → α) : S10000x128.Idx → α :=
  transpose S10000x128 [1, 0] (shapeCast S128x10000 a0 shapeCasts_S1x128x10000x1_S128x10000) transposes_S128x10000_S10000x128_1_0

theorem nodeTab_apply (a0 : S1x128x10000x1.Idx → α) (n : Fin 10000) (c : Fin 128) :
    nodeTab a0 (ix2 n c) = a0 (ix4 (0 : Fin 1) c n (0 : Fin 1)) := by
  unfold nodeTab
  exact (tr2_apply _ _ n c).trans (shapeCast_apply _ _ _ (ix4 (0 : Fin 1) c n (0 : Fin 1))
    (by rw [Shape.rowMajor_val_four, Shape.rowMajor_val_two]
        show ((0 * 128 + c.val) * 10000 + n.val) * 1 + 0 = c.val * 10000 + n.val
        omega))

def edgeT (a1 : S1x16x10000x16.Idx → α) : S16x160000.Idx → α :=
  shapeCast S16x160000 (shapeCast S16x10000x16 a1 shapeCasts_S1x16x10000x16_S16x10000x16) shapeCasts_S16x10000x16_S16x160000

theorem edgeT_apply (a1 : S1x16x10000x16.Idx → α) (c : Fin 16) (k : Fin 160000) :
    edgeT a1 (ix2 c k) = a1 (ix4 (0 : Fin 1) c (⟨k.val / 16, by omega⟩ : Fin 10000) (⟨k.val % 16, by omega⟩ : Fin 16)) := by
  unfold edgeT
  refine (shapeCast_apply _ _ (ix2 c k) (ix3 c (⟨k.val / 16, by omega⟩ : Fin 10000) (⟨k.val % 16, by omega⟩ : Fin 16))
    (by rw [Shape.rowMajor_val_three, Shape.rowMajor_val_two]
        show (c.val * 10000 + k.val / 16) * 16 + k.val % 16 = c.val * 160000 + k.val
        omega)).trans ?_
  exact shapeCast_apply _ _ _ (ix4 (0 : Fin 1) c (⟨k.val / 16, by omega⟩ : Fin 10000) (⟨k.val % 16, by omega⟩ : Fin 16))
    (by rw [Shape.rowMajor_val_four, Shape.rowMajor_val_three]
        show ((0 * 16 + c.val) * 10000 + k.val / 16) * 16 + k.val % 16 = (c.val * 10000 + k.val / 16) * 16 + k.val % 16
        omega)

def w1e (a3 : S256x272.Idx → α) : S16x256.Idx → α :=
  transpose S16x256 [1, 0] (extractStridedSlice S256x16 ![0, 0] a3 slices_S256x272_S256x16_0_0) transposes_S256x16_S16x256_1_0

def w1i (a3 : S256x272.Idx → α) : S128x256.Idx → α :=
  transpose S128x256 [1, 0] (extractStridedSlice S256x128 ![0, 16] a3 slices_S256x272_S256x128_0_16) transposes_S256x128_S128x256_1_0

def w1j (a3 : S256x272.Idx → α) : S128x256.Idx → α :=
  transpose S128x256 [1, 0] (extractStridedSlice S256x128 ![0, 144] a3 slices_S256x272_S256x128_0_144) transposes_S256x128_S128x256_1_0

def w3h (a11 : S256x256.Idx → α) : S128x256.Idx → α :=
  transpose S128x256 [1, 0] (extractStridedSlice S256x128 ![0, 0] a11 slices_S256x256_S256x128_0_0) transposes_S256x128_S128x256_1_0

def w3m (a11 : S256x256.Idx → α) : S128x256.Idx → α :=
  transpose S128x256 [1, 0] (extractStridedSlice S256x128 ![0, 128] a11 slices_S256x256_S256x128_0_128) transposes_S256x128_S128x256_1_0

def wT (a : S128x256.Idx → α) : S256x128.Idx → α :=
  transpose S256x128 [1, 0] a transposes_S128x256_S256x128_1_0

def row256 (v : S256.Idx → α) : S1x256.Idx → α := shapeCast S1x256 v shapeCasts_S256_S1x256

def row128 (v : S128.Idx → α) : S1x128.Idx → α := shapeCast S1x128 v shapeCasts_S128_S1x128

theorem w1e_apply (a3 : S256x272.Idx → α) (c : Fin 16) (o : Fin 256) :
    w1e a3 (ix2 c o) = a3 (ix2 o (⟨c.val, by omega⟩ : Fin 272)) := trSlice_apply 0 a3 _ _ c o _ (Nat.zero_add _).symm

theorem w1i_apply (a3 : S256x272.Idx → α) (c : Fin 128) (o : Fin 256) :
    w1i a3 (ix2 c o) = a3 (ix2 o (⟨16 + c.val, by omega⟩ : Fin 272)) := trSlice_apply 16 a3 _ _ c o _ rfl

theorem w1j_apply (a3 : S256x272.Idx → α) (c : Fin 128) (o : Fin 256) :
    w1j a3 (ix2 c o) = a3 (ix2 o (⟨144 + c.val, by omega⟩ : Fin 272)) := trSlice_apply 144 a3 _ _ c o _ rfl

theorem w3h_apply (a11 : S256x256.Idx → α) (c : Fin 128) (o : Fin 256) :
    w3h a11 (ix2 c o) = a11 (ix2 o (⟨c.val, by omega⟩ : Fin 256)) := trSlice_apply 0 a11 _ _ c o _ (Nat.zero_add _).symm

theorem w3m_apply (a11 : S256x256.Idx → α) (c : Fin 128) (o : Fin 256) :
    w3m a11 (ix2 c o) = a11 (ix2 o (⟨128 + c.val, by omega⟩ : Fin 256)) := trSlice_apply 128 a11 _ _ c o _ rfl

theorem wT_apply (a : S128x256.Idx → α) (c : Fin 256) (o : Fin 128) : wT a (ix2 c o) = a (ix2 o c) := tr2_apply a _ c o

theorem row256_apply (v : S256.Idx → α) (o : Fin 256) : row256 v (ix2 (0 : Fin 1) o) = v (ix1 o) := by
  unfold row256
  exact shapeCast_apply _ _ _ _
    (by rw [Shape.rowMajor_val_one, Shape.rowMajor_val_two]
        show o.val = 0 * 256 + o.val
        omega)

theorem row128_apply (v : S128.Idx → α) (o : Fin 128) : row128 v (ix2 (0 : Fin 1) o) = v (ix1 o) := by
  unfold row128
  exact shapeCast_apply _ _ _ _
    (by rw [Shape.rowMajor_val_one, Shape.rowMajor_val_two]
        show o.val = 0 * 128 + o.val
        omega)

section Eye
variable {F : FTy → Type} [FloatOps F]

def eye : FVec F S128x128 .f32 :=
  uitofp .f32
    (cmpi .eq
      (addi (iotaInDim S128x128 32 0) (broadcastInDim S128x128 ![] bcast_S_S128x128 (constantI S_ 32 0#32)))
      (iotaInDim S128x128 32 1))

theorem eye_apply (r j : Fin 128) :
    eye (F := F) (ix2 r j) = FloatOps.uitofp .f32 (if r = j then 1#1 else 0#1) := by
  show FloatOps.uitofp .f32 (BitVec.ofBool (BitVec.ofNat 32 r.val + 0#32 == BitVec.ofNat 32 j.val)) = _
  rw [BitVec.add_zero]
  by_cases h : r = j
  · subst h; simp
  · rw [if_neg h, beq_eq_false_iff_ne.2 fun e => h (Fin.ext (by
      have e' := congrArg BitVec.toNat e
      simp only [BitVec.toNat_ofNat] at e'
      omega))]
    rfl

end Eye

theorem eye_ideal (r j : Fin 128) : eye (F := Ideal) (ix2 r j) = if r = j then (1 : EReal) else 0 := by
  rw [eye_apply]
  show (((if r = j then 1#1 else 0#1 : BitVec 1).toNat : ℝ) : EReal) = _
  split <;> simp

def outE (x : S128x160000.Idx → α) : S1x128x10000x16.Idx → α :=
  broadcastInDim S1x128x10000x16 (![1, 2, 3] : Fin 3 → Fin S1x128x10000x16.rank) bcast_S128x10000x16_S1x128x10000x16_1_2_3
    (shapeCast S128x10000x16 x shapeCasts_S128x160000_S128x10000x16)

theorem outE_apply (x : S128x160000.Idx → α) (c : Fin 128) (n : Fin 10000) (k : Fin 16) :
    outE x (ix4 (0 : Fin 1) c n k) = x (ix2 c (⟨16 * n.val + k.val, by omega⟩ : Fin 160000)) := by
  unfold outE
  refine (broadcastInDim_apply _ _ _ (ix4 (0 : Fin 1) c n k) (ix3 c n k)
    (fun a => match a with | ⟨0, _⟩ => rfl | ⟨1, _⟩ => rfl | ⟨2, _⟩ => rfl)).trans ?_
  exact shapeCast_apply _ _ _ _
    (by rw [Shape.rowMajor_val_two, Shape.rowMajor_val_three]
        show c.val * 160000 + (16 * n.val + k.val) = (c.val * 10000 + n.val) * 16 + k.val
        omega)

def outN (y : S128x10000.Idx → α) : S1x128x10000x1.Idx → α :=
  broadcastInDim S1x128x10000x1 (![1, 2] : Fin 2 → Fin S1x128x10000x1.rank) bcast_S128x10000_S1x128x10000x1_1_2 y

theorem outN_apply (y : S128x10000.Idx → α) (c : Fin 128) (n : Fin 10000) :
    outN y (ix4 (0 : Fin 1) c n (0 : Fin 1)) = y (ix2 c n) := by
  unfold outN
  exact broadcastInDim_apply _ _ _ (ix4 (0 : Fin 1) c n (0 : Fin 1)) (ix2 c n)
    (fun a => match a with | ⟨0, _⟩ => rfl | ⟨1, _⟩ => rfl)

end Cert.Proof.KI.Host

end
-- ==== Proof.KLaunchAux.lean ====
import proofs.«210907_g44332652429893_cont_8to1_b_736_41_alg».proof.Proof.KLaunchDefs
import proofs.«210907_g44332652429893_cont_8to1_b_736_41_alg».proof.Proof.KTileDefs
import proofs.«210907_g44332652429893_cont_8to1_b_736_41_alg».proof.Proof.KHost

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

theorem after1_v6 (d : Dev nD) :
    StableHlo.after (ops1 (F := F)) (StableHlo.launchContents m d) (Proc.devRef .tc main_v6)
      = Host.idxA (m ((SparseCore.T d).loc main_arg2)) := by
  unfold ops1; after_results; rfl

theorem after1_v9 (d : Dev nD) :
    StableHlo.after (ops1 (F := F)) (StableHlo.launchContents m d) (Proc.devRef .tc main_v9)
      = Host.idxB (m ((SparseCore.T d).loc main_arg2)) := by
  unfold ops1; after_results; rfl

theorem after1_v1 (d : Dev nD) :
    StableHlo.after (ops1 (F := F)) (StableHlo.launchContents m d) (Proc.devRef .tc main_v1)
      = Host.nodeTab (m ((SparseCore.T d).loc main_arg0)) := by
  unfold ops1; after_results; rfl

theorem preOK_of_after
    (hpre : ∀ (d : Dev nD) (j : S2x1x10000x16.Idx), (m ((SparseCore.T d).loc main_arg2) j).toNat < 10000) :
    PreOK (F := F) (fun ℓ => StableHlo.after (ops1 (F := F)) (StableHlo.launchContents m ℓ.1) ℓ.2) := by
  intro d
  refine ⟨fun j => ?_, fun j => ?_⟩
  · show ((StableHlo.after (ops1 (F := F)) (StableHlo.launchContents m d) (Proc.devRef .tc main_v6)) j).toNat < 10000
    rw [after1_v6]
    exact Host.idxA_lt (hpre d) j
  · show ((StableHlo.after (ops1 (F := F)) (StableHlo.launchContents m d) (Proc.devRef .tc main_v9)) j).toNat < 10000
    rw [after1_v9]
    exact Host.idxB_lt (hpre d) j

def coordsV (c : Fin (grid0.bound 0)) (s : Fin (grid0.bound 1)) : grid0.Coords :=
  fun | 0 => c | 1 => s | ⟨_ + 2, h⟩ => absurd h (Nat.not_lt.2 (Nat.le_add_left _ _))

theorem bound_zero : (K (F := F)).nCore 0 = grid0.bound 0 := rfl
theorem bound_one : (K (F := F)).nSub 0 = grid0.bound 1 := rfl

abbrev placeV (c : Fin ((K (F := F)).nCore 0)) (i : Fin ((K (F := F)).nSub 0)) : grid0.Coords :=
  coordsV (Fin.cast (bound_zero (F := F)) c) (Fin.cast (bound_one (F := F)) i)

def scRefs : Finset (DevRef τ sig) :=
  {Proc.devRef .tc main_v1, Proc.devRef .tc main_v6, Proc.devRef .tc main_v9, Proc.devRef .tc main_v10_0, Proc.devRef .tc main_v10_1}

namespace Aux

omit [FloatOps F] in

theorem rowOff_zero (L : grid0.Coords) (k : Fin k0_t1_loop.trips) :
    k0_off2 L k 0 = 10000 * (L 1).val + 5000 * (L 0).val + 200 * k.val := by rw [k0_off2_eq]; rfl
omit [FloatOps F] in
theorem rowOff_one (L : grid0.Coords) (k : Fin k0_t1_loop.trips) : k0_off2 L k 1 = 0 := by rw [k0_off2_eq]; rfl

omit [FloatOps F] in

theorem mem_tripRows (L : grid0.Coords) (k : Fin k0_t1_loop.trips) (x : S160000x128.Idx) :
    x ∈ tripRows L k ↔ 10000 * (L 1).val + 5000 * (L 0).val + 200 * k.val ≤ (x 0).val
      ∧ (x 0).val < 10000 * (L 1).val + 5000 * (L 0).val + 200 * k.val + 200 := by
  have e : tripRows L k = (Rect.unit (s := S160000x128) (k0_off2 L k) S200x128.size (k0_off2_inb L k)).set :=
    View.set_slice_whole main_v10_0_scv _
  rw [e, Rect.mem_set_unit]
  constructor
  · intro h
    have h0 := h 0
    rw [rowOff_zero] at h0
    exact h0
  · intro h a
    match a with
    | ⟨0, _⟩ =>
      show k0_off2 L k 0 ≤ (x 0).val ∧ (x 0).val < k0_off2 L k 0 + 200
      rw [rowOff_zero]; exact h
    | ⟨1, _⟩ =>
      show k0_off2 L k 1 ≤ (x 1).val ∧ (x 1).val < k0_off2 L k 1 + 128
      rw [rowOff_one]
      have h1 : (x 1).val < 128 := (x 1).isLt
      omega

omit [FloatOps F] in

theorem mem_tileRows (L : grid0.Coords) (x : S160000x128.Idx) :
    x ∈ tileRows L ↔ 10000 * (L 1).val + 5000 * (L 0).val ≤ (x 0).val
      ∧ (x 0).val < 10000 * (L 1).val + 5000 * (L 0).val + 5000 := by
  unfold tileRows
  rw [Finset.mem_biUnion]
  constructor
  · rintro ⟨k, -, hk⟩
    rw [mem_tripRows] at hk
    have hk25 : k.val < 25 := k.isLt
    omega
  · intro h
    have hq : ((x 0).val - (10000 * (L 1).val + 5000 * (L 0).val)) / 200 < k0_t1_loop.trips := by
      show _ < 25
      omega
    refine ⟨⟨_, hq⟩, Finset.mem_univ _, ?_⟩
    rw [mem_tripRows]
    dsimp only
    omega

theorem tileRows_disjoint {c c' : Fin ((K (F := F)).nCore 0)} {i i' : Fin ((K (F := F)).nSub 0)} (h : (c, i) ≠ (c', i')) :
    Disjoint (tileRows (placeV c i)) (tileRows (placeV c' i')) := by
  rw [Finset.disjoint_left]
  intro x hx hx'
  rw [mem_tileRows] at hx hx'
  have hc : c.val < 2 := c.isLt
  have hc' : c'.val < 2 := c'.isLt
  have e0 : (placeV c i 0).val = c.val := rfl
  have e1 : (placeV c i 1).val = i.val := rfl
  have e0' : (placeV c' i' 0).val = c'.val := rfl
  have e1' : (placeV c' i' 1).val = i'.val := rfl
  rw [e0, e1] at hx
  rw [e0', e1'] at hx'
  exact h (Prod.ext (Fin.ext (by show c.val = c'.val; omega)) (Fin.ext (by show i.val = i'.val; omega)))

theorem tileRows_cover :
    (Finset.univ : Finset (Fin ((K (F := F)).nCore 0) × Fin ((K (F := F)).nSub 0))).biUnion (fun p => tileRows (placeV p.1 p.2))
      = (Finset.univ : Finset S160000x128.Idx) := by
  ext x
  simp only [Finset.mem_biUnion, Finset.mem_univ, true_and, iff_true]
  have hx : (x 0).val < 160000 := (x 0).isLt
  have h2 : (x 0).val % 10000 / 5000 < (K (F := F)).nCore 0 := by show _ < 2; omega
  have h16 : (x 0).val / 10000 < (K (F := F)).nSub 0 := by show _ < 16; omega
  refine ⟨(⟨_, h2⟩, ⟨_, h16⟩), ?_⟩
  rw [mem_tileRows]
  show 10000 * ((x 0).val / 10000) + 5000 * ((x 0).val % 10000 / 5000) ≤ (x 0).val
    ∧ (x 0).val < 10000 * ((x 0).val / 10000) + 5000 * ((x 0).val % 10000 / 5000) + 5000
  omega

section Deal

theorem sep_comm_eq (P Q : sProp 𝕄) : iprop(P ∗ Q) = iprop(Q ∗ P) :=
  BI.equiv_iff.mp ⟨(Laws.sep_comm (P := P) (Q := Q)).1, (Laws.sep_comm (P := P) (Q := Q)).2⟩
theorem sep_assoc_eq (P Q R : sProp 𝕄) : iprop((P ∗ Q) ∗ R) = iprop(P ∗ Q ∗ R) :=
  BI.equiv_iff.mp ⟨(Laws.sep_assoc (P := P) (Q := Q) (R := R)).1, (Laws.sep_assoc (P := P) (Q := Q) (R := R)).2⟩

variable {ℓ : Loc nD τ sig}

def readRest (ℓ : Loc nD τ sig) (f : Buf (Elt F) ℓ) : sProp 𝕄 :=
  iprop((ℓ ↦{Transfers.shareDrop fullShare ((K (F := F)).nCore 0)} f)
    ∗ bigSep Finset.univ fun c : Fin ((K (F := F)).nCore 0) =>
        ℓ ↦{Transfers.shareDrop (Transfers.shareTokN fullShare c.val) ((K (F := F)).nSub 0)} f)

theorem read_deal (f : Buf (Elt F) ℓ) :
    (ℓ ↦{fullShare} f : sProp 𝕄)
      = iprop((bigSep Finset.univ fun c : Fin ((K (F := F)).nCore 0) => bigSep Finset.univ fun i : Fin ((K (F := F)).nSub 0) =>
          ℓ ↦{tq (placeV c i)} f) ∗ readRest ℓ f) := by
  have h0 := Transfers.pointsTo_toks (Lvl := ℕ) (Ix := HIx 1) (Name := ℕ) (U := UU) (ℓ := ℓ) (S := Finset.univ) (f := f) fullShare ((K (F := F)).nCore 0)
  rw [BI.equiv_iff.mp ⟨h0.1, h0.2⟩]
  have h : ∀ c : Fin ((K (F := F)).nCore 0), (ℓ ↦{Transfers.shareTok fullShare ((K (F := F)).nCore 0) c} f : sProp 𝕄)
      = iprop((ℓ ↦{Transfers.shareDrop (Transfers.shareTokN fullShare c.val) ((K (F := F)).nSub 0)} f)
          ∗ bigSep Finset.univ fun i : Fin ((K (F := F)).nSub 0) => ℓ ↦{tq (placeV c i)} f) := fun c =>
    have hc := Transfers.pointsTo_toks (Lvl := ℕ) (Ix := HIx 1) (Name := ℕ) (U := UU) (ℓ := ℓ) (S := Finset.univ) (f := f) (Transfers.shareTokN fullShare c.val) ((K (F := F)).nSub 0)
    BI.equiv_iff.mp ⟨hc.1, hc.2⟩
  rw [bigSep_congr (fun c _ => h c), bigSep_sep']
  unfold readRest
  exact (sep_assoc_eq _ _ _).symm.trans (sep_comm_eq _ _)

end Deal

theorem rowsA_deal (d : Dev nD) (f : Buf (Elt F) (resALoc d)) :
    (resALoc d ↦{fullShare} f : sProp 𝕄)
      = bigSep Finset.univ fun c : Fin ((K (F := F)).nCore 0) => bigSep Finset.univ fun i : Fin ((K (F := F)).nSub 0) =>
          resALoc d ↦[tileRows (placeV c i)]{fullShare} f := by
  have h : (resALoc d ↦[(Finset.univ : Finset (Fin ((K (F := F)).nCore 0) × Fin ((K (F := F)).nSub 0))).biUnion
        (fun p => tileRows (placeV p.1 p.2))]{fullShare} f : sProp 𝕄)
      = bigSep Finset.univ fun p : Fin ((K (F := F)).nCore 0) × Fin ((K (F := F)).nSub 0) =>
          resALoc d ↦[tileRows (placeV p.1 p.2)]{fullShare} f :=
    pointsTo_biUnion _ _ (fun p _ p' _ hne => tileRows_disjoint (F := F) hne)
  rw [tileRows_cover] at h
  rw [h, bigSep_univ_prod]

theorem rowsB_deal (d : Dev nD) (f : Buf (Elt F) (resBLoc d)) :
    (resBLoc d ↦{fullShare} f : sProp 𝕄)
      = bigSep Finset.univ fun c : Fin ((K (F := F)).nCore 0) => bigSep Finset.univ fun i : Fin ((K (F := F)).nSub 0) =>
          resBLoc d ↦[tileRows (placeV c i)]{fullShare} f := by
  have h : (resBLoc d ↦[(Finset.univ : Finset (Fin ((K (F := F)).nCore 0) × Fin ((K (F := F)).nSub 0))).biUnion
        (fun p => tileRows (placeV p.1 p.2))]{fullShare} f : sProp 𝕄)
      = bigSep Finset.univ fun p : Fin ((K (F := F)).nCore 0) × Fin ((K (F := F)).nSub 0) =>
          resBLoc d ↦[tileRows (placeV p.1 p.2)]{fullShare} f :=
    pointsTo_biUnion _ _ (fun p _ p' _ hne => tileRows_disjoint (F := F) hne)
  rw [tileRows_cover] at h
  rw [h, bigSep_univ_prod]

def tilePiece (Vv : Valuation τ sig (Elt F)) (d : Dev nD) (L : grid0.Coords) : sProp 𝕄 :=
  iprop(((tabLoc d ↦{tq L} Vv (Proc.devRef .tc main_v1)) ∗ (ixALoc d ↦{tq L} Vv (Proc.devRef .tc main_v6))
      ∗ (ixBLoc d ↦{tq L} Vv (Proc.devRef .tc main_v9)))
    ∗ (resALoc d ↦[tileRows L]{fullShare} Vv (Proc.devRef .tc main_v10_0))
    ∗ (resBLoc d ↦[tileRows L]{fullShare} Vv (Proc.devRef .tc main_v10_1)))

def scRest (Vv : Valuation τ sig (Elt F)) (d : Dev nD) : sProp 𝕄 :=
  iprop(readRest (tabLoc d) (Vv (Proc.devRef .tc main_v1)) ∗ readRest (ixALoc d) (Vv (Proc.devRef .tc main_v6))
    ∗ readRest (ixBLoc d) (Vv (Proc.devRef .tc main_v9)))

theorem held_sc (Vv : Valuation τ sig (Elt F)) (d : Dev nD) :
    (StableHlo.held (SparseCore.T d) scRefs Vv : sProp 𝕄)
      = iprop((bigSep Finset.univ fun c : Fin ((K (F := F)).nCore 0) => bigSep Finset.univ fun i : Fin ((K (F := F)).nSub 0) =>
          tilePiece Vv d (placeV c i)) ∗ scRest Vv d) := by
  unfold StableHlo.held scRefs
  rw [bigSep_insert (by decide), bigSep_insert (by decide), bigSep_insert (by decide), bigSep_insert (by decide), bigSep_singleton]
  show iprop((tabLoc d ↦{fullShare} Vv (Proc.devRef .tc main_v1)) ∗ (ixALoc d ↦{fullShare} Vv (Proc.devRef .tc main_v6))
    ∗ (ixBLoc d ↦{fullShare} Vv (Proc.devRef .tc main_v9)) ∗ (resALoc d ↦{fullShare} Vv (Proc.devRef .tc main_v10_0))
    ∗ (resBLoc d ↦{fullShare} Vv (Proc.devRef .tc main_v10_1))) = _
  rw [read_deal (ℓ := tabLoc d), read_deal (ℓ := ixALoc d), read_deal (ℓ := ixBLoc d), rowsA_deal, rowsB_deal]
  unfold tilePiece scRest
  simp only [bigSep_sep']
  haveI : Std.Commutative (BIBase.sep (PROP := sProp 𝕄)) := ⟨sep_comm_eq⟩
  haveI : Std.Associative (BIBase.sep (PROP := sProp 𝕄)) := ⟨sep_assoc_eq⟩
  ac_rfl

-- Out go the operands, each result row at whatever it holds; back, rows gathered, they are the operands at `V₂`, which differs from `V₁` at the two results only.
theorem sc_split_of (V₁ V₂ : Valuation τ sig (Elt F)) (μ : (ℓ : Loc nD τ sig) → Buf (Elt F) ℓ) (d : Dev nD)
    (hV : V₂ = Function.update (Function.update V₁ (Proc.devRef .tc main_v10_0) (gatheredA μ d)) (Proc.devRef .tc main_v10_1) (gatheredB μ d))
    (h1 : μ (tabLoc d) = V₁ (Proc.devRef .tc main_v1)) (h6 : μ (ixALoc d) = V₁ (Proc.devRef .tc main_v6))
    (h9 : μ (ixBLoc d) = V₁ (Proc.devRef .tc main_v9)) :
    (StableHlo.held (SparseCore.T d) scRefs V₁ : sProp 𝕄)
      ⊢ |={Set.univ}=> iprop(
        (bigSep Finset.univ fun c : Fin ((K (F := F)).nCore 0) => bigSep Finset.univ fun i : Fin ((K (F := F)).nSub 0) =>
          tileGo μ d (placeV c i))
        ∗ ((bigSep Finset.univ fun c : Fin ((K (F := F)).nCore 0) => bigSep Finset.univ fun i : Fin ((K (F := F)).nSub 0) =>
            tileDone μ d (placeV c i))
          -∗ StableHlo.held (SparseCore.T d) scRefs V₂)) := by
  have e : ∀ b, b ≠ Proc.devRef .tc main_v10_0 → b ≠ Proc.devRef .tc main_v10_1 → V₂ b = V₁ b := fun b h0 h1 => by
    rw [hV, Function.update_of_ne h1, Function.update_of_ne h0]
  have e1 := e (Proc.devRef .tc main_v1) (by decide) (by decide)
  have e6 := e (Proc.devRef .tc main_v6) (by decide) (by decide)
  have e9 := e (Proc.devRef .tc main_v9) (by decide) (by decide)
  have eA : V₂ (Proc.devRef .tc main_v10_0) = gatheredA μ d := by rw [hV, Function.update_of_ne (by decide), Function.update_self]
  have eB : V₂ (Proc.devRef .tc main_v10_1) = gatheredB μ d := by rw [hV, Function.update_self]
  rw [held_sc V₁ d, held_sc V₂ d]
  have hgo : (bigSep Finset.univ fun c : Fin ((K (F := F)).nCore 0) => bigSep Finset.univ fun i : Fin ((K (F := F)).nSub 0) =>
        tilePiece V₁ d (placeV c i) : sProp 𝕄)
      ⊢ bigSep Finset.univ fun c : Fin ((K (F := F)).nCore 0) => bigSep Finset.univ fun i : Fin ((K (F := F)).nSub 0) =>
        tileGo μ d (placeV c i) := by
    refine bigSep_mono fun c _ => bigSep_mono fun i _ =>
      (?_ : (tilePiece V₁ d (placeV c i) : sProp 𝕄) ⊢ tileGo μ d (placeV c i))
    unfold tilePiece tileGo
    rw [← h1, ← h6, ← h9]
    iintro ⟨Hr, Ha, Hb⟩
    isplitl [Hr]; · iexact Hr
    isplitl [Ha]
    · iexists _; iexact Ha
    · iexists _; iexact Hb
  have hD : ∀ L : grid0.Coords, tilePiece V₂ d L = tileDone μ d L := fun L => by
    unfold tilePiece tileDone
    rw [e1, e6, e9, eA, eB, ← h1, ← h6, ← h9]
  have hback : iprop(scRest V₁ d ∗ (bigSep Finset.univ fun c : Fin ((K (F := F)).nCore 0) => bigSep Finset.univ fun i : Fin ((K (F := F)).nSub 0) =>
        tileDone μ d (placeV c i)))
      ⊢ (iprop((bigSep Finset.univ fun c : Fin ((K (F := F)).nCore 0) => bigSep Finset.univ fun i : Fin ((K (F := F)).nSub 0) =>
          tilePiece V₂ d (placeV c i)) ∗ scRest V₂ d) : sProp 𝕄) := by
    rw [show scRest V₂ d = scRest V₁ d from by unfold scRest; rw [e1, e6, e9],
      bigSep_congr (fun c _ => bigSep_congr (fun i _ => hD (placeV c i)))]
    exact Laws.sep_comm.1
  iintro ⟨Hbig, Hrest⟩
  imodintro
  isplitl [Hbig]
  · iapply (hgo) $$ Hbig
  · iintro Hdone
    iapply (hback) $$ [Hrest Hdone]
    isplitl [Hrest] <;> iassumption

end Aux

open Aux

theorem sc_split (d : Dev nD) :
    (StableHlo.held (SparseCore.T d) scRefs (StableHlo.after (ops1 (F := F)) (StableHlo.launchContents m d)) : sProp 𝕄)
      ⊢ |={Set.univ}=> iprop(
        (bigSep Finset.univ fun c : Fin ((K (F := F)).nCore 0) => bigSep Finset.univ fun i : Fin ((K (F := F)).nSub 0) =>
          tileGo (fun ℓ => StableHlo.after (ops1 (F := F)) (StableHlo.launchContents m ℓ.1) ℓ.2) d (placeV c i))
        ∗ ((bigSep Finset.univ fun c : Fin ((K (F := F)).nCore 0) => bigSep Finset.univ fun i : Fin ((K (F := F)).nSub 0) =>
            tileDone (fun ℓ => StableHlo.after (ops1 (F := F)) (StableHlo.launchContents m ℓ.1) ℓ.2) d (placeV c i))
          -∗ StableHlo.held (SparseCore.T d) scRefs
              (Function.update (Function.update (StableHlo.after (ops1 (F := F)) (StableHlo.launchContents m d))
                (Proc.devRef .tc main_v10_0) (gatheredA (fun ℓ => StableHlo.after (ops1 (F := F)) (StableHlo.launchContents m ℓ.1) ℓ.2) d))
                (Proc.devRef .tc main_v10_1) (gatheredB (fun ℓ => StableHlo.after (ops1 (F := F)) (StableHlo.launchContents m ℓ.1) ℓ.2) d)))) := by
  exact sc_split_of _ _ _ d rfl rfl rfl rfl

end Cert.Proof.KI

end
-- ==== Proof.KLaunchFin.lean ====
import proofs.«210907_g44332652429893_cont_8to1_b_736_41_alg».proof.Proof.KLaunchDefs

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

theorem unscopedBufs_read (d : Dev nD) (Vv : Valuation τ sig (Elt F)) (s' : Phys nD τ sig (Elt F)) :
    iprop(unscopedBufs d (fun b => Vv (Proc.devRef .tc b)) ∗ SI s')
      ⊢ (⌜∀ b : Ref sig .tc, b.isScoped = false → s'.mem.mem ((SparseCore.T d : Thread nD τ).loc b) = Vv (Proc.devRef .tc b)⌝ : sProp 𝕄) := by
  unfold unscopedBufs
  iintro H
  ihave H' := (pointsTo_read_all (Finset.univ.filter fun b : Ref sig .tc => ¬ b.isScoped)
    (fun b => (SparseCore.T d : Thread nD τ).loc b) (fun b => Vv (Proc.devRef .tc b)) s') $$ H
  icases H' with ⟨%h, -⟩
  ipureintro
  exact fun b hb => h b (Finset.mem_filter.mpr ⟨Finset.mem_univ b, by simp [hb]⟩)

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

abbrev ops1_W : List (Ref sig .tc) := [main_v0, main_v1, main_v2, main_v3, main_v4, main_v5, main_v6, main_v7, main_v8, main_v9]
abbrev ops2_W : List (Ref sig .tc) := [main_v11, main_v12, main_v13, main_v14, main_v15, main_v16, main_v17, main_v18, main_v19, main_v20, main_v21, main_v22, main_c, main_v23, main_v24, main_v25, main_v26, main_v27, main_v28, main_v29, main_v30, main_v31, main_v32, main_v33, main_v34, main_v35, main_v36]
abbrev ops3_W : List (Ref sig .tc) := [main_v42, main_v43, main_v44]

section Writes

variable [FloatOps F]

abbrev Wr (ops : List (HloOp τ sig (Elt F))) (W : List (Ref sig .tc)) : Prop :=
  ops.Forall fun op => op.writes ⊆ (W.map (Proc.devRef (τ := τ) .tc)).toFinset

-- Each host operation writes its one result, and the lists name these results.
theorem ops_writes : Wr (F := F) ops1 ops1_W ∧ Wr (F := F) ops2 ops2_W ∧ Wr (F := F) ops3 ops3_W := by
  refine ⟨?_, ?_, ?_⟩ <;>
  · simp only [Wr, ops1, ops2, ops3, List.Forall, StableHlo.nullary_writes, StableHlo.unary_writes, StableHlo.binary_writes, StableHlo.reshape_writes, Finset.singleton_subset_iff, List.mem_toFinset]
    repeat' apply And.intro
    all_goals exact List.mem_map_of_mem (by decide)

end Writes

-- No argument is a host operation's result, a result of the call, or the array of a region's window.
theorem args_not : ∀ r ∈ args, r ∉ ops1_W ∧ r ∉ ops2_W ∧ r ∉ ops3_W ∧ r ≠ main_v10_0 ∧ r ≠ main_v10_1
    ∧ (∀ w, Pipeline.arrRef spec1 w ≠ r) ∧ (∀ w, Pipeline.arrRef spec2 w ≠ r) ∧ (∀ w, Pipeline.arrRef spec3 w ≠ r)
    ∧ (∀ w, Pipeline.arrRef spec4 w ≠ r) ∧ (∀ w, Pipeline.arrRef spec5 w ≠ r) := by decide

section Chain

variable [FloatOps F]

def regVal {gr W : Nat} (spec : Fin W → Pipeline.WinSpec sig gr)
    (Fa : (w : Fin W) → (Proc.devRef (τ := τ) .tc (Pipeline.arrRef spec w)).ty.Contents (Elt F)) (Vv : Valuation τ sig (Elt F)) :
    Valuation τ sig (Elt F) :=
  fun b => if h : ∃ w, (Proc.devRef (τ := τ) .tc (Pipeline.arrRef spec w) : DevRef τ sig) = b then h.choose_spec ▸ Fa h.choose else Vv b

theorem regVal_keep {gr W : Nat} (spec : Fin W → Pipeline.WinSpec sig gr)
    (Fa : (w : Fin W) → (Proc.devRef (τ := τ) .tc (Pipeline.arrRef spec w)).ty.Contents (Elt F)) (Vv : Valuation τ sig (Elt F))
    {r : Ref sig .tc} (h : ∀ w, Pipeline.arrRef spec w ≠ r) :
    regVal spec Fa Vv (Proc.devRef .tc r) = Vv (Proc.devRef .tc r) :=
  dif_neg fun ⟨w, hw⟩ => h w (Proc.devRef_injective _ hw)

variable (m : (ℓ : Loc nD τ sig) → Buf (Elt F) ℓ)

theorem valEnd_arg (d : Dev nD)
    (A : (Proc.devRef (τ := τ) .tc main_v10_0 : DevRef τ sig).ty.Contents (Elt F))
    (B : (Proc.devRef (τ := τ) .tc main_v10_1 : DevRef τ sig).ty.Contents (Elt F))
    (Fa1 : (w : Fin 8) → (Proc.devRef (τ := τ) .tc (Pipeline.arrRef spec1 w)).ty.Contents (Elt F))
    (Fa2 : (w : Fin 7) → (Proc.devRef (τ := τ) .tc (Pipeline.arrRef spec2 w)).ty.Contents (Elt F))
    (Fa3 : (w : Fin 11) → (Proc.devRef (τ := τ) .tc (Pipeline.arrRef spec3 w)).ty.Contents (Elt F))
    (Fa4 : (w : Fin 9) → (Proc.devRef (τ := τ) .tc (Pipeline.arrRef spec4 w)).ty.Contents (Elt F))
    (Fa5 : (w : Fin 6) → (Proc.devRef (τ := τ) .tc (Pipeline.arrRef spec5 w)).ty.Contents (Elt F))
    {r : Ref sig .tc} (hr : r ∈ args) :
    StableHlo.after ops3 (regVal spec5 Fa5 (regVal spec4 Fa4 (regVal spec3 Fa3 (regVal spec2 Fa2 (regVal spec1 Fa1
      (StableHlo.after ops2 (Function.update (Function.update (StableHlo.after ops1 (StableHlo.launchContents m d))
        (Proc.devRef .tc main_v10_0) A) (Proc.devRef .tc main_v10_1) B))))))) (Proc.devRef .tc r)
      = m ((SparseCore.T d : Thread nD τ).loc r) := by
  obtain ⟨h1, h2, h3, hA, hB, w1, w2, w3, w4, w5⟩ := args_not r hr
  rw [StableHlo.after_of_writes_sub ops3 _ ops_writes.2.2 h3, regVal_keep spec5 _ _ w5, regVal_keep spec4 _ _ w4, regVal_keep spec3 _ _ w3,
    regVal_keep spec2 _ _ w2, regVal_keep spec1 _ _ w1, StableHlo.after_of_writes_sub ops2 _ ops_writes.2.1 h2,
    Function.update_of_ne (StableHlo.devRef_ne_of_ne hB), Function.update_of_ne (StableHlo.devRef_ne_of_ne hA),
    StableHlo.after_of_writes_sub ops1 _ ops_writes.1 h1]

end Chain

theorem args_unscoped : ∀ r ∈ args, r.isScoped = false := by decide

end Cert.Proof.KI

end
-- ==== Proof.KRegionLib.lean ====
import proofs.«210907_g44332652429893_cont_8to1_b_736_41_alg».proof.Proof.KBase
import Idealize.ShloMosaic.Lib.Pipeline.FrameBody
import Idealize.ShloMosaic.Lib.Pipeline.Value
import Idealize.ShloMosaic.Lib.Tactic

noncomputable section

namespace Cert.Proof.KI.RegionLib

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Whole

variable {sig' : RefSig} {κ : Kind} {sp : Space} {S : Shape} {e : EltTy} {Val : EltTy → Type}

theorem z2 : (![0, 0] : Fin 2 → ℕ) = fun _ => 0 := by funext a; fin_cases a <;> rfl

-- The rectangle of the whole shape at zero offsets embeds every index at itself.
theorem readAt_unit_zero (v : View sig' κ sp S e) {off : Fin S.rank → ℕ} (h : off = fun _ => 0)
    (inb : ∀ a, off a + S.size a ≤ S.size a) (g : v.ty.Contents Val) :
    v.readAt Val (Rect.unit off S.size inb).toLoadRect g = v.read Val g := by
  subst h; funext y; rw [View.readAt_apply]
  show v.read Val g ((Rect.whole S).emb y) = _
  rw [Rect.emb_whole_apply]

-- The last store covers every index, so earlier stores do not show.
theorem read_writes_cons_unit_zero (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rwa [Rect.emb_whole_apply] at e

-- The first store covers every index, so a load after it reads that store's payload.
theorem readCov_cons_unit_zero [∀ e, Nonempty (Val e)] (v : View sig' κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

variable {d : Fin 2 → ℕ} (v : View sig' κ sp (⟨2, d⟩ : Shape) e) (inb : ∀ a, (![0, 0] : Fin 2 → ℕ) a + d a ≤ d a)

theorem readAt_unit_zero2 (g : v.ty.Contents Val) :
    v.readAt Val (Rect.unit (s := (⟨2, d⟩ : Shape)) ![0, 0] d inb).toLoadRect g = v.read Val g :=
  readAt_unit_zero v z2 inb g

theorem read_writes_cons_unit_zero2 (f : v.ty.Contents Val) (w : (⟨2, d⟩ : Shape).Idx → Val e) (L : List (View.Piece Val (⟨2, d⟩ : Shape) e)) :
    v.read Val (v.writes Val f ((⟨Rect.unit (s := (⟨2, d⟩ : Shape)) ![0, 0] d inb, w⟩ : View.Piece Val (⟨2, d⟩ : Shape) e) :: L)) = w :=
  read_writes_cons_unit_zero v f z2 inb w L

theorem readCov_unit_zero2 [∀ e, Nonempty (Val e)] (w : (⟨2, d⟩ : Shape).Idx → Val e) (L : List (View.Piece Val (⟨2, d⟩ : Shape) e)) :
    v.readCov ((⟨Rect.unit (s := (⟨2, d⟩ : Shape)) ![0, 0] d inb, w⟩ : View.Piece Val (⟨2, d⟩ : Shape) e) :: L)
      (Rect.unit (s := (⟨2, d⟩ : Shape)) ![0, 0] d inb).toLoadRect = w :=
  readCov_cons_unit_zero v z2 inb w L

end Whole

-- Contents that read `X` are owned at `X`.
theorem ownsI {sp : Space} {S : Shape} {e : EltTy} {c : Thread nD τ} {m : Memref sig c.2.kind sp S e} {q : PosShare TreeShare}
    {f : m.view.ty.Contents (Elt F)} {X : S.Idx → Elt F e} (h : m.view.read (Elt F) f = X) :
    (m.view.loc c ↦[m.view.set]{q} f : sProp 𝕄) ⊢ iprop(∃ f, ⌜m.view.read (Elt F) f = X⌝ ∗ (m.view.loc c ↦[m.view.set]{q} f)) :=
  h ▸ owns_intro c m q f

end Cert.Proof.KI.RegionLib

end
-- ==== Proof.KRegion1.lean ====
import proofs.«210907_g44332652429893_cont_8to1_b_736_41_alg».proof.Proof.KBase
import proofs.«210907_g44332652429893_cont_8to1_b_736_41_alg».proof.Proof.KRegionLib
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Proof.KI.R1

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.KI.RegionLib

variable {F : FTy → Type} [FloatOps F]

local notation "𝕄" => MT nD τ sig (HIx 1) (Elt F) ℕ UU ℕ

abbrev cond1 (i : grid1.Coords) : Prop :=
  (Scalar.cmpi .ne (Scalar.extui (Scalar.cmpi .eq (BitVec.ofNat 32 (i 0).val) 0#32)) 0#32) = 1#1
abbrev cond2 (i : grid1.Coords) : Prop := k1_cond2 i = 1#1
theorem hcond1 : ∀ t : Fin grid1.N, cond1 (grid1.coords t) ↔ t.val = 0 := by decide +kernel
theorem hcond2 : ∀ t : Fin grid1.N, cond2 (grid1.coords t) ↔ t.val = 49 := by decide +kernel

def stat2 (s q : Vec F S1x256 .f32) : Vec F S2x256 .f32 :=
  View.canon [(⟨Rect.unit (s := S2x256) ![1, 0] S1x256.size inb_S2x256_S1x256_1_0, q⟩ : View.Piece (Elt F) S2x256 .f32),
    ⟨Rect.unit (s := S2x256) ![0, 0] S1x256.size inb_S2x256_S1x256_0_0, s⟩]

theorem stat_cover (s q : Vec F S1x256 .f32) (y : S2x256.Idx) :
    ∃ p ∈ [(⟨Rect.unit (s := S2x256) ![1, 0] S1x256.size inb_S2x256_S1x256_1_0, q⟩ : View.Piece (Elt F) S2x256 .f32),
      ⟨Rect.unit (s := S2x256) ![0, 0] S1x256.size inb_S2x256_S1x256_0_0, s⟩], y ∈ p.1.set :=
  View.cover_of_tiledL (s := S2x256) _ S1x256.size (by sl_kernel_rfl) y

theorem read_writes_stat {κ : Kind} {sp : Space} (v : View sig κ sp S2x256 .f32) (f : v.ty.Contents (Elt F)) (s q : Vec F S1x256 .f32) :
    v.read (Elt F) (v.writes (Elt F) f [(⟨Rect.unit (s := S2x256) ![1, 0] S1x256.size inb_S2x256_S1x256_1_0, q⟩ : View.Piece (Elt F) S2x256 .f32),
      ⟨Rect.unit (s := S2x256) ![0, 0] S1x256.size inb_S2x256_S1x256_0_0, s⟩]) = stat2 s q :=
  View.read_writes_eq_canon _ _ _ (stat_cover s q)

section Run

variable (c : Dev nD) (i : grid1.Coords)
  (arg1 : Memref sig .tc .vmem S16x3200 .f32) (harg1 : arg1.IsWhole)
  (arg2 : Memref sig .tc .vmem S3200x128 .f32) (harg2 : arg2.IsWhole)
  (arg3 : Memref sig .tc .vmem S3200x128 .f32) (harg3 : arg3.IsWhole)
  (arg4 : Memref sig .tc .vmem S128x256 .f32) (harg4 : arg4.IsWhole)
  (arg5 : Memref sig .tc .vmem S128x256 .f32) (harg5 : arg5.IsWhole)
  (arg6 : Memref sig .tc .vmem S16x256 .f32) (harg6 : arg6.IsWhole)
  (arg7 : Memref sig .tc .vmem S3200x256 .f32) (harg7 : arg7.IsWhole)
  (arg8 : Memref sig .tc .vmem S2x256 .f32) (harg8 : arg8.IsWhole)
  (arg9 : Memref sig .tc .vmem S1x256 .f32) (harg9 : arg9.IsWhole)
  (arg10 : Memref sig .tc .vmem S1x256 .f32) (harg10 : arg10.IsWhole)

set_option maxHeartbeats 1000000 in
theorem runK_A (hc1 : cond1 i) (hc2 : ¬cond2 i)
    (x0 : Vec F S16x3200 .f32) (x1 x2 : Vec F S3200x128 .f32) (x3 x4 : Vec F S128x256 .f32) (x5 : Vec F S16x256 .f32)
    (d8 : Vec F S2x256 .f32) (E : Set ℕ) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare x5
        ∗ (∃ d, owns c arg7 fullShare d) ∗ owns c arg8 fullShare d8 ∗ (∃ d, owns c arg9 fullShare d) ∗ (∃ d, owns c arg10 fullShare d)
        ∗ (iprop(owns c arg1 fullShare x0 ∗ owns c arg2 fullShare x1 ∗ owns c arg3 fullShare x2
        ∗ owns c arg4 fullShare x3 ∗ owns c arg5 fullShare x4 ∗ owns c arg6 fullShare x5
            ∗ owns c arg7 fullShare (k1_pay2 x0 x5 x1 x3 x2 x4) ∗ owns c arg8 fullShare d8
            ∗ owns c arg9 fullShare (k1_pay6 x0 x5 x1 x3 x2 x4 (k1_pay4 (F := F)))
            ∗ owns c arg10 fullShare (k1_pay1 (k1_pay3 x0 x5 x1 x3 x2 x4) (k1_pay5 (F := F)))) -∗ K ⟨⟩))
      ⊢ wp frame (wpE (defs₀ (F := F)) 𝒱₀ c none) E (cc1__stage1_body i arg1 harg1 arg2 harg2 arg3 harg3 arg4 harg4 arg5 harg5 arg6 harg6 arg7 harg7 arg8 harg8 arg9 harg9 arg10 harg10) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, Hk⟩
  sl_unfold [cc1__stage1_body]
  sl_exec (disch := first | exact hc1 | exact hc2)
  sl_step
  iapply Hk
  isplitl [H1]; · iapply (ownsI hf1) $$ H1
  isplitl [H2]; · iapply (ownsI hf2) $$ H2
  isplitl [H3]; · iapply (ownsI hf3) $$ H3
  isplitl [H4]; · iapply (ownsI hf4) $$ H4
  isplitl [H5]; · iapply (ownsI hf5) $$ H5
  isplitl [H6]; · iapply (ownsI hf6) $$ H6
  isplitl [H7]; iexists _; isplitr; swap; iexact H7; ipureintro; swap
  isplitl [H8]; · iapply (ownsI hf8) $$ H8
  isplitl [H9]; iexists _; isplitr; swap; iexact H9; ipureintro; swap
  iexists _; isplitr; swap; iexact H10; ipureintro
  all_goals (sl_unfold_run_names; simp only [readAt_unit_zero2, read_writes_cons_unit_zero2, readCov_unit_zero2, hf1, hf2, hf3, hf4, hf5, hf6])

set_option maxHeartbeats 1000000 in
theorem runK_M (hc1 : ¬cond1 i) (hc2 : ¬cond2 i)
    (x0 : Vec F S16x3200 .f32) (x1 x2 : Vec F S3200x128 .f32) (x3 x4 : Vec F S128x256 .f32) (x5 : Vec F S16x256 .f32)
    (d8 : Vec F S2x256 .f32) (s9 s10 : Vec F S1x256 .f32) (E : Set ℕ) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare x5
        ∗ (∃ d, owns c arg7 fullShare d) ∗ owns c arg8 fullShare d8 ∗ owns c arg9 fullShare s9 ∗ owns c arg10 fullShare s10
        ∗ (iprop(owns c arg1 fullShare x0 ∗ owns c arg2 fullShare x1 ∗ owns c arg3 fullShare x2
        ∗ owns c arg4 fullShare x3 ∗ owns c arg5 fullShare x4 ∗ owns c arg6 fullShare x5
            ∗ owns c arg7 fullShare (k1_pay2 x0 x5 x1 x3 x2 x4) ∗ owns c arg8 fullShare d8
            ∗ owns c arg9 fullShare (k1_pay6 x0 x5 x1 x3 x2 x4 s9)
            ∗ owns c arg10 fullShare (k1_pay1 (k1_pay3 x0 x5 x1 x3 x2 x4) s10)) -∗ K ⟨⟩))
      ⊢ wp frame (wpE (defs₀ (F := F)) 𝒱₀ c none) E (cc1__stage1_body i arg1 harg1 arg2 harg2 arg3 harg3 arg4 harg4 arg5 harg5 arg6 harg6 arg7 harg7 arg8 harg8 arg9 harg9 arg10 harg10) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  sl_unfold [cc1__stage1_body]
  sl_exec (disch := first | exact hc1 | exact hc2)
  sl_step
  iapply Hk
  isplitl [H1]; · iapply (ownsI hf1) $$ H1
  isplitl [H2]; · iapply (ownsI hf2) $$ H2
  isplitl [H3]; · iapply (ownsI hf3) $$ H3
  isplitl [H4]; · iapply (ownsI hf4) $$ H4
  isplitl [H5]; · iapply (ownsI hf5) $$ H5
  isplitl [H6]; · iapply (ownsI hf6) $$ H6
  isplitl [H7]; iexists _; isplitr; swap; iexact H7; ipureintro; swap
  isplitl [H8]; · iapply (ownsI hf8) $$ H8
  isplitl [H9]; iexists _; isplitr; swap; iexact H9; ipureintro; swap
  iexists _; isplitr; swap; iexact H10; ipureintro
  all_goals (sl_unfold_run_names; simp only [readAt_unit_zero2, read_writes_cons_unit_zero2, readCov_unit_zero2, hf1, hf2, hf3, hf4, hf5, hf6, hf9, hf10])

set_option maxHeartbeats 1000000 in
theorem runK_Z (hc1 : ¬cond1 i) (hc2 : cond2 i)
    (x0 : Vec F S16x3200 .f32) (x1 x2 : Vec F S3200x128 .f32) (x3 x4 : Vec F S128x256 .f32) (x5 : Vec F S16x256 .f32)
    (s9 s10 : Vec F S1x256 .f32) (E : Set ℕ) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare x5
        ∗ (∃ d, owns c arg7 fullShare d) ∗ (∃ d, owns c arg8 fullShare d) ∗ owns c arg9 fullShare s9 ∗ owns c arg10 fullShare s10
        ∗ (iprop(owns c arg1 fullShare x0 ∗ owns c arg2 fullShare x1 ∗ owns c arg3 fullShare x2
        ∗ owns c arg4 fullShare x3 ∗ owns c arg5 fullShare x4 ∗ owns c arg6 fullShare x5
            ∗ owns c arg7 fullShare (k1_pay2 x0 x5 x1 x3 x2 x4)
            ∗ owns c arg8 fullShare (stat2 (k1_pay6 x0 x5 x1 x3 x2 x4 s9) (k1_pay1 (k1_pay3 x0 x5 x1 x3 x2 x4) s10))
            ∗ owns c arg9 fullShare (k1_pay6 x0 x5 x1 x3 x2 x4 s9)
            ∗ owns c arg10 fullShare (k1_pay1 (k1_pay3 x0 x5 x1 x3 x2 x4) s10)) -∗ K ⟨⟩))
      ⊢ wp frame (wpE (defs₀ (F := F)) 𝒱₀ c none) E (cc1__stage1_body i arg1 harg1 arg2 harg2 arg3 harg3 arg4 harg4 arg5 harg5 arg6 harg6 arg7 harg7 arg8 harg8 arg9 harg9 arg10 harg10) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
  sl_unfold [cc1__stage1_body]
  sl_exec (disch := first | exact hc1 | exact hc2)
  sl_step
  iapply Hk
  isplitl [H1]; · iapply (ownsI hf1) $$ H1
  isplitl [H2]; · iapply (ownsI hf2) $$ H2
  isplitl [H3]; · iapply (ownsI hf3) $$ H3
  isplitl [H4]; · iapply (ownsI hf4) $$ H4
  isplitl [H5]; · iapply (ownsI hf5) $$ H5
  isplitl [H6]; · iapply (ownsI hf6) $$ H6
  isplitl [H7]; iexists _; isplitr; swap; iexact H7; ipureintro; swap
  isplitl [H8]
  · iexists _; isplitr; swap; · iexact H8
    ipureintro; sl_unfold_run_names; simp only [readAt_unit_zero2, read_writes_cons_unit_zero2, readCov_unit_zero2, hf1, hf2, hf3, hf4, hf5, hf6, hf9, hf10]; exact read_writes_stat _ _ _ _
  isplitl [H9]; iexists _; isplitr; swap; iexact H9; ipureintro; swap
  iexists _; isplitr; swap; iexact H10; ipureintro
  all_goals (sl_unfold_run_names; simp only [readAt_unit_zero2, read_writes_cons_unit_zero2, readCov_unit_zero2, hf1, hf2, hf3, hf4, hf5, hf6, hf9, hf10])

end Run

abbrev ms1_0 (t : Fin cfg1.N) : Memref sig .tc .vmem S16x3200 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S3200x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S16x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S3200x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2x256 .f32 := win1_7.stage (cfg1.slots t 7)
abbrev hs1_7 (t : Fin cfg1.N) : (ms1_7 t).IsWhole := hstage1_7 ((cfg1.slots t 7).cast nbuf1_7)
abbrev accS : Memref sig .tc .vmem S1x256 .f32 := Memref.whole cc1_scratch0
abbrev accQ : Memref sig .tc .vmem S1x256 .f32 := Memref.whole cc1_scratch1

end Cert.Proof.KI.R1

end
-- ==== Proof.KReg1.lean ====
import proofs.«210907_g44332652429893_cont_8to1_b_736_41_alg».proof.Proof.KLaunchDefs
import proofs.«210907_g44332652429893_cont_8to1_b_736_41_alg».proof.Proof.KRegion1
import Idealize.ShloMosaic.Lib.Pipeline.FrameBody

set_option maxRecDepth 16384

noncomputable section

namespace Cert.Proof.KI

open Cert.KernelIdeal Cert.KernelIdeal.Gen
open Cert.Proof.KI.R1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (Vv : Valuation τ sig (Elt F)) (c : Dev nD)

def R1.iblk1 (w : Fin cfg1.W) (t : Fin cfg1.N) : ((cfg1.win w).xblock (cfg1.grid.coords t)).Idx → Elt F (cfg1.win w).elt :=
  ((cfg1.win w).blk t).view.read (Elt F)
    (Vv (Proc.devRef .tc (Pipeline.arrRef spec1 w)))

abbrev R1.xb0 (t : Fin cfg1.N) : Vec F S16x3200 .f32 := iblk1 Vv 0 t
abbrev R1.xb1 (t : Fin cfg1.N) : Vec F S3200x128 .f32 := iblk1 Vv 1 t
abbrev R1.xb2 (t : Fin cfg1.N) : Vec F S3200x128 .f32 := iblk1 Vv 2 t
abbrev R1.xb3 (t : Fin cfg1.N) : Vec F S128x256 .f32 := iblk1 Vv 3 t
abbrev R1.xb4 (t : Fin cfg1.N) : Vec F S128x256 .f32 := iblk1 Vv 4 t
abbrev R1.xb5 (t : Fin cfg1.N) : Vec F S16x256 .f32 := iblk1 Vv 5 t

def R1.yb1 (t : Fin cfg1.N) : Vec F S3200x256 .f32 :=
  k1_pay2 (xb0 Vv t) (xb5 Vv t) (xb1 Vv t) (xb3 Vv t) (xb2 Vv t) (xb4 Vv t)

def R1.accS1 : (n : ℕ) → n < cfg1.N → Vec F S1x256 .f32
  | 0, h => k1_pay6 (xb0 Vv ⟨0, h⟩) (xb5 Vv ⟨0, h⟩) (xb1 Vv ⟨0, h⟩) (xb3 Vv ⟨0, h⟩) (xb2 Vv ⟨0, h⟩) (xb4 Vv ⟨0, h⟩) (k1_pay4 (F := F))
  | n + 1, h => k1_pay6 (xb0 Vv ⟨n + 1, h⟩) (xb5 Vv ⟨n + 1, h⟩) (xb1 Vv ⟨n + 1, h⟩) (xb3 Vv ⟨n + 1, h⟩) (xb2 Vv ⟨n + 1, h⟩) (xb4 Vv ⟨n + 1, h⟩)
      (accS1 n (Nat.lt_of_succ_lt h))

def R1.accQ1 : (n : ℕ) → n < cfg1.N → Vec F S1x256 .f32
  | 0, h => k1_pay1 (k1_pay3 (xb0 Vv ⟨0, h⟩) (xb5 Vv ⟨0, h⟩) (xb1 Vv ⟨0, h⟩) (xb3 Vv ⟨0, h⟩) (xb2 Vv ⟨0, h⟩) (xb4 Vv ⟨0, h⟩)) (k1_pay5 (F := F))
  | n + 1, h => k1_pay1 (k1_pay3 (xb0 Vv ⟨n + 1, h⟩) (xb5 Vv ⟨n + 1, h⟩) (xb1 Vv ⟨n + 1, h⟩) (xb3 Vv ⟨n + 1, h⟩) (xb2 Vv ⟨n + 1, h⟩) (xb4 Vv ⟨n + 1, h⟩))
      (accQ1 n (Nat.lt_of_succ_lt h))

-- At the first point both accumulators are one block's sums added to zero,
theorem R1.acc1_zero (t : Fin cfg1.N) (h : t.val = 0) :
    accS1 Vv t.val t.isLt = k1_pay6 (xb0 Vv t) (xb5 Vv t) (xb1 Vv t) (xb3 Vv t) (xb2 Vv t) (xb4 Vv t) (k1_pay4 (F := F))
      ∧ accQ1 Vv t.val t.isLt = k1_pay1 (k1_pay3 (xb0 Vv t) (xb5 Vv t) (xb1 Vv t) (xb3 Vv t) (xb2 Vv t) (xb4 Vv t)) (k1_pay5 (F := F)) := by
  obtain ⟨v, p⟩ := t; obtain rfl : v = 0 := h; exact ⟨rfl, rfl⟩

-- and at point n + 1 they are that block's sums added to point n's.
theorem R1.acc1_succ (t : Fin cfg1.N) (n : ℕ) (hn : n < cfg1.N) (h : t.val = n + 1) :
    accS1 Vv t.val t.isLt = k1_pay6 (xb0 Vv t) (xb5 Vv t) (xb1 Vv t) (xb3 Vv t) (xb2 Vv t) (xb4 Vv t) (accS1 Vv n hn)
      ∧ accQ1 Vv t.val t.isLt = k1_pay1 (k1_pay3 (xb0 Vv t) (xb5 Vv t) (xb1 Vv t) (xb3 Vv t) (xb2 Vv t) (xb4 Vv t)) (accQ1 Vv n hn) := by
  obtain ⟨v, p⟩ := t; obtain rfl : v = n + 1 := h; exact ⟨rfl, rfl⟩

def after1 (Vv : Valuation τ sig (Elt F)) (_c : Dev nD) (w : Fin cfg1.W) (t : Fin cfg1.N) : (cfg1.win w).block.Idx → Elt F (cfg1.win w).elt :=
  match w with
  | ⟨0, _⟩ => iblk1 Vv 0 t
  | ⟨1, _⟩ => iblk1 Vv 1 t
  | ⟨2, _⟩ => iblk1 Vv 2 t
  | ⟨3, _⟩ => iblk1 Vv 3 t
  | ⟨4, _⟩ => iblk1 Vv 4 t
  | ⟨5, _⟩ => iblk1 Vv 5 t
  | ⟨6, _⟩ => yb1 Vv t
  | ⟨7, _⟩ => stat2 (accS1 Vv t.val t.isLt) (accQ1 Vv t.val t.isLt)

abbrev R1.rest1 : sProp 𝕄 := Pipeline.scopedRestBut spec1 c [cc1_scratch0, cc1_scratch1]

def Phi1 (t : Fin (cfg1.N + 1)) : sProp 𝕄 :=
  iprop(rest1 c
    ∗ (if h : t.val = 0 then
        iprop((∃ d, owns (c : Thread nD τ) accS fullShare d) ∗ (∃ d, owns (c : Thread nD τ) accQ fullShare d))
      else
        iprop(owns (c : Thread nD τ) accS fullShare (accS1 Vv (t.val - 1) (by have := t.isLt; omega))
          ∗ owns (c : Thread nD τ) accQ fullShare (accQ1 Vv (t.val - 1) (by have := t.isLt; omega)))))

abbrev R1.D1 : Dat τ (Elt F) (HIx 1) ℕ UU ℕ cfg1 c := dat1 Vv c (after1 Vv c) (Phi1 Vv c)

theorem R1.after1_6 (t : Fin cfg1.N) : (D1 Vv c).after 6 t = yb1 Vv t := rfl
theorem R1.after1_7 (t : Fin cfg1.N) : (D1 Vv c).after 7 t = stat2 (accS1 Vv t.val t.isLt) (accQ1 Vv t.val t.isLt) := rfl

-- The body leaves every input block as it found it, so what an input holds before the body at a point is the array's block there.
theorem R1.before1 (t : Fin cfg1.N) :
    (∀ d, (D1 Vv c).before 0 t d = iblk1 Vv 0 t) ∧ (∀ d, (D1 Vv c).before 1 t d = iblk1 Vv 1 t)
      ∧ (∀ d, (D1 Vv c).before 2 t d = iblk1 Vv 2 t) ∧ (∀ d, (D1 Vv c).before 3 t d = iblk1 Vv 3 t)
      ∧ (∀ d, (D1 Vv c).before 4 t d = iblk1 Vv 4 t) ∧ (∀ d, (D1 Vv c).before 5 t d = iblk1 Vv 5 t) := by
  refine ⟨fun d => ?_, fun d => ?_, fun d => ?_, fun d => ?_, fun d => ?_, fun d => ?_⟩ <;>
    exact Eq.trans ((D1 Vv c).before_in_eq_fetched _ rfl (fun _ => rfl) (fun _ _ _ => rfl)
      (fun _ => by unfold Dat.blockOf; rfl) t d) (by unfold Dat.fetched Dat.blockOf iblk1; rfl)

theorem R1.Phi1_zero (t : Fin (cfg1.N + 1)) (h : t.val = 0) :
    Phi1 Vv c t = iprop(rest1 c ∗ (∃ d, owns (c : Thread nD τ) accS fullShare d) ∗ (∃ d, owns (c : Thread nD τ) accQ fullShare d)) := by
  unfold Phi1; rw [dif_pos h]

theorem R1.Phi1_pos (t : Fin (cfg1.N + 1)) (n : ℕ) (hn : n < cfg1.N) (h : t.val = n + 1) :
    Phi1 Vv c t = iprop(rest1 c ∗ owns (c : Thread nD τ) accS fullShare (accS1 Vv n hn) ∗ owns (c : Thread nD τ) accQ fullShare (accQ1 Vv n hn)) := by
  obtain ⟨v, p⟩ := t; obtain rfl : v = n + 1 := h
  unfold Phi1; rw [dif_neg (show ¬(⟨n + 1, p⟩ : Fin (cfg1.N + 1)).val = 0 from Nat.succ_ne_zero n)]; rfl

-- The scoped buffers at any contents hold the two accumulators at any contents,
theorem phi1_in : (Pipeline.scopedRest (Ix := HIx 1) (Name := ℕ) (U := UU) (Lvl := ℕ) (Val := Elt F) spec1 c : sProp 𝕄) ⊢ Phi1 Vv c 0 := by
  rw [scopedRest1_split c, Phi1_zero Vv c 0 rfl]
  simp only [owns_whole]
  exact sep_comm.1

-- and named contents are contents.
theorem phi1_out : Phi1 Vv c (Fin.last _) ⊢ (Pipeline.scopedRest (Ix := HIx 1) (Name := ℕ) (U := UU) (Lvl := ℕ) (Val := Elt F) spec1 c : sProp 𝕄) := by
  rw [scopedRest1_split c, Phi1_pos Vv c (Fin.last _) 49 (by decide) rfl]
  simp only [owns_whole]
  iintro ⟨Hr, H0, H1⟩
  iframe Hr
  isplitl [H0]
  · iexists _; iexact H0
  · iexists _; iexact H1

theorem R1.idle1_7 : ∀ t : Fin cfg1.N, cfg1.idle 7 (cfg1.grid.coords t) = !decide (t.val = 49) :=
  (by decide +kernel : ∀ t : Fin grid1.N, idle1 7 (grid1.coords t) = !decide (t.val = 49))

set_option maxHeartbeats 1000000 in
-- Each input buffer holds its block; in each of the three cases of the point that case's run applies with the accumulators at what the invariant holds them at.
theorem R1.sound_body1 (t : Fin cfg1.N) :
    iprop(Phi1 Vv c t.castSucc ∗ (D1 Vv c).owesAt none t.castSucc
      ∗ (∃ d, owns (c : Thread nD τ) (ms1_0 t) fullShare ((D1 Vv c).before 0 t d))
      ∗ (∃ d, owns (c : Thread nD τ) (ms1_1 t) fullShare ((D1 Vv c).before 1 t d))
      ∗ (∃ d, owns (c : Thread nD τ) (ms1_2 t) fullShare ((D1 Vv c).before 2 t d))
      ∗ (∃ d, owns (c : Thread nD τ) (ms1_3 t) fullShare ((D1 Vv c).before 3 t d))
      ∗ (∃ d, owns (c : Thread nD τ) (ms1_4 t) fullShare ((D1 Vv c).before 4 t d))
      ∗ (∃ d, owns (c : Thread nD τ) (ms1_5 t) fullShare ((D1 Vv c).before 5 t d))
      ∗ (∃ d, owns (c : Thread nD τ) (ms1_6 t) fullShare ((D1 Vv c).before 6 t d))
      ∗ (∃ d, owns (c : Thread nD τ) (ms1_7 t) fullShare ((D1 Vv c).before 7 t d)))
    ⊢ wp frame (wpE (defs₀ (F := F)) 𝒱₀ c none) Set.univ (bodyAt1 (F := F) t) (fun _ =>
      iprop(Phi1 Vv c t.succ ∗ (D1 Vv c).owesAt none t.castSucc
        ∗ owns (c : Thread nD τ) (ms1_0 t) fullShare (xb0 Vv t) ∗ owns (c : Thread nD τ) (ms1_1 t) fullShare (xb1 Vv t)
        ∗ owns (c : Thread nD τ) (ms1_2 t) fullShare (xb2 Vv t) ∗ owns (c : Thread nD τ) (ms1_3 t) fullShare (xb3 Vv t)
        ∗ owns (c : Thread nD τ) (ms1_4 t) fullShare (xb4 Vv t) ∗ owns (c : Thread nD τ) (ms1_5 t) fullShare (xb5 Vv t)
        ∗ owns (c : Thread nD τ) (ms1_6 t) fullShare (yb1 Vv t) ∗ (D1 Vv c).leavesExact 7 t)) := by
  have hN : t.val < 50 := lt_of_lt_of_eq t.isLt N_1
  have hlt := t.isLt
  obtain ⟨b0, b1, b2, b3, b4, b5⟩ := before1 Vv c t
  rw [Phi1_pos Vv c t.succ t.val t.isLt rfl]
  unfold yb1
  by_cases h49 : t.val = 49
  · obtain ⟨eS, eQ⟩ := acc1_succ Vv t 48 (by omega) h49
    unfold Dat.leavesExact
    rw [idle1_7, decide_eq_true h49, Bool.not_true]
    dsimp only
    rw [after1_7, Phi1_pos Vv c t.castSucc 48 (by omega) h49, eS, eQ]
    simp only [b0, b1, b2, b3, b4, b5]
    iintro ⟨⟨Hr, HS, HQ⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runK_Z c (grid1.coords t) _ _ _ _ _ _ _ _ _ _ _ _ _ _ _ _ _ _ _ _ (fun h => by have := (hcond1 t).mp h; omega) ((hcond2 t).mpr h49)
      (xb0 Vv t) (xb1 Vv t) (xb2 Vv t) (xb3 Vv t) (xb4 Vv t) (xb5 Vv t) (accS1 Vv 48 (by omega)) (accQ1 Vv 48 (by omega)) Set.univ _)
    iframe H0 H1 H2 H3 H4 H5 HS HQ
    isplitl [H6]; · iexists _; iexact H6
    isplitl [H7]; · iexists _; iexact H7
    iintro ⟨H0, H1, H2, H3, H4, H5, H6, H7, HS, HQ⟩
    iframe Hr HS HQ Ho H0 H1 H2 H3 H4 H5 H6
    iexact H7
  rw [Dat.leavesExact_idle _ 7 t (by rw [idle1_7, decide_eq_false h49]; rfl)
    (Bool.eq_false_iff.mpr fun hf => by have := (flush1_7 t).mp hf; omega)]
  simp only [b0, b1, b2, b3, b4, b5]
  by_cases h0 : t.val = 0
  · rw [Phi1_zero Vv c t.castSucc h0, (acc1_zero Vv t h0).1, (acc1_zero Vv t h0).2]
    iintro ⟨⟨Hr, HS, HQ⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runK_A c (grid1.coords t) _ _ _ _ _ _ _ _ _ _ _ _ _ _ _ _ _ _ _ _ ((hcond1 t).mpr h0) (fun h => h49 ((hcond2 t).mp h))
      (xb0 Vv t) (xb1 Vv t) (xb2 Vv t) (xb3 Vv t) (xb4 Vv t) (xb5 Vv t) ((D1 Vv c).before 7 t d7) Set.univ _)
    iframe H0 H1 H2 H3 H4 H5 H7 HS HQ
    isplitl [H6]; · iexists _; iexact H6
    iintro ⟨H0, H1, H2, H3, H4, H5, H6, H7, HS, HQ⟩
    iframe Hr HS HQ Ho H0 H1 H2 H3 H4 H5 H6
    iexists d7; iexact H7
  obtain ⟨n, hn⟩ := Nat.exists_eq_succ_of_ne_zero h0
  obtain ⟨eS, eQ⟩ := acc1_succ Vv t n (by omega) hn
  rw [Phi1_pos Vv c t.castSucc n (by omega) hn, eS, eQ]
  iintro ⟨⟨Hr, HS, HQ⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (runK_M c (grid1.coords t) _ _ _ _ _ _ _ _ _ _ _ _ _ _ _ _ _ _ _ _ (fun h => h0 ((hcond1 t).mp h)) (fun h => h49 ((hcond2 t).mp h))
    (xb0 Vv t) (xb1 Vv t) (xb2 Vv t) (xb3 Vv t) (xb4 Vv t) (xb5 Vv t) ((D1 Vv c).before 7 t d7) (accS1 Vv n (by omega)) (accQ1 Vv n (by omega)) Set.univ _)
  iframe H0 H1 H2 H3 H4 H5 H7 HS HQ
  isplitl [H6]; · iexists _; iexact H6
  iintro ⟨H0, H1, H2, H3, H4, H5, H6, H7, HS, HQ⟩
  iframe Hr HS HQ Ho H0 H1 H2 H3 H4 H5 H6
  iexists d7; iexact H7

theorem body1 : Pipeline.BodyObligation (dat1 Vv c (after1 Vv c) (Phi1 Vv c)) (defs₀ (F := F)) 𝒱₀ none Set.univ := fun t => by
  rw [bigSep_W1, bigSep_W1]
  exact sound_body1 Vv c t

end Cert.Proof.KI

end
-- ==== Proof.KRegion2.lean ====
import proofs.«210907_g44332652429893_cont_8to1_b_736_41_alg».proof.Proof.KBase
import proofs.«210907_g44332652429893_cont_8to1_b_736_41_alg».proof.Proof.KRegionLib
import Idealize.ShloMosaic.Lib.Pipeline.FrameBody
import Idealize.ShloMosaic.Lib.Ring
import Idealize.ShloMosaic.Lib.Tactic
import Idealize.ShloMosaic.Lib.ValueIdx
import Idealize.ShloMosaic.Lib.Pipeline.Value
import Idealize.ShloMosaic.Lib.WritesUnit

set_option maxRecDepth 16384

noncomputable section

namespace Cert.Proof.KI.R2

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.KI.RegionLib
open Idealize.ShloMosaic.Pipeline (Dat Cfg Window BodyObligation cellOf)

variable {F : FTy → Type} [FloatOps F]

local notation "𝕄" => MT nD τ sig (HIx 1) (Elt F) ℕ UU ℕ

abbrev cond1 (i : grid2.Coords) : Prop := (Scalar.cmpi .ne (Scalar.extui (Scalar.cmpi .eq (BitVec.ofNat 32 (i 0).val) 0#32)) 0#32) = 1#1
abbrev cond2 (i : grid2.Coords) : Prop := k2_cond2 i = 1#1

theorem hcond1 : ∀ t : Fin cfg2.N, cond1 (grid2.coords t) ↔ t.val = 0 :=
  (by decide +kernel : ∀ t : Fin grid2.N, cond1 (grid2.coords t) ↔ t.val = 0)
theorem hcond2 : ∀ t : Fin cfg2.N, cond2 (grid2.coords t) ↔ t.val = 49 :=
  (by decide +kernel : ∀ t : Fin grid2.N, cond2 (grid2.coords t) ↔ t.val = 49)

def stats2 (s0 s1 : Vec F S1x128 .f32) : Vec F S2x128 .f32 :=
  fun y => if (y 0).val = 0 then s0 (ValueIdx.ix2 (n0 := 1) (n1 := 128) 0 (y 1)) else s1 (ValueIdx.ix2 (n0 := 1) (n1 := 128) 0 (y 1))

-- Each row of the block lies in exactly one of the two row stores.
theorem read_rows2 {sig' : RefSig} {κ : Kind} {sp : Space} (v : View sig' κ sp S2x128 .f32) (f : v.ty.Contents (Elt F))
    (w0 w1 : Vec F S1x128 .f32) :
    v.read (Elt F) (v.writes (Elt F) f
        [(⟨Rect.unit (s := S2x128) ![1, 0] S1x128.size inb_S2x128_S1x128_1_0, w1⟩ : View.Piece (Elt F) S2x128 .f32),
          (⟨Rect.unit (s := S2x128) ![0, 0] S1x128.size inb_S2x128_S1x128_0_0, w0⟩ : View.Piece (Elt F) S2x128 .f32)])
      = stats2 w0 w1 := by
  funext y
  have hlt : (y 0).val < 2 := ValueIdx.idx2_lt0 y
  by_cases h : (y 0).val = 0
  · rw [View.read_writes_cons_rows_of_not_mem v f inb_S2x128_S1x128_1_0 w1 _ y (o := 1) (W := 1) rfl rfl (Or.inl (by omega))]
    refine (View.read_writes_cons_rows_of_mem v f inb_S2x128_S1x128_0_0 w0 [] y
      (ValueIdx.ix2 (n0 := 1) (n1 := 128) 0 (y 1)) (o := 0) rfl (by rw [h]; rfl) rfl).trans ?_
    unfold stats2; rw [if_pos h]
  · have h1 : (y 0).val = 1 := by omega
    refine (View.read_writes_cons_rows_of_mem v f inb_S2x128_S1x128_1_0 w1 _ y
      (ValueIdx.ix2 (n0 := 1) (n1 := 128) 0 (y 1)) (o := 1) rfl (by rw [h1]; rfl) rfl).trans ?_
    unfold stats2; rw [if_neg h]

section Run

variable (c : Dev nD) (i : grid2.Coords)
  (arg1 : Memref sig .tc .vmem S3200x256 .f32) (harg1 : arg1.IsWhole)
  (arg2 : Memref sig .tc .vmem S2x256 .f32) (harg2 : arg2.IsWhole)
  (arg3 : Memref sig .tc .vmem S1x256 .f32) (harg3 : arg3.IsWhole)
  (arg4 : Memref sig .tc .vmem S1x256 .f32) (harg4 : arg4.IsWhole)
  (arg5 : Memref sig .tc .vmem S256x128 .f32) (harg5 : arg5.IsWhole)
  (arg6 : Memref sig .tc .vmem S3200x128 .f32) (harg6 : arg6.IsWhole)
  (arg7 : Memref sig .tc .vmem S2x128 .f32) (harg7 : arg7.IsWhole)
  (arg8 : Memref sig .tc .vmem S1x128 .f32) (harg8 : arg8.IsWhole)
  (arg9 : Memref sig .tc .vmem S1x128 .f32) (harg9 : arg9.IsWhole)

set_option maxHeartbeats 1000000 in
theorem run_A (hc1 : cond1 i) (hc2 : ¬cond2 i)
    (x1 : Vec F S3200x256 .f32) (x2 : Vec F S2x256 .f32) (x3 x4 : Vec F S1x256 .f32) (x5 : Vec F S256x128 .f32) (x7 : Vec F S2x128 .f32)
    (E : Set ℕ) (K : PUnit → sProp 𝕄) :
    iprop(owns c arg1 fullShare x1 ∗ owns c arg2 fullShare x2 ∗ owns c arg3 fullShare x3 ∗ owns c arg4 fullShare x4 ∗ owns c arg5 fullShare x5
        ∗ (∃ d, owns c arg6 fullShare d) ∗ owns c arg7 fullShare x7 ∗ (∃ d, owns c arg8 fullShare d) ∗ (∃ d, owns c arg9 fullShare d)
        ∗ (iprop(owns c arg1 fullShare x1 ∗ owns c arg2 fullShare x2 ∗ owns c arg3 fullShare x3 ∗ owns c arg4 fullShare x4 ∗ owns c arg5 fullShare x5
            ∗ owns c arg6 fullShare (k2_pay5 x2 x3 x4 x1 x5) ∗ owns c arg7 fullShare x7
            ∗ owns c arg8 fullShare (k2_pay3 (k2_pay6 x2 x3 x4 x1 x5) k2_pay1)
            ∗ owns c arg9 fullShare (k2_pay4 (k2_pay7 x2 x3 x4 x1 x5) k2_pay2)) -∗ K ⟨⟩))
      ⊢ wp frame (wpE (defs₀ (F := F)) Variants.none c none) E (cc2__stage2_body i arg1 harg1 arg2 harg2 arg3 harg3 arg4 harg4 arg5 harg5 arg6 harg6 arg7 harg7 arg8 harg8 arg9 harg9) K := by
  simp only [cc2__stage2_body_eq_skeleton]; unfold cc2__stage2_body_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
  sl_exec (disch := first | exact hc1 | exact hc2)
  sl_step
  iapply Hk
  isplitl [H1]; · iapply (ownsI hf1) $$ H1
  isplitl [H2]; · iapply (ownsI hf2) $$ H2
  isplitl [H3]; · iapply (ownsI hf3) $$ H3
  isplitl [H4]; · iapply (ownsI hf4) $$ H4
  isplitl [H5]; · iapply (ownsI hf5) $$ H5
  isplitl [H6]; iexists _; isplitr; swap; iexact H6; ipureintro; swap
  isplitl [H7]; · iapply (ownsI hf7) $$ H7
  isplitl [H8]; iexists _; isplitr; swap; iexact H8; ipureintro; swap
  iexists _; isplitr; swap; iexact H9; ipureintro
  all_goals ((try sl_unfold_run_names); simp only [readAt_unit_zero2, read_writes_cons_unit_zero2, readCov_unit_zero2, hf1, hf2, hf3, hf4, hf5])

set_option maxHeartbeats 1000000 in
theorem run_B (hc1 : ¬cond1 i) (hc2 : ¬cond2 i)
    (x1 : Vec F S3200x256 .f32) (x2 : Vec F S2x256 .f32) (x3 x4 : Vec F S1x256 .f32) (x5 : Vec F S256x128 .f32) (x7 : Vec F S2x128 .f32) (s8 s9 : Vec F S1x128 .f32)
    (E : Set ℕ) (K : PUnit → sProp 𝕄) :
    iprop(owns c arg1 fullShare x1 ∗ owns c arg2 fullShare x2 ∗ owns c arg3 fullShare x3 ∗ owns c arg4 fullShare x4 ∗ owns c arg5 fullShare x5
        ∗ (∃ d, owns c arg6 fullShare d) ∗ owns c arg7 fullShare x7 ∗ owns c arg8 fullShare s8 ∗ owns c arg9 fullShare s9
        ∗ (iprop(owns c arg1 fullShare x1 ∗ owns c arg2 fullShare x2 ∗ owns c arg3 fullShare x3 ∗ owns c arg4 fullShare x4 ∗ owns c arg5 fullShare x5
            ∗ owns c arg6 fullShare (k2_pay5 x2 x3 x4 x1 x5) ∗ owns c arg7 fullShare x7
            ∗ owns c arg8 fullShare (k2_pay3 (k2_pay6 x2 x3 x4 x1 x5) s8)
            ∗ owns c arg9 fullShare (k2_pay4 (k2_pay7 x2 x3 x4 x1 x5) s9)) -∗ K ⟨⟩))
      ⊢ wp frame (wpE (defs₀ (F := F)) Variants.none c none) E (cc2__stage2_body i arg1 harg1 arg2 harg2 arg3 harg3 arg4 harg4 arg5 harg5 arg6 harg6 arg7 harg7 arg8 harg8 arg9 harg9) K := by
  simp only [cc2__stage2_body_eq_skeleton]; unfold cc2__stage2_body_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  sl_exec (disch := first | exact hc1 | exact hc2)
  sl_step
  iapply Hk
  isplitl [H1]; · iapply (ownsI hf1) $$ H1
  isplitl [H2]; · iapply (ownsI hf2) $$ H2
  isplitl [H3]; · iapply (ownsI hf3) $$ H3
  isplitl [H4]; · iapply (ownsI hf4) $$ H4
  isplitl [H5]; · iapply (ownsI hf5) $$ H5
  isplitl [H6]; iexists _; isplitr; swap; iexact H6; ipureintro; swap
  isplitl [H7]; · iapply (ownsI hf7) $$ H7
  isplitl [H8]; iexists _; isplitr; swap; iexact H8; ipureintro; swap
  iexists _; isplitr; swap; iexact H9; ipureintro
  all_goals ((try sl_unfold_run_names); simp only [readAt_unit_zero2, read_writes_cons_unit_zero2, readCov_unit_zero2, hf1, hf2, hf3, hf4, hf5, hf8, hf9])

set_option maxHeartbeats 1000000 in
theorem run_C (hc1 : ¬cond1 i) (hc2 : cond2 i)
    (x1 : Vec F S3200x256 .f32) (x2 : Vec F S2x256 .f32) (x3 x4 : Vec F S1x256 .f32) (x5 : Vec F S256x128 .f32) (s8 s9 : Vec F S1x128 .f32)
    (E : Set ℕ) (K : PUnit → sProp 𝕄) :
    iprop(owns c arg1 fullShare x1 ∗ owns c arg2 fullShare x2 ∗ owns c arg3 fullShare x3 ∗ owns c arg4 fullShare x4 ∗ owns c arg5 fullShare x5
        ∗ (∃ d, owns c arg6 fullShare d) ∗ (∃ d, owns c arg7 fullShare d) ∗ owns c arg8 fullShare s8 ∗ owns c arg9 fullShare s9
        ∗ (iprop(owns c arg1 fullShare x1 ∗ owns c arg2 fullShare x2 ∗ owns c arg3 fullShare x3 ∗ owns c arg4 fullShare x4 ∗ owns c arg5 fullShare x5
            ∗ owns c arg6 fullShare (k2_pay5 x2 x3 x4 x1 x5)
            ∗ owns c arg7 fullShare (stats2 (k2_pay3 (k2_pay6 x2 x3 x4 x1 x5) s8) (k2_pay4 (k2_pay7 x2 x3 x4 x1 x5) s9))
            ∗ owns c arg8 fullShare (k2_pay3 (k2_pay6 x2 x3 x4 x1 x5) s8)
            ∗ owns c arg9 fullShare (k2_pay4 (k2_pay7 x2 x3 x4 x1 x5) s9)) -∗ K ⟨⟩))
      ⊢ wp frame (wpE (defs₀ (F := F)) Variants.none c none) E (cc2__stage2_body i arg1 harg1 arg2 harg2 arg3 harg3 arg4 harg4 arg5 harg5 arg6 harg6 arg7 harg7 arg8 harg8 arg9 harg9) K := by
  simp only [cc2__stage2_body_eq_skeleton]; unfold cc2__stage2_body_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  sl_exec (disch := first | exact hc1 | exact hc2)
  sl_step
  iapply Hk
  isplitl [H1]; · iapply (ownsI hf1) $$ H1
  isplitl [H2]; · iapply (ownsI hf2) $$ H2
  isplitl [H3]; · iapply (ownsI hf3) $$ H3
  isplitl [H4]; · iapply (ownsI hf4) $$ H4
  isplitl [H5]; · iapply (ownsI hf5) $$ H5
  isplitl [H6]; iexists _; isplitr; swap; iexact H6; ipureintro; swap
  isplitl [H7]
  · iexists _; isplitr; swap; · iexact H7
    ipureintro; (try sl_unfold_run_names); refine (read_rows2 _ _ _ _).trans ?_; simp only [readAt_unit_zero2, read_writes_cons_unit_zero2, readCov_unit_zero2, hf1, hf2, hf3, hf4, hf5, hf8, hf9]
  isplitl [H8]; iexists _; isplitr; swap; iexact H8; ipureintro; swap
  iexists _; isplitr; swap; iexact H9; ipureintro
  all_goals ((try sl_unfold_run_names); simp only [readAt_unit_zero2, read_writes_cons_unit_zero2, readCov_unit_zero2, hf1, hf2, hf3, hf4, hf5, hf8, hf9])

end Run

end Cert.Proof.KI.R2

end
-- ==== Proof.KReg2.lean ====
import proofs.«210907_g44332652429893_cont_8to1_b_736_41_alg».proof.Proof.KLaunchDefs
import proofs.«210907_g44332652429893_cont_8to1_b_736_41_alg».proof.Proof.KRegion2

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KI.R2

variable {F : FTy → Type} [FloatOps F]

local notation "𝕄" => MT nD τ sig (HIx 1) (Elt F) ℕ UU ℕ

variable (Vv : Valuation τ sig (Elt F)) (c : Dev nD)

def R2.arr2 (w : Fin cfg2.W) : Buf (Elt F) ((cfg2.win w).arr.view.loc (c.tc : Thread nD τ)) := Vv (Proc.devRef .tc (Pipeline.arrRef spec2 w))

def R2.blk2 (w : Fin cfg2.W) (t : Fin cfg2.N) : ((cfg2.win w).xblock (cfg2.grid.coords t)).Idx → Elt F (cfg2.win w).elt :=
  ((cfg2.win w).blk t).view.read (Elt F) (arr2 Vv c w)

def R2.prod2 (t : Fin cfg2.N) : Vec F S3200x128 .f32 :=
  k2_pay5 (blk2 Vv c 1 t) (blk2 Vv c 2 t) (blk2 Vv c 3 t) (blk2 Vv c 0 t) (blk2 Vv c 4 t)

def R2.sum2 (t : Fin cfg2.N) : Vec F S1x128 .f32 :=
  k2_pay6 (blk2 Vv c 1 t) (blk2 Vv c 2 t) (blk2 Vv c 3 t) (blk2 Vv c 0 t) (blk2 Vv c 4 t)
def R2.sq2 (t : Fin cfg2.N) : Vec F S1x128 .f32 :=
  k2_pay7 (blk2 Vv c 1 t) (blk2 Vv c 2 t) (blk2 Vv c 3 t) (blk2 Vv c 0 t) (blk2 Vv c 4 t)

def R2.accAt : (n : ℕ) → n < cfg2.N → Vec F S1x128 .f32 × Vec F S1x128 .f32
  | 0, hn => (k2_pay3 (sum2 Vv c ⟨0, hn⟩) k2_pay1, k2_pay4 (sq2 Vv c ⟨0, hn⟩) k2_pay2)
  | n + 1, hn => (k2_pay3 (sum2 Vv c ⟨n + 1, hn⟩) (accAt n (Nat.lt_of_succ_lt hn)).1, k2_pay4 (sq2 Vv c ⟨n + 1, hn⟩) (accAt n (Nat.lt_of_succ_lt hn)).2)

-- At the first point the accumulators are the block's sums added to zero,
theorem R2.acc2_zero (t : Fin cfg2.N) (h : t.val = 0) :
    accAt Vv c t.val t.isLt = (k2_pay3 (sum2 Vv c t) k2_pay1, k2_pay4 (sq2 Vv c t) k2_pay2) := by
  obtain ⟨v, p⟩ := t; obtain rfl : v = 0 := h; rfl

-- and at point n + 1 they are the block's sums added to point n's.
theorem R2.acc2_succ (t : Fin cfg2.N) (n : ℕ) (hn : n < cfg2.N) (h : t.val = n + 1) :
    accAt Vv c t.val t.isLt = (k2_pay3 (sum2 Vv c t) (accAt Vv c n hn).1, k2_pay4 (sq2 Vv c t) (accAt Vv c n hn).2) := by
  obtain ⟨v, p⟩ := t; obtain rfl : v = n + 1 := h; rfl

abbrev R2.rest2 : sProp 𝕄 := Pipeline.scopedRestBut spec2 c [cc2_scratch0, cc2_scratch1]

def Phi2 : Fin (cfg2.N + 1) → sProp 𝕄
  | ⟨0, _⟩ => Pipeline.scopedRest spec2 c
  | ⟨n + 1, hn⟩ => iprop(owns (c : Thread nD τ) (Memref.whole cc2_scratch0) fullShare (accAt Vv c n (Nat.lt_of_succ_lt_succ hn)).1
      ∗ owns (c : Thread nD τ) (Memref.whole cc2_scratch1) fullShare (accAt Vv c n (Nat.lt_of_succ_lt_succ hn)).2 ∗ rest2 c)

theorem R2.Phi2_zero (t : Fin (cfg2.N + 1)) (h : t.val = 0) : Phi2 Vv c t = Pipeline.scopedRest spec2 c := by
  obtain ⟨v, p⟩ := t; obtain rfl : v = 0 := h; rfl

theorem R2.Phi2_pos (t : Fin (cfg2.N + 1)) (n : ℕ) (hn : n < cfg2.N) (h : t.val = n + 1) :
    Phi2 Vv c t = iprop(owns (c : Thread nD τ) (Memref.whole cc2_scratch0) fullShare (accAt Vv c n hn).1
      ∗ owns (c : Thread nD τ) (Memref.whole cc2_scratch1) fullShare (accAt Vv c n hn).2 ∗ rest2 c) := by
  obtain ⟨v, p⟩ := t; obtain rfl : v = n + 1 := h; rfl

-- The scoped buffers hold the two accumulators, each at some contents, beside the rest.
theorem R2.scopedRest2_owns :
    (Pipeline.scopedRest spec2 c : sProp 𝕄)
      = iprop(iprop((∃ d, owns (c : Thread nD τ) (Memref.whole cc2_scratch0) fullShare d) ∗ (∃ d, owns (c : Thread nD τ) (Memref.whole cc2_scratch1) fullShare d)) ∗ rest2 c) := by
  rw [scopedRest2_split]; simp only [owns_whole]

def after2 (w : Fin cfg2.W) (t : Fin cfg2.N) : (cfg2.win w).block.Idx → Elt F (cfg2.win w).elt :=
  match w with
  | ⟨0, _⟩ => blk2 Vv c 0 t
  | ⟨1, _⟩ => blk2 Vv c 1 t
  | ⟨2, _⟩ => blk2 Vv c 2 t
  | ⟨3, _⟩ => blk2 Vv c 3 t
  | ⟨4, _⟩ => blk2 Vv c 4 t
  | ⟨5, _⟩ => prod2 Vv c t
  | ⟨6, _⟩ => stats2 (accAt Vv c t.val t.isLt).1 (accAt Vv c t.val t.isLt).2

abbrev R2.D2 : Dat τ (Elt F) (HIx 1) ℕ UU ℕ cfg2 c := dat2 Vv c (after2 Vv c) (Phi2 Vv c)

theorem R2.after2_5 (t : Fin cfg2.N) : (D2 Vv c).after 5 t = prod2 Vv c t := rfl
theorem R2.after2_6 (t : Fin cfg2.N) : (D2 Vv c).after 6 t = stats2 (accAt Vv c t.val t.isLt).1 (accAt Vv c t.val t.isLt).2 := rfl

-- The body leaves every input block as it found it, so what an input holds before the body at a point is the array's block there.
theorem R2.before2 (t : Fin cfg2.N) :
    (∀ d, (D2 Vv c).before 0 t d = blk2 Vv c 0 t) ∧ (∀ d, (D2 Vv c).before 1 t d = blk2 Vv c 1 t)
      ∧ (∀ d, (D2 Vv c).before 2 t d = blk2 Vv c 2 t) ∧ (∀ d, (D2 Vv c).before 3 t d = blk2 Vv c 3 t)
      ∧ (∀ d, (D2 Vv c).before 4 t d = blk2 Vv c 4 t) := by
  refine ⟨fun d => ?_, fun d => ?_, fun d => ?_, fun d => ?_, fun d => ?_⟩ <;>
    exact Eq.trans ((D2 Vv c).before_in_eq_fetched _ rfl (fun _ => rfl) (fun _ _ _ => rfl)
      (fun _ => by unfold Dat.blockOf; rfl) t d) (by unfold Dat.fetched Dat.blockOf blk2; rfl)

theorem R2.idle2_6 : ∀ t : Fin cfg2.N, ¬cond2 (grid2.coords t) → cfg2.idle 6 (grid2.coords t) = true :=
  (by decide +kernel : ∀ t : Fin grid2.N, ¬cond2 (grid2.coords t) → cfg2.idle 6 (grid2.coords t) = true)
theorem R2.noFlush2_6 : ∀ t : Fin cfg2.N, ¬cond2 (grid2.coords t) → (cfg2.win 6).flush t = false :=
  (by decide +kernel : ∀ t : Fin grid2.N, ¬cond2 (grid2.coords t) → win2_6.flush t = false)
theorem R2.live2_6 : ∀ t : Fin cfg2.N, cond2 (grid2.coords t) → cfg2.idle 6 (grid2.coords t) = false :=
  (by decide +kernel : ∀ t : Fin grid2.N, cond2 (grid2.coords t) → cfg2.idle 6 (grid2.coords t) = false)

set_option maxHeartbeats 4800000 in
-- Each input buffer holds its block; the point is the first, the last or a middle one, and that case's run applies with the accumulators at what the invariant holds them at.
theorem R2.sound_body2 (t : Fin cfg2.N) :
    iprop(Phi2 Vv c t.castSucc ∗ (D2 Vv c).owesAt none t.castSucc
      ∗ (∃ d, owns (c : Thread nD τ) (st2_0 t) fullShare ((D2 Vv c).before 0 t d))
      ∗ (∃ d, owns (c : Thread nD τ) (st2_1 t) fullShare ((D2 Vv c).before 1 t d))
      ∗ (∃ d, owns (c : Thread nD τ) (st2_2 t) fullShare ((D2 Vv c).before 2 t d))
      ∗ (∃ d, owns (c : Thread nD τ) (st2_3 t) fullShare ((D2 Vv c).before 3 t d))
      ∗ (∃ d, owns (c : Thread nD τ) (st2_4 t) fullShare ((D2 Vv c).before 4 t d))
      ∗ (∃ d, owns (c : Thread nD τ) (st2_5 t) fullShare ((D2 Vv c).before 5 t d))
      ∗ (∃ d, owns (c : Thread nD τ) (st2_6 t) fullShare ((D2 Vv c).before 6 t d)))
    ⊢ wp frame (wpE (defs₀ (F := F)) 𝒱₀ c none) Set.univ (Gen.bodyAt2 t) (fun _ =>
      iprop(Phi2 Vv c t.succ ∗ (D2 Vv c).owesAt none t.castSucc
        ∗ owns (c : Thread nD τ) (st2_0 t) fullShare (blk2 Vv c 0 t) ∗ owns (c : Thread nD τ) (st2_1 t) fullShare (blk2 Vv c 1 t)
        ∗ owns (c : Thread nD τ) (st2_2 t) fullShare (blk2 Vv c 2 t) ∗ owns (c : Thread nD τ) (st2_3 t) fullShare (blk2 Vv c 3 t)
        ∗ owns (c : Thread nD τ) (st2_4 t) fullShare (blk2 Vv c 4 t) ∗ owns (c : Thread nD τ) (st2_5 t) fullShare (prod2 Vv c t)
        ∗ (D2 Vv c).leavesExact 6 t)) := by
  have hlt := t.isLt
  obtain ⟨b0, b1, b2, b3, b4⟩ := before2 Vv c t
  rw [Phi2_pos Vv c t.succ t.val t.isLt rfl]
  unfold prod2
  by_cases h49 : t.val = 49
  · have hc2 : cond2 (grid2.coords t) := (hcond2 t).mpr h49
    unfold Dat.leavesExact
    rw [live2_6 t hc2]
    dsimp only
    rw [after2_6, Phi2_pos Vv c t.castSucc 48 (by omega) h49, acc2_succ Vv c t 48 (by omega) h49]
    dsimp only; unfold sum2 sq2
    simp only [b0, b1, b2, b3, b4]
    iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩⟩
    iapply (run_C c (grid2.coords t) _ _ _ _ _ _ _ _ _ _ _ _ _ _ _ _ _ _ (fun h => by have := (hcond1 t).mp h; omega) hc2
      (blk2 Vv c 0 t) (blk2 Vv c 1 t) (blk2 Vv c 2 t) (blk2 Vv c 3 t) (blk2 Vv c 4 t) (accAt Vv c 48 (by omega)).1 (accAt Vv c 48 (by omega)).2 Set.univ _)
    iframe H0 H1 H2 H3 H4 HS0 HS1
    isplitl [H5]; · iexists _; iexact H5
    isplitl [H6]; · iexists _; iexact H6
    iintro ⟨H0, H1, H2, H3, H4, H5, H6, HS0, HS1⟩
    iframe HS0 HS1 HR Ho H0 H1 H2 H3 H4 H5
    iexact H6
  have hc2 : ¬cond2 (grid2.coords t) := fun h => h49 ((hcond2 t).mp h)
  rw [Dat.leavesExact_idle (D2 Vv c) 6 t (idle2_6 t hc2) (noFlush2_6 t hc2)]
  simp only [b0, b1, b2, b3, b4]
  by_cases h0 : t.val = 0
  · rw [Phi2_zero Vv c t.castSucc h0, scopedRest2_owns, acc2_zero Vv c t h0]
    dsimp only; unfold sum2 sq2
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
    iapply (run_A c (grid2.coords t) _ _ _ _ _ _ _ _ _ _ _ _ _ _ _ _ _ _ ((hcond1 t).mpr h0) hc2
      (blk2 Vv c 0 t) (blk2 Vv c 1 t) (blk2 Vv c 2 t) (blk2 Vv c 3 t) (blk2 Vv c 4 t) ((D2 Vv c).before 6 t d6) Set.univ _)
    iframe H0 H1 H2 H3 H4 H6 HS0 HS1
    isplitl [H5]; · iexists _; iexact H5
    iintro ⟨H0, H1, H2, H3, H4, H5, H6, HS0, HS1⟩
    iframe HS0 HS1 HR Ho H0 H1 H2 H3 H4 H5
    iexists d6; iexact H6
  obtain ⟨n, hn⟩ := Nat.exists_eq_succ_of_ne_zero h0
  rw [Phi2_pos Vv c t.castSucc n (by omega) hn, acc2_succ Vv c t n (by omega) hn]
  dsimp only; unfold sum2 sq2
  iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩⟩
  iapply (run_B c (grid2.coords t) _ _ _ _ _ _ _ _ _ _ _ _ _ _ _ _ _ _ (fun h => h0 ((hcond1 t).mp h)) hc2
    (blk2 Vv c 0 t) (blk2 Vv c 1 t) (blk2 Vv c 2 t) (blk2 Vv c 3 t) (blk2 Vv c 4 t) ((D2 Vv c).before 6 t d6) (accAt Vv c n (by omega)).1 (accAt Vv c n (by omega)).2 Set.univ _)
  iframe H0 H1 H2 H3 H4 H6 HS0 HS1
  isplitl [H5]; · iexists _; iexact H5
  iintro ⟨H0, H1, H2, H3, H4, H5, H6, HS0, HS1⟩
  iframe HS0 HS1 HR Ho H0 H1 H2 H3 H4 H5
  iexists d6; iexact H6

theorem body2 : Pipeline.BodyObligation (dat2 Vv c (after2 Vv c) (Phi2 Vv c)) (defs₀ (F := F)) 𝒱₀ none Set.univ := fun t => by
  rw [bigSep_W2, bigSep_W2]
  exact sound_body2 Vv c t

theorem phi2_in : (Pipeline.scopedRest (Ix := HIx 1) (Name := ℕ) (U := UU) (Lvl := ℕ) (Val := Elt F) spec2 c : sProp 𝕄) ⊢ Phi2 Vv c 0 := .rfl

-- Named contents are contents.
theorem phi2_out : Phi2 Vv c (Fin.last _) ⊢ (Pipeline.scopedRest (Ix := HIx 1) (Name := ℕ) (U := UU) (Lvl := ℕ) (Val := Elt F) spec2 c : sProp 𝕄) := by
  rw [Phi2_pos Vv c (Fin.last _) 49 (by decide) rfl, scopedRest2_owns]
  iintro ⟨HS0, HS1, HR⟩
  iframe HR
  isplitl [HS0]
  · iexists _; iexact HS0
  · iexists _; iexact HS1

end Cert.Proof.KI

end
-- ==== Proof.KRegion3.lean ====
import proofs.«210907_g44332652429893_cont_8to1_b_736_41_alg».proof.Proof.KBase
import proofs.«210907_g44332652429893_cont_8to1_b_736_41_alg».proof.Proof.KRegionLib
import Idealize.ShloMosaic.Lib.Pipeline.FrameBody
import Idealize.ShloMosaic.Lib.Ring
import Idealize.ShloMosaic.Lib.WholeRead
import Idealize.ShloMosaic.Lib.Tactic

set_option maxRecDepth 16384

noncomputable section

namespace Cert.Proof.KI.R3

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.KI.RegionLib
open Idealize.ShloMosaic.Pipeline (Dat Cfg Window BodyObligation BodyObligationLoose cellOf)

variable {F : FTy → Type} [FloatOps F]

local notation "𝕄" => MT nD τ sig (HIx 1) (Elt F) ℕ UU ℕ

abbrev cond1 (i : grid3.Coords) : Prop :=
  (Scalar.cmpi .ne (Scalar.extui (Scalar.cmpi .eq (BitVec.ofNat 32 (i 0).val) 0#32)) 0#32) = 1#1
theorem hcond1 : ∀ t : Fin cfg3.N, cond1 (grid3.coords t) ↔ t.val % 50 = 0 :=
  (by decide +kernel : ∀ t : Fin grid3.N, cond1 (grid3.coords t) ↔ t.val % 50 = 0)
theorem hcond2 : ∀ t : Fin cfg3.N, k3_cond2 (grid3.coords t) = 1#1 ↔ t.val % 50 = 49 :=
  (by decide +kernel : ∀ t : Fin grid3.N, k3_cond2 (grid3.coords t) = 1#1 ↔ t.val % 50 = 49)

abbrev outT (x1 : Vec F S3200x128 .f32) (x2 : Vec F S2x128 .f32) (x3 x4 : Vec F S1x128 .f32) (x8 : Vec F S128x128 .f32) : Vec F S128x3200 .f32 :=
  k3_pay7 x2 x3 x4 x1 x8
abbrev outM (x1 : Vec F S3200x128 .f32) (x2 : Vec F S2x128 .f32) (x3 x4 : Vec F S1x128 .f32) (x7 : Vec F S128x256 .f32) : Vec F S200x256 .f32 :=
  k3_pay8 x2 x3 x4 x1 x7
abbrev sum0 (x1 : Vec F S3200x128 .f32) (x2 : Vec F S2x128 .f32) (x3 x4 : Vec F S1x128 .f32) (x5 : Vec F S3200x128 .f32)
    (x6 x7 : Vec F S128x256 .f32) (s : Vec F S1x256 .f32) : Vec F S1x256 .f32 :=
  k3_pay4 (outM x1 x2 x3 x4 x7) x5 x6 s
abbrev sum1 (x1 : Vec F S3200x128 .f32) (x2 : Vec F S2x128 .f32) (x3 x4 : Vec F S1x128 .f32) (x5 : Vec F S3200x128 .f32)
    (x6 x7 : Vec F S128x256 .f32) (s : Vec F S1x256 .f32) : Vec F S1x256 .f32 :=
  k3_pay5 (outM x1 x2 x3 x4 x7) x5 x6 s
abbrev VS : View sig .tc .vmem S2x256 .f32 := (Memref.whole cc3_stg10_0 : Memref sig .tc .vmem S2x256 .f32).view
abbrev statsPieces (r0 r1 : Vec F S1x256 .f32) : List (View.Piece (Elt F) S2x256 .f32) :=
  [⟨Rect.unit (s := S2x256) ![1, 0] S1x256.size inb_S2x256_S1x256_1_0, r1⟩, ⟨Rect.unit (s := S2x256) ![0, 0] S1x256.size inb_S2x256_S1x256_0_0, r0⟩]
def statsOut (r0 r1 : Vec F S1x256 .f32) : Vec F S2x256 .f32 :=
  VS.read (Elt F) (VS.writes (Elt F) VS.junk (statsPieces r0 r1))
theorem statsPieces_cover (r0 r1 : Vec F S1x256 .f32) (y : S2x256.Idx) : ∃ pc ∈ statsPieces r0 r1, y ∈ pc.1.set :=
  View.cover_of_tiledL (statsPieces r0 r1) S1x256.size (by sl_kernel_rfl) y

section Run

variable (c : Dev nD) (i : grid3.Coords)
  (arg1 : Memref sig .tc .vmem S3200x128 .f32) (harg1 : arg1.IsWhole)
  (arg2 : Memref sig .tc .vmem S2x128 .f32) (harg2 : arg2.IsWhole)
  (arg3 : Memref sig .tc .vmem S1x128 .f32) (harg3 : arg3.IsWhole)
  (arg4 : Memref sig .tc .vmem S1x128 .f32) (harg4 : arg4.IsWhole)
  (arg5 : Memref sig .tc .vmem S3200x128 .f32) (harg5 : arg5.IsWhole)
  (arg6 : Memref sig .tc .vmem S128x256 .f32) (harg6 : arg6.IsWhole)
  (arg7 : Memref sig .tc .vmem S128x256 .f32) (harg7 : arg7.IsWhole)
  (arg8 : Memref sig .tc .vmem S128x128 .f32) (harg8 : arg8.IsWhole)
  (arg9 : Memref sig .tc .vmem S128x3200 .f32) (harg9 : arg9.IsWhole)
  (arg10 : Memref sig .tc .vmem S200x256 .f32) (harg10 : arg10.IsWhole)
  (arg11 : Memref sig .tc .vmem S2x256 .f32) (harg11 : arg11.IsWhole)
  (arg12 : Memref sig .tc .vmem S1x256 .f32) (harg12 : arg12.IsWhole)
  (arg13 : Memref sig .tc .vmem S1x256 .f32) (harg13 : arg13.IsWhole)

set_option maxHeartbeats 1000000 in
theorem run_A (hc1 : cond1 i) (hc2 : ¬k3_cond2 i = 1#1)
    (x1 : Vec F S3200x128 .f32) (x2 : Vec F S2x128 .f32) (x3 : Vec F S1x128 .f32) (x4 : Vec F S1x128 .f32) (x5 : Vec F S3200x128 .f32)
    (x6 : Vec F S128x256 .f32) (x7 : Vec F S128x256 .f32) (x8 : Vec F S128x128 .f32) (E : Set ℕ) :
    (iprop(owns c arg1 fullShare x1 ∗ owns c arg2 fullShare x2 ∗ owns c arg3 fullShare x3 ∗ owns c arg4 fullShare x4
        ∗ owns c arg5 fullShare x5 ∗ owns c arg6 fullShare x6 ∗ owns c arg7 fullShare x7 ∗ owns c arg8 fullShare x8
        ∗ (∃ d, owns c arg9 fullShare d) ∗ (∃ d, owns c arg10 fullShare d)
        ∗ (∃ d, owns c arg12 fullShare d) ∗ (∃ d, owns c arg13 fullShare d)) : sProp 𝕄)
      ⊢ wp frame (wpE (defs₀ (F := F)) 𝒱₀ c none) E (cc3__stage3_body i arg1 harg1 arg2 harg2 arg3 harg3 arg4 harg4 arg5 harg5 arg6 harg6 arg7 harg7 arg8 harg8 arg9 harg9 arg10 harg10 arg11 harg11 arg12 harg12 arg13 harg13) (fun _ =>
        (iprop(owns c arg1 fullShare x1 ∗ owns c arg2 fullShare x2 ∗ owns c arg3 fullShare x3 ∗ owns c arg4 fullShare x4
        ∗ owns c arg5 fullShare x5 ∗ owns c arg6 fullShare x6 ∗ owns c arg7 fullShare x7 ∗ owns c arg8 fullShare x8
        ∗ owns c arg9 fullShare (outT x1 x2 x3 x4 x8) ∗ owns c arg10 fullShare (outM x1 x2 x3 x4 x7)
        ∗ owns c arg12 fullShare (sum0 x1 x2 x3 x4 x5 x6 x7 k3_pay2) ∗ owns c arg13 fullShare (sum1 x1 x2 x3 x4 x5 x6 x7 k3_pay3)) : sProp 𝕄)) := by
  simp only [cc3__stage3_body_eq_skeleton]; unfold cc3__stage3_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d12, %f12, -, H12⟩, ⟨%d13, %f13, -, H13⟩⟩
  sl_exec (disch := first | exact hc1 | exact hc2)
  sl_step
  isplitl [H1]; · iapply (ownsI hf1) $$ H1
  isplitl [H2]; · iapply (ownsI hf2) $$ H2
  isplitl [H3]; · iapply (ownsI hf3) $$ H3
  isplitl [H4]; · iapply (ownsI hf4) $$ H4
  isplitl [H5]; · iapply (ownsI hf5) $$ H5
  isplitl [H6]; · iapply (ownsI hf6) $$ H6
  isplitl [H7]; · iapply (ownsI hf7) $$ H7
  isplitl [H8]; · iapply (ownsI hf8) $$ H8
  isplitl [H9]; iexists _; isplitr; swap; iexact H9; ipureintro; swap
  isplitl [H10]; iexists _; isplitr; swap; iexact H10; ipureintro; swap
  isplitl [H12]; iexists _; isplitr; swap; iexact H12; ipureintro; swap
  iexists _; isplitr; swap; iexact H13; ipureintro
  all_goals ((try sl_unfold_run_names); simp only [readAt_unit_zero2, read_writes_cons_unit_zero2, readCov_unit_zero2, hf1, hf2, hf3, hf4, hf5, hf6, hf7, hf8])

set_option maxHeartbeats 1000000 in
theorem run_B (hc1 : ¬cond1 i) (hc2 : ¬k3_cond2 i = 1#1)
    (x1 : Vec F S3200x128 .f32) (x2 : Vec F S2x128 .f32) (x3 : Vec F S1x128 .f32) (x4 : Vec F S1x128 .f32) (x5 : Vec F S3200x128 .f32)
    (x6 : Vec F S128x256 .f32) (x7 : Vec F S128x256 .f32) (x8 : Vec F S128x128 .f32) (s0 s1 : Vec F S1x256 .f32) (E : Set ℕ) :
    (iprop(owns c arg1 fullShare x1 ∗ owns c arg2 fullShare x2 ∗ owns c arg3 fullShare x3 ∗ owns c arg4 fullShare x4
        ∗ owns c arg5 fullShare x5 ∗ owns c arg6 fullShare x6 ∗ owns c arg7 fullShare x7 ∗ owns c arg8 fullShare x8
        ∗ (∃ d, owns c arg9 fullShare d) ∗ (∃ d, owns c arg10 fullShare d)
        ∗ owns c arg12 fullShare s0 ∗ owns c arg13 fullShare s1) : sProp 𝕄)
      ⊢ wp frame (wpE (defs₀ (F := F)) 𝒱₀ c none) E (cc3__stage3_body i arg1 harg1 arg2 harg2 arg3 harg3 arg4 harg4 arg5 harg5 arg6 harg6 arg7 harg7 arg8 harg8 arg9 harg9 arg10 harg10 arg11 harg11 arg12 harg12 arg13 harg13) (fun _ =>
        (iprop(owns c arg1 fullShare x1 ∗ owns c arg2 fullShare x2 ∗ owns c arg3 fullShare x3 ∗ owns c arg4 fullShare x4
        ∗ owns c arg5 fullShare x5 ∗ owns c arg6 fullShare x6 ∗ owns c arg7 fullShare x7 ∗ owns c arg8 fullShare x8
        ∗ owns c arg9 fullShare (outT x1 x2 x3 x4 x8) ∗ owns c arg10 fullShare (outM x1 x2 x3 x4 x7)
        ∗ owns c arg12 fullShare (sum0 x1 x2 x3 x4 x5 x6 x7 s0) ∗ owns c arg13 fullShare (sum1 x1 x2 x3 x4 x5 x6 x7 s1)) : sProp 𝕄)) := by
  simp only [cc3__stage3_body_eq_skeleton]; unfold cc3__stage3_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f12, %hf12, H12⟩, ⟨%f13, %hf13, H13⟩⟩
  sl_exec (disch := first | exact hc1 | exact hc2)
  sl_step
  isplitl [H1]; · iapply (ownsI hf1) $$ H1
  isplitl [H2]; · iapply (ownsI hf2) $$ H2
  isplitl [H3]; · iapply (ownsI hf3) $$ H3
  isplitl [H4]; · iapply (ownsI hf4) $$ H4
  isplitl [H5]; · iapply (ownsI hf5) $$ H5
  isplitl [H6]; · iapply (ownsI hf6) $$ H6
  isplitl [H7]; · iapply (ownsI hf7) $$ H7
  isplitl [H8]; · iapply (ownsI hf8) $$ H8
  isplitl [H9]; iexists _; isplitr; swap; iexact H9; ipureintro; swap
  isplitl [H10]; iexists _; isplitr; swap; iexact H10; ipureintro; swap
  isplitl [H12]; iexists _; isplitr; swap; iexact H12; ipureintro; swap
  iexists _; isplitr; swap; iexact H13; ipureintro
  all_goals ((try sl_unfold_run_names); simp only [readAt_unit_zero2, read_writes_cons_unit_zero2, readCov_unit_zero2, hf1, hf2, hf3, hf4, hf5, hf6, hf7, hf8, hf12, hf13])

set_option maxHeartbeats 1000000 in
theorem run_C (hc1 : ¬cond1 i) (hc2 : k3_cond2 i = 1#1)
    (x1 : Vec F S3200x128 .f32) (x2 : Vec F S2x128 .f32) (x3 : Vec F S1x128 .f32) (x4 : Vec F S1x128 .f32) (x5 : Vec F S3200x128 .f32)
    (x6 : Vec F S128x256 .f32) (x7 : Vec F S128x256 .f32) (x8 : Vec F S128x128 .f32) (s0 s1 : Vec F S1x256 .f32) (E : Set ℕ) :
    (iprop(owns c arg1 fullShare x1 ∗ owns c arg2 fullShare x2 ∗ owns c arg3 fullShare x3 ∗ owns c arg4 fullShare x4
        ∗ owns c arg5 fullShare x5 ∗ owns c arg6 fullShare x6 ∗ owns c arg7 fullShare x7 ∗ owns c arg8 fullShare x8
        ∗ (∃ d, owns c arg9 fullShare d) ∗ (∃ d, owns c arg10 fullShare d)
        ∗ (∃ d, owns c arg11 fullShare d)
        ∗ owns c arg12 fullShare s0 ∗ owns c arg13 fullShare s1) : sProp 𝕄)
      ⊢ wp frame (wpE (defs₀ (F := F)) 𝒱₀ c none) E (cc3__stage3_body i arg1 harg1 arg2 harg2 arg3 harg3 arg4 harg4 arg5 harg5 arg6 harg6 arg7 harg7 arg8 harg8 arg9 harg9 arg10 harg10 arg11 harg11 arg12 harg12 arg13 harg13) (fun _ =>
        (iprop(owns c arg1 fullShare x1 ∗ owns c arg2 fullShare x2 ∗ owns c arg3 fullShare x3 ∗ owns c arg4 fullShare x4
        ∗ owns c arg5 fullShare x5 ∗ owns c arg6 fullShare x6 ∗ owns c arg7 fullShare x7 ∗ owns c arg8 fullShare x8
        ∗ owns c arg9 fullShare (outT x1 x2 x3 x4 x8) ∗ owns c arg10 fullShare (outM x1 x2 x3 x4 x7)
        ∗ owns c arg11 fullShare (statsOut (sum0 x1 x2 x3 x4 x5 x6 x7 s0) (sum1 x1 x2 x3 x4 x5 x6 x7 s1))
        ∗ owns c arg12 fullShare (sum0 x1 x2 x3 x4 x5 x6 x7 s0) ∗ owns c arg13 fullShare (sum1 x1 x2 x3 x4 x5 x6 x7 s1)) : sProp 𝕄)) := by
  simp only [cc3__stage3_body_eq_skeleton]; unfold cc3__stage3_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩⟩
  sl_exec (disch := first | exact hc1 | exact hc2)
  sl_step
  isplitl [H1]; · iapply (ownsI hf1) $$ H1
  isplitl [H2]; · iapply (ownsI hf2) $$ H2
  isplitl [H3]; · iapply (ownsI hf3) $$ H3
  isplitl [H4]; · iapply (ownsI hf4) $$ H4
  isplitl [H5]; · iapply (ownsI hf5) $$ H5
  isplitl [H6]; · iapply (ownsI hf6) $$ H6
  isplitl [H7]; · iapply (ownsI hf7) $$ H7
  isplitl [H8]; · iapply (ownsI hf8) $$ H8
  isplitl [H9]; iexists _; isplitr; swap; iexact H9; ipureintro; swap
  isplitl [H10]; iexists _; isplitr; swap; iexact H10; ipureintro; swap
  isplitl [H11]
  · iexists _; isplitr; swap; · iexact H11
    ipureintro; unfold statsOut; (try sl_unfold_run_names); simp only [readAt_unit_zero2, read_writes_cons_unit_zero2, readCov_unit_zero2, hf1, hf2, hf3, hf4, hf5, hf6, hf7, hf8, hf12, hf13]; exact View.read_writes_of_cover _ _ _ _ _ (statsPieces_cover _ _)
  isplitl [H12]; iexists _; isplitr; swap; iexact H12; ipureintro; swap
  iexists _; isplitr; swap; iexact H13; ipureintro
  all_goals ((try sl_unfold_run_names); simp only [readAt_unit_zero2, read_writes_cons_unit_zero2, readCov_unit_zero2, hf1, hf2, hf3, hf4, hf5, hf6, hf7, hf8, hf12, hf13])

end Run

end Cert.Proof.KI.R3

end
-- ==== Proof.KReg3.lean ====
import proofs.«210907_g44332652429893_cont_8to1_b_736_41_alg».proof.Proof.KLaunchDefs
import proofs.«210907_g44332652429893_cont_8to1_b_736_41_alg».proof.Proof.KRegion3

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (Vv : Valuation τ sig (Elt F)) (c : Dev nD)

namespace R3

def Aof (w : Fin cfg3.W) : Buf (Elt F) ((cfg3.win w).arr.view.loc (c.tc : Thread nD τ)) :=
  Vv (Proc.devRef .tc (Pipeline.arrRef spec3 w))

def iblk (w : Fin cfg3.W) (t : Fin cfg3.N) : ((cfg3.win w).xblock (cfg3.grid.coords t)).Idx → Elt F (cfg3.win w).elt :=
  ((cfg3.win w).blk t).view.read (Elt F) (Aof Vv c w)

abbrev blkSum0 (t : Fin cfg3.N) (s : Vec F S1x256 .f32) : Vec F S1x256 .f32 :=
  sum0 (iblk Vv c 0 t) (iblk Vv c 1 t) (iblk Vv c 2 t) (iblk Vv c 3 t) (iblk Vv c 4 t) (iblk Vv c 5 t) (iblk Vv c 6 t) s
abbrev blkSum1 (t : Fin cfg3.N) (s : Vec F S1x256 .f32) : Vec F S1x256 .f32 :=
  sum1 (iblk Vv c 0 t) (iblk Vv c 1 t) (iblk Vv c 2 t) (iblk Vv c 3 t) (iblk Vv c 4 t) (iblk Vv c 5 t) (iblk Vv c 6 t) s

def acc0 : (n : ℕ) → n < cfg3.N → Vec F S1x256 .f32
  | 0, hn => blkSum0 Vv c ⟨0, hn⟩ k3_pay2
  | n + 1, hn => blkSum0 Vv c ⟨n + 1, hn⟩ (acc0 n (Nat.lt_of_succ_lt hn))
def acc1 : (n : ℕ) → n < cfg3.N → Vec F S1x256 .f32
  | 0, hn => blkSum1 Vv c ⟨0, hn⟩ k3_pay3
  | n + 1, hn => blkSum1 Vv c ⟨n + 1, hn⟩ (acc1 n (Nat.lt_of_succ_lt hn))

-- At the first point the carried sums are the block's sums added to zero,
theorem acc_zero (t : Fin cfg3.N) (h : t.val = 0) :
    acc0 Vv c t.val t.isLt = blkSum0 Vv c t k3_pay2 ∧ acc1 Vv c t.val t.isLt = blkSum1 Vv c t k3_pay3 := by
  obtain ⟨v, p⟩ := t; obtain rfl : v = 0 := h; exact ⟨rfl, rfl⟩

-- and at point n + 1 they are the block's sums added to point n's.
theorem acc_succ (t : Fin cfg3.N) (n : ℕ) (hn : n < cfg3.N) (h : t.val = n + 1) :
    acc0 Vv c t.val t.isLt = blkSum0 Vv c t (acc0 Vv c n hn) ∧ acc1 Vv c t.val t.isLt = blkSum1 Vv c t (acc1 Vv c n hn) := by
  obtain ⟨v, p⟩ := t; obtain rfl : v = n + 1 := h; exact ⟨rfl, rfl⟩

abbrev rest3 : sProp 𝕄 := Pipeline.scopedRestBut spec3 c [cc3_scratch0, cc3_scratch1]

end R3

open R3

def after3 : (w : Fin cfg3.W) → Fin cfg3.N → (cfg3.win w).block.Idx → Elt F (cfg3.win w).elt := fun w t =>
  match w with
  | ⟨0, _⟩ => R3.iblk Vv c 0 t
  | ⟨1, _⟩ => R3.iblk Vv c 1 t
  | ⟨2, _⟩ => R3.iblk Vv c 2 t
  | ⟨3, _⟩ => R3.iblk Vv c 3 t
  | ⟨4, _⟩ => R3.iblk Vv c 4 t
  | ⟨5, _⟩ => R3.iblk Vv c 5 t
  | ⟨6, _⟩ => R3.iblk Vv c 6 t
  | ⟨7, _⟩ => R3.iblk Vv c 7 t
  | ⟨8, _⟩ => outT (iblk Vv c 0 t) (iblk Vv c 1 t) (iblk Vv c 2 t) (iblk Vv c 3 t) (iblk Vv c 7 t)
  | ⟨9, _⟩ => outM (iblk Vv c 0 t) (iblk Vv c 1 t) (iblk Vv c 2 t) (iblk Vv c 3 t) (iblk Vv c 6 t)
  | ⟨10, _⟩ => statsOut (acc0 Vv c t.val t.isLt) (acc1 Vv c t.val t.isLt)

def Phi3 : Fin (cfg3.N + 1) → sProp 𝕄
  | ⟨0, _⟩ => Pipeline.scopedRest spec3 c
  | ⟨n + 1, hn⟩ =>
    iprop(iprop(owns (c : Thread nD τ) (Memref.whole cc3_scratch0) fullShare (acc0 Vv c n (Nat.lt_of_succ_lt_succ hn))
        ∗ owns (c : Thread nD τ) (Memref.whole cc3_scratch1) fullShare (acc1 Vv c n (Nat.lt_of_succ_lt_succ hn)))
      ∗ rest3 c)

namespace R3

theorem Phi3_zero (t : Fin (cfg3.N + 1)) (h : t.val = 0) : Phi3 Vv c t = Pipeline.scopedRest spec3 c := by
  obtain ⟨v, p⟩ := t; obtain rfl : v = 0 := h; rfl

theorem Phi3_pos (t : Fin (cfg3.N + 1)) (n : ℕ) (hn : n < cfg3.N) (h : t.val = n + 1) :
    Phi3 Vv c t = iprop(iprop(owns (c : Thread nD τ) (Memref.whole cc3_scratch0) fullShare (acc0 Vv c n hn)
        ∗ owns (c : Thread nD τ) (Memref.whole cc3_scratch1) fullShare (acc1 Vv c n hn)) ∗ rest3 c) := by
  obtain ⟨v, p⟩ := t; obtain rfl : v = n + 1 := h; rfl

-- The scoped buffers hold the two carried buffers, each at some contents, beside the rest.
theorem scopedRest3_owns :
    (Pipeline.scopedRest spec3 c : sProp 𝕄)
      = iprop(iprop((∃ d, owns (c : Thread nD τ) (Memref.whole cc3_scratch0) fullShare d) ∗ (∃ d, owns (c : Thread nD τ) (Memref.whole cc3_scratch1) fullShare d)) ∗ rest3 c) := by
  rw [scopedRest3_split c]; simp only [owns_whole]

abbrev D3 : Dat τ (Elt F) (HIx 1) ℕ UU ℕ cfg3 c := dat3 Vv c (after3 Vv c) (Phi3 Vv c)

theorem after_8 (t : Fin cfg3.N) : (D3 Vv c).after 8 t = after3 Vv c 8 t := rfl
theorem after_9 (t : Fin cfg3.N) : (D3 Vv c).after 9 t = after3 Vv c 9 t := rfl
theorem after_10 (t : Fin cfg3.N) : (D3 Vv c).after 10 t = after3 Vv c 10 t := by dsimp only [D3, dat3]
theorem after3_8 (t : Fin cfg3.N) : after3 Vv c 8 t = outT (iblk Vv c 0 t) (iblk Vv c 1 t) (iblk Vv c 2 t) (iblk Vv c 3 t) (iblk Vv c 7 t) := rfl
theorem after3_9 (t : Fin cfg3.N) : after3 Vv c 9 t = outM (iblk Vv c 0 t) (iblk Vv c 1 t) (iblk Vv c 2 t) (iblk Vv c 3 t) (iblk Vv c 6 t) := rfl
theorem after3_10 (t : Fin cfg3.N) : after3 Vv c 10 t = statsOut (acc0 Vv c t.val t.isLt) (acc1 Vv c t.val t.isLt) := rfl

-- The body leaves every input block as it found it, so what an input holds before the body at a point is the array's block there.
theorem before3 (t : Fin cfg3.N) :
    (∀ d, (D3 Vv c).before 0 t d = iblk Vv c 0 t) ∧ (∀ d, (D3 Vv c).before 1 t d = iblk Vv c 1 t)
      ∧ (∀ d, (D3 Vv c).before 2 t d = iblk Vv c 2 t) ∧ (∀ d, (D3 Vv c).before 3 t d = iblk Vv c 3 t)
      ∧ (∀ d, (D3 Vv c).before 4 t d = iblk Vv c 4 t) ∧ (∀ d, (D3 Vv c).before 5 t d = iblk Vv c 5 t)
      ∧ (∀ d, (D3 Vv c).before 6 t d = iblk Vv c 6 t) ∧ (∀ d, (D3 Vv c).before 7 t d = iblk Vv c 7 t) := by
  refine ⟨fun d => ?_, fun d => ?_, fun d => ?_, fun d => ?_, fun d => ?_, fun d => ?_, fun d => ?_, fun d => ?_⟩ <;>
    exact Eq.trans ((D3 Vv c).before_in_eq_fetched _ rfl (fun _ => rfl) (fun _ _ _ => rfl)
      (fun _ => by unfold Dat.blockOf; rfl) t d) (by unfold Dat.fetched Dat.blockOf iblk; rfl)

theorem idle10_of_ne : ∀ t : Fin cfg3.N, t.val % 50 ≠ 49 → cfg3.idle 10 (cfg3.grid.coords t) = true :=
  (by decide +kernel : ∀ t : Fin grid3.N, t.val % 50 ≠ 49 → idle3 10 (grid3.coords t) = true)
theorem idle10_of_eq : ∀ t : Fin cfg3.N, t.val % 50 = 49 → cfg3.idle 10 (cfg3.grid.coords t) = false :=
  (by decide +kernel : ∀ t : Fin grid3.N, t.val % 50 = 49 → idle3 10 (grid3.coords t) = false)

-- A run to Q, and K wherever Q, is a run to K.
theorem cps_of {α : Type} {P : sProp 𝕄} {c : Dev nD} {E : Set ℕ} {p : Prog (TpuEff nD τ sig (Elt F) Λ₀ .tc) α} {Q K : α → sProp 𝕄}
    (h : P ⊢ wp frame (wpE (defs₀ (F := F)) 𝒱₀ c none) E p Q) :
    iprop(P ∗ (∀ a, Q a -∗ K a)) ⊢ wp frame (wpE (defs₀ (F := F)) 𝒱₀ c none) E p K :=
  (sep_mono h .rfl).trans (wp_wand_r _ _ _)

set_option maxHeartbeats 1600000 in
-- Each input buffer holds its block; the point is the first, the last or a middle one, and that case's run applies with the carried sums at what the invariant holds them at.
theorem sound_body (t : Fin cfg3.N) :
    iprop(Phi3 Vv c t.castSucc ∗ (D3 Vv c).owesAt none t.castSucc
      ∗ (∃ d, owns (c : Thread nD τ) (win3_0.stage (cfg3.slots t 0)) fullShare ((D3 Vv c).before 0 t d))
      ∗ (∃ d, owns (c : Thread nD τ) (win3_1.stage (cfg3.slots t 1)) fullShare ((D3 Vv c).before 1 t d))
      ∗ (∃ d, owns (c : Thread nD τ) (win3_2.stage (cfg3.slots t 2)) fullShare ((D3 Vv c).before 2 t d))
      ∗ (∃ d, owns (c : Thread nD τ) (win3_3.stage (cfg3.slots t 3)) fullShare ((D3 Vv c).before 3 t d))
      ∗ (∃ d, owns (c : Thread nD τ) (win3_4.stage (cfg3.slots t 4)) fullShare ((D3 Vv c).before 4 t d))
      ∗ (∃ d, owns (c : Thread nD τ) (win3_5.stage (cfg3.slots t 5)) fullShare ((D3 Vv c).before 5 t d))
      ∗ (∃ d, owns (c : Thread nD τ) (win3_6.stage (cfg3.slots t 6)) fullShare ((D3 Vv c).before 6 t d))
      ∗ (∃ d, owns (c : Thread nD τ) (win3_7.stage (cfg3.slots t 7)) fullShare ((D3 Vv c).before 7 t d))
      ∗ (∃ d, owns (c : Thread nD τ) (win3_8.stage (cfg3.slots t 8)) fullShare ((D3 Vv c).before 8 t d))
      ∗ (∃ d, owns (c : Thread nD τ) (win3_9.stage (cfg3.slots t 9)) fullShare ((D3 Vv c).before 9 t d))
      ∗ (∃ d, owns (c : Thread nD τ) (win3_10.stage (cfg3.slots t 10)) fullShare ((D3 Vv c).before 10 t d)))
    ⊢ wp frame (wpE (defs₀ (F := F)) 𝒱₀ c none) Set.univ (bodyAt3 t) (fun _ =>
      iprop(Phi3 Vv c t.succ ∗ (D3 Vv c).owesAt none t.castSucc
        ∗ owns (c : Thread nD τ) (win3_0.stage (cfg3.slots t 0)) fullShare (iblk Vv c 0 t)
        ∗ owns (c : Thread nD τ) (win3_1.stage (cfg3.slots t 1)) fullShare (iblk Vv c 1 t)
        ∗ owns (c : Thread nD τ) (win3_2.stage (cfg3.slots t 2)) fullShare (iblk Vv c 2 t)
        ∗ owns (c : Thread nD τ) (win3_3.stage (cfg3.slots t 3)) fullShare (iblk Vv c 3 t)
        ∗ owns (c : Thread nD τ) (win3_4.stage (cfg3.slots t 4)) fullShare (iblk Vv c 4 t)
        ∗ owns (c : Thread nD τ) (win3_5.stage (cfg3.slots t 5)) fullShare (iblk Vv c 5 t)
        ∗ owns (c : Thread nD τ) (win3_6.stage (cfg3.slots t 6)) fullShare (iblk Vv c 6 t)
        ∗ owns (c : Thread nD τ) (win3_7.stage (cfg3.slots t 7)) fullShare (iblk Vv c 7 t)
        ∗ owns (c : Thread nD τ) (win3_8.stage (cfg3.slots t 8)) fullShare (outT (iblk Vv c 0 t) (iblk Vv c 1 t) (iblk Vv c 2 t) (iblk Vv c 3 t) (iblk Vv c 7 t))
        ∗ owns (c : Thread nD τ) (win3_9.stage (cfg3.slots t 9)) fullShare (outM (iblk Vv c 0 t) (iblk Vv c 1 t) (iblk Vv c 2 t) (iblk Vv c 3 t) (iblk Vv c 6 t))
        ∗ (D3 Vv c).leavesExact 10 t)) := by
  have hN : t.val < 50 := lt_of_lt_of_eq t.isLt (show cfg3.N = 50 from N_3)
  have hlt := t.isLt
  obtain ⟨b0, b1, b2, b3, b4, b5, b6, b7⟩ := before3 Vv c t
  rw [Phi3_pos Vv c t.succ t.val t.isLt rfl]
  by_cases h49 : t.val = 49
  · obtain ⟨e0, e1⟩ := acc_succ Vv c t 48 (by omega) h49
    unfold Dat.leavesExact
    rw [idle10_of_eq t (by omega)]
    dsimp only
    rw [after_10, after3_10, Phi3_pos Vv c t.castSucc 48 (by omega) h49, e0, e1]
    simp only [b0, b1, b2, b3, b4, b5, b6, b7]
    iintro ⟨⟨⟨Hs0, Hs1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (cps_of (run_C c (grid3.coords t) _ _ _ _ _ _ _ _ _ _ _ _ _ _ _ _ _ _ _ _ _ _ _ _ _ _ (fun h => by have := (hcond1 t).mp h; omega) ((hcond2 t).mpr (by omega))
      (iblk Vv c 0 t) (iblk Vv c 1 t) (iblk Vv c 2 t) (iblk Vv c 3 t) (iblk Vv c 4 t) (iblk Vv c 5 t) (iblk Vv c 6 t) (iblk Vv c 7 t) (acc0 Vv c 48 (by omega)) (acc1 Vv c 48 (by omega)) Set.univ))
    iframe H0 H1 H2 H3 H4 H5 H6 H7 Hs0 Hs1
    isplitl [H8 H9 H10]
    · isplitl [H8]; · iexists _; iexact H8
      isplitl [H9]; · iexists _; iexact H9
      iexists _; iexact H10
    iintro %_ ⟨H0, H1, H2, H3, H4, H5, H6, H7, H8, H9, H10, Hs0, Hs1⟩
    iframe Hs0 Hs1 Hr Ho H0 H1 H2 H3 H4 H5 H6 H7 H8 H9
    iexact H10
  rw [Dat.leavesExact_idle _ 10 t (idle10_of_ne t (by omega))
    (Bool.eq_false_iff.mpr fun h => by have := (flush3_10 t).mp h; omega)]
  simp only [b0, b1, b2, b3, b4, b5, b6, b7]
  by_cases h0 : t.val = 0
  · rw [Phi3_zero Vv c t.castSucc h0, scopedRest3_owns, (acc_zero Vv c t h0).1, (acc_zero Vv c t h0).2]
    iintro ⟨⟨⟨Hs0, Hs1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (cps_of (run_A c (grid3.coords t) _ _ _ _ _ _ _ _ _ _ _ _ _ _ _ _ _ _ _ _ _ _ _ _ _ _ ((hcond1 t).mpr (by omega)) (fun h => by have := (hcond2 t).mp h; omega)
      (iblk Vv c 0 t) (iblk Vv c 1 t) (iblk Vv c 2 t) (iblk Vv c 3 t) (iblk Vv c 4 t) (iblk Vv c 5 t) (iblk Vv c 6 t) (iblk Vv c 7 t) Set.univ))
    iframe H0 H1 H2 H3 H4 H5 H6 H7 Hs0 Hs1
    isplitl [H8 H9]
    · isplitl [H8]; · iexists _; iexact H8
      iexists _; iexact H9
    iintro %_ ⟨H0, H1, H2, H3, H4, H5, H6, H7, H8, H9, Hs0, Hs1⟩
    iframe Hs0 Hs1 Hr Ho H0 H1 H2 H3 H4 H5 H6 H7 H8 H9
    iexists d10; iexact H10
  obtain ⟨n, hn⟩ := Nat.exists_eq_succ_of_ne_zero h0
  obtain ⟨e0, e1⟩ := acc_succ Vv c t n (by omega) hn
  rw [Phi3_pos Vv c t.castSucc n (by omega) hn, e0, e1]
  iintro ⟨⟨⟨Hs0, Hs1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (cps_of (run_B c (grid3.coords t) _ _ _ _ _ _ _ _ _ _ _ _ _ _ _ _ _ _ _ _ _ _ _ _ _ _ (fun h => by have := (hcond1 t).mp h; omega) (fun h => by have := (hcond2 t).mp h; omega)
    (iblk Vv c 0 t) (iblk Vv c 1 t) (iblk Vv c 2 t) (iblk Vv c 3 t) (iblk Vv c 4 t) (iblk Vv c 5 t) (iblk Vv c 6 t) (iblk Vv c 7 t) (acc0 Vv c n (by omega)) (acc1 Vv c n (by omega)) Set.univ))
  iframe H0 H1 H2 H3 H4 H5 H6 H7 Hs0 Hs1
  isplitl [H8 H9]
  · isplitl [H8]; · iexists _; iexact H8
    iexists _; iexact H9
  iintro %_ ⟨H0, H1, H2, H3, H4, H5, H6, H7, H8, H9, Hs0, Hs1⟩
  iframe Hs0 Hs1 Hr Ho H0 H1 H2 H3 H4 H5 H6 H7 H8 H9
  iexists d10; iexact H10

end R3

theorem body3 : BodyObligation (dat3 Vv c (after3 Vv c) (Phi3 Vv c)) (defs₀ (F := F)) 𝒱₀ none Set.univ := fun t => by
  rw [bigSep_W3, bigSep_W3]
  exact R3.sound_body Vv c t

theorem phi3_in : (Pipeline.scopedRest spec3 c : sProp 𝕄) ⊢ Phi3 Vv c 0 := .rfl

-- Named contents are contents.
theorem phi3_out : Phi3 Vv c (Fin.last _) ⊢ (Pipeline.scopedRest spec3 c : sProp 𝕄) := by
  rw [R3.Phi3_pos Vv c (Fin.last _) 49 (by decide) rfl, R3.scopedRest3_owns]
  iintro ⟨⟨H0, H1⟩, Hr⟩
  iframe Hr
  isplitl [H0]
  · iexists _; iexact H0
  · iexists _; iexact H1

end Cert.Proof.KI

end
-- ==== Proof.KReg4Run.lean ====
import proofs.«210907_g44332652429893_cont_8to1_b_736_41_alg».proof.Proof.KBase
import Idealize.ShloMosaic.Lib.Pipeline.FrameBody
import Idealize.ShloMosaic.Lib.WholeRead
import Idealize.ShloMosaic.Lib.ValueIdx
import Idealize.ShloMosaic.Lib.Ring
import Idealize.ShloMosaic.Lib.Tactic

noncomputable section

namespace Cert.Proof.KI.R4

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig (HIx 1) (Elt F) ℕ UU ℕ

omit [FloatOps F] in
theorem zz2 : (![0, 0] : Fin 2 → ℕ) = fun _ => 0 := funext fun a => by fin_cases a <;> rfl

-- Read whole, at offset zero, through a whole buffer held at the contents that read `X`: the result is `X`.
theorem readAt_whole_unread {κ : Kind} {sp : Space} {s : Shape} {e : EltTy} {m : Memref sig κ sp s e} (h : m.IsWhole)
    {off : Fin s.rank → ℕ} (ho : off = fun _ => 0) (inb : ∀ a, off a + s.size a ≤ s.size a) (X : s.Idx → Elt F e) :
    m.view.readAt (Elt F) (Rect.unit off s.size inb).toLoadRect (h.unread X) = X := by
  subst ho; funext x
  refine (h.readAt_unread X _ x).trans ?_
  show X ((Rect.whole s).emb x) = X x
  rw [Rect.emb_whole_apply]

-- A last write of the whole shape decides what is read, whatever was there and whatever was written before.
theorem read_writes_unit_zero {κ : Kind} {sp : Space} {s : Shape} {e : EltTy} (v : View sig κ sp s e)
    {off : Fin s.rank → ℕ} (ho : off = fun _ => 0) (inb : ∀ a, off a + s.size a ≤ s.size a) (f : v.ty.Contents (Elt F))
    (w : s.Idx → Elt F e) (L : List (View.Piece (Elt F) s e)) :
    v.read (Elt F) (v.writes (Elt F) f ((⟨Rect.unit off s.size inb, w⟩ : View.Piece (Elt F) s e) :: L)) = w := by
  subst ho; funext y
  have e := View.read_writes_cons_emb v f (Rect.whole s) w L y
  rw [Rect.emb_whole_apply] at e
  exact e

-- Contents that read `X` witness ownership at `X`.
theorem ownsI (c : Thread nD τ) {sp : Space} {s : Shape} {e : EltTy} {m : Memref sig c.2.kind sp s e} {q : PosShare TreeShare}
    {f : m.view.ty.Contents (Elt F)} {X : s.Idx → Elt F e} (h : m.view.read (Elt F) f = X) :
    (m.view.loc c ↦[m.view.set]{q} f : sProp 𝕄) ⊢ iprop(∃ f, ⌜m.view.read (Elt F) f = X⌝ ∗ (m.view.loc c ↦[m.view.set]{q} f)) := by
  iintro H; iexists f; isplitr
  · ipureintro; exact h
  · iexact H

def rows2 (a b : Vec F S1x128 .f32) : Vec F S2x128 .f32 :=
  fun j => if (j 0).val = 0 then a (ix2 (n0 := 1) (n1 := 128) 0 (j 1)) else b (ix2 (n0 := 1) (n1 := 128) 0 (j 1))

-- The two row writes tile the block, so it reads as the two rows stacked.
omit [FloatOps F] in
theorem read_rows2 {κ : Kind} {sp : Space} (v : View sig κ sp S2x128 .f32) (f : v.ty.Contents (Elt F)) (a b : Vec F S1x128 .f32) :
    v.read (Elt F) (v.writes (Elt F) f
      [(⟨Rect.unit (s := S2x128) ![1, 0] ![1, 128] inb_S2x128_S1x128_1_0, b⟩ : View.Piece (Elt F) S2x128 .f32),
        ⟨Rect.unit (s := S2x128) ![0, 0] ![1, 128] inb_S2x128_S1x128_0_0, a⟩]) = rows2 a b := by
  funext y
  refine View.read_writes_apply_of_pieces v f (rows2 a b) _ ?_ y
    (View.cover_of_tiledL _ ![1, 128] (by rfl) y)
  intro p hp x
  simp only [List.mem_cons, List.not_mem_nil, _root_.or_false] at hp
  rcases hp with rfl | rfl
  · show b x = rows2 a b _
    unfold rows2
    rw [if_neg (by rw [Rect.emb_apply]; show ¬ (1 + 1 * (x 0).val = 0); omega)]
    refine congrArg b ?_
    funext d
    match d with
    | ⟨0, _⟩ => exact Fin.ext (by have : (x ⟨0, Nat.zero_lt_two⟩).val < 1 := (x ⟨0, Nat.zero_lt_two⟩).isLt; show (x ⟨0, _⟩).val = 0; omega)
    | ⟨1, _⟩ => exact Fin.ext (by show (x ⟨1, _⟩).val = 0 + 1 * (x ⟨1, _⟩).val; omega)
  · show a x = rows2 a b _
    unfold rows2
    rw [if_pos (by rw [Rect.emb_apply]; have : (x 0).val < 1 := (x 0).isLt; show 0 + 1 * (x 0).val = 0; omega)]
    refine congrArg a ?_
    funext d
    match d with
    | ⟨0, _⟩ => exact Fin.ext (by have : (x ⟨0, Nat.zero_lt_two⟩).val < 1 := (x ⟨0, Nat.zero_lt_two⟩).isLt; show (x ⟨0, _⟩).val = 0; omega)
    | ⟨1, _⟩ => exact Fin.ext (by show (x ⟨1, _⟩).val = 0 + 1 * (x ⟨1, _⟩).val; omega)

def out8 (x1 : Vec F S200x256 .f32) (x2 : Vec F S2x256 .f32) (x3 : Vec F S1x256 .f32) (x4 : Vec F S1x256 .f32)
    (x5 : Vec F S3200x128 .f32) (x6 : Vec F S128x256 .f32) (x7 : Vec F S256x128 .f32) : Vec F S200x128 .f32 :=
  k4_pay2 (k4_pay7 x2 x3 x4 x1 x5 x6) (k4_pay8 x7)

def sum10 (x1 : Vec F S200x256 .f32) (x2 : Vec F S2x256 .f32) (x3 : Vec F S1x256 .f32) (x4 : Vec F S1x256 .f32)
    (x5 : Vec F S3200x128 .f32) (x6 : Vec F S128x256 .f32) (x7 : Vec F S256x128 .f32) (s : Vec F S1x128 .f32) : Vec F S1x128 .f32 :=
  k4_pay5 (k4_pay7 x2 x3 x4 x1 x5 x6) (k4_pay8 x7) s

def sq11 (x1 : Vec F S200x256 .f32) (x2 : Vec F S2x256 .f32) (x3 : Vec F S1x256 .f32) (x4 : Vec F S1x256 .f32)
    (x5 : Vec F S3200x128 .f32) (x6 : Vec F S128x256 .f32) (x7 : Vec F S256x128 .f32) (s : Vec F S1x128 .f32) : Vec F S1x128 .f32 :=
  k4_pay6 (k4_pay7 x2 x3 x4 x1 x5 x6) (k4_pay8 x7) s

abbrev cond1 (i : grid4.Coords) : Prop :=
  (Scalar.cmpi .ne (Scalar.extui (Scalar.cmpi .eq (BitVec.ofNat 32 (i 0).val) 0#32)) 0#32) = 1#1
omit [FloatOps F] in
theorem hcond1 : ∀ t : Fin cfg4.N, cond1 (grid4.coords t) ↔ t.val = 0 :=
  (by decide +kernel : ∀ t : Fin grid4.N, cond1 (grid4.coords t) ↔ t.val = 0)

abbrev cond2 (i : grid4.Coords) : Prop := k4_cond2 i = 1#1
omit [FloatOps F] in
theorem hcond2 : ∀ t : Fin cfg4.N, cond2 (grid4.coords t) ↔ t.val = 49 :=
  (by decide +kernel : ∀ t : Fin grid4.N, cond2 (grid4.coords t) ↔ t.val = 49)

variable (c : Dev nD) (i : grid4.Coords)
    (arg1 : Memref sig .tc .vmem S200x256 .f32) (harg1 : arg1.IsWhole) (arg2 : Memref sig .tc .vmem S2x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S3200x128 .f32) (harg5 : arg5.IsWhole) (arg6 : Memref sig .tc .vmem S128x256 .f32) (harg6 : arg6.IsWhole)
    (arg7 : Memref sig .tc .vmem S256x128 .f32) (harg7 : arg7.IsWhole) (arg8 : Memref sig .tc .vmem S200x128 .f32) (harg8 : arg8.IsWhole)
    (arg9 : Memref sig .tc .vmem S2x128 .f32) (harg9 : arg9.IsWhole) (arg10 : Memref sig .tc .vmem S1x128 .f32) (harg10 : arg10.IsWhole)
    (arg11 : Memref sig .tc .vmem S1x128 .f32) (harg11 : arg11.IsWhole)
    (x1 : Vec F S200x256 .f32) (x2 : Vec F S2x256 .f32) (x3 : Vec F S1x256 .f32) (x4 : Vec F S1x256 .f32) (x5 : Vec F S3200x128 .f32) (x6 : Vec F S128x256 .f32) (x7 : Vec F S256x128 .f32)
    (x8 : Vec F S200x128 .f32) (x9 : Vec F S2x128 .f32) (s10 s11 : Vec F S1x128 .f32)

-- The eleven buffers: the first seven at `x1 … x7`, the last four at the contents given.
def held (y8 : Vec F S200x128 .f32) (y9 : Vec F S2x128 .f32) (y10 y11 : Vec F S1x128 .f32) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
    ∗ owns (c : Thread nD τ) arg8 fullShare y8 ∗ owns (c : Thread nD τ) arg9 fullShare y9 ∗ owns (c : Thread nD τ) arg10 fullShare y10 ∗ owns (c : Thread nD τ) arg11 fullShare y11)

-- One run of the body from `x8 x9 s10 s11`: inputs unchanged, `out8` stored, the sums continued from `z10`, `z11`.
abbrev Run (y9 : Vec F S2x128 .f32) (z10 z11 : Vec F S1x128 .f32) : Prop :=
  held c arg1 arg2 arg3 arg4 arg5 arg6 arg7 arg8 arg9 arg10 arg11 x1 x2 x3 x4 x5 x6 x7 x8 x9 s10 s11 ⊢ wp frame (wpE (defs₀ (F := F)) 𝒱₀ c none) Set.univ (cc4__stage4_body i arg1 harg1 arg2 harg2 arg3 harg3 arg4 harg4 arg5 harg5 arg6 harg6 arg7 harg7 arg8 harg8 arg9 harg9 arg10 harg10 arg11 harg11)
    (fun _ => held c arg1 arg2 arg3 arg4 arg5 arg6 arg7 arg8 arg9 arg10 arg11 x1 x2 x3 x4 x5 x6 x7 (out8 x1 x2 x3 x4 x5 x6 x7) y9 (sum10 x1 x2 x3 x4 x5 x6 x7 z10) (sq11 x1 x2 x3 x4 x5 x6 x7 z11))

-- First point: the sums restart from the constants; the statistics block is not touched.
set_option maxHeartbeats 1000000 in
theorem run_A (h1 : cond1 i) (h2 : ¬cond2 i) : Run c i arg1 harg1 arg2 harg2 arg3 harg3 arg4 harg4 arg5 harg5 arg6 harg6 arg7 harg7 arg8 harg8 arg9 harg9 arg10 harg10 arg11 harg11 x1 x2 x3 x4 x5 x6 x7 x8 x9 s10 s11 x9 k4_pay3 k4_pay4 := by
  unfold Run held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, -, H8⟩, ⟨%f9, %hf9, H9⟩, ⟨%f10, %hf10, H10⟩, ⟨%f11, %hf11, H11⟩⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg9.eq_unread hf9
  obtain rfl := harg10.eq_unread hf10; obtain rfl := harg11.eq_unread hf11
  simp only [cc4__stage4_body_eq_skeleton]; unfold cc4__stage4_body_skel
  simp only [k4_part1_eq_skeleton]; unfold k4_part1_skel
  sl_exec (disch := first | exact h1 | exact h2)
  sl_step
  sl_unfold_run_names
  rw [readAt_whole_unread harg1 zz2, readAt_whole_unread harg2 zz2, readAt_whole_unread harg3 zz2, readAt_whole_unread harg4 zz2, readAt_whole_unread harg5 zz2, readAt_whole_unread harg6 zz2, readAt_whole_unread harg7 zz2,
    View.readCov_unit_zero arg10.view zz2, View.readCov_unit_zero arg11.view zz2]
  isplitl [H1]; · iapply (ownsI c (harg1.read_unread _)) $$ H1
  isplitl [H2]; · iapply (ownsI c (harg2.read_unread _)) $$ H2
  isplitl [H3]; · iapply (ownsI c (harg3.read_unread _)) $$ H3
  isplitl [H4]; · iapply (ownsI c (harg4.read_unread _)) $$ H4
  isplitl [H5]; · iapply (ownsI c (harg5.read_unread _)) $$ H5
  isplitl [H6]; · iapply (ownsI c (harg6.read_unread _)) $$ H6
  isplitl [H7]; · iapply (ownsI c (harg7.read_unread _)) $$ H7
  isplitl [H8]; · iapply (ownsI c (read_writes_unit_zero arg8.view zz2 _ _ _ _)) $$ H8
  isplitl [H9]; · iapply (ownsI c (harg9.read_unread _)) $$ H9
  isplitl [H10]; · iapply (ownsI c (read_writes_unit_zero arg10.view zz2 _ _ _ _)) $$ H10
  iapply (ownsI c (read_writes_unit_zero arg11.view zz2 _ _ _ _)) $$ H11

-- Middle point: the sums continue from `s10`, `s11`; the statistics block is not touched.
set_option maxHeartbeats 1000000 in
theorem run_B (h1 : ¬cond1 i) (h2 : ¬cond2 i) : Run c i arg1 harg1 arg2 harg2 arg3 harg3 arg4 harg4 arg5 harg5 arg6 harg6 arg7 harg7 arg8 harg8 arg9 harg9 arg10 harg10 arg11 harg11 x1 x2 x3 x4 x5 x6 x7 x8 x9 s10 s11 x9 s10 s11 := by
  unfold Run held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, -, H8⟩, ⟨%f9, %hf9, H9⟩, ⟨%f10, %hf10, H10⟩, ⟨%f11, %hf11, H11⟩⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg9.eq_unread hf9
  obtain rfl := harg10.eq_unread hf10; obtain rfl := harg11.eq_unread hf11
  simp only [cc4__stage4_body_eq_skeleton]; unfold cc4__stage4_body_skel
  simp only [k4_part1_eq_skeleton]; unfold k4_part1_skel
  sl_exec (disch := first | exact h1 | exact h2)
  sl_step
  sl_unfold_run_names
  rw [readAt_whole_unread harg1 zz2, readAt_whole_unread harg2 zz2, readAt_whole_unread harg3 zz2, readAt_whole_unread harg4 zz2, readAt_whole_unread harg5 zz2, readAt_whole_unread harg6 zz2, readAt_whole_unread harg7 zz2,
    readAt_whole_unread harg10 zz2, readAt_whole_unread harg11 zz2]
  isplitl [H1]; · iapply (ownsI c (harg1.read_unread _)) $$ H1
  isplitl [H2]; · iapply (ownsI c (harg2.read_unread _)) $$ H2
  isplitl [H3]; · iapply (ownsI c (harg3.read_unread _)) $$ H3
  isplitl [H4]; · iapply (ownsI c (harg4.read_unread _)) $$ H4
  isplitl [H5]; · iapply (ownsI c (harg5.read_unread _)) $$ H5
  isplitl [H6]; · iapply (ownsI c (harg6.read_unread _)) $$ H6
  isplitl [H7]; · iapply (ownsI c (harg7.read_unread _)) $$ H7
  isplitl [H8]; · iapply (ownsI c (read_writes_unit_zero arg8.view zz2 _ _ _ _)) $$ H8
  isplitl [H9]; · iapply (ownsI c (harg9.read_unread _)) $$ H9
  isplitl [H10]; · iapply (ownsI c (read_writes_unit_zero arg10.view zz2 _ _ _ _)) $$ H10
  iapply (ownsI c (read_writes_unit_zero arg11.view zz2 _ _ _ _)) $$ H11

-- Last point: as in the middle, and the statistics block receives the two sums as its rows.
set_option maxHeartbeats 1000000 in
theorem run_C (h1 : ¬cond1 i) (h2 : cond2 i) : Run c i arg1 harg1 arg2 harg2 arg3 harg3 arg4 harg4 arg5 harg5 arg6 harg6 arg7 harg7 arg8 harg8 arg9 harg9 arg10 harg10 arg11 harg11 x1 x2 x3 x4 x5 x6 x7 x8 x9 s10 s11 (rows2 (sum10 x1 x2 x3 x4 x5 x6 x7 s10) (sq11 x1 x2 x3 x4 x5 x6 x7 s11)) s10 s11 := by
  unfold Run held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, -, H8⟩, ⟨%f9, %hf9, H9⟩, ⟨%f10, %hf10, H10⟩, ⟨%f11, %hf11, H11⟩⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg9.eq_unread hf9
  obtain rfl := harg10.eq_unread hf10; obtain rfl := harg11.eq_unread hf11
  simp only [cc4__stage4_body_eq_skeleton]; unfold cc4__stage4_body_skel
  simp only [k4_part1_eq_skeleton]; unfold k4_part1_skel
  sl_exec (disch := first | exact h1 | exact h2)
  sl_step
  sl_unfold_run_names
  rw [readAt_whole_unread harg1 zz2, readAt_whole_unread harg2 zz2, readAt_whole_unread harg3 zz2, readAt_whole_unread harg4 zz2, readAt_whole_unread harg5 zz2, readAt_whole_unread harg6 zz2, readAt_whole_unread harg7 zz2,
    readAt_whole_unread harg10 zz2, readAt_whole_unread harg11 zz2, View.readCov_unit_zero arg10.view zz2, View.readCov_unit_zero arg11.view zz2]
  isplitl [H1]; · iapply (ownsI c (harg1.read_unread _)) $$ H1
  isplitl [H2]; · iapply (ownsI c (harg2.read_unread _)) $$ H2
  isplitl [H3]; · iapply (ownsI c (harg3.read_unread _)) $$ H3
  isplitl [H4]; · iapply (ownsI c (harg4.read_unread _)) $$ H4
  isplitl [H5]; · iapply (ownsI c (harg5.read_unread _)) $$ H5
  isplitl [H6]; · iapply (ownsI c (harg6.read_unread _)) $$ H6
  isplitl [H7]; · iapply (ownsI c (harg7.read_unread _)) $$ H7
  isplitl [H8]; · iapply (ownsI c (read_writes_unit_zero arg8.view zz2 _ _ _ _)) $$ H8
  isplitl [H9]; · iapply (ownsI c (read_rows2 arg9.view _ _ _)) $$ H9
  isplitl [H10]; · iapply (ownsI c (read_writes_unit_zero arg10.view zz2 _ _ _ _)) $$ H10
  iapply (ownsI c (read_writes_unit_zero arg11.view zz2 _ _ _ _)) $$ H11

-- The three cases as one statement, read off the two conditions (which never hold together).
theorem run (hc : ¬(cond1 i ∧ cond2 i)) : Run c i arg1 harg1 arg2 harg2 arg3 harg3 arg4 harg4 arg5 harg5 arg6 harg6 arg7 harg7 arg8 harg8 arg9 harg9 arg10 harg10 arg11 harg11 x1 x2 x3 x4 x5 x6 x7 x8 x9 s10 s11 (if cond2 i then rows2 (sum10 x1 x2 x3 x4 x5 x6 x7 (if cond1 i then k4_pay3 else s10)) (sq11 x1 x2 x3 x4 x5 x6 x7 (if cond1 i then k4_pay4 else s11)) else x9)
    (if cond1 i then k4_pay3 else s10) (if cond1 i then k4_pay4 else s11) := by
  by_cases h1 : cond1 i <;> by_cases h2 : cond2 i
  · exact absurd ⟨h1, h2⟩ hc
  · rw [if_pos h1, if_pos h1, if_neg h2]; exact run_A c i _ _ _ _ _ _ _ _ _ _ _ _ _ _ _ _ _ _ _ _ _ _ _ _ _ _ _ _ _ _ _ _ _ h1 h2
  · rw [if_neg h1, if_neg h1, if_pos h2]; exact run_C c i _ _ _ _ _ _ _ _ _ _ _ _ _ _ _ _ _ _ _ _ _ _ _ _ _ _ _ _ _ _ _ _ _ h1 h2
  · rw [if_neg h1, if_neg h1, if_neg h2]; exact run_B c i _ _ _ _ _ _ _ _ _ _ _ _ _ _ _ _ _ _ _ _ _ _ _ _ _ _ _ _ _ _ _ _ _ h1 h2

end Cert.Proof.KI.R4

end
-- ==== Proof.KReg4.lean ====
import proofs.«210907_g44332652429893_cont_8to1_b_736_41_alg».proof.Proof.KLaunchDefs
import proofs.«210907_g44332652429893_cont_8to1_b_736_41_alg».proof.Proof.KReg4Run
import Idealize.ShloMosaic.Lib.Pipeline.FrameBody
import Idealize.ShloMosaic.Lib.Pipeline.Kit
import Idealize.ShloMosaic.Lib.Tactic

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (Vv : Valuation τ sig (Elt F)) (c : Dev nD)

namespace R4

def iblk (w : Fin cfg4.W) (t : Fin cfg4.N) : ((cfg4.win w).xblock (cfg4.grid.coords t)).Idx → Elt F (cfg4.win w).elt :=
  ((cfg4.win w).blk t).view.read (Elt F) (Vv (Proc.devRef .tc (Pipeline.arrRef spec4 w)))

abbrev scM0 : Memref sig .tc .vmem S1x128 .f32 := Memref.whole cc4_scratch0
abbrev scM1 : Memref sig .tc .vmem S1x128 .f32 := Memref.whole cc4_scratch1

def out8At (t : Fin cfg4.N) : Vec F S200x128 .f32 := out8 (iblk Vv 0 t) (iblk Vv 1 t) (iblk Vv 2 t) (iblk Vv 3 t) (iblk Vv 4 t) (iblk Vv 5 t) (iblk Vv 6 t)

def sum10At (t : Fin cfg4.N) (s : Vec F S1x128 .f32) : Vec F S1x128 .f32 := sum10 (iblk Vv 0 t) (iblk Vv 1 t) (iblk Vv 2 t) (iblk Vv 3 t) (iblk Vv 4 t) (iblk Vv 5 t) (iblk Vv 6 t) s

def sq11At (t : Fin cfg4.N) (s : Vec F S1x128 .f32) : Vec F S1x128 .f32 := sq11 (iblk Vv 0 t) (iblk Vv 1 t) (iblk Vv 2 t) (iblk Vv 3 t) (iblk Vv 4 t) (iblk Vv 5 t) (iblk Vv 6 t) s

-- The running sums after point `n`: the point's contribution over the sums after `n - 1`, over the constants at `n = 0`.
def accAt : (n : ℕ) → n < cfg4.N → Vec F S1x128 .f32 × Vec F S1x128 .f32
  | 0, hn => (sum10At Vv ⟨0, hn⟩ k4_pay3, sq11At Vv ⟨0, hn⟩ k4_pay4)
  | n + 1, hn => (sum10At Vv ⟨n + 1, hn⟩ (accAt n (Nat.lt_of_succ_lt hn)).1, sq11At Vv ⟨n + 1, hn⟩ (accAt n (Nat.lt_of_succ_lt hn)).2)

theorem accAt_zero (t : Fin cfg4.N) (h0 : t.val = 0) :
    accAt Vv t.val t.isLt = (sum10At Vv t k4_pay3, sq11At Vv t k4_pay4) := by
  obtain ⟨n, hn⟩ := t
  cases n with
  | zero => rfl
  | succ n => exact absurd h0 (Nat.succ_ne_zero n)

theorem accAt_pos (t : Fin cfg4.N) (h0 : t.val ≠ 0) :
    accAt Vv t.val t.isLt
      = (sum10At Vv t (accAt Vv (t.val - 1) (Nat.lt_of_le_of_lt (Nat.sub_le _ _) t.isLt)).1,
          sq11At Vv t (accAt Vv (t.val - 1) (Nat.lt_of_le_of_lt (Nat.sub_le _ _) t.isLt)).2) := by
  obtain ⟨n, hn⟩ := t
  cases n with
  | zero => exact absurd rfl h0
  | succ n => rfl

def PhiS : (n : ℕ) → n ≤ cfg4.N → sProp 𝕄
  | 0, _ => Pipeline.scopedRest (Ix := HIx 1) (Name := ℕ) (U := UU) (Lvl := ℕ) (Val := Elt F) spec4 c
  | n + 1, hn => iprop(owns (c : Thread nD τ) scM0 fullShare (accAt Vv n hn).1 ∗ owns (c : Thread nD τ) scM1 fullShare (accAt Vv n hn).2
      ∗ Pipeline.scopedRestBut (Ix := HIx 1) (Name := ℕ) (U := UU) (Lvl := ℕ) (Val := Elt F) spec4 c [cc4_scratch0, cc4_scratch1])

theorem PhiS_zero (n : ℕ) (h : n ≤ cfg4.N) (hz : n = 0) :
    PhiS Vv c n h = Pipeline.scopedRest (Ix := HIx 1) (Name := ℕ) (U := UU) (Lvl := ℕ) (Val := Elt F) spec4 c := by
  subst hz; rfl

theorem PhiS_succ (n : ℕ) (hn : n < cfg4.N) :
    PhiS Vv c (n + 1) hn = iprop(owns (c : Thread nD τ) scM0 fullShare (accAt Vv n hn).1 ∗ owns (c : Thread nD τ) scM1 fullShare (accAt Vv n hn).2
      ∗ Pipeline.scopedRestBut (Ix := HIx 1) (Name := ℕ) (U := UU) (Lvl := ℕ) (Val := Elt F) spec4 c [cc4_scratch0, cc4_scratch1]) := rfl

theorem PhiS_pos (n : ℕ) (h : n ≤ cfg4.N) (hz : n ≠ 0) :
    PhiS Vv c n h = iprop(owns (c : Thread nD τ) scM0 fullShare (accAt Vv (n - 1) (by omega)).1
      ∗ owns (c : Thread nD τ) scM1 fullShare (accAt Vv (n - 1) (by omega)).2
      ∗ Pipeline.scopedRestBut (Ix := HIx 1) (Name := ℕ) (U := UU) (Lvl := ℕ) (Val := Elt F) spec4 c [cc4_scratch0, cc4_scratch1]) := by
  cases n with
  | zero => exact absurd rfl hz
  | succ n => rfl

end R4

def after4 (Vv : Valuation τ sig (Elt F)) (c : Dev nD) : (w : Fin cfg4.W) → Fin cfg4.N → (cfg4.win w).block.Idx → Elt F (cfg4.win w).elt := fun w t =>
  match w with
  | ⟨0, _⟩ => R4.iblk Vv 0 t
  | ⟨1, _⟩ => R4.iblk Vv 1 t
  | ⟨2, _⟩ => R4.iblk Vv 2 t
  | ⟨3, _⟩ => R4.iblk Vv 3 t
  | ⟨4, _⟩ => R4.iblk Vv 4 t
  | ⟨5, _⟩ => R4.iblk Vv 5 t
  | ⟨6, _⟩ => R4.iblk Vv 6 t
  | ⟨7, _⟩ => R4.out8At Vv t
  | ⟨8, _⟩ => R4.rows2 (R4.accAt Vv t.val t.isLt).1 (R4.accAt Vv t.val t.isLt).2

def Phi4 : Fin (cfg4.N + 1) → sProp 𝕄 := fun t => R4.PhiS Vv c t.val (Nat.le_of_lt_succ t.isLt)

namespace R4

abbrev D : Pipeline.Dat τ (Elt F) (HIx 1) ℕ UU ℕ cfg4 c := dat4 Vv c (after4 Vv c) (Phi4 Vv c)

theorem after_7 (t : Fin cfg4.N) : (D Vv c).after 7 t = out8At Vv t := by dsimp only [D, dat4, after4]
theorem after_8 (t : Fin cfg4.N) :
    (D Vv c).after 8 t = rows2 (accAt Vv t.val t.isLt).1 (accAt Vv t.val t.isLt).2 := by dsimp only [D, dat4, after4]

-- An input block is left in place, so what the body finds there is what it leaves.
theorem before_in : ∀ (w : Fin cfg4.W), w.val < 7 → ∀ (t : Fin cfg4.N) (d), (D Vv c).before w t d = (D Vv c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    ((D Vv c).before_in_eq_fetched _ rfl (fun _ => rfl) (fun _ _ _ => rfl) (fun _ => rfl) t d).trans rfl
  | ⟨7, _⟩, h, _, _ | ⟨8, _⟩, h, _, _ => by simp at h

theorem idle_8 : ∀ t : Fin cfg4.N, t.val ≠ 49 → cfg4.idle 8 (cfg4.grid.coords t) = true :=
  (by decide +kernel : ∀ t : Fin grid4.N, t.val ≠ 49 → idle4 8 (grid4.coords t) = true)
theorem noFlush_8 (t : Fin cfg4.N) (h : t.val ≠ 49) : (cfg4.win 8).flush t = false :=
  Bool.eq_false_iff.mpr fun hf => h (by
    have h1 := (flush4_8 t).mp hf
    have h2 : t.val < 50 := lt_of_lt_of_eq t.isLt N_4
    omega)

-- Where a window is live the body leaves it at `after`: every window but the last always, the last at point 49.
theorem lv (w : Fin cfg4.W) (t : Fin cfg4.N) (h : w.val < 8 ∨ t.val = 49) :
    (D Vv c).leavesExact w t = owns (c : Thread nD τ) ((cfg4.win w).stage (cfg4.slots t w)) fullShare ((D Vv c).after w t) := by
  unfold Dat.leavesExact
  rw [show cfg4.idle w (cfg4.grid.coords t) = false from match w, h with
    | ⟨0, _⟩, _ | ⟨1, _⟩, _ | ⟨2, _⟩, _ | ⟨3, _⟩, _ | ⟨4, _⟩, _ | ⟨5, _⟩, _ | ⟨6, _⟩, _ | ⟨7, _⟩, _ => rfl
    | ⟨8, _⟩, h => (by decide +kernel : ∀ t : Fin grid4.N, t.val = 49 → idle4 8 (grid4.coords t) = false) t (h.resolve_left (by simp))]

theorem PhiS_castSucc (t : Fin cfg4.N) : (D Vv c).Φ t.castSucc = PhiS Vv c t.val (Nat.le_of_lt t.isLt) := rfl

-- Before point `t` the accumulators hold some `g0`, `g1` from which the sums after `t` follow: the previous sums, or anything at `t = 0`, where the body restarts them.
theorem phi_open (t : Fin cfg4.N) : PhiS Vv c t.val (Nat.le_of_lt t.isLt) ⊢ iprop(∃ g0 g1,
    ⌜accAt Vv t.val t.isLt = (sum10At Vv t (if cond1 (grid4.coords t) then k4_pay3 else g0), sq11At Vv t (if cond1 (grid4.coords t) then k4_pay4 else g1))⌝
      ∗ owns (c : Thread nD τ) scM0 fullShare g0 ∗ owns (c : Thread nD τ) scM1 fullShare g1 ∗ Pipeline.scopedRestBut (Ix := HIx 1) (Name := ℕ) (U := UU) (Lvl := ℕ) (Val := Elt F) spec4 c [cc4_scratch0, cc4_scratch1]) := by
  by_cases h0 : t.val = 0
  · rw [PhiS_zero Vv c _ _ h0, scopedRest4_split, accAt_zero Vv t h0]
    simp only [if_pos ((hcond1 t).mpr h0)]
    iintro ⟨⟨⟨%g0, H0⟩, ⟨%g1, H1⟩⟩, HR⟩
    iexists g0; iexists g1; isplitr; · ipureintro; trivial
    rw [owns_whole, owns_whole]; iframe
  · rw [PhiS_pos Vv c _ _ h0, accAt_pos Vv t h0]
    simp only [if_neg (mt (hcond1 t).mp h0)]
    iintro ⟨H0, H1, HR⟩
    iexists _; iexists _; isplitr; · ipureintro; rfl
    iframe

-- The statistics block is written at the last point only, and there it is the two sums stacked.
theorem lv8 (t : Fin cfg4.N) (d) (A B : Vec F S1x128 .f32) (hacc : accAt Vv t.val t.isLt = (A, B)) :
    owns (c : Thread nD τ) (st4_8 t) fullShare (if cond2 (grid4.coords t) then rows2 A B else (D Vv c).before 8 t d) ⊢ (D Vv c).leavesExact 8 t := by
  by_cases h49 : t.val = 49
  · rw [lv Vv c 8 t (.inr h49), after_8, hacc, if_pos ((hcond2 t).mpr h49)]
  · rw [Dat.leavesExact_idle (D Vv c) 8 t (idle_8 t h49) (noFlush_8 t h49), if_neg (mt (hcond2 t).mp h49)]
    iintro H; iexists _; iexact H

def bodyPre (t : Fin cfg4.N) : sProp 𝕄 :=
  iprop((D Vv c).Φ t.castSucc ∗ (D Vv c).owesAt none t.castSucc
    ∗ (∃ d, owns (c : Thread nD τ) (st4_0 t) fullShare ((D Vv c).before 0 t d))
    ∗ (∃ d, owns (c : Thread nD τ) (st4_1 t) fullShare ((D Vv c).before 1 t d))
    ∗ (∃ d, owns (c : Thread nD τ) (st4_2 t) fullShare ((D Vv c).before 2 t d))
    ∗ (∃ d, owns (c : Thread nD τ) (st4_3 t) fullShare ((D Vv c).before 3 t d))
    ∗ (∃ d, owns (c : Thread nD τ) (st4_4 t) fullShare ((D Vv c).before 4 t d))
    ∗ (∃ d, owns (c : Thread nD τ) (st4_5 t) fullShare ((D Vv c).before 5 t d))
    ∗ (∃ d, owns (c : Thread nD τ) (st4_6 t) fullShare ((D Vv c).before 6 t d))
    ∗ (∃ d, owns (c : Thread nD τ) (st4_7 t) fullShare ((D Vv c).before 7 t d))
    ∗ (∃ d, owns (c : Thread nD τ) (st4_8 t) fullShare ((D Vv c).before 8 t d)))

def bodyPost (t : Fin cfg4.N) : sProp 𝕄 :=
  iprop((D Vv c).Φ t.succ ∗ (D Vv c).owesAt none t.succ
    ∗ (D Vv c).leavesExact 0 t
    ∗ (D Vv c).leavesExact 1 t
    ∗ (D Vv c).leavesExact 2 t
    ∗ (D Vv c).leavesExact 3 t
    ∗ (D Vv c).leavesExact 4 t
    ∗ (D Vv c).leavesExact 5 t
    ∗ (D Vv c).leavesExact 6 t
    ∗ (D Vv c).leavesExact 7 t
    ∗ (D Vv c).leavesExact 8 t)

-- One run of the body, the invariant opened before it and closed after it.
set_option maxHeartbeats 1000000 in
theorem sound_body (t : Fin cfg4.N) :
    bodyPre Vv c t ⊢ wp frame (wpE (defs₀ (F := F)) 𝒱₀ c none) Set.univ (bodyAt4 t) (fun _ => bodyPost Vv c t) := by
  unfold bodyPre bodyPost bodyAt4
  rw [show (D Vv c).owesAt none t.succ = (D Vv c).owesAt none t.castSucc from rfl,
    show (D Vv c).Φ t.succ = PhiS Vv c (t.val + 1) t.isLt from rfl, PhiS_succ, PhiS_castSucc,
    lv Vv c 0 t (.inl (by decide)), lv Vv c 1 t (.inl (by decide)), lv Vv c 2 t (.inl (by decide)), lv Vv c 3 t (.inl (by decide)), lv Vv c 4 t (.inl (by decide)), lv Vv c 5 t (.inl (by decide)), lv Vv c 6 t (.inl (by decide)), lv Vv c 7 t (.inl (by decide))]
  simp only [fun d => before_in Vv c 0 (by decide) t d, fun d => before_in Vv c 1 (by decide) t d, fun d => before_in Vv c 2 (by decide) t d, fun d => before_in Vv c 3 (by decide) t d, fun d => before_in Vv c 4 (by decide) t d, fun d => before_in Vv c 5 (by decide) t d, fun d => before_in Vv c 6 (by decide) t d]
  refine (sep_mono_left (phi_open Vv c t)).trans ?_
  iintro ⟨⟨%g0, %g1, %hacc, HS0, HS1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [hacc]
  dsimp only [sum10At, sq11At] at hacc
  simp only [show ∀ w t, (D Vv c).after w t = after4 Vv c w t from fun _ _ => rfl]
  dsimp only [after4, out8At, sum10At, sq11At]
  iapply (wp_wand_r frame (wpE (defs₀ (F := F)) 𝒱₀ c none) Set.univ)
  isplitl [H0 H1 H2 H3 H4 H5 H6 H7 H8 HS0 HS1]
  · iapply (run c (grid4.coords t) _ _ _ _ _ _ _ _ _ _ _ _ _ _ _ _ _ _ _ _ _ _
      (iblk Vv 0 t) (iblk Vv 1 t) (iblk Vv 2 t) (iblk Vv 3 t) (iblk Vv 4 t) (iblk Vv 5 t) (iblk Vv 6 t) _ _ g0 g1
      (fun h => by have := (hcond1 t).mp h.1; have := (hcond2 t).mp h.2; omega))
    unfold held; iframe
  unfold held
  iintro %u ⟨G0, G1, G2, G3, G4, G5, G6, G7, G8, GS0, GS1⟩
  iframe Ho HR G0 G1 G2 G3 G4 G5 G6 G7 GS0 GS1
  iapply (lv8 Vv c t _ _ _ hacc) $$ G8

end R4

theorem body4 : BodyObligation (dat4 Vv c (after4 Vv c) (Phi4 Vv c)) (defs₀ (F := F)) 𝒱₀ none Set.univ := fun t => by
  rw [bigSep_W4, bigSep_W4]
  exact R4.sound_body Vv c t

theorem phi4_in : Pipeline.scopedRest (Ix := HIx 1) (Name := ℕ) (U := UU) (Lvl := ℕ) (Val := Elt F) spec4 c ⊢ Phi4 Vv c 0 := by
  rw [show Phi4 Vv c 0 = R4.PhiS Vv c 0 (Nat.zero_le _) from rfl, R4.PhiS_zero Vv c 0 _ rfl]
  try exact Idealize.SL.BI.Entails.refl _

theorem phi4_out : Phi4 Vv c (Fin.last _) ⊢ Pipeline.scopedRest (Ix := HIx 1) (Name := ℕ) (U := UU) (Lvl := ℕ) (Val := Elt F) spec4 c := by
  rw [show Phi4 Vv c (Fin.last _) = R4.PhiS Vv c (Fin.last cfg4.N).val (Nat.le_of_lt_succ (Fin.last cfg4.N).isLt) from rfl,
    R4.PhiS_pos Vv c _ _ (by rw [Fin.val_last]; have : cfg4.N = 50 := N_4; omega), scopedRest4_split]
  simp only [R4.scM0, R4.scM1, owns_whole]
  iintro ⟨HS0, HS1, HR⟩
  isplitl [HS0 HS1]
  · isplitl [HS0]
    · iexists _; iexact HS0
    · iexists _; iexact HS1
  iexact HR

end Cert.Proof.KI

end
-- ==== Proof.KReg5.lean ====
import proofs.«210907_g44332652429893_cont_8to1_b_736_41_alg».proof.Proof.KLaunchDefs
import proofs.«210907_g44332652429893_cont_8to1_b_736_41_alg».proof.Proof.KReg4Run
import Idealize.ShloMosaic.Lib.Pipeline.FrameBody
import Idealize.ShloMosaic.Lib.Pipeline.Kit
import Idealize.ShloMosaic.Lib.Tactic

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (Vv : Valuation τ sig (Elt F)) (c : Dev nD)

namespace R5

open R4 (zz2 readAt_whole_unread read_writes_unit_zero ownsI)

def out5 (x0 : Vec F S10000x128 .f32) (x1 : Vec F S2x128 .f32) (x2 x3 : Vec F S1x128 .f32) (x4 : Vec F S128x128 .f32) :
    Vec F S128x10000 .f32 :=
  k5_pay1 x1 x2 x3 x0 x4

-- The output block is `out5` of the five input blocks; the inputs are unchanged.
set_option maxHeartbeats 1000000 in
theorem run5 (c : Dev nD)
    (arg0 : Memref sig .tc .vmem S10000x128 .f32) (harg0 : arg0.IsWhole) (arg1 : Memref sig .tc .vmem S2x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S128x128 .f32) (harg4 : arg4.IsWhole) (arg5 : Memref sig .tc .vmem S128x10000 .f32) (harg5 : arg5.IsWhole)
    (x0 : Vec F S10000x128 .f32) (x1 : Vec F S2x128 .f32) (x2 x3 : Vec F S1x128 .f32) (x4 : Vec F S128x128 .f32) :
    (iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d)) : sProp 𝕄)
      ⊢ wp frame (wpE (defs₀ (F := F)) 𝒱₀ c none) Set.univ
          (cc5__stage5_body arg0 harg0 arg1 harg1 arg2 harg2 arg3 harg3 arg4 harg4 arg5 harg5)
          (fun _ => iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
            ∗ owns (c : Thread nD τ) arg5 fullShare (out5 x0 x1 x2 x3 x4))) := by
  simp only [cc5__stage5_body_eq_skeleton]; unfold cc5__stage5_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩⟩
  obtain rfl := harg0.eq_unread hf0; obtain rfl := harg1.eq_unread hf1; obtain rfl := harg2.eq_unread hf2
  obtain rfl := harg3.eq_unread hf3; obtain rfl := harg4.eq_unread hf4
  sl_exec
  sl_step
  sl_unfold_run_names
  rw [readAt_whole_unread harg0 zz2, readAt_whole_unread harg1 zz2, readAt_whole_unread harg2 zz2, readAt_whole_unread harg3 zz2, readAt_whole_unread harg4 zz2]
  isplitl [H0]; · iapply (ownsI c (harg0.read_unread _)) $$ H0
  isplitl [H1]; · iapply (ownsI c (harg1.read_unread _)) $$ H1
  isplitl [H2]; · iapply (ownsI c (harg2.read_unread _)) $$ H2
  isplitl [H3]; · iapply (ownsI c (harg3.read_unread _)) $$ H3
  isplitl [H4]; · iapply (ownsI c (harg4.read_unread _)) $$ H4
  iapply (ownsI c (read_writes_unit_zero arg5.view zz2 _ _ _ _)) $$ H5

def iblk (w : Fin cfg5.W) (t : Fin cfg5.N) : ((cfg5.win w).xblock (cfg5.grid.coords t)).Idx → Elt F (cfg5.win w).elt :=
  ((cfg5.win w).blk t).view.read (Elt F) (Vv (Proc.devRef .tc (Pipeline.arrRef spec5 w)))

def out5At (t : Fin cfg5.N) : Vec F S128x10000 .f32 := out5 (iblk Vv 0 t) (iblk Vv 1 t) (iblk Vv 2 t) (iblk Vv 3 t) (iblk Vv 4 t)

end R5

def after5 (Vv : Valuation τ sig (Elt F)) (c : Dev nD) : (w : Fin cfg5.W) → Fin cfg5.N → (cfg5.win w).block.Idx → Elt F (cfg5.win w).elt := fun w t =>
  match w with
  | ⟨0, _⟩ => R5.iblk Vv 0 t
  | ⟨1, _⟩ => R5.iblk Vv 1 t
  | ⟨2, _⟩ => R5.iblk Vv 2 t
  | ⟨3, _⟩ => R5.iblk Vv 3 t
  | ⟨4, _⟩ => R5.iblk Vv 4 t
  | ⟨5, _⟩ => R5.out5At Vv t

def Phi5 (Vv : Valuation τ sig (Elt F)) (c : Dev nD) : Fin (cfg5.N + 1) → sProp 𝕄 := fun _ =>
  Pipeline.scopedRest (Ix := HIx 1) (Name := ℕ) (U := UU) (Lvl := ℕ) (Val := Elt F) spec5 c

namespace R5

abbrev D : Pipeline.Dat τ (Elt F) (HIx 1) ℕ UU ℕ cfg5 c := dat5 Vv c (after5 Vv c) (Phi5 Vv c)

theorem after_5 (t : Fin cfg5.N) : (D Vv c).after 5 t = out5At Vv t := by dsimp only [D, dat5, after5]

-- An input block is left in place, so what the body finds there is what it leaves.
theorem before_in : ∀ (w : Fin cfg5.W), w.val < 5 → ∀ (t : Fin cfg5.N) (d), (D Vv c).before w t d = (D Vv c).after w t
  | ⟨0, _⟩, _, t, d | ⟨1, _⟩, _, t, d | ⟨2, _⟩, _, t, d | ⟨3, _⟩, _, t, d | ⟨4, _⟩, _, t, d =>
    ((D Vv c).before_in_eq_fetched _ rfl (fun _ => rfl) (fun _ _ _ => rfl) (fun _ => rfl) t d).trans rfl
  | ⟨5, _⟩, h, _, _ => by simp at h

-- Every window is live at the one point, so the body leaves it at `after`.
theorem lv (w : Fin cfg5.W) (t : Fin cfg5.N) :
    (D Vv c).leavesExact w t = owns (c : Thread nD τ) ((cfg5.win w).stage (cfg5.slots t w)) fullShare ((D Vv c).after w t) := by
  unfold Dat.leavesExact; rw [show cfg5.idle w (cfg5.grid.coords t) = false by fin_cases w <;> rfl]

def bodyPre (t : Fin cfg5.N) : sProp 𝕄 :=
  iprop((D Vv c).Φ t.castSucc ∗ (D Vv c).owesAt none t.castSucc
    ∗ (∃ d, owns (c : Thread nD τ) (st5_0 t) fullShare ((D Vv c).before 0 t d))
    ∗ (∃ d, owns (c : Thread nD τ) (st5_1 t) fullShare ((D Vv c).before 1 t d))
    ∗ (∃ d, owns (c : Thread nD τ) (st5_2 t) fullShare ((D Vv c).before 2 t d))
    ∗ (∃ d, owns (c : Thread nD τ) (st5_3 t) fullShare ((D Vv c).before 3 t d))
    ∗ (∃ d, owns (c : Thread nD τ) (st5_4 t) fullShare ((D Vv c).before 4 t d))
    ∗ (∃ d, owns (c : Thread nD τ) (st5_5 t) fullShare ((D Vv c).before 5 t d)))

def bodyPost (t : Fin cfg5.N) : sProp 𝕄 :=
  iprop((D Vv c).Φ t.succ ∗ (D Vv c).owesAt none t.succ
    ∗ (D Vv c).leavesExact 0 t
    ∗ (D Vv c).leavesExact 1 t
    ∗ (D Vv c).leavesExact 2 t
    ∗ (D Vv c).leavesExact 3 t
    ∗ (D Vv c).leavesExact 4 t
    ∗ (D Vv c).leavesExact 5 t)

-- The run of the body; the invariant and what is owed pass through.
theorem sound_body (t : Fin cfg5.N) :
    bodyPre Vv c t ⊢ wp frame (wpE (defs₀ (F := F)) 𝒱₀ c none) Set.univ (bodyAt5 t) (fun _ => bodyPost Vv c t) := by
  unfold bodyPre bodyPost bodyAt5
  rw [show (D Vv c).owesAt none t.succ = (D Vv c).owesAt none t.castSucc from rfl,
    show (D Vv c).Φ t.succ = (D Vv c).Φ t.castSucc from rfl, lv, lv, lv, lv, lv, lv]
  simp only [fun d => before_in Vv c 0 (by decide) t d, fun d => before_in Vv c 1 (by decide) t d, fun d => before_in Vv c 2 (by decide) t d,
    fun d => before_in Vv c 3 (by decide) t d, fun d => before_in Vv c 4 (by decide) t d,
    show ∀ w t, (D Vv c).after w t = after5 Vv c w t from fun _ _ => rfl]
  dsimp only [after5, out5At]
  iintro ⟨HΦ, Ho, ⟨%d0, H0⟩, ⟨%d1, H1⟩, ⟨%d2, H2⟩, ⟨%d3, H3⟩, ⟨%d4, H4⟩, ⟨%d5, H5⟩⟩
  iapply (wp_wand_r frame (wpE (defs₀ (F := F)) 𝒱₀ c none) Set.univ)
  isplitl [H0 H1 H2 H3 H4 H5]
  · iapply (run5 c _ _ _ _ _ _ _ _ _ _ _ _ (iblk Vv 0 t) (iblk Vv 1 t) (iblk Vv 2 t) (iblk Vv 3 t) (iblk Vv 4 t))
    iframe H0 H1 H2 H3 H4
    iexists _; iexact H5
  iintro %u ⟨G0, G1, G2, G3, G4, G5⟩
  iframe

end R5

theorem body5 : BodyObligation (dat5 Vv c (after5 Vv c) (Phi5 Vv c)) (defs₀ (F := F)) 𝒱₀ none Set.univ := fun t => by
  rw [bigSep_W5, bigSep_W5]
  exact R5.sound_body Vv c t

theorem phi5_in : Pipeline.scopedRest (Ix := HIx 1) (Name := ℕ) (U := UU) (Lvl := ℕ) (Val := Elt F) spec5 c ⊢ Phi5 Vv c 0 :=
  Idealize.SL.BI.Entails.refl _

theorem phi5_out : Phi5 Vv c (Fin.last _) ⊢ Pipeline.scopedRest (Ix := HIx 1) (Name := ℕ) (U := UU) (Lvl := ℕ) (Val := Elt F) spec5 c :=
  Idealize.SL.BI.Entails.refl _

end Cert.Proof.KI

end
-- ==== Proof.KLaunch.lean ====
import proofs.«210907_g44332652429893_cont_8to1_b_736_41_alg».proof.Proof.KLaunchDefs
import proofs.«210907_g44332652429893_cont_8to1_b_736_41_alg».proof.Proof.KTileDefs
import proofs.«210907_g44332652429893_cont_8to1_b_736_41_alg».proof.Proof.KLaunchAux
import proofs.«210907_g44332652429893_cont_8to1_b_736_41_alg».proof.Proof.KLaunchFin
import proofs.«210907_g44332652429893_cont_8to1_b_736_41_alg».proof.Proof.KReg1
import proofs.«210907_g44332652429893_cont_8to1_b_736_41_alg».proof.Proof.KReg2
import proofs.«210907_g44332652429893_cont_8to1_b_736_41_alg».proof.Proof.KReg3
import proofs.«210907_g44332652429893_cont_8to1_b_736_41_alg».proof.Proof.KReg4
import proofs.«210907_g44332652429893_cont_8to1_b_736_41_alg».proof.Proof.KReg5

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

def PreArg : Prop := ∀ (d : Dev nD) (j : S2x1x10000x16.Idx), (m ((SparseCore.T d).loc main_arg2) j).toNat < 10000

section Vals

variable [FloatOps F]

def val1 (d : Dev nD) : Valuation τ sig (Elt F) := StableHlo.after ops1 (StableHlo.launchContents m d)
def mCall : (ℓ : Loc nD τ sig) → Buf (Elt F) ℓ := fun ℓ => val1 m ℓ.1 ℓ.2
def val2 (d : Dev nD) : Valuation τ sig (Elt F) :=
  Function.update (Function.update (val1 m d) (Proc.devRef .tc main_v10_0) (gatheredA (mCall m) d)) (Proc.devRef .tc main_v10_1) (gatheredB (mCall m) d)
def val3 (d : Dev nD) : Valuation τ sig (Elt F) := StableHlo.after ops2 (val2 m d)
def d1 (c : Dev nD) := dat1 (val3 m c) c (after1 (val3 m c) c) (Phi1 (val3 m c) c)
def val4 (c : Dev nD) : Valuation τ sig (Elt F) := regVal spec1 (fun w => (d1 m c).arrAt w cfg1.N) (val3 m c)
def d2 (c : Dev nD) := dat2 (val4 m c) c (after2 (val4 m c) c) (Phi2 (val4 m c) c)
def val5 (c : Dev nD) : Valuation τ sig (Elt F) := regVal spec2 (fun w => (d2 m c).arrAt w cfg2.N) (val4 m c)
def d3 (c : Dev nD) := dat3 (val5 m c) c (after3 (val5 m c) c) (Phi3 (val5 m c) c)
def val6 (c : Dev nD) : Valuation τ sig (Elt F) := regVal spec3 (fun w => (d3 m c).arrAt w cfg3.N) (val5 m c)
def d4 (c : Dev nD) := dat4 (val6 m c) c (after4 (val6 m c) c) (Phi4 (val6 m c) c)
def val7 (c : Dev nD) : Valuation τ sig (Elt F) := regVal spec4 (fun w => (d4 m c).arrAt w cfg4.N) (val6 m c)
def d5 (c : Dev nD) := dat5 (val7 m c) c (after5 (val7 m c) c) (Phi5 (val7 m c) c)
def val8 (c : Dev nD) : Valuation τ sig (Elt F) := regVal spec5 (fun w => (d5 m c).arrAt w cfg5.N) (val7 m c)
def val9 (c : Dev nD) : Valuation τ sig (Elt F) := StableHlo.after ops3 (val8 m c)

def pdats : (p : Fin 5) → (c : Dev nD) → Pipeline.Dat τ (Elt F) (HIx 1) ℕ UU ℕ (Pipeline.pin (pcfgs (F := F)) adm p) c
  | ⟨0, _⟩ => d1 m
  | ⟨1, _⟩ => d2 m
  | ⟨2, _⟩ => d3 m
  | ⟨3, _⟩ => d4 m
  | ⟨4, _⟩ => d5 m
  | ⟨_ + 5, h⟩ => absurd h (Nat.not_lt.2 (Nat.le_add_left _ _))

end Vals

section Launch

variable [FloatOps F]

def P : (K (F := F)).Pay (nD := nD) (Val := Elt F) (Name := ℕ) (U := UU) where
  st := fun q d c => match q with | 0 => bigSep Finset.univ fun i : Fin ((K (F := F)).nSub 0) => tileGo (mCall m) d (placeV c i)
  dn := fun q d c => match q with | 0 => bigSep Finset.univ fun i : Fin ((K (F := F)).nSub 0) => tileDone (mCall m) d (placeV c i)
  go := fun q d c i => match q with | 0 => tileGo (mCall m) d (placeV c i)
  td := fun q d c i => match q with | 0 => tileDone (mCall m) d (placeV c i)
  x := fun _ _ => iprop(emp)

instance P_storable : (P (F := F) m).IsStorable where
  st q d c := match q with | 0 => by dsimp only [P]; unfold tileGo; infer_instance
  dn q d c := match q with | 0 => by dsimp only [P]; unfold tileDone; infer_instance
  go q d c i := match q with | 0 => by dsimp only [P]; unfold tileGo; infer_instance
  td q d c i := match q with | 0 => by dsimp only [P]; unfold tileDone; infer_instance

-- Whatever is handed out can be handed on whole, and what comes back is kept as it comes.
theorem keep_id (A B : sProp 𝕄) : A ⊢ |={Set.univ}=> iprop(A ∗ (B -∗ B)) := by
  iintro H; imodintro
  isplitl [H]; · iexact H
  iintro H; iexact H

theorem vecSplit : (K (F := F)).VecSplit' (P m) 0 := fun _ _ => keep_id _ _

def Rw (d : Dev nD) : sProp 𝕄 :=
  iprop(∃ W, ⌜(K (F := F)).WBelow (SparseCore.T d) W 8⌝ ∗ owes (SparseCore.T d) (0 : CellTallies nD τ sig (HIx 1)) W)

def St (Vv : Dev nD → Valuation τ sig (Elt F)) (d : Dev nD) : sProp 𝕄 :=
  iprop(unscopedBufs d (fun b => Vv d (Proc.devRef .tc b)) ∗ Rw (F := F) d)

omit [FloatOps F] in
-- The windows' arrays are distinct, so the overwritten valuation read at window `w`'s array is `Fa w`.
theorem regVal_self {gr W : Nat} (spec : Fin W → Pipeline.WinSpec sig gr) (hinj : Function.Injective (Pipeline.arrRef spec))
    (Fa : (w : Fin W) → (Proc.devRef (τ := τ) .tc (Pipeline.arrRef spec w)).ty.Contents (Elt F)) (Vv : Valuation τ sig (Elt F)) (w : Fin W) :
    regVal spec Fa Vv (Proc.devRef .tc (Pipeline.arrRef spec w)) = Fa w := by
  have key : ∀ (w' : Fin W) (pf : (Proc.devRef (τ := τ) .tc (Pipeline.arrRef spec w') : DevRef τ sig) = Proc.devRef .tc (Pipeline.arrRef spec w)),
      (pf ▸ Fa w' : (Proc.devRef (τ := τ) .tc (Pipeline.arrRef spec w)).ty.Contents (Elt F)) = Fa w := by
    intro w' pf
    obtain rfl : w' = w := hinj (Proc.devRef_injective _ pf)
    rfl
  unfold regVal
  rw [dif_pos ⟨w, rfl⟩]
  exact key _ _

omit [FloatOps F] in
theorem regVal_other {gr W : Nat} (spec : Fin W → Pipeline.WinSpec sig gr)
    (Fa : (w : Fin W) → (Proc.devRef (τ := τ) .tc (Pipeline.arrRef spec w)).ty.Contents (Elt F)) (Vv : Valuation τ sig (Elt F)) (b : DevRef τ sig)
    (hb : ∀ w, (Proc.devRef (τ := τ) .tc (Pipeline.arrRef spec w) : DevRef τ sig) ≠ b) : regVal spec Fa Vv b = Vv b := by
  unfold regVal; rw [dif_neg]; rintro ⟨w, hw⟩; exact hb w hw

-- The windows' arrays at `Fa` beside the other arrays at `Vv` are all arrays at the overwritten valuation.
theorem bufs_exit (p : Fin 5) (hw : Pipeline.WinFacts (cfgs p).spec) (c : Dev nD)
    (Fa : (w : Fin (cfgs p).W) → (Proc.devRef (τ := τ) .tc (Pipeline.arrRef (cfgs p).spec w)).ty.Contents (Elt F)) (Vv : Valuation τ sig (Elt F)) :
    iprop((bigSep Finset.univ fun w => (((SparseCore.T c).loc (Pipeline.arrRef (cfgs p).spec w)) ↦{fullShare} Fa w : sProp 𝕄))
        ∗ Pipeline.unscopedRest (cfgs p).spec c (fun b => Vv (Proc.devRef .tc b)))
      ⊢ unscopedBufs c (fun b => regVal (cfgs p).spec Fa Vv (Proc.devRef .tc b)) := by
  rw [Pipeline.unscopedBufs_split cfgs p hw.arr_unscoped hw.arr_inj c]
  refine sep_mono (Entails.of_eq (bigSep_congr fun w _ => by rw [regVal_self _ hw.arr_inj])) (Entails.of_eq ?_)
  unfold Pipeline.unscopedRest
  exact bigSep_congr fun b hb => by
    dsimp only
    rw [regVal_other]; intro w hw'
    exact (Finset.mem_sdiff.mp hb).2 (Finset.mem_image.mpr ⟨w, Finset.mem_univ _, Proc.devRef_injective _ hw'⟩)

section Dat

variable {cfg : Pipeline.Cfg sig Λ₀} {c : Dev nD} (dat : Pipeline.Dat τ (Elt F) (HIx 1) ℕ UU ℕ cfg c) (t : Fin (cfg.N + 1))
  (h0 : dat.owed t = 0) (hr : dat.recorded t = recB (F := F) c)
include h0 hr

-- With nothing owed, the bound on the recorded pairs is the bound of level 8, and conversely.
theorem owesAt_of_Rw : Rw (F := F) c ⊢ (dat.owesAt none t : sProp 𝕄) := by
  unfold Rw Pipeline.Dat.owesAt Pipeline.owesWithin Pipeline.Dat.bound; rw [h0, hr]
  iintro ⟨%W, %hW, HO⟩; iexists W; isplitr
  · ipureintro; exact fun p hp => Or.inl (hW p (Finset.mem_coe.mp hp))
  iexact HO

theorem Rw_of_owesAt : (dat.owesAt none t : sProp 𝕄) ⊢ Rw (F := F) c := by
  unfold Rw Pipeline.Dat.owesAt Pipeline.owesWithin Pipeline.Dat.bound; rw [h0, hr]
  iintro ⟨%W, %hW, HO⟩; iexists W; isplitr
  · ipureintro; intro p hp
    rcases hW (Finset.mem_coe.mpr hp) with h | ⟨w, s, rfl⟩
    · exact h
    · exact Nat.zero_le _
  iexact HO

end Dat

-- The family of tables is empty, so the product over it is `emp`.
theorem prefHeld_emp (p : Fin 5) (c : Dev nD) (q) (pf) :
    (Pipeline.prefHeld (Ix := HIx 1) (Name := ℕ) (U := UU) (Lvl := ℕ) (Val := Elt F) (pcfgs (F := F) p).pre c q pf : sProp 𝕄) = BI.emp := by
  unfold Pipeline.prefHeld
  haveI : IsEmpty (Fin (pcfgs (F := F) p).pre.K) := (inferInstance : IsEmpty (Fin 0))
  rw [Finset.univ_eq_empty]; exact bigSep_empty

-- A region from `Vi` to `Vo`: its arrays are split off all arrays on entry and joined back, overwritten, on exit; the level bound passes through.
def regOf (p : Fin 5) (Vi Vo : Dev nD → Valuation τ sig (Elt F)) (lf : Pipeline.LaunchFacts (nD := nD) (τ := τ) cfgs p)
    (hb : ∀ c, Pipeline.BodyObligation (pdats m p c) (defs₀ (F := F)) 𝒱₀ none Set.univ)
    (hA : ∀ c w, (pdats m p c).A w = Vi c (Proc.devRef .tc (Pipeline.arrRef (cfgs p).spec w)))
    (hq : ∀ c w, (pdats m p c).q w = fullShare)
    (h0 : ∀ c t, (pdats m p c).owed t = 0) (hr : ∀ c t, (pdats m p c).recorded t = recB (F := F) c)
    (hI : ∀ c, (Pipeline.scopedRest (Ix := HIx 1) (Name := ℕ) (U := UU) (Lvl := ℕ) (Val := Elt F) (pcfgs (F := F) p).spec c : sProp 𝕄) ⊢ (pdats m p c).Φ 0)
    (hO : ∀ c, (pdats m p c).Φ (Fin.last _) ⊢ (Pipeline.scopedRest (Ix := HIx 1) (Name := ℕ) (U := UU) (Lvl := ℕ) (Val := Elt F) (pcfgs (F := F) p).spec c : sProp 𝕄))
    (hV : ∀ c, Vo c = regVal (cfgs p).spec (fun w => (pdats m p c).arrAt w (cfgs p).N) (Vi c)) :
    Pipeline.RegionSeg (pcfgs (F := F)) adm (pdats m) (none : HIx 1) defs₀ 𝒱₀ (K (F := F)).L (K (F := F)).lev p :=
  have hs : ∀ c w, (pdats m p c).share w = fullShare := fun c w => by rw [Pipeline.Dat.share, hq]; exact ite_self _
  { win := lf.win.to₀
    block_pos := lf.block_pos
    stage_whole := lf.stage_whole
    K := PEmpty
    osem := fun k => k.elim
    ho := Pipeline.OwnSemFacts.none _
    hbody := fun c => (hb c).loose
    hwaits := Pipeline.hwaits_of_owed_zero _ _ _ _ (K (F := F)).L (K (F := F)).lev p h0
    pre := St Vi
    post := St Vo
    X := fun _ => iprop(emp)
    Y := fun _ => iprop(emp)
    Z := fun c => Pipeline.unscopedRest (cfgs p).spec c (fun b => Vi c (Proc.devRef .tc b))
    hentry := fun c => by
      rw [prefHeld_emp]
      unfold St
      iintro ⟨⟨Hbufs, HR⟩, -, -⟩
      imodintro
      ihave H := (Pipeline.arrays_of_unscopedBufs (pcfgs (F := F)) adm (pdats m) (p := p) lf.win lf.arr_whole c (hs c)
        (fun b => Vi c (Proc.devRef .tc b)) (hA c)) $$ Hbufs
      icases H with ⟨Harr, Hrest⟩
      isplitl [Harr]; · iexact Harr
      isplitr; · iempintro
      isplitl [HR]; · iapply (owesAt_of_Rw (pdats m p c) 0 (h0 c 0) (hr c 0)) $$ HR
      isplitr; · iempintro
      iexact Hrest
    hin := fun c => by iintro ⟨-, -, H⟩; iapply (hI c) $$ H
    hout := fun c => by
      rw [Pipeline.ownSems0_none]
      iintro H
      isplitr; · iempintro
      isplitr; · iempintro
      iapply (hO c) $$ H
    hexit := fun c => by
      unfold St
      rw [hV c, Pipeline.arrays_eq (Pipeline.pin (pcfgs (F := F)) adm) (pdats m) p c lf.arr_whole (hs c)]
      iintro ⟨Harr, HO, -, HZ⟩
      imodintro
      isplitl [Harr HZ]
      · iapply (bufs_exit p lf.win c (fun w => (pdats m p c).arrAt w (cfgs p).N) (Vi c))
        isplitl [Harr] <;> iassumption
      · iapply (Rw_of_owesAt (pdats m p c) _ (h0 c _) (hr c _)) $$ HO }

def reg1 := regOf m 0 (val3 m) (val4 m) launch1 (fun c => body1 (val3 m c) c) (fun _ _ => rfl) (fun _ _ => rfl) (fun _ _ => rfl) (fun _ _ => rfl)
  (fun c => phi1_in (val3 m c) c) (fun c => phi1_out (val3 m c) c) fun _ => rfl
def reg2 := regOf m 1 (val4 m) (val5 m) launch2 (fun c => body2 (val4 m c) c) (fun _ _ => rfl) (fun _ _ => rfl) (fun _ _ => rfl) (fun _ _ => rfl)
  (fun c => phi2_in (val4 m c) c) (fun c => phi2_out (val4 m c) c) fun _ => rfl
def reg3 := regOf m 2 (val5 m) (val6 m) launch3 (fun c => body3 (val5 m c) c) (fun _ _ => rfl) (fun _ _ => rfl) (fun _ _ => rfl) (fun _ _ => rfl)
  (fun c => phi3_in (val5 m c) c) (fun c => phi3_out (val5 m c) c) fun _ => rfl
def reg4 := regOf m 3 (val6 m) (val7 m) launch4 (fun c => body4 (val6 m c) c) (fun _ _ => rfl) (fun _ _ => rfl) (fun _ _ => rfl) (fun _ _ => rfl)
  (fun c => phi4_in (val6 m c) c) (fun c => phi4_out (val6 m c) c) fun _ => rfl
def reg5 := regOf m 4 (val7 m) (val8 m) launch5 (fun c => body5 (val7 m c) c) (fun _ _ => rfl) (fun _ _ => rfl) (fun _ _ => rfl) (fun _ _ => rfl)
  (fun c => phi5_in (val7 m c) c) (fun c => phi5_out (val7 m c) c) fun _ => rfl

abbrev G (d : Dev nD) : sProp 𝕄 := Pipeline.ghostOn (pcfgs (F := F)) adm EP Finset.univ d

def u₀ : UU :=
  (initOf (K (F := F)).hsCells (K (F := F)).hsToks,
    (initOf (Pipeline.cells (nD := nD) (τ := τ) cfgs cellOf_inj) (Pipeline.launchToks (nD := nD) (τ := τ) cfgs cellOf_inj), 1))

abbrev FIN (d : Dev nD) : sProp 𝕄 := unscopedBufs d (fun b => val9 m d (Proc.devRef .tc b))

def fq (d : Dev nD) (s' : Phys nD τ sig (Elt F)) : Prop := ∀ b : Ref sig .tc, b.isScoped = false → s'.mem.mem ((SparseCore.T d).loc b) = val9 m d (Proc.devRef .tc b)

def QC : PUnit × MemSt nD τ sig (Elt F) → Prop := fun r => ∀ c : Dev nD,
  r.2.mem ((SparseCore.T c).loc main_v44) = val9 m c (Proc.devRef .tc main_v44)
  ∧ r.2.mem ((SparseCore.T c).loc main_v43) = val9 m c (Proc.devRef .tc main_v43)
  ∧ r.2.mem ((SparseCore.T c).loc main_arg2) = m ((SparseCore.T c).loc main_arg2)
  ∧ r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)
  ∧ r.2.mem ((SparseCore.T c).loc main_arg3) = m ((SparseCore.T c).loc main_arg3)
  ∧ r.2.mem ((SparseCore.T c).loc main_arg4) = m ((SparseCore.T c).loc main_arg4)
  ∧ r.2.mem ((SparseCore.T c).loc main_arg5) = m ((SparseCore.T c).loc main_arg5)
  ∧ r.2.mem ((SparseCore.T c).loc main_arg6) = m ((SparseCore.T c).loc main_arg6)
  ∧ r.2.mem ((SparseCore.T c).loc main_arg7) = m ((SparseCore.T c).loc main_arg7)
  ∧ r.2.mem ((SparseCore.T c).loc main_arg8) = m ((SparseCore.T c).loc main_arg8)
  ∧ r.2.mem ((SparseCore.T c).loc main_arg9) = m ((SparseCore.T c).loc main_arg9)
  ∧ r.2.mem ((SparseCore.T c).loc main_arg10) = m ((SparseCore.T c).loc main_arg10)
  ∧ r.2.mem ((SparseCore.T c).loc main_arg11) = m ((SparseCore.T c).loc main_arg11)
  ∧ r.2.mem ((SparseCore.T c).loc main_arg12) = m ((SparseCore.T c).loc main_arg12)
  ∧ r.2.mem ((SparseCore.T c).loc main_arg13) = m ((SparseCore.T c).loc main_arg13)
  ∧ r.2.mem ((SparseCore.T c).loc main_arg14) = m ((SparseCore.T c).loc main_arg14)
  ∧ r.2.mem ((SparseCore.T c).loc main_arg15) = m ((SparseCore.T c).loc main_arg15)
  ∧ r.2.mem ((SparseCore.T c).loc main_arg16) = m ((SparseCore.T c).loc main_arg16)
  ∧ r.2.mem ((SparseCore.T c).loc main_arg17) = m ((SparseCore.T c).loc main_arg17)
  ∧ r.2.mem ((SparseCore.T c).loc main_arg18) = m ((SparseCore.T c).loc main_arg18)

end Launch

end Cert.Proof.KI

end
-- ==== Proof.KTile.lean ====
import proofs.«210907_g44332652429893_cont_8to1_b_736_41_alg».proof.Proof.KTileDefs
import Idealize.ShloMosaic.Lib.SparseCore.Stream
import Idealize.ShloMosaic.Lib.Transfers
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "tabV" => (Memref.whole main_v1_scv : Memref sig Kind.scVector Space.hbm S10000x128 EltTy.f32)
local notation "ixAV" => (Memref.whole main_v6_scv : Memref sig Kind.scVector Space.hbm S160000 EltTy.i32)
local notation "ixBV" => (Memref.whole main_v9_scv : Memref sig Kind.scVector Space.hbm S160000 EltTy.i32)
local notation "resAV" => (Memref.whole main_v10_0_scv : Memref sig Kind.scVector Space.hbm S160000x128 EltTy.f32)
local notation "resBV" => (Memref.whole main_v10_1_scv : Memref sig Kind.scVector Space.hbm S160000x128 EltTy.f32)
local notation "sIA" => (Memref.whole cc0_scratch0 : Memref sig Kind.scVector Space.vmem S200 EltTy.i32)
local notation "sRA" => (Memref.whole cc0_scratch1 : Memref sig Kind.scVector Space.vmem S200x128 EltTy.f32)
local notation "sIB" => (Memref.whole cc0_scratch2 : Memref sig Kind.scVector Space.vmem S200 EltTy.i32)
local notation "sRB" => (Memref.whole cc0_scratch3 : Memref sig Kind.scVector Space.vmem S200x128 EltTy.f32)

section Tile

variable (d : Dev nD) (L : grid0.Coords)

abbrev cellV (sm : DmaSems sig S_) : GSem nD τ sig := (thrV d L, .dma sm.sem)

/-- Distinct members of a finite set factor out of a product over it, one by one. -/
theorem bigSep_peel {I : Type} [DecidableEq I] (Φ : I → sProp 𝕄) : ∀ (l : List I) (s : Finset I), l.Nodup → (∀ a ∈ l, a ∈ s) →
    ∃ R, bigSep s Φ = l.foldr (fun a P => iprop(Φ a ∗ P)) R
  | [], _, _, _ => ⟨_, rfl⟩
  | a :: l, s, hn, hs =>
    let ⟨R, hR⟩ := bigSep_peel Φ l (s.erase a) (List.nodup_cons.mp hn).2 fun b hb =>
      Finset.mem_erase.mpr ⟨fun e => (List.nodup_cons.mp hn).1 (e ▸ hb), hs b (List.mem_cons_of_mem _ hb)⟩
    ⟨R, (SparseCore.bigSep_erase' (hs a List.mem_cons_self)).trans (congrArg (fun P => iprop(Φ a ∗ P)) hR)⟩

/-- Six distinct cells of the thread's own factor out of the product of its cells at zero. -/
theorem ownSems0_tile : ∃ R, (ownSems0 (thrV d L) : sProp 𝕄)
    = iprop(semVal (cellV d L cc0_scratch4) 0 ∗ semVal (cellV d L cc0_scratch5) 0 ∗ semVal (cellV d L cc0_scoped0) 0 ∗ semVal (cellV d L cc0_scoped1) 0 ∗ semVal (cellV d L cc0_scoped2) 0 ∗ semVal (cellV d L cc0_scoped3) 0 ∗ R) :=
  bigSep_peel (fun g => semVal g 0)
    ([cc0_scratch4.sem, cc0_scratch5.sem, cc0_scoped0.sem, cc0_scoped1.sem, cc0_scoped2.sem, cc0_scoped3.sem].map fun s => ((thrV d L, SemLoc.dma s) : GSem nD τ sig)) _
    (List.Nodup.map (fun _ _ e => SemLoc.dma.inj (Prod.mk.inj e).2) (by decide))
    (fun a ha => by
      obtain ⟨s, hs, rfl⟩ := List.mem_map.mp ha
      exact mem_ownCells.mpr ⟨rfl, (by decide : ∀ s ∈ [cc0_scratch4.sem, cc0_scratch5.sem, cc0_scoped0.sem, cc0_scoped1.sem, cc0_scoped2.sem, cc0_scoped3.sem],
        (SemLoc.dma s : SemLoc sig).isScoped .scVector = true) s hs⟩)

/-- Four distinct buffers of the thread's own factor out of the product of its buffers. -/
theorem ownBufs_tile : ∃ R, (ownBufs (thrV d L) : sProp 𝕄)
    = iprop((∃ f, (thrV d L).loc cc0_scratch0 ↦{fullShare} f) ∗ (∃ f, (thrV d L).loc cc0_scratch1 ↦{fullShare} f) ∗ (∃ f, (thrV d L).loc cc0_scratch2 ↦{fullShare} f) ∗ (∃ f, (thrV d L).loc cc0_scratch3 ↦{fullShare} f) ∗ R) :=
  bigSep_peel (fun b => iprop(∃ f, ((d, b) : Loc nD τ sig) ↦{fullShare} f))
    (([cc0_scratch0, cc0_scratch1, cc0_scratch2, cc0_scratch3] : List (Ref sig .scVector)).map (Proc.scVector (cV L) (jV L)).devRef) _
    (List.Nodup.map (Proc.devRef_injective _) (by decide : ([cc0_scratch0, cc0_scratch1, cc0_scratch2, cc0_scratch3] : List (Ref sig .scVector)).Nodup))
    (fun a ha => by
      simp only [List.map_cons, List.map_nil, List.mem_cons, List.mem_nil_iff, _root_.or_false] at ha
      rcases ha with rfl | rfl | rfl | rfl <;> exact SparseCore.Cfg.mem_ownRefs_of_owner rfl)

end Tile

variable [FloatOps F]

section Value

/-- In rank one an index and its row-major position have the same value. -/
theorem symm_rank1 {d : Fin 1 → Nat} (p : Fin (⟨1, d⟩ : Shape).numel) : (((⟨1, d⟩ : Shape).rowMajor.symm p) 0).val = p.val := by
  rw [← Shape.rowMajor_val_one, Equiv.apply_symm_apply]

theorem symm_S200 (p : Fin S200.numel) : ((S200.rowMajor.symm p) 0).val = p.val := symm_rank1 p
theorem symm_S160000 (q : Fin S160000.numel) : ((S160000.rowMajor.symm q) 0).val = q.val := symm_rank1 q

variable (L : grid0.Coords) (k : Fin k0_t1_loop.trips)

theorem gather_trip (tab : S10000x128.Idx → Elt F .f32) (ix : S160000.Idx → Elt F .i32)
    (hix : ∀ j, (ix j).toNat < 10000)
    (fo : S200.Idx → Elt F .i32)
    (hfo : ∀ y, fo y = ix ((Rect.unit (s := S160000) (k0_off1 L k) S200.size (k0_off1_inb L k)).emb y))
    (g : S10000x128.Idx → Elt F .f32) (hg : ∀ y, g y = tab y)
    (hin : ∀ x, (fo x).toNat < S10000x128.size gathers_S10000x128_S200x128.axis) (j : S200x128.Idx) :
    SparseCore.gatherPayload gathers_S10000x128_S200x128 g
        (SparseCore.rows fo (show S200.numel = S200x128.size gathers_S10000x128_S200x128.axis' from rfl) hin) j
      = gathered tab ix ((Rect.unit (s := S160000x128) (k0_off2 L k) S200x128.size (k0_off2_inb L k)).emb j) := by
  have hix' : ∀ j, (ix j).toNat < S10000x128.size gathersW.axis := hix
  unfold gathered SparseCore.gatherPayload
  rw [hg]
  congr 1
  funext b
  apply Fin.ext
  obtain ⟨v, hv⟩ := b
  match v, hv with
  | 0, hv =>
    have e1 : (⟨0, hv⟩ : Fin S10000x128.rank) = (gathers_S10000x128_S200x128).axis := rfl
    have e2 : (⟨0, hv⟩ : Fin S10000x128.rank) = gathersW.axis := rfl
    conv_lhs => rw [e1, Shape.Gathers.idx_axis]
    conv_rhs => rw [e2, Shape.Gathers.idx_axis]
    show (fo _).toNat = _
    unfold rowsT
    rw [dif_pos (hix' _), hfo]
    show (ix _).toNat = (ix _).toNat
    congr 2
    funext a
    obtain rfl : a = 0 := Fin.fin_one_eq_zero a
    apply Fin.ext
    rw [Rect.emb_apply, symm_S200, symm_S160000]
    simp only [Rect.off_unit, Rect.stride_unit, Fin.coe_cast, Rect.emb_apply, Nat.one_mul]
    rw [off1_0]
    show _ = k0_off2 L k 0 + _
    rw [off2_0]
  | 1, hv =>
    rw [Shape.Gathers.idx_of_ne _ _ _ _ Nat.one_ne_zero, Shape.Gathers.idx_of_ne _ _ _ _ Nat.one_ne_zero]
    rw [Rect.emb_apply]
    simp only [Rect.off_unit, Rect.stride_unit, Nat.one_mul]
    show _ = k0_off2 L k 1 + _
    rw [off2_1, Nat.zero_add]
  | n + 2, h => exact absurd h (Nat.not_lt.2 (Nat.le_add_left _ _))

theorem tabK_read (tab : S10000x128.Idx → Elt F .f32) (y : S10000x128.Idx) : (tabK).view.read (Elt F) tab y = tab y := by
  rw [View.read_apply, cast_eq]
  congr 1
  funext a
  apply Fin.ext
  show ((Rect.unit (s := S10000x128) ![0, 0] S10000x128.size inb_S10000x128_S10000x128_0_0).emb y a : Nat) = _
  rw [Rect.emb_apply]
  simp only [Rect.off_unit, Rect.stride_unit, Nat.one_mul]
  match a with
  | ⟨0, _⟩ => simp
  | ⟨1, _⟩ => simp

section Writes
variable {sig' : RefSig} {κ : Kind} {sp : Space} {s : Shape} {e : EltTy} {Val : EltTy → Type}

/-- A write through a whole view changes nothing outside the view's image. -/
theorem writes_whole_off (v : View sig' κ sp s e) (f : v.ty.Contents Val) (w : (Rect.whole s).shape.Idx → Val e)
    (i : v.ty.Idx) (hi : i ∉ v.set) : v.writes Val f [⟨Rect.whole s, w⟩] i = f i := by
  rw [View.writes_singleton]
  exact View.write_of_not_mem _ _ _ (by
    rwa [View.setOn_univ, show (v.slice (Rect.whole s)).set = v.set by rw [View.set_slice, Rect.set_whole]; rfl])

/-- On the image it reads back the payload. -/
theorem writes_whole_on (v : View sig' κ sp s e) (f : v.ty.Contents Val) (w : (Rect.whole s).shape.Idx → Val e)
    (j : (Rect.whole s).shape.Idx) : v.read Val (v.writes Val f [⟨Rect.whole s, w⟩]) ((Rect.whole s).emb j) = w j :=
  View.read_writes_cons_emb v f (Rect.whole s) w [] j

/-- If `f = g` on `R` and the payload is `g` read through the view, the written contents equal `g` on `R` and on the image. -/
theorem writes_whole_eq (v : View sig' κ sp s e) (f g : v.ty.Contents Val) (w : (Rect.whole s).shape.Idx → Val e) {R : Finset v.ty.Idx}
    (hg : ∀ x ∈ R, f x = g x) (hw : ∀ j, w j = v.read Val g j) : ∀ x ∈ R ∪ v.set, v.writes Val f [⟨Rect.whole s, w⟩] x = g x := by
  intro x hx
  by_cases hxk : x ∈ v.set
  · obtain ⟨j, -, rfl⟩ := Finset.mem_map.mp hxk
    have h := writes_whole_on v f w j
    rw [Rect.emb_whole_apply, hw, View.read_apply, View.read_apply] at h
    exact (cast_inj _).mp h
  · rw [writes_whole_off _ _ _ _ hxk]
    exact hg x ((Finset.mem_union.mp hx).resolve_right hxk)
end Writes

/-- Points-to on `A` at `f'` and on `T \ A` at `f` join to `T` at `f'` when `f' = f` off `A`. -/
theorem rows_join {ℓ : Loc nD τ sig} {T A : Finset (Idx ℓ)} (hA : A ⊆ T) {f f' : Buf (Elt F) ℓ} (hoff : ∀ x ∈ T \ A, f' x = f x) :
    iprop((ℓ ↦[A]{fullShare} f') ∗ (ℓ ↦[T \ A]{fullShare} f)) ⊢ (ℓ ↦[T]{fullShare} f' : sProp 𝕄) := by
  rw [← pointsTo_congr (ℓ := ℓ) (q := fullShare) hoff]
  exact (pointsTo_split_subset hA).2

end Value

section Body

variable (d : Dev nD) (L : grid0.Coords)

def inv (O : CellTallies nD τ sig (HIx 1)) (W : Waits sig (HIx 1)) (k : ℕ) (_ : Unit) : sProp 𝕄 :=
  iprop(Transfers.MayWaits (thrV d L) (none : HIx 1) O
    ∗ ((tabV).view.loc (thrV d L) ↦{tq L} m (tabLoc d))
    ∗ ((ixAV).view.loc (thrV d L) ↦{tq L} m (ixALoc d))
    ∗ ((ixBV).view.loc (thrV d L) ↦{tq L} m (ixBLoc d))
    ∗ (∃ f, ⌜∀ x ∈ rowsBelow L k, f x = gatheredA m d x⌝ ∗ resALoc d ↦[tileRows L]{fullShare} f)
    ∗ (∃ f, ⌜∀ x ∈ rowsBelow L k, f x = gatheredB m d x⌝ ∗ resBLoc d ↦[tileRows L]{fullShare} f)
    ∗ (∃ f, (sIA).view.loc (thrV d L) ↦{fullShare} f) ∗ (∃ f, (sRA).view.loc (thrV d L) ↦{fullShare} f)
    ∗ (∃ f, (sIB).view.loc (thrV d L) ↦{fullShare} f) ∗ (∃ f, (sRB).view.loc (thrV d L) ↦{fullShare} f)
    ∗ semVal (cellV d L cc0_scratch4) 0 ∗ semVal (cellV d L cc0_scratch5) 0 ∗ semVal (cellV d L cc0_scoped0) 0 ∗ semVal (cellV d L cc0_scoped1) 0 ∗ semVal (cellV d L cc0_scoped2) 0 ∗ semVal (cellV d L cc0_scoped3) 0
    ∗ ∃ W', ⌜∀ p ∈ W', p ∈ W ∨ p.2 = none⌝ ∗ owes (thrV d L) O W')

set_option maxHeartbeats 4000000 in
theorem trip_body (hpre : PreOK m) (O : CellTallies nD τ sig (HIx 1)) (W : Waits sig (HIx 1)) (k : Fin k0_t1_loop.trips) :
    inv m d L O W k.val ()
      ⊢ wp frame (wpE (defs₀ (F := F)) 𝒱₀ (thrV d L) none) Set.univ
          (k0_t1_body L tabV (Memref.isWhole_whole _) ixAV (Memref.isWhole_whole _) ixBV (Memref.isWhole_whole _)
            resAV (Memref.isWhole_whole _) resBV (Memref.isWhole_whole _)
            sIA (Memref.isWhole_whole _) sRA (Memref.isWhole_whole _) sIB (Memref.isWhole_whole _) sRB (Memref.isWhole_whole _)
            cc0_scratch4 cc0_scratch5 cc0_scoped0 cc0_scoped1 cc0_scoped2 cc0_scoped3 k ())
          (inv m d L O W (k.val + 1)) := by
  unfold inv k0_t1_body
  iintro ⟨Hmw, Ht, Ha, Hb, ⟨%gA, %hgA, HrA⟩, ⟨%gB, %hgB, HrB⟩, ⟨%f0, Hs0⟩, ⟨%f1, Hs1⟩, ⟨%f2, Hs2⟩, ⟨%f3, Hs3⟩,
    Hc4, Hc5, Hp0, Hp1, Hp2, Hp3, %W', %hW', HO⟩

  ihave HrA2 := (pointsTo_split_subset (q := fullShare) (f := gA) (tripRows_subset L k)).1 $$ HrA
  icases HrA2 with ⟨HrAk, HrAr⟩
  ihave HrB2 := (pointsTo_split_subset (q := fullShare) (f := gB) (tripRows_subset L k)).1 $$ HrB
  icases HrB2 with ⟨HrBk, HrBr⟩
  have eA : ∀ g : Buf (Elt F) (resALoc d), (resALoc d ↦[tripRows L k]{fullShare} g : sProp 𝕄)
      = ((resAK L k).view.loc (thrV d L) ↦[(resAK L k).view.set]{fullShare} g) := fun _ => rfl
  have eB : ∀ g : Buf (Elt F) (resBLoc d), (resBLoc d ↦[tripRows L k]{fullShare} g : sProp 𝕄)
      = ((resBK L k).view.loc (thrV d L) ↦[(resBK L k).view.set]{fullShare} g) := fun _ => rfl
  ihave HrAk' := (Entails.of_eq (eA gA)) $$ HrAk
  ihave HrBk' := (Entails.of_eq (eB gB)) $$ HrBk
  have sh0 : ((tabV).view.loc (thrV d L) ↦{tq L} m (tabLoc d) : sProp 𝕄) ⊣⊢ _ :=
    pointsTo_share (q₁ := Transfers.shareDrop (tq L) 1) (q₂ := Transfers.shareTokN (tq L) 0) (PosShare.mem_left_op_right (tq L))
  have sh1 : ((tabV).view.loc (thrV d L) ↦{Transfers.shareDrop (tq L) 1} m (tabLoc d) : sProp 𝕄) ⊣⊢ _ :=
    pointsTo_share (q₁ := Transfers.shareDrop (tq L) 2) (q₂ := Transfers.shareTokN (tq L) 1) (PosShare.mem_left_op_right (Transfers.shareDrop (tq L) 1))
  ihave Ht2 := sh0.1 $$ Ht
  icases Ht2 with ⟨HtL, Ht0⟩
  ihave Ht3 := sh1.1 $$ HtL
  icases Ht3 with ⟨HtR, Ht1⟩
  sl_exec

  have hfoA : ∀ (g : Buf (Elt F) ((sIA).view.loc (thrV d L))) y, (sIA).view.read (Elt F) (View.write (Elt F) (sIA).view g (trip_body.sl.dma0 m d L k) Finset.univ) y
      = m (ixALoc d) ((Rect.unit (s := S160000) (k0_off1 L k) S200.size (k0_off1_inb L k)).emb y) := fun g y => by
    rw [View.read_write_univ]; rfl
  have hinA : ∀ g x, ((sIA).view.read (Elt F) (View.write (Elt F) (sIA).view g (trip_body.sl.dma0 m d L k) Finset.univ) x).toNat < 10000 :=
    fun g x => by rw [hfoA]; exact (hpre d).1 _
  sl_exec
  have hfoB : ∀ (g : Buf (Elt F) ((sIB).view.loc (thrV d L))) y, (sIB).view.read (Elt F) (View.write (Elt F) (sIB).view g (trip_body.sl.dma0_1 m d L k) Finset.univ) y
      = m (ixBLoc d) ((Rect.unit (s := S160000) (k0_off1 L k) S200.size (k0_off1_inb L k)).emb y) := fun g y => by
    rw [View.read_write_univ]; rfl
  have hinB : ∀ g x, ((sIB).view.read (Elt F) (View.write (Elt F) (sIB).view g (trip_body.sl.dma0_1 m d L k) Finset.univ) x).toNat < 10000 :=
    fun g x => by rw [hfoB]; exact (hpre d).2 _
  sl_exec
  sl_step

  ihave HtL := sh1.2 $$ [HtR Ht1]
  · isplitl [HtR] <;> iassumption
  ihave Ht := sh0.2 $$ [HtL Ht0]
  · isplitl [HtL] <;> iassumption
  have hwA : ∀ j, trip_body.sl.dma0_2 m d L k f0 f1 hinA j = gatheredA m d ((Rect.unit (s := S160000x128) (k0_off2 L k) S200x128.size (k0_off2_inb L k)).emb j) := by
    intro j
    have h1 := writes_whole_on (sRA).view f1 (trip_body.sl.gather0 m d L k f0 hinA) j
    rw [Rect.emb_whole_apply] at h1
    refine Eq.trans h1 ?_
    exact gather_trip L k (m (tabLoc d)) (m (ixALoc d)) (hpre d).1 _ (hfoA f0) _ (tabK_read (m (tabLoc d))) (hinA f0) j

  have hwB : ∀ j, trip_body.sl.dma0_3 m d L k f2 f3 hinB j = gatheredB m d ((Rect.unit (s := S160000x128) (k0_off2 L k) S200x128.size (k0_off2_inb L k)).emb j) := by
    intro j
    have h1 := writes_whole_on (sRB).view f3 (trip_body.sl.gather0_1 m d L k f2 hinB) j
    rw [Rect.emb_whole_apply] at h1
    refine Eq.trans h1 ?_
    exact gather_trip L k (m (tabLoc d)) (m (ixBLoc d)) (hpre d).2 _ (hfoB f2) _ (tabK_read (m (tabLoc d))) (hinB f2) j
  iframe Hmw Ht Ha Hb
  isplitl [HrAk' HrAr]
  · iexists ((resAK L k).view.writes (Elt F) gA [⟨Rect.whole S200x128, trip_body.sl.dma0_2 m d L k f0 f1 hinA⟩])
    isplitr
    · ipureintro; rw [rowsBelow_succ]; exact writes_whole_eq (resAK L k).view gA (gatheredA m d) _ hgA hwA
    · ihave Hk2 := (Entails.of_eq (eA ((resAK L k).view.writes (Elt F) gA [⟨Rect.whole S200x128, trip_body.sl.dma0_2 m d L k f0 f1 hinA⟩])).symm) $$ HrAk'
      iapply (rows_join (ℓ := resALoc d) (T := tileRows L) (A := tripRows L k) (f := gA) (f' := ((resAK L k).view.writes (Elt F) gA [⟨Rect.whole S200x128, trip_body.sl.dma0_2 m d L k f0 f1 hinA⟩]))
        (tripRows_subset L k) (fun x hx => writes_whole_off _ _ _ _ (Finset.mem_sdiff.mp hx).2)) $$ [Hk2 HrAr]
      isplitl [Hk2] <;> iassumption

  isplitl [HrBk' HrBr]
  · iexists ((resBK L k).view.writes (Elt F) gB [⟨Rect.whole S200x128, trip_body.sl.dma0_3 m d L k f2 f3 hinB⟩])
    isplitr
    · ipureintro; rw [rowsBelow_succ]; exact writes_whole_eq (resBK L k).view gB (gatheredB m d) _ hgB hwB
    · ihave Hk2 := (Entails.of_eq (eB ((resBK L k).view.writes (Elt F) gB [⟨Rect.whole S200x128, trip_body.sl.dma0_3 m d L k f2 f3 hinB⟩])).symm) $$ HrBk'
      iapply (rows_join (ℓ := resBLoc d) (T := tileRows L) (A := tripRows L k) (f := gB) (f' := ((resBK L k).view.writes (Elt F) gB [⟨Rect.whole S200x128, trip_body.sl.dma0_3 m d L k f2 f3 hinB⟩]))
        (tripRows_subset L k) (fun x hx => writes_whole_off _ _ _ _ (Finset.mem_sdiff.mp hx).2)) $$ [Hk2 HrBr]
      isplitl [Hk2] <;> iassumption
  isplitl [Hs0]; · iexists _; iexact Hs0
  isplitl [Hs1]; · iexists _; iexact Hs1
  isplitl [Hs2]; · iexists _; iexact Hs2
  isplitl [Hs3]; · iexists _; iexact Hs3
  isplitl [Hc4]; · iexact Hc4
  isplitl [Hc5]; · iexact Hc5
  isplitl [Hp0]; · iexact Hp0
  isplitl [Hp1]; · iexact Hp1
  isplitl [Hp2]; · iexact Hp2
  isplitl [Hp3]; · iexact Hp3
  iexists _; isplitr
  swap; · iexact HO
  ipureintro; intro p hp
  iterate 6 (rcases Finset.mem_insert.mp hp with hp | hp; · exact .inr (hp ▸ rfl))
  exact hW' p hp

set_option maxHeartbeats 4000000 in

theorem tile_body (hF : (K (F := F)).Facts) (hpre : PreOK m)
    (O : CellTallies nD τ sig (HIx 1)) (W : Waits sig (HIx 1)) (hO : ∀ g, O g none = 0) :
    iprop(levAts (K (F := F)).L (K (F := F)).lev ∗ emp
        ∗ tileGo m d L
        ∗ scopedBufs (thrV d L) ∗ scopedSems0 (thrV d L) ∗ owes (thrV d L) O W)
      ⊢ wp frame (wpE (defs₀ (F := F)) 𝒱₀ (thrV d L) none) Set.univ
          (cc0_k L tabV (Memref.isWhole_whole _) ixAV (Memref.isWhole_whole _) ixBV (Memref.isWhole_whole _)
            resAV (Memref.isWhole_whole _) resBV (Memref.isWhole_whole _)
            sIA (Memref.isWhole_whole _) sRA (Memref.isWhole_whole _) sIB (Memref.isWhole_whole _) sRB (Memref.isWhole_whole _)
            cc0_scratch4 cc0_scratch5 cc0_scoped0 cc0_scoped1 cc0_scoped2 cc0_scoped3)
          fun _ => iprop(tileDone m d L
            ∗ scopedBufs (thrV d L) ∗ scopedSems0 (thrV d L)
            ∗ ∃ W', ⌜∀ p ∈ W', p ∈ W ∨ p.2 = none⌝ ∗ owes (thrV d L) O W') := by
  simp only [cc0_k_eq_skeleton]; unfold cc0_k_skel
  obtain ⟨Rs, hs⟩ := ownSems0_tile (F := F) d L
  obtain ⟨Rb, hb⟩ := ownBufs_tile (F := F) d L
  rw [(K (F := F)).scopedBufs_V hF d (cV L) (jV L), SparseCore.Cfg.scopedSems0_V (Val := Elt F) d (cV L) (jV L), hs, hb]
  unfold tileGo tileDone
  iintro ⟨#Hlv, -, ⟨⟨Ht, Ha, Hb⟩, ⟨%fA, HrA⟩, ⟨%fB, HrB⟩⟩, ⟨⟨%f0, Hs0⟩, ⟨%f1, Hs1⟩, ⟨%f2, Hs2⟩, ⟨%f3, Hs3⟩, Hbufs⟩,
    ⟨Hc4, Hc5, Hp0, Hp1, Hp2, Hp3, Hsems⟩, HO⟩
  ihave Hmw := (show levAts (K (F := F)).L (K (F := F)).lev ⊢ Transfers.MayWaits (thrV d L) (default : HIx 1) O from
    (K (F := F)).mayWaits_none (thr := thrV d L) hO) $$ Hlv
  sl_for (inv m d L O W) $$ [Hmw Ht Ha Hb HrA HrB Hs0 Hs1 Hs2 Hs3 Hc4 Hc5 Hp0 Hp1 Hp2 Hp3 HO]
  case region => intro k a; exact trip_body m d L hpre O W k
  · unfold inv
    iframe Hmw Ht Ha Hb Hc4 Hc5 Hp0 Hp1 Hp2 Hp3
    isplitl [HrA]
    · iexists fA; isplitr
      · ipureintro; intro x hx; rw [rowsBelow_zero] at hx; exact absurd hx (Finset.notMem_empty x)
      · iexact HrA
    isplitl [HrB]
    · iexists fB; isplitr
      · ipureintro; intro x hx; rw [rowsBelow_zero] at hx; exact absurd hx (Finset.notMem_empty x)
      · iexact HrB
    isplitl [Hs0]; · iexists f0; iexact Hs0
    isplitl [Hs1]; · iexists f1; iexact Hs1
    isplitl [Hs2]; · iexists f2; iexact Hs2
    isplitl [Hs3]; · iexists f3; iexact Hs3
    iexists W; isplitr
    · ipureintro; exact fun p hp => .inl hp
    · iexact HO
  iintro %acc HI
  unfold inv
  icases HI with ⟨-, Ht, Ha, Hb, ⟨%gA, %hgA, HrA⟩, ⟨%gB, %hgB, HrB⟩, ⟨%g0, Hs0⟩, ⟨%g1, Hs1⟩, ⟨%g2, Hs2⟩, ⟨%g3, Hs3⟩,
    Hc4, Hc5, Hp0, Hp1, Hp2, Hp3, %W', %hW', HO⟩
  rw [show Scf.trips k0_t1_loop.lb k0_t1_loop.ub k0_t1_loop.st = k0_t1_loop.trips from rfl, rowsBelow_trips] at hgA hgB
  sl_exec
  sl_step
  iframe Hbufs Hc4 Hc5 Hp0 Hp1 Hp2 Hp3 Hsems
  isplitl [Ht Ha Hb HrA HrB]
  · isplitl [Ht Ha Hb]
    · isplitl [Ht]; · iexact Ht
      isplitl [Ha]; · iexact Ha
      iexact Hb
    isplitl [HrA]
    · iapply (Entails.of_eq (pointsTo_congr (ℓ := resALoc d) (q := fullShare) hgA)) $$ HrA
    · iapply (Entails.of_eq (pointsTo_congr (ℓ := resBLoc d) (q := fullShare) hgB)) $$ HrB
  isplitl [Hs0 Hs1 Hs2 Hs3]
  · isplitl [Hs0]; · iexists g0; iexact Hs0
    isplitl [Hs1]; · iexists g1; iexact Hs1
    isplitl [Hs2]; · iexists g2; iexact Hs2
    iexists g3; iexact Hs3
  iexists W'; isplitr
  · ipureintro; exact hW'
  · iexact HO

end Body

end Cert.Proof.KI

end
-- ==== Proof.KMain.lean ====
import proofs.«210907_g44332652429893_cont_8to1_b_736_41_alg».proof.Proof.KLaunch
import proofs.«210907_g44332652429893_cont_8to1_b_736_41_alg».proof.Proof.KTile
import Idealize.ShloMosaic.Lib.Pipeline.Frame

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

theorem defs₀_vector (c : Fin τ.nSC) (s : Fin τ.nSub) :
    defs₀ (F := F) (.scVector c s) 0 ()
      = SparseCore.onTile hcore0 hsub0 (fun c s => cc0_k (coordsV c s)
          (Memref.whole main_v1_scv) (Memref.isWhole_whole _) (Memref.whole main_v6_scv) (Memref.isWhole_whole _)
          (Memref.whole main_v9_scv) (Memref.isWhole_whole _) (Memref.whole main_v10_0_scv) (Memref.isWhole_whole _)
          (Memref.whole main_v10_1_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

theorem tileObl (hF : (K (F := F)).Facts) (hpre : PreOK (mCall m)) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body (mCall m) d (coordsV ⟨_, hc.1⟩ ⟨_, hc.2⟩) hF hpre O W hO).trans (wp_mono frame _ _ fun _ => obl_post)

theorem sub_of_forall {l : List (HloOp τ sig (Elt F))} (h : l.Forall fun op => op.bufs ⊆ StableHlo.tcRefs τ sig) :
    ∀ op ∈ l, op.bufs ⊆ Pipeline.ucRefs τ sig := fun op hm => Pipeline.sub_ucRefs op (List.forall_iff_forall_mem.mp h op hm)

theorem ops1_sub : ∀ op ∈ (ops1 : List (HloOp τ sig (Elt F))), op.bufs ⊆ Pipeline.ucRefs τ sig := sub_of_forall (by
  simp only [ops1, List.Forall, StableHlo.unary_bufs_sub, StableHlo.reshape_bufs_sub, and_self])
theorem ops2_sub : ∀ op ∈ (ops2 : List (HloOp τ sig (Elt F))), op.bufs ⊆ Pipeline.ucRefs τ sig := sub_of_forall (by
  simp only [ops2, List.Forall, StableHlo.nullary_bufs_sub, StableHlo.unary_bufs_sub, StableHlo.binary_bufs_sub, StableHlo.reshape_bufs_sub, and_self])
theorem ops3_sub : ∀ op ∈ (ops3 : List (HloOp τ sig (Elt F))), op.bufs ⊆ Pipeline.ucRefs τ sig := sub_of_forall (by
  simp only [ops3, List.Forall, StableHlo.unary_bufs_sub, StableHlo.reshape_bufs_sub, and_self])
theorem ops1_fresh : ∀ op ∈ (ops1 : List (HloOp τ sig (Elt F))), op.fresh = ∅ :=
  List.forall_iff_forall_mem.mp (by
    simp only [ops1, List.Forall]
    repeat' apply And.intro
    all_goals rfl)
theorem ops2_fresh : ∀ op ∈ (ops2 : List (HloOp τ sig (Elt F))), op.fresh = ∅ :=
  List.forall_iff_forall_mem.mp (by
    simp only [ops2, List.Forall]
    repeat' apply And.intro
    all_goals rfl)
theorem ops3_fresh : ∀ op ∈ (ops3 : List (HloOp τ sig (Elt F))), op.fresh = ∅ :=
  List.forall_iff_forall_mem.mp (by
    simp only [ops3, List.Forall]
    repeat' apply And.intro
    all_goals rfl)

def segs : List (Pipeline.Seg (pcfgs (F := F)) adm (pdats m) (none : HIx 1) defs₀ 𝒱₀ (K (F := F)).L (K (F := F)).lev) :=
  [.region (reg1 m), .region (reg2 m), .region (reg3 m), .region (reg4 m), .region (reg5 m)]

theorem main_eq (d : Dev nD) : main (F := F) d = (Pipeline.chain
    [ StableHlo.seq ops1, (K (F := F)).run d 0, StableHlo.seq ops2,
      SparseCore.liftProg (Q := 1) (Pipeline.Seg.run (segs m)), StableHlo.seq ops3 ] :
      Prog (TpuEff nD τ sig (Elt F) (SparseCore.Sig (Pipeline.Sig Λ₀ (Fin 5) fun p => (pcfgs (F := F) p).Adm) 1) .tc) PUnit) := by
  chain_rfl

omit [FloatOps F] in
theorem tcSt_split (d : Dev nD) :
    ((K (F := F)).tcSt EH d 1 : sProp 𝕄) ⊢ iprop(Rw (F := F) d ∗ (Rw (F := F) d -∗ (K (F := F)).tcSt EH d 1)) := by
  unfold SparseCore.Cfg.tcSt Rw
  rw [(K (F := F)).Otc_end d (le_refl 1)]
  iintro ⟨HO, Hrest⟩
  iframe HO
  iintro HO
  iframe

omit [FloatOps F] in
theorem mem_ucRefs (r : Ref sig .tc) (h : (Proc.devRef (τ := τ) .tc r : DevRef τ sig).isScoped = false) :
    (Proc.devRef .tc r : DevRef τ sig) ∈ Pipeline.ucRefs τ sig :=
  Finset.mem_filter.mpr ⟨StableHlo.devRef_mem_tcRefs r, by simp [h]⟩

omit [FloatOps F] in
theorem scRefs_sub : scRefs ⊆ Pipeline.ucRefs τ sig := by
  unfold scRefs
  intro b hb
  simp only [Finset.mem_insert, Finset.mem_singleton] at hb
  rcases hb with rfl | rfl | rfl | rfl | rfl <;> exact mem_ucRefs _ rfl

theorem val2_off (d : Dev nD) (b : DevRef τ sig) (hb : b ∉ scRefs) : val2 m d b = val1 m d b := by
  unfold val2
  unfold scRefs at hb
  simp only [Finset.mem_insert, Finset.mem_singleton, not_or] at hb
  rw [Function.update_of_ne hb.2.2.2.2, Function.update_of_ne hb.2.2.2.1]

theorem held_sc_join (d : Dev nD) :
    iprop(StableHlo.held (SparseCore.T d) scRefs (val2 m d) ∗ StableHlo.held (SparseCore.T d) (Pipeline.ucRefs τ sig \ scRefs) (val1 m d))
      ⊢ (StableHlo.held (SparseCore.T d) (Pipeline.ucRefs τ sig) (val2 m d) : sProp 𝕄) := by
  rw [StableHlo.held_sub_split (SparseCore.T d) scRefs_sub (val2 m d),
    StableHlo.held_congr (SparseCore.T d) (S := Pipeline.ucRefs τ sig \ scRefs) (V := val2 m d) (V' := val1 m d)
      (fun b hb => val2_off m d b (Finset.mem_sdiff.mp hb).2)]

omit [FloatOps F] in
theorem held_cast {S : Finset (DevRef τ sig)} {Vv Vv' : Valuation τ sig (Elt F)} (h : Vv = Vv') (d : Dev nD) :
    (StableHlo.held (SparseCore.T d) S Vv : sProp 𝕄) ⊢ StableHlo.held (SparseCore.T d) S Vv' := by
  subst h; exact .rfl

theorem sc_split' (d : Dev nD) :
    (StableHlo.held (SparseCore.T d) scRefs (val1 m d) : sProp 𝕄)
      ⊢ |={Set.univ}=> iprop((bigSep Finset.univ fun c : Fin ((K (F := F)).nCore 0) => (P m).st 0 d c)
        ∗ ((bigSep Finset.univ fun c : Fin ((K (F := F)).nCore 0) => (P m).dn 0 d c)
            -∗ StableHlo.held (SparseCore.T d) scRefs (val2 m d))) := sc_split m d

theorem segs_chain : Pipeline.Seg.Chains (St (val3 m)) (segs m) (St (F := F) (val8 m)) :=
  ⟨fun _ => .rfl, fun _ => .rfl, fun _ => .rfl, fun _ => .rfl, fun _ => .rfl, fun _ => .rfl⟩

set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  rw [main_eq m d]
  simp only [Pipeline.chain]
  unfold SparseCore.Cfg.tcRes
  rw [show (unscopedBufs d (fun b => m ((SparseCore.T d).loc b)) : sProp 𝕄)
      = StableHlo.held (SparseCore.T d) (Pipeline.ucRefs τ sig) (StableHlo.launchContents m d) from Pipeline.unscopedBufs_held d (StableHlo.launchContents m d)]
  iintro ⟨#Hctx, Hst, ⟨Hb, Hbufs, -, -⟩, HG⟩
  ihave Hlev := ((K (F := F)).ctx_levAts κ) $$ Hctx

  iapply (StableHlo.wp_seq 𝒱 none Set.univ d (Pipeline.ucRefs τ sig) _ ops1 ops1_sub ops1_fresh (StableHlo.launchContents m d)) $$ [Hb Hbufs]
  · isplitl [Hb] <;> iassumption
  iintro ⟨Hb, Hbufs⟩
  ihave Hbufs := (held_cast (Vv := StableHlo.after ops1 (StableHlo.launchContents m d)) (Vv' := val1 m d) rfl d) $$ Hbufs

  rw [wp_bind]
  ihave Hsp := (Entails.of_eq (StableHlo.held_sub_split (SparseCore.T d) scRefs_sub (val1 m d))) $$ Hbufs
  icases Hsp with ⟨Hsc, Hrest⟩
  imod (sc_split' m d) $$ Hsc with ⟨Hgo, Hback⟩
  iapply ((K (F := F)).wp_run (D (F := F)) 𝒱 (EH := EH) (P := P m) κ d 0)
  isplitr; · iexact Hctx
  isplitl [Hst]; · iexact Hst
  isplitl [Hgo]; · iexact Hgo
  iintro ⟨Hst, Hdn⟩
  ihave Hsc := Hback $$ Hdn
  ihave Hbufs := (held_sc_join m d) $$ [Hsc Hrest]
  · isplitl [Hsc] <;> iassumption

  iapply (StableHlo.wp_seq 𝒱 none Set.univ d (Pipeline.ucRefs τ sig) _ ops2 ops2_sub ops2_fresh (val2 m d)) $$ [Hb Hbufs]
  · isplitl [Hb] <;> iassumption
  iintro ⟨Hb, Hbufs⟩
  ihave Hbufs := (held_cast (Vv := StableHlo.after ops2 (val2 m d)) (Vv' := val3 m d) rfl d) $$ Hbufs

  rw [wp_bind]
  iapply ((K (F := F)).wp_liftProg (D (F := F)) 𝒱 (SparseCore.T d) Set.univ none _ _)
  ihave Hst := (show ((K (F := F)).tcSt EH d ((0 : Fin 1).val + 1) : sProp 𝕄) ⊢ (K (F := F)).tcSt EH d 1 from .rfl) $$ Hst
  ihave Hsp := (tcSt_split d) $$ Hst
  icases Hsp with ⟨HR, Hstback⟩
  iapply (Pipeline.wp_segs (pcfgs (F := F)) adm (pdats m) (none : HIx 1) cellOf_inj EP defs₀ 𝒱₀ (K (F := F)).L (K (F := F)).lev d (segs m) Finset.univ
      (St (val3 m)) (St (val8 m)) (by show ([0, 1, 2, 3, 4] : List (Fin 5)).Nodup; decide) (fun p _ => Finset.mem_univ p) (segs_chain m))
  isplitr [Hb Hbufs HR HG]
  ·
    iintro ⟨Hb, HSt⟩
    unfold St
    icases HSt with ⟨Hbufs, HR⟩
    ihave Hbufs := (Entails.of_eq (Pipeline.unscopedBufs_held d (val8 m d))) $$ Hbufs
    iapply (StableHlo.wp_seq 𝒱 none Set.univ d (Pipeline.ucRefs τ sig) _ ops3 ops3_sub ops3_fresh (val8 m d)) $$ [Hb Hbufs]
    · isplitl [Hb] <;> iassumption
    iintro ⟨-, Hbufs⟩
    ihave Hbufs := (held_cast (Vv := StableHlo.after ops3 (val8 m d)) (Vv' := val9 m d) rfl d) $$ Hbufs
    rw [wp_pure]; imodintro
    isplitl [HR Hstback]
    · iapply Hstback; iexact HR
    · iapply (Entails.of_eq (Pipeline.unscopedBufs_held d (val9 m d)).symm); iexact Hbufs
  · isplitl [Hb]; · iexact Hb
    isplitl [Hbufs HR]
    · unfold St
      isplitl [Hbufs]
      · iapply (Entails.of_eq (Pipeline.unscopedBufs_held d (val3 m d)).symm); iexact Hbufs
      · iexact HR
    isplitr; · iexact Hlev
    iexact HG

omit [FloatOps F] in
theorem ownU_split (a : UH) (b : UP) : (ownU ((a, (b, (1 : UK))) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, (1 : UK)) : UP × UK))))

theorem ghost_deal :
    iprop((bigSep Finset.univ fun c : Dev nD => bigSep Finset.univ fun p : Fin 5 => Pipeline.cellsGhost (cfgs) (EP (F := F)) p c)
        ∗ (bigSep Finset.univ fun c : Dev nD => bigSep Finset.univ fun p : Fin 5 => (Pipeline.toksInit (cfgs) (EP (F := F)) p c : sProp 𝕄)))
      ⊢ bigSep Finset.univ fun d : Dev nD => G (F := F) d := by
  unfold G Pipeline.ghostOn Pipeline.PerCore.ghostOn
  simp only [bigSep_sep']
  exact .rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _) $$ Hu
  icases H with ⟨HH, HP⟩
  imod (Pipeline.fund_ghost (nD := nD) (τ := τ) cfgs (EP (F := F)) cellOf_inj) $$ HP with ⟨Hg, Ht⟩
  imodintro
  isplitl [HH]; · iexact HH
  isplitl [Hg Ht]
  · iapply (ghost_deal (F := F))
    isplitl [Hg] <;> iassumption
  · rw [show (bigSep Finset.univ fun thr : Thread nD τ => bigSep Finset.univ fun q : Fin 1 => (P (F := F) m).x q thr) = (iprop(emp) : sProp 𝕄) from by
      rw [show (fun thr : Thread nD τ => bigSep Finset.univ fun q : Fin 1 => (P (F := F) m).x q thr) = fun _ => (iprop(emp) : sProp 𝕄) from
        funext fun _ => bigSep_emp_const _]
      exact bigSep_emp_const _]
    iempintro

theorem hfin (d : Dev nD) (s' : Phys nD τ sig (Elt F)) : iprop(FIN m d ∗ SI s') ⊢ (⌜fq m d s'⌝ : sProp 𝕄) := by
  unfold fq; exact unscopedBufs_read d (val9 m d) s'

theorem val9_arg (c : Dev nD) {r : Ref sig .tc} (hr : r ∈ args) : val9 m c (Proc.devRef .tc r) = m ((SparseCore.T c).loc r) := by
  unfold val9 val8 val7 val6 val5 val4 val3 val2
  exact valEnd_arg m c _ _ _ _ _ _ _ hr

theorem hQ (s' : Phys nD τ sig (Elt F)) (h : ∀ d, fq m d s') : QC m (⟨⟩, s'.mem) := by
  intro c
  have ha : ∀ r ∈ args, s'.mem.mem ((SparseCore.T c).loc r) = m ((SparseCore.T c).loc r) := fun r hr =>
    (h c r (args_unscoped r hr)).trans (val9_arg m c hr)
  refine ⟨h c main_v44 (by decide), h c main_v43 (by decide), ?_⟩
  repeat' constructor
  all_goals exact ha _ (by decide)

theorem preOK_call (hpre : PreArg m) : PreOK (mCall m) := preOK_of_after m hpre

theorem run_main [∀ e, Nonempty (Elt F e)] (hpre : PreArg m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts (preOK_call m hpre))
    (fun q _ => match q with | 0 => SparseCore.Cfg.VecSplit.of_plain (vecSplit m))
    m ρ main (G (F := F)) (FIN m) (u₀ (F := F)) (sep_elim_left.trans (hu₀ m)) (hmain m ρ) (fq m) (hfin m) (QC m) (hQ m)

end Cert.Proof.KI

end
-- ==== Proof.KFrame.lean ====
import proofs.«210907_g44332652429893_cont_8to1_b_736_41_alg».proof.Proof.KMain
import proofs.«210907_g44332652429893_cont_8to1_b_736_41_alg».proof.Proof.PreFacts

noncomputable section

namespace Cert.Proof.KI

open Cert.KernelIdeal Cert.KernelIdeal.Gen
open Idealize.ShloMosaic Idealize.SL.Sem

variable {F : FTy → Type} [FloatOps F] (m : (ℓ : Loc nD τ sig) → Buf (Elt F) ℓ)

-- The precondition: its function of the nineteen argument arrays is all ones on every device.
def PreIn : Prop := ∀ c : Dev nD, (Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))) = (fun _ => 1#1)

-- Read at the index argument, the precondition bounds every word of it by the number of rows of the node table.
theorem preArg_of_pre (h : PreIn m) : PreArg m := fun d j => Cert.PreFacts.arg2_toNat (h d) j

-- The run's conclusion with the two results dropped.
theorem frame_of_pre [∀ e, Nonempty (Elt F e)] (g : Dev nD → PrngReg) (h : PreIn m) :
    θ_run (Cert.KernelIdeal.defs (F := F)) (Cert.KernelIdeal.threads (F := F)) ⟨m, fun _ => 0, g⟩
      (fun r => ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)) :=
  (θ_run _ _ _).mono (fun _ hq c => (hq c).2.2.2) (run_main m g (preArg_of_pre m h))

end Cert.Proof.KI

end
-- ==== Proof.RefRun1.lean ====
import proofs.«210907_g44332652429893_cont_8to1_b_736_41_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev Arr (F : FTy → Type) (s : Shape) (e : EltTy) : Type := (⟨s, e⟩ : BufTy).Contents (Elt F)

def edgeRow1 (e : Arr F S2x1x10000x16 .i32) : Arr F S1x10000x16 .i32 :=
  fun i => shapeCast S1x10000x16 (extractStridedSlice S1x1x10000x16 ![1, 0, 0, 0] e slices_S2x1x10000x16_S1x1x10000x16_1_0_0_0) shapeCasts_S1x1x10000x16_S1x10000x16 i

def edgeRow0 (e : Arr F S2x1x10000x16 .i32) : Arr F S1x10000x16 .i32 :=
  fun i => shapeCast S1x10000x16 (extractStridedSlice S1x1x10000x16 ![0, 0, 0, 0] e slices_S2x1x10000x16_S1x1x10000x16_0_0_0_0) shapeCasts_S1x1x10000x16_S1x10000x16 i

def wrapIdx (i : Arr F S1x10000x16 .i32) : Arr F S1x10000x16x1 .i32 :=
  broadcastInDim S1x10000x16x1 ![0, 1, 2] bcast_S1x10000x16_S1x10000x16x1_0_1_2
    (select (cmpi .slt i (broadcastInDim S1x10000x16 ![] bcast_S_S1x10000x16 (constantI S_ 32 0#32)))
      (addi i (broadcastInDim S1x10000x16 ![] bcast_S_S1x10000x16 (constantI S_ 32 10000#32))) i)

def nodeRows (x : Arr F S1x128x10000x1 .f32) : Arr F S1x128x10000 .f32 :=
  fun i => shapeCast S1x128x10000 x shapeCasts_S1x128x10000x1_S1x128x10000 i

def gatherNodes (x : Arr F S1x128x10000x1 .f32) (i : Arr F S1x10000x16 .i32) : Arr F S1x128x10000x16 .f32 :=
  Host.gather gather_S1x128x10000_S1x10000x16x1_S1x128x10000x16_1_2_0_0_2_3_11281 (nodeRows x) (wrapIdx i)

def hI (x : Arr F S1x128x10000x1 .f32) (e : Arr F S2x1x10000x16 .i32) : Arr F S1x128x10000x16 .f32 := gatherNodes x (edgeRow1 e)

def hJ (x : Arr F S1x128x10000x1 .f32) (e : Arr F S2x1x10000x16 .i32) : Arr F S1x128x10000x16 .f32 := gatherNodes x (edgeRow0 e)

def conv1 (x : Arr F S1x272x10000x16 .f32) (w : Arr F S256x272 .f32) (b : Arr F S256 .f32) : Arr F S1x256x10000x16 .f32 :=
  addf (transpose S1x256x10000x16 [0, 3, 1, 2] (Host.dotGeneral dot_S1x272x10000x16_S256x272_S1x10000x16x256_1_1_023_0_n_n none x w) transposes_S1x10000x16x256_S1x256x10000x16_0_3_1_2)
    (broadcastInDim S1x256x10000x16 ![0, 1, 2, 3] bcast_S1x256x1x1_S1x256x10000x16_0_1_2_3 (broadcastInDim S1x256x1x1 ![1] bcast_S256_S1x256x1x1_1 b))

def conv2 (x : Arr F S1x256x10000x16 .f32) (w : Arr F S128x256 .f32) (b : Arr F S128 .f32) : Arr F S1x128x10000x16 .f32 :=
  addf (transpose S1x128x10000x16 [0, 3, 1, 2] (Host.dotGeneral dot_S1x256x10000x16_S128x256_S1x10000x16x128_1_1_023_0_n_n none x w) transposes_S1x10000x16x128_S1x128x10000x16_0_3_1_2)
    (broadcastInDim S1x128x10000x16 ![0, 1, 2, 3] bcast_S1x128x1x1_S1x128x10000x16_0_1_2_3 (broadcastInDim S1x128x1x1 ![1] bcast_S128_S1x128x1x1_1 b))

def conv3 (x : Arr F S1x256x10000x16 .f32) (w : Arr F S256x256 .f32) (b : Arr F S256 .f32) : Arr F S1x256x10000x16 .f32 :=
  addf (transpose S1x256x10000x16 [0, 3, 1, 2] (Host.dotGeneral dot_S1x256x10000x16_S256x256_S1x10000x16x256_1_1_023_0_n_n none x w) transposes_S1x10000x16x256_S1x256x10000x16_0_3_1_2)
    (broadcastInDim S1x256x10000x16 ![0, 1, 2, 3] bcast_S1x256x1x1_S1x256x10000x16_0_1_2_3 (broadcastInDim S1x256x1x1 ![1] bcast_S256_S1x256x1x1_1 b))

def dof : Arr F S_ .f32 := subf (constant S_ .f32 0x481C4000#32) (sitofp .f32 (constantI S_ 32 0#32 : Arr F S_ .i32))

def mean256 (y : Arr F S1x256x10000x16 .f32) : Arr F S1x256x1x1 .f32 :=
  Host.divf (broadcastInDim S1x256x1x1 ![1] bcast_S256_S1x256x1x1_1 (Host.reduceAdd y (constant S_ .f32 0x00000000#32) reducesTo_S1x256x10000x16_S256_d0_2_3 h_S_))
    (broadcastInDim S1x256x1x1 ![] bcast_S_S1x256x1x1 (constant S_ .f32 0x481C4000#32))

def var256 (y : Arr F S1x256x10000x16 .f32) : Arr F S1x256x1x1 .f32 :=
  select (broadcastInDim S1x256x1x1 ![] bcast_S_S1x256x1x1 (cmpf .ogt (dof (F := F)) (constant S_ .f32 0x00000000#32)))
    (Host.divf
      (broadcastInDim S1x256x1x1 ![1] bcast_S256_S1x256x1x1_1
        (Host.reduceAdd
          (mulf (subf y (broadcastInDim S1x256x10000x16 ![0, 1, 2, 3] bcast_S1x256x1x1_S1x256x10000x16_0_1_2_3 (mean256 y)))
            (subf y (broadcastInDim S1x256x10000x16 ![0, 1, 2, 3] bcast_S1x256x1x1_S1x256x10000x16_0_1_2_3 (mean256 y))))
          (constant S_ .f32 0x00000000#32) reducesTo_S1x256x10000x16_S256_d0_2_3 h_S_))
      (broadcastInDim S1x256x1x1 ![] bcast_S_S1x256x1x1 (dof (F := F))))
    (broadcastInDim S1x256x1x1 ![] bcast_S_S1x256x1x1 (id (constant S_ .f32 0x7FC00000#32)))

def bnRelu256 (y : Arr F S1x256x10000x16 .f32) (g be : Arr F S256 .f32) : Arr F S1x256x10000x16 .f32 :=
  maximumf
    (addf
      (mulf
        (Host.divf (subf y (broadcastInDim S1x256x10000x16 ![0, 1, 2, 3] bcast_S1x256x1x1_S1x256x10000x16_0_1_2_3 (mean256 y)))
          (broadcastInDim S1x256x10000x16 ![0, 1, 2, 3] bcast_S1x256x1x1_S1x256x10000x16_0_1_2_3
            (Host.sqrt (addf (var256 y) (broadcastInDim S1x256x1x1 ![] bcast_S_S1x256x1x1 (constant S_ .f32 0x3727C5AC#32))))))
        (broadcastInDim S1x256x10000x16 ![0, 1, 2, 3] bcast_S1x256x1x1_S1x256x10000x16_0_1_2_3 (broadcastInDim S1x256x1x1 ![1] bcast_S256_S1x256x1x1_1 g)))
      (broadcastInDim S1x256x10000x16 ![0, 1, 2, 3] bcast_S1x256x1x1_S1x256x10000x16_0_1_2_3 (broadcastInDim S1x256x1x1 ![1] bcast_S256_S1x256x1x1_1 be)))
    (broadcastInDim S1x256x10000x16 ![] bcast_S_S1x256x10000x16 (constant S_ .f32 0x00000000#32))

def mean128 (y : Arr F S1x128x10000x16 .f32) : Arr F S1x128x1x1 .f32 :=
  Host.divf (broadcastInDim S1x128x1x1 ![1] bcast_S128_S1x128x1x1_1 (Host.reduceAdd y (constant S_ .f32 0x00000000#32) reducesTo_S1x128x10000x16_S128_d0_2_3 h_S_))
    (broadcastInDim S1x128x1x1 ![] bcast_S_S1x128x1x1 (constant S_ .f32 0x481C4000#32))

def var128 (y : Arr F S1x128x10000x16 .f32) : Arr F S1x128x1x1 .f32 :=
  select (broadcastInDim S1x128x1x1 ![] bcast_S_S1x128x1x1 (cmpf .ogt (dof (F := F)) (constant S_ .f32 0x00000000#32)))
    (Host.divf
      (broadcastInDim S1x128x1x1 ![1] bcast_S128_S1x128x1x1_1
        (Host.reduceAdd
          (mulf (subf y (broadcastInDim S1x128x10000x16 ![0, 1, 2, 3] bcast_S1x128x1x1_S1x128x10000x16_0_1_2_3 (mean128 y)))
            (subf y (broadcastInDim S1x128x10000x16 ![0, 1, 2, 3] bcast_S1x128x1x1_S1x128x10000x16_0_1_2_3 (mean128 y))))
          (constant S_ .f32 0x00000000#32) reducesTo_S1x128x10000x16_S128_d0_2_3 h_S_))
      (broadcastInDim S1x128x1x1 ![] bcast_S_S1x128x1x1 (dof (F := F))))
    (broadcastInDim S1x128x1x1 ![] bcast_S_S1x128x1x1 (id (constant S_ .f32 0x7FC00000#32)))

def bnRelu128 (y : Arr F S1x128x10000x16 .f32) (g be : Arr F S128 .f32) : Arr F S1x128x10000x16 .f32 :=
  maximumf
    (addf
      (mulf
        (Host.divf (subf y (broadcastInDim S1x128x10000x16 ![0, 1, 2, 3] bcast_S1x128x1x1_S1x128x10000x16_0_1_2_3 (mean128 y)))
          (broadcastInDim S1x128x10000x16 ![0, 1, 2, 3] bcast_S1x128x1x1_S1x128x10000x16_0_1_2_3
            (Host.sqrt (addf (var128 y) (broadcastInDim S1x128x1x1 ![] bcast_S_S1x128x1x1 (constant S_ .f32 0x3727C5AC#32))))))
        (broadcastInDim S1x128x10000x16 ![0, 1, 2, 3] bcast_S1x128x1x1_S1x128x10000x16_0_1_2_3 (broadcastInDim S1x128x1x1 ![1] bcast_S128_S1x128x1x1_1 g)))
      (broadcastInDim S1x128x10000x16 ![0, 1, 2, 3] bcast_S1x128x1x1_S1x128x10000x16_0_1_2_3 (broadcastInDim S1x128x1x1 ![1] bcast_S128_S1x128x1x1_1 be)))
    (broadcastInDim S1x128x10000x16 ![] bcast_S_S1x128x10000x16 (constant S_ .f32 0x00000000#32))

def cat3 (ea : Arr F S1x16x10000x16 .f32) (a b : Arr F S1x128x10000x16 .f32) : Arr F S1x272x10000x16 .f32 :=
  concatenate S1x272x10000x16 1 [⟨S1x16x10000x16, ea⟩, ⟨S1x128x10000x16, a⟩, ⟨S1x128x10000x16, b⟩] concatenates_S1x16x10000x16_S1x128x10000x16_S1x128x10000x16_S1x272x10000x16_d1

def cat2 (a b : Arr F S1x128x10000x16 .f32) : Arr F S1x256x10000x16 .f32 :=
  concatenate S1x256x10000x16 1 [⟨S1x128x10000x16, a⟩, ⟨S1x128x10000x16, b⟩] concatenates_S1x128x10000x16_S1x128x10000x16_S1x256x10000x16_d1

def msgSum (e : Arr F S1x128x10000x16 .f32) : Arr F S1x128x10000x16 .f32 :=
  broadcastInDim S1x128x10000x16 ![0, 1, 2, 3] bcast_S1x128x10000x1_S1x128x10000x16_0_1_2_3
    (broadcastInDim S1x128x10000x1 ![0, 1, 2] bcast_S1x128x10000_S1x128x10000x1_0_1_2
      (Host.reduceAdd e (constant S_ .f32 0x00000000#32) reducesTo_S1x128x10000x16_S1x128x10000_d3 h_S_))

def firstCol (n : Arr F S1x128x10000x16 .f32) : Arr F S1x128x10000x1 .f32 :=
  broadcastInDim S1x128x10000x1 ![0, 1, 2] bcast_S1x128x10000_S1x128x10000x1_0_1_2
    (fun i => shapeCast S1x128x10000 (extractStridedSlice S1x128x10000x1 ![0, 0, 0, 0] n slices_S1x128x10000x16_S1x128x10000x1_0_0_0_0) shapeCasts_S1x128x10000x1_S1x128x10000 i)

def layer1 (ea : Arr F S1x16x10000x16 .f32) (hi hj : Arr F S1x128x10000x16 .f32) (w : Arr F S256x272 .f32) (b g be : Arr F S256 .f32) : Arr F S1x256x10000x16 .f32 :=
  bnRelu256 (conv1 (cat3 ea hi hj) w b) g be

def layer2 (x : Arr F S1x256x10000x16 .f32) (w : Arr F S128x256 .f32) (b g be : Arr F S128 .f32) : Arr F S1x128x10000x16 .f32 :=
  bnRelu128 (conv2 x w b) g be

def layer3 (hi e : Arr F S1x128x10000x16 .f32) (w : Arr F S256x256 .f32) (b g be : Arr F S256 .f32) : Arr F S1x256x10000x16 .f32 :=
  bnRelu256 (conv3 (cat2 hi (msgSum e)) w b) g be

def layer4 (x : Arr F S1x256x10000x16 .f32) (w : Arr F S128x256 .f32) (b g be : Arr F S128 .f32) : Arr F S1x128x10000x16 .f32 :=
  bnRelu128 (conv2 x w b) g be

section Results

variable (m : (ℓ : Loc nD τ sig) → Buf (Elt F) ℓ) (c : Dev nD)

abbrev inp (r : Ref sig .tc) : Buf (Elt F) ((c.tc : Thread nD τ).loc r) := m ((c.tc : Thread nD τ).loc r)

def stageHI : Arr F S1x128x10000x16 .f32 := hI (inp m c main_arg0) (inp m c main_arg2)

def stageHJ : Arr F S1x128x10000x16 .f32 := hJ (inp m c main_arg0) (inp m c main_arg2)

def stageE1 : Arr F S1x256x10000x16 .f32 :=
  layer1 (inp m c main_arg1) (stageHI m c) (stageHJ m c) (inp m c main_arg3) (inp m c main_arg4) (inp m c main_arg5) (inp m c main_arg6)

def res68 : Arr F S1x128x10000x16 .f32 :=
  layer2 (stageE1 m c) (inp m c main_arg7) (inp m c main_arg8) (inp m c main_arg9) (inp m c main_arg10)

def stageN1 : Arr F S1x256x10000x16 .f32 :=
  layer3 (stageHI m c) (res68 m c) (inp m c main_arg11) (inp m c main_arg12) (inp m c main_arg13) (inp m c main_arg14)

def stageN2 : Arr F S1x128x10000x16 .f32 :=
  layer4 (stageN1 m c) (inp m c main_arg15) (inp m c main_arg16) (inp m c main_arg17) (inp m c main_arg18)

def res123 : Arr F S1x128x10000x1 .f32 := firstCol (stageN2 m c)

end Results

end Cert.ReferenceIdeal.RefRun

end
-- ==== Proof.RefRun0.lean ====
import proofs.«210907_g44332652429893_cont_8to1_b_736_41_alg».proof.Proof.Gen.ReferenceIdeal
import proofs.«210907_g44332652429893_cont_8to1_b_736_41_alg».proof.Proof.RefRun1
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def ops0 : List (HloOp τ sig (Elt F)) :=
  [ StableHlo.unary main_arg2 main_v0 ((extractStridedSlice S1x1x10000x16 ![1, 0, 0, 0] · slices_S2x1x10000x16_S1x1x10000x16_1_0_0_0) : Arr F S2x1x10000x16 .i32 → Arr F S1x1x10000x16 .i32),
    StableHlo.reshape main_v0 main_v1 rfl shapeCasts_S1x1x10000x16_S1x10000x16,
    StableHlo.reshape main_arg0 main_v2 rfl shapeCasts_S1x128x10000x1_S1x128x10000,
    StableHlo.nullary main_c (constantI S_ 32 0#32),
    StableHlo.unary main_c main_v3 (broadcastInDim S1x10000x16 ![] bcast_S_S1x10000x16),
    StableHlo.binary main_v1 main_v3 main_v4 (cmpi .slt : Arr F S1x10000x16 .i32 → Arr F S1x10000x16 .i32 → Arr F S1x10000x16 .i1),
    StableHlo.nullary main_c_0 (constantI S_ 32 10000#32),
    StableHlo.unary main_c_0 main_v5 (broadcastInDim S1x10000x16 ![] bcast_S_S1x10000x16),
    StableHlo.binary main_v1 main_v5 main_v6 (addi : Arr F S1x10000x16 .i32 → Arr F S1x10000x16 .i32 → Arr F S1x10000x16 .i32),
    StableHlo.ternary main_v4 main_v6 main_v1 main_v7 (select : Arr F S1x10000x16 .i1 → Arr F S1x10000x16 .i32 → Arr F S1x10000x16 .i32 → Arr F S1x10000x16 .i32),
    StableHlo.unary main_v7 main_v8 (broadcastInDim S1x10000x16x1 ![0, 1, 2] bcast_S1x10000x16_S1x10000x16x1_0_1_2),
    StableHlo.binary main_v2 main_v8 main_v9 ((fun x i => Host.gather gather_S1x128x10000_S1x10000x16x1_S1x128x10000x16_1_2_0_0_2_3_11281 x i) : Arr F S1x128x10000 .f32 → Arr F S1x10000x16x1 .i32 → Arr F S1x128x10000x16 .f32) ]

abbrev W0 : List (Ref sig .tc) :=
  [main_v0, main_v1, main_v2, main_c, main_v3, main_v4, main_c_0, main_v5, main_v6, main_v7, main_v8, main_v9]

def ops1 : List (HloOp τ sig (Elt F)) :=
  [ StableHlo.unary main_arg2 main_v10 ((extractStridedSlice S1x1x10000x16 ![0, 0, 0, 0] · slices_S2x1x10000x16_S1x1x10000x16_0_0_0_0) : Arr F S2x1x10000x16 .i32 → Arr F S1x1x10000x16 .i32),
    StableHlo.reshape main_v10 main_v11 rfl shapeCasts_S1x1x10000x16_S1x10000x16,
    StableHlo.reshape main_arg0 main_v12 rfl shapeCasts_S1x128x10000x1_S1x128x10000,
    StableHlo.nullary main_c_1 (constantI S_ 32 0#32),
    StableHlo.unary main_c_1 main_v13 (broadcastInDim S1x10000x16 ![] bcast_S_S1x10000x16),
    StableHlo.binary main_v11 main_v13 main_v14 (cmpi .slt : Arr F S1x10000x16 .i32 → Arr F S1x10000x16 .i32 → Arr F S1x10000x16 .i1),
    StableHlo.nullary main_c_2 (constantI S_ 32 10000#32),
    StableHlo.unary main_c_2 main_v15 (broadcastInDim S1x10000x16 ![] bcast_S_S1x10000x16),
    StableHlo.binary main_v11 main_v15 main_v16 (addi : Arr F S1x10000x16 .i32 → Arr F S1x10000x16 .i32 → Arr F S1x10000x16 .i32),
    StableHlo.ternary main_v14 main_v16 main_v11 main_v17 (select : Arr F S1x10000x16 .i1 → Arr F S1x10000x16 .i32 → Arr F S1x10000x16 .i32 → Arr F S1x10000x16 .i32),
    StableHlo.unary main_v17 main_v18 (broadcastInDim S1x10000x16x1 ![0, 1, 2] bcast_S1x10000x16_S1x10000x16x1_0_1_2),
    StableHlo.binary main_v12 main_v18 main_v19 ((fun x i => Host.gather gather_S1x128x10000_S1x10000x16x1_S1x128x10000x16_1_2_0_0_2_3_11281 x i) : Arr F S1x128x10000 .f32 → Arr F S1x10000x16x1 .i32 → Arr F S1x128x10000x16 .f32) ]

abbrev W1 : List (Ref sig .tc) :=
  [main_v10, main_v11, main_v12, main_c_1, main_v13, main_v14, main_c_2, main_v15, main_v16, main_v17, main_v18, main_v19]

def ops2 : List (HloOp τ sig (Elt F)) :=
  [ StableHlo.nary ![main_arg1, main_v9, main_v19] main_v20 (fun u => concatenate S1x272x10000x16 1 [⟨S1x16x10000x16, u 0⟩, ⟨S1x128x10000x16, u 1⟩, ⟨S1x128x10000x16, u 2⟩] concatenates_S1x16x10000x16_S1x128x10000x16_S1x128x10000x16_S1x272x10000x16_d1),
    StableHlo.binary main_v20 main_arg3 main_v21 ((fun l r => Host.dotGeneral dot_S1x272x10000x16_S256x272_S1x10000x16x256_1_1_023_0_n_n none l r) : Arr F S1x272x10000x16 .f32 → Arr F S256x272 .f32 → Arr F S1x10000x16x256 .f32),
    StableHlo.unary main_v21 main_v22 ((transpose S1x256x10000x16 [0, 3, 1, 2] · transposes_S1x10000x16x256_S1x256x10000x16_0_3_1_2) : Arr F S1x10000x16x256 .f32 → Arr F S1x256x10000x16 .f32),
    StableHlo.unary main_arg4 main_v23 (broadcastInDim S1x256x1x1 ![1] bcast_S256_S1x256x1x1_1),
    StableHlo.unary main_v23 main_v24 (broadcastInDim S1x256x10000x16 ![0, 1, 2, 3] bcast_S1x256x1x1_S1x256x10000x16_0_1_2_3),
    StableHlo.binary main_v22 main_v24 main_v25 addf,
    StableHlo.nullary main_cst (constant S_ .f32 0x00000000#32),
    StableHlo.binary main_v25 main_cst main_v26 ((fun x v => Host.reduceAdd x v reducesTo_S1x256x10000x16_S256_d0_2_3 h_S_) : Arr F S1x256x10000x16 .f32 → Arr F S_ .f32 → Arr F S256 .f32),
    StableHlo.unary main_v26 main_v27 (broadcastInDim S1x256x1x1 ![1] bcast_S256_S1x256x1x1_1),
    StableHlo.nullary main_cst_3 (constant S_ .f32 0x481C4000#32),
    StableHlo.unary main_cst_3 main_v28 (broadcastInDim S1x256x1x1 ![] bcast_S_S1x256x1x1),
    StableHlo.binary main_v27 main_v28 main_v29 Host.divf,
    StableHlo.nullary main_c_4 (constantI S_ 32 0#32),
    StableHlo.TRef.nullary main_call0.cst (constant S_ .f32 0x00000000#32),
    StableHlo.TRef.binary (StableHlo.TRef.of (T := ⟨S1x256x10000x16, .f32⟩) main_v25) main_call0.cst main_call0.v0 (fun x v => Host.reduceAdd x v reducesTo_S1x256x10000x16_S256_d0_2_3 h_S_),
    StableHlo.TRef.unary main_call0.v0 main_call0.v1 (broadcastInDim S1x256x1x1 ![1] bcast_S256_S1x256x1x1_1),
    StableHlo.TRef.nullary main_call0.cst_0 (constant S_ .f32 0x481C4000#32),
    StableHlo.TRef.unary main_call0.cst_0 main_call0.v2 (broadcastInDim S1x256x1x1 ![] bcast_S_S1x256x1x1),
    StableHlo.TRef.binary main_call0.v1 main_call0.v2 main_call0.v3 Host.divf,
    StableHlo.TRef.unary main_call0.v3 main_call0.v4 (broadcastInDim S1x256x10000x16 ![0, 1, 2, 3] bcast_S1x256x1x1_S1x256x10000x16_0_1_2_3),
    StableHlo.TRef.binary (StableHlo.TRef.of (T := ⟨S1x256x10000x16, .f32⟩) main_v25) main_call0.v4 main_call0.v5 subf,
    StableHlo.TRef.binary main_call0.v5 main_call0.v5 main_call0.v6 mulf,
    StableHlo.TRef.unary (StableHlo.TRef.of (T := ⟨S_, .i32⟩) main_c_4) main_call0.v7 (sitofp .f32),
    StableHlo.TRef.nullary main_call0.cst_1 (constant S_ .f32 0x481C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S1x256x10000x16_S256_d0_2_3 h_S_),
    StableHlo.TRef.unary main_call0.v9 main_call0.v10 (broadcastInDim S1x256x1x1 ![1] bcast_S256_S1x256x1x1_1),
    StableHlo.TRef.unary main_call0.v8 main_call0.v11 (broadcastInDim S1x256x1x1 ![] bcast_S_S1x256x1x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S1x256x1x1 ![] bcast_S_S1x256x1x1),
    StableHlo.TRef.ternary main_call0.v13 main_call0.v12 main_call0.call0.v1 main_call0.call0.v2 (fun p a b => select (broadcastInDim S1x256x1x1 ![] bcast_S_S1x256x1x1 p) a b),
    StableHlo.unary main_v29 main_v31 (broadcastInDim S1x256x10000x16 ![0, 1, 2, 3] bcast_S1x256x1x1_S1x256x10000x16_0_1_2_3),
    StableHlo.binary main_v25 main_v31 main_v32 subf,
    StableHlo.nullary main_cst_5 (constant S_ .f32 0x3727C5AC#32),
    StableHlo.unary main_cst_5 main_v33 (broadcastInDim S1x256x1x1 ![] bcast_S_S1x256x1x1),
    StableHlo.binary main_v30 main_v33 main_v34 addf,
    StableHlo.unary main_v34 main_v35 Host.sqrt,
    StableHlo.unary main_v35 main_v36 (broadcastInDim S1x256x10000x16 ![0, 1, 2, 3] bcast_S1x256x1x1_S1x256x10000x16_0_1_2_3),
    StableHlo.binary main_v32 main_v36 main_v37 Host.divf,
    StableHlo.unary main_arg5 main_v38 (broadcastInDim S1x256x1x1 ![1] bcast_S256_S1x256x1x1_1),
    StableHlo.unary main_v38 main_v39 (broadcastInDim S1x256x10000x16 ![0, 1, 2, 3] bcast_S1x256x1x1_S1x256x10000x16_0_1_2_3),
    StableHlo.binary main_v37 main_v39 main_v40 mulf,
    StableHlo.unary main_arg6 main_v41 (broadcastInDim S1x256x1x1 ![1] bcast_S256_S1x256x1x1_1),
    StableHlo.unary main_v41 main_v42 (broadcastInDim S1x256x10000x16 ![0, 1, 2, 3] bcast_S1x256x1x1_S1x256x10000x16_0_1_2_3),
    StableHlo.binary main_v40 main_v42 main_v43 addf,
    StableHlo.TRef.nullary main_call1.cst (constant S_ .f32 0x00000000#32),
    StableHlo.TRef.unary main_call1.cst main_call1.v0 (broadcastInDim S1x256x10000x16 ![] bcast_S_S1x256x10000x16),
    StableHlo.TRef.binary (StableHlo.TRef.of (T := ⟨S1x256x10000x16, .f32⟩) main_v43) main_call1.v0 main_call1.v1 maximumf ]

abbrev W2 : List (Ref sig .tc) :=
  [main_v20, main_v21, main_v22, main_v23, main_v24, main_v25, main_cst, main_v26, main_v27, main_cst_3, main_v28, main_v29, main_c_4, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.v12.ref, main_call0.cst_3.ref, main_call0.v13.ref, main_call0.cst_4.ref, main_call0.call0.v0.ref, main_call0.call0.v1.ref, main_call0.call0.v2.ref, main_v31, main_v32, main_cst_5, main_v33, main_v34, main_v35, main_v36, main_v37, main_v38, main_v39, main_v40, main_v41, main_v42, main_v43, main_call1.cst.ref, main_call1.v0.ref, main_call1.v1.ref]

def ops3 : List (HloOp τ sig (Elt F)) :=
  [ StableHlo.binary main_v44 main_arg7 main_v45 ((fun l r => Host.dotGeneral dot_S1x256x10000x16_S128x256_S1x10000x16x128_1_1_023_0_n_n none l r) : Arr F S1x256x10000x16 .f32 → Arr F S128x256 .f32 → Arr F S1x10000x16x128 .f32),
    StableHlo.unary main_v45 main_v46 ((transpose S1x128x10000x16 [0, 3, 1, 2] · transposes_S1x10000x16x128_S1x128x10000x16_0_3_1_2) : Arr F S1x10000x16x128 .f32 → Arr F S1x128x10000x16 .f32),
    StableHlo.unary main_arg8 main_v47 (broadcastInDim S1x128x1x1 ![1] bcast_S128_S1x128x1x1_1),
    StableHlo.unary main_v47 main_v48 (broadcastInDim S1x128x10000x16 ![0, 1, 2, 3] bcast_S1x128x1x1_S1x128x10000x16_0_1_2_3),
    StableHlo.binary main_v46 main_v48 main_v49 addf,
    StableHlo.nullary main_cst_6 (constant S_ .f32 0x00000000#32),
    StableHlo.binary main_v49 main_cst_6 main_v50 ((fun x v => Host.reduceAdd x v reducesTo_S1x128x10000x16_S128_d0_2_3 h_S_) : Arr F S1x128x10000x16 .f32 → Arr F S_ .f32 → Arr F S128 .f32) ]

abbrev W3 : List (Ref sig .tc) :=
  [main_v45, main_v46, main_v47, main_v48, main_v49, main_cst_6, main_v50]

def ops4 : List (HloOp τ sig (Elt F)) :=
  [ StableHlo.unary main_v50 main_v51 (broadcastInDim S1x128x1x1 ![1] bcast_S128_S1x128x1x1_1),
    StableHlo.nullary main_cst_7 (constant S_ .f32 0x481C4000#32),
    StableHlo.unary main_cst_7 main_v52 (broadcastInDim S1x128x1x1 ![] bcast_S_S1x128x1x1),
    StableHlo.binary main_v51 main_v52 main_v53 Host.divf,
    StableHlo.nullary main_c_8 (constantI S_ 32 0#32),
    StableHlo.TRef.nullary main_call2.cst (constant S_ .f32 0x00000000#32),
    StableHlo.TRef.binary (StableHlo.TRef.of (T := ⟨S1x128x10000x16, .f32⟩) main_v49) main_call2.cst main_call2.v0 (fun x v => Host.reduceAdd x v reducesTo_S1x128x10000x16_S128_d0_2_3 h_S_),
    StableHlo.TRef.unary main_call2.v0 main_call2.v1 (broadcastInDim S1x128x1x1 ![1] bcast_S128_S1x128x1x1_1),
    StableHlo.TRef.nullary main_call2.cst_0 (constant S_ .f32 0x481C4000#32),
    StableHlo.TRef.unary main_call2.cst_0 main_call2.v2 (broadcastInDim S1x128x1x1 ![] bcast_S_S1x128x1x1),
    StableHlo.TRef.binary main_call2.v1 main_call2.v2 main_call2.v3 Host.divf,
    StableHlo.TRef.unary main_call2.v3 main_call2.v4 (broadcastInDim S1x128x10000x16 ![0, 1, 2, 3] bcast_S1x128x1x1_S1x128x10000x16_0_1_2_3),
    StableHlo.TRef.binary (StableHlo.TRef.of (T := ⟨S1x128x10000x16, .f32⟩) main_v49) main_call2.v4 main_call2.v5 subf,
    StableHlo.TRef.binary main_call2.v5 main_call2.v5 main_call2.v6 mulf,
    StableHlo.TRef.unary (StableHlo.TRef.of (T := ⟨S_, .i32⟩) main_c_8) main_call2.v7 (sitofp .f32),
    StableHlo.TRef.nullary main_call2.cst_1 (constant S_ .f32 0x481C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S1x128x10000x16_S128_d0_2_3 h_S_),
    StableHlo.TRef.unary main_call2.v9 main_call2.v10 (broadcastInDim S1x128x1x1 ![1] bcast_S128_S1x128x1x1_1),
    StableHlo.TRef.unary main_call2.v8 main_call2.v11 (broadcastInDim S1x128x1x1 ![] bcast_S_S1x128x1x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S1x128x1x1 ![] bcast_S_S1x128x1x1),
    StableHlo.TRef.ternary main_call2.v13 main_call2.v12 main_call2.call0.v1 main_call2.call0.v2 (fun p a b => select (broadcastInDim S1x128x1x1 ![] bcast_S_S1x128x1x1 p) a b),
    StableHlo.unary main_v53 main_v55 (broadcastInDim S1x128x10000x16 ![0, 1, 2, 3] bcast_S1x128x1x1_S1x128x10000x16_0_1_2_3),
    StableHlo.binary main_v49 main_v55 main_v56 subf,
    StableHlo.nullary main_cst_9 (constant S_ .f32 0x3727C5AC#32),
    StableHlo.unary main_cst_9 main_v57 (broadcastInDim S1x128x1x1 ![] bcast_S_S1x128x1x1),
    StableHlo.binary main_v54 main_v57 main_v58 addf,
    StableHlo.unary main_v58 main_v59 Host.sqrt,
    StableHlo.unary main_v59 main_v60 (broadcastInDim S1x128x10000x16 ![0, 1, 2, 3] bcast_S1x128x1x1_S1x128x10000x16_0_1_2_3),
    StableHlo.binary main_v56 main_v60 main_v61 Host.divf,
    StableHlo.unary main_arg9 main_v62 (broadcastInDim S1x128x1x1 ![1] bcast_S128_S1x128x1x1_1),
    StableHlo.unary main_v62 main_v63 (broadcastInDim S1x128x10000x16 ![0, 1, 2, 3] bcast_S1x128x1x1_S1x128x10000x16_0_1_2_3),
    StableHlo.binary main_v61 main_v63 main_v64 mulf,
    StableHlo.unary main_arg10 main_v65 (broadcastInDim S1x128x1x1 ![1] bcast_S128_S1x128x1x1_1),
    StableHlo.unary main_v65 main_v66 (broadcastInDim S1x128x10000x16 ![0, 1, 2, 3] bcast_S1x128x1x1_S1x128x10000x16_0_1_2_3),
    StableHlo.binary main_v64 main_v66 main_v67 addf,
    StableHlo.TRef.nullary main_call3.cst (constant S_ .f32 0x00000000#32),
    StableHlo.TRef.unary main_call3.cst main_call3.v0 (broadcastInDim S1x128x10000x16 ![] bcast_S_S1x128x10000x16),
    StableHlo.TRef.binary (StableHlo.TRef.of (T := ⟨S1x128x10000x16, .f32⟩) main_v67) main_call3.v0 main_call3.v1 maximumf ]

abbrev W4 : List (Ref sig .tc) :=
  [main_v51, main_cst_7, main_v52, main_v53, main_c_8, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.v12.ref, main_call2.cst_3.ref, main_call2.v13.ref, main_call2.cst_4.ref, main_call2.call0.v0.ref, main_call2.call0.v1.ref, main_call2.call0.v2.ref, main_v55, main_v56, main_cst_9, main_v57, main_v58, main_v59, main_v60, main_v61, main_v62, main_v63, main_v64, main_v65, main_v66, main_v67, main_call3.cst.ref, main_call3.v0.ref, main_call3.v1.ref]

def ops5 : List (HloOp τ sig (Elt F)) :=
  [ StableHlo.nullary main_cst_10 (constant S_ .f32 0x00000000#32),
    StableHlo.binary main_v68 main_cst_10 main_v69 ((fun x v => Host.reduceAdd x v reducesTo_S1x128x10000x16_S1x128x10000_d3 h_S_) : Arr F S1x128x10000x16 .f32 → Arr F S_ .f32 → Arr F S1x128x10000 .f32),
    StableHlo.unary main_v69 main_v70 (broadcastInDim S1x128x10000x1 ![0, 1, 2] bcast_S1x128x10000_S1x128x10000x1_0_1_2),
    StableHlo.unary main_v70 main_v71 (broadcastInDim S1x128x10000x16 ![0, 1, 2, 3] bcast_S1x128x10000x1_S1x128x10000x16_0_1_2_3),
    StableHlo.binary main_v9 main_v71 main_v72 ((fun a b => concatenate S1x256x10000x16 1 [⟨S1x128x10000x16, a⟩, ⟨S1x128x10000x16, b⟩] concatenates_S1x128x10000x16_S1x128x10000x16_S1x256x10000x16_d1) : Arr F S1x128x10000x16 .f32 → Arr F S1x128x10000x16 .f32 → Arr F S1x256x10000x16 .f32),
    StableHlo.binary main_v72 main_arg11 main_v73 ((fun l r => Host.dotGeneral dot_S1x256x10000x16_S256x256_S1x10000x16x256_1_1_023_0_n_n none l r) : Arr F S1x256x10000x16 .f32 → Arr F S256x256 .f32 → Arr F S1x10000x16x256 .f32),
    StableHlo.unary main_v73 main_v74 ((transpose S1x256x10000x16 [0, 3, 1, 2] · transposes_S1x10000x16x256_S1x256x10000x16_0_3_1_2) : Arr F S1x10000x16x256 .f32 → Arr F S1x256x10000x16 .f32),
    StableHlo.unary main_arg12 main_v75 (broadcastInDim S1x256x1x1 ![1] bcast_S256_S1x256x1x1_1),
    StableHlo.unary main_v75 main_v76 (broadcastInDim S1x256x10000x16 ![0, 1, 2, 3] bcast_S1x256x1x1_S1x256x10000x16_0_1_2_3),
    StableHlo.binary main_v74 main_v76 main_v77 addf,
    StableHlo.nullary main_cst_11 (constant S_ .f32 0x00000000#32),
    StableHlo.binary main_v77 main_cst_11 main_v78 ((fun x v => Host.reduceAdd x v reducesTo_S1x256x10000x16_S256_d0_2_3 h_S_) : Arr F S1x256x10000x16 .f32 → Arr F S_ .f32 → Arr F S256 .f32),
    StableHlo.unary main_v78 main_v79 (broadcastInDim S1x256x1x1 ![1] bcast_S256_S1x256x1x1_1),
    StableHlo.nullary main_cst_12 (constant S_ .f32 0x481C4000#32),
    StableHlo.unary main_cst_12 main_v80 (broadcastInDim S1x256x1x1 ![] bcast_S_S1x256x1x1),
    StableHlo.binary main_v79 main_v80 main_v81 Host.divf,
    StableHlo.nullary main_c_13 (constantI S_ 32 0#32),
    StableHlo.TRef.nullary main_call4.cst (constant S_ .f32 0x00000000#32),
    StableHlo.TRef.binary (StableHlo.TRef.of (T := ⟨S1x256x10000x16, .f32⟩) main_v77) main_call4.cst main_call4.v0 (fun x v => Host.reduceAdd x v reducesTo_S1x256x10000x16_S256_d0_2_3 h_S_),
    StableHlo.TRef.unary main_call4.v0 main_call4.v1 (broadcastInDim S1x256x1x1 ![1] bcast_S256_S1x256x1x1_1),
    StableHlo.TRef.nullary main_call4.cst_0 (constant S_ .f32 0x481C4000#32),
    StableHlo.TRef.unary main_call4.cst_0 main_call4.v2 (broadcastInDim S1x256x1x1 ![] bcast_S_S1x256x1x1),
    StableHlo.TRef.binary main_call4.v1 main_call4.v2 main_call4.v3 Host.divf,
    StableHlo.TRef.unary main_call4.v3 main_call4.v4 (broadcastInDim S1x256x10000x16 ![0, 1, 2, 3] bcast_S1x256x1x1_S1x256x10000x16_0_1_2_3),
    StableHlo.TRef.binary (StableHlo.TRef.of (T := ⟨S1x256x10000x16, .f32⟩) main_v77) main_call4.v4 main_call4.v5 subf,
    StableHlo.TRef.binary main_call4.v5 main_call4.v5 main_call4.v6 mulf,
    StableHlo.TRef.unary (StableHlo.TRef.of (T := ⟨S_, .i32⟩) main_c_13) main_call4.v7 (sitofp .f32),
    StableHlo.TRef.nullary main_call4.cst_1 (constant S_ .f32 0x481C4000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S1x256x10000x16_S256_d0_2_3 h_S_),
    StableHlo.TRef.unary main_call4.v9 main_call4.v10 (broadcastInDim S1x256x1x1 ![1] bcast_S256_S1x256x1x1_1),
    StableHlo.TRef.unary main_call4.v8 main_call4.v11 (broadcastInDim S1x256x1x1 ![] bcast_S_S1x256x1x1),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S1x256x1x1 ![] bcast_S_S1x256x1x1),
    StableHlo.TRef.ternary main_call4.v13 main_call4.v12 main_call4.call0.v1 main_call4.call0.v2 (fun p a b => select (broadcastInDim S1x256x1x1 ![] bcast_S_S1x256x1x1 p) a b),
    StableHlo.unary main_v81 main_v83 (broadcastInDim S1x256x10000x16 ![0, 1, 2, 3] bcast_S1x256x1x1_S1x256x10000x16_0_1_2_3),
    StableHlo.binary main_v77 main_v83 main_v84 subf,
    StableHlo.nullary main_cst_14 (constant S_ .f32 0x3727C5AC#32),
    StableHlo.unary main_cst_14 main_v85 (broadcastInDim S1x256x1x1 ![] bcast_S_S1x256x1x1),
    StableHlo.binary main_v82 main_v85 main_v86 addf,
    StableHlo.unary main_v86 main_v87 Host.sqrt,
    StableHlo.unary main_v87 main_v88 (broadcastInDim S1x256x10000x16 ![0, 1, 2, 3] bcast_S1x256x1x1_S1x256x10000x16_0_1_2_3),
    StableHlo.binary main_v84 main_v88 main_v89 Host.divf,
    StableHlo.unary main_arg13 main_v90 (broadcastInDim S1x256x1x1 ![1] bcast_S256_S1x256x1x1_1),
    StableHlo.unary main_v90 main_v91 (broadcastInDim S1x256x10000x16 ![0, 1, 2, 3] bcast_S1x256x1x1_S1x256x10000x16_0_1_2_3),
    StableHlo.binary main_v89 main_v91 main_v92 mulf,
    StableHlo.unary main_arg14 main_v93 (broadcastInDim S1x256x1x1 ![1] bcast_S256_S1x256x1x1_1),
    StableHlo.unary main_v93 main_v94 (broadcastInDim S1x256x10000x16 ![0, 1, 2, 3] bcast_S1x256x1x1_S1x256x10000x16_0_1_2_3),
    StableHlo.binary main_v92 main_v94 main_v95 addf,
    StableHlo.TRef.nullary main_call5.cst (constant S_ .f32 0x00000000#32),
    StableHlo.TRef.unary main_call5.cst main_call5.v0 (broadcastInDim S1x256x10000x16 ![] bcast_S_S1x256x10000x16),
    StableHlo.TRef.binary (StableHlo.TRef.of (T := ⟨S1x256x10000x16, .f32⟩) main_v95) main_call5.v0 main_call5.v1 maximumf ]

abbrev W5 : List (Ref sig .tc) :=
  [main_cst_10, main_v69, main_v70, main_v71, main_v72, main_v73, main_v74, main_v75, main_v76, main_v77, main_cst_11, main_v78, main_v79, main_cst_12, main_v80, main_v81, main_c_13, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.v12.ref, main_call4.cst_3.ref, main_call4.v13.ref, main_call4.cst_4.ref, main_call4.call0.v0.ref, main_call4.call0.v1.ref, main_call4.call0.v2.ref, main_v83, main_v84, main_cst_14, main_v85, main_v86, main_v87, main_v88, main_v89, main_v90, main_v91, main_v92, main_v93, main_v94, main_v95, main_call5.cst.ref, main_call5.v0.ref, main_call5.v1.ref]

def ops6 : List (HloOp τ sig (Elt F)) :=
  [ StableHlo.binary main_v96 main_arg15 main_v97 ((fun l r => Host.dotGeneral dot_S1x256x10000x16_S128x256_S1x10000x16x128_1_1_023_0_n_n none l r) : Arr F S1x256x10000x16 .f32 → Arr F S128x256 .f32 → Arr F S1x10000x16x128 .f32),
    StableHlo.unary main_v97 main_v98 ((transpose S1x128x10000x16 [0, 3, 1, 2] · transposes_S1x10000x16x128_S1x128x10000x16_0_3_1_2) : Arr F S1x10000x16x128 .f32 → Arr F S1x128x10000x16 .f32),
    StableHlo.unary main_arg16 main_v99 (broadcastInDim S1x128x1x1 ![1] bcast_S128_S1x128x1x1_1),
    StableHlo.unary main_v99 main_v100 (broadcastInDim S1x128x10000x16 ![0, 1, 2, 3] bcast_S1x128x1x1_S1x128x10000x16_0_1_2_3),
    StableHlo.binary main_v98 main_v100 main_v101 addf,
    StableHlo.nullary main_cst_15 (constant S_ .f32 0x00000000#32) ]

abbrev W6 : List (Ref sig .tc) :=
  [main_v97, main_v98, main_v99, main_v100, main_v101, main_cst_15]

def ops7 : List (HloOp τ sig (Elt F)) :=
  [ StableHlo.binary main_v101 main_cst_15 main_v102 ((fun x v => Host.reduceAdd x v reducesTo_S1x128x10000x16_S128_d0_2_3 h_S_) : Arr F S1x128x10000x16 .f32 → Arr F S_ .f32 → Arr F S128 .f32),
    StableHlo.unary main_v102 main_v103 (broadcastInDim S1x128x1x1 ![1] bcast_S128_S1x128x1x1_1),
    StableHlo.nullary main_cst_16 (constant S_ .f32 0x481C4000#32),
    StableHlo.unary main_cst_16 main_v104 (broadcastInDim S1x128x1x1 ![] bcast_S_S1x128x1x1),
    StableHlo.binary main_v103 main_v104 main_v105 Host.divf,
    StableHlo.nullary main_c_17 (constantI S_ 32 0#32),
    StableHlo.TRef.nullary main_call6.cst (constant S_ .f32 0x00000000#32),
    StableHlo.TRef.binary (StableHlo.TRef.of (T := ⟨S1x128x10000x16, .f32⟩) main_v101) main_call6.cst main_call6.v0 (fun x v => Host.reduceAdd x v reducesTo_S1x128x10000x16_S128_d0_2_3 h_S_),
    StableHlo.TRef.unary main_call6.v0 main_call6.v1 (broadcastInDim S1x128x1x1 ![1] bcast_S128_S1x128x1x1_1),
    StableHlo.TRef.nullary main_call6.cst_0 (constant S_ .f32 0x481C4000#32),
    StableHlo.TRef.unary main_call6.cst_0 main_call6.v2 (broadcastInDim S1x128x1x1 ![] bcast_S_S1x128x1x1),
    StableHlo.TRef.binary main_call6.v1 main_call6.v2 main_call6.v3 Host.divf,
    StableHlo.TRef.unary main_call6.v3 main_call6.v4 (broadcastInDim S1x128x10000x16 ![0, 1, 2, 3] bcast_S1x128x1x1_S1x128x10000x16_0_1_2_3),
    StableHlo.TRef.binary (StableHlo.TRef.of (T := ⟨S1x128x10000x16, .f32⟩) main_v101) main_call6.v4 main_call6.v5 subf,
    StableHlo.TRef.binary main_call6.v5 main_call6.v5 main_call6.v6 mulf,
    StableHlo.TRef.unary (StableHlo.TRef.of (T := ⟨S_, .i32⟩) main_c_17) main_call6.v7 (sitofp .f32),
    StableHlo.TRef.nullary main_call6.cst_1 (constant S_ .f32 0x481C4000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S1x128x10000x16_S128_d0_2_3 h_S_),
    StableHlo.TRef.unary main_call6.v9 main_call6.v10 (broadcastInDim S1x128x1x1 ![1] bcast_S128_S1x128x1x1_1),
    StableHlo.TRef.unary main_call6.v8 main_call6.v11 (broadcastInDim S1x128x1x1 ![] bcast_S_S1x128x1x1),
    StableHlo.TRef.binary main_call6.v10 main_call6.v11 main_call6.v12 Host.divf,
    StableHlo.TRef.nullary main_call6.cst_3 (constant S_ .f32 0x00000000#32),
    StableHlo.TRef.binary main_call6.v8 main_call6.cst_3 main_call6.v13 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S1x128x1x1 ![] bcast_S_S1x128x1x1),
    StableHlo.TRef.ternary main_call6.v13 main_call6.v12 main_call6.call0.v1 main_call6.call0.v2 (fun p a b => select (broadcastInDim S1x128x1x1 ![] bcast_S_S1x128x1x1 p) a b),
    StableHlo.unary main_v105 main_v107 (broadcastInDim S1x128x10000x16 ![0, 1, 2, 3] bcast_S1x128x1x1_S1x128x10000x16_0_1_2_3),
    StableHlo.binary main_v101 main_v107 main_v108 subf,
    StableHlo.nullary main_cst_18 (constant S_ .f32 0x3727C5AC#32),
    StableHlo.unary main_cst_18 main_v109 (broadcastInDim S1x128x1x1 ![] bcast_S_S1x128x1x1),
    StableHlo.binary main_v106 main_v109 main_v110 addf,
    StableHlo.unary main_v110 main_v111 Host.sqrt,
    StableHlo.unary main_v111 main_v112 (broadcastInDim S1x128x10000x16 ![0, 1, 2, 3] bcast_S1x128x1x1_S1x128x10000x16_0_1_2_3),
    StableHlo.binary main_v108 main_v112 main_v113 Host.divf,
    StableHlo.unary main_arg17 main_v114 (broadcastInDim S1x128x1x1 ![1] bcast_S128_S1x128x1x1_1),
    StableHlo.unary main_v114 main_v115 (broadcastInDim S1x128x10000x16 ![0, 1, 2, 3] bcast_S1x128x1x1_S1x128x10000x16_0_1_2_3),
    StableHlo.binary main_v113 main_v115 main_v116 mulf,
    StableHlo.unary main_arg18 main_v117 (broadcastInDim S1x128x1x1 ![1] bcast_S128_S1x128x1x1_1),
    StableHlo.unary main_v117 main_v118 (broadcastInDim S1x128x10000x16 ![0, 1, 2, 3] bcast_S1x128x1x1_S1x128x10000x16_0_1_2_3),
    StableHlo.binary main_v116 main_v118 main_v119 addf,
    StableHlo.TRef.nullary main_call7.cst (constant S_ .f32 0x00000000#32),
    StableHlo.TRef.unary main_call7.cst main_call7.v0 (broadcastInDim S1x128x10000x16 ![] bcast_S_S1x128x10000x16),
    StableHlo.TRef.binary (StableHlo.TRef.of (T := ⟨S1x128x10000x16, .f32⟩) main_v119) main_call7.v0 main_call7.v1 maximumf,
    StableHlo.unary main_v120 main_v121 ((extractStridedSlice S1x128x10000x1 ![0, 0, 0, 0] · slices_S1x128x10000x16_S1x128x10000x1_0_0_0_0) : Arr F S1x128x10000x16 .f32 → Arr F S1x128x10000x1 .f32),
    StableHlo.reshape main_v121 main_v122 rfl shapeCasts_S1x128x10000x1_S1x128x10000,
    StableHlo.unary main_v122 main_v123 (broadcastInDim S1x128x10000x1 ![0, 1, 2] bcast_S1x128x10000_S1x128x10000x1_0_1_2) ]

abbrev W7 : List (Ref sig .tc) :=
  [main_v102, main_v103, main_cst_16, main_v104, main_v105, main_c_17, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.v12.ref, main_call6.cst_3.ref, main_call6.v13.ref, main_call6.cst_4.ref, main_call6.call0.v0.ref, main_call6.call0.v1.ref, main_call6.call0.v2.ref, main_v107, main_v108, main_cst_18, main_v109, main_v110, main_v111, main_v112, main_v113, main_v114, main_v115, main_v116, main_v117, main_v118, main_v119, main_call7.cst.ref, main_call7.v0.ref, main_call7.v1.ref, main_v121, main_v122, main_v123]

end Cert.ReferenceIdeal.RefRun

end
-- ==== Proof.RefRun2.lean ====
import proofs.«210907_g44332652429893_cont_8to1_b_736_41_alg».proof.Proof.RefRun0
import proofs.«210907_g44332652429893_cont_8to1_b_736_41_alg».proof.Proof.RefRun1

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := ops0 ++ (ops1 ++ (ops2 ++ (ops3 ++ (ops4 ++ (ops5 ++ (ops6 ++ ops7))))))

set_option maxRecDepth 8192 in
set_option maxHeartbeats 4000000 in
theorem main_part0_eq (c : Dev nD) : main_part0 (F := F) c = seq (ops0 ++ (ops1 ++ (ops2 ++ ops3))) := by
  simp only [main_part0, fn_var.body, fn_where.body, fn_relu.body, ops0, ops1, ops2, ops3, List.cons_append, List.nil_append, seq, bind_assoc, pure_bind]
  rfl

set_option maxRecDepth 8192 in
set_option maxHeartbeats 4000000 in
theorem main_part1_eq (c : Dev nD) : main_part1 (F := F) c = seq (ops4 ++ (ops5 ++ ops6)) := by
  simp only [main_part1, fn_var.body, fn_where.body, fn_relu.body, fn_var_0.body, fn_where_1.body, fn_relu_2.body, ops4, ops5, ops6, List.cons_append, List.nil_append, seq, bind_assoc, pure_bind]
  rfl

set_option maxRecDepth 8192 in
set_option maxHeartbeats 4000000 in
theorem main_part2_eq (c : Dev nD) : main_part2 (F := F) c = seq ops7 := by
  simp only [main_part2, fn_var_0.body, fn_where_1.body, fn_relu_2.body, ops7, seq, bind_assoc, pure_bind]

theorem main_eq (c : Dev nD) : main (F := F) c = seq ops := by
  simp only [main, main_part0_eq, main_part1_eq, main_part2_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  refine ⟨?_, ?_, ?_, ?_, ?_, ?_, ?_, ?_⟩ <;>
    simp only [ops0, ops1, ops2, ops3, ops4, ops5, ops6, ops7, List.Forall, nullary_bufs_sub, unary_bufs_sub, binary_bufs_sub, ternary_bufs_sub, reshape_bufs_sub, nary_bufs_sub, and_self]

-- Every operation of the list writes only references listed in W.
def Writes (l : List (HloOp τ sig (Elt F))) (W : List (Ref sig .tc)) : Prop :=
  l.Forall fun op => op.writes ⊆ (W.map (Proc.devRef (τ := τ) .tc)).toFinset

theorem writes_ok {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem writes : Writes (F := F) ops0 W0 ∧ Writes (F := F) ops1 W1 ∧ Writes (F := F) ops2 W2 ∧ Writes (F := F) ops3 W3
    ∧ Writes (F := F) ops4 W4 ∧ Writes (F := F) ops5 W5 ∧ Writes (F := F) ops6 W6 ∧ Writes (F := F) ops7 W7 := by
  refine ⟨?_, ?_, ?_, ?_, ?_, ?_, ?_, ?_⟩ <;> simp only [Writes, ops0, ops1, ops2, ops3, ops4, ops5, ops6, ops7, List.Forall] <;> (repeat' apply And.intro) <;>
    exact writes_ok (by decide)

variable (V : Valuation τ sig (Elt F)) (r : Ref sig .tc)

theorem keep0 (h : r ∉ W0) : after ops0 V (no_index (Proc.devRef .tc r)) = V (Proc.devRef .tc r) := after_of_writes_sub ops0 V writes.1 h
theorem keep1 (h : r ∉ W1) : after ops1 V (no_index (Proc.devRef .tc r)) = V (Proc.devRef .tc r) := after_of_writes_sub ops1 V writes.2.1 h
theorem keep2 (h : r ∉ W2) : after ops2 V (no_index (Proc.devRef .tc r)) = V (Proc.devRef .tc r) := after_of_writes_sub ops2 V writes.2.2.1 h
theorem keep3 (h : r ∉ W3) : after ops3 V (no_index (Proc.devRef .tc r)) = V (Proc.devRef .tc r) := after_of_writes_sub ops3 V writes.2.2.2.1 h
theorem keep4 (h : r ∉ W4) : after ops4 V (no_index (Proc.devRef .tc r)) = V (Proc.devRef .tc r) := after_of_writes_sub ops4 V writes.2.2.2.2.1 h
theorem keep5 (h : r ∉ W5) : after ops5 V (no_index (Proc.devRef .tc r)) = V (Proc.devRef .tc r) := after_of_writes_sub ops5 V writes.2.2.2.2.2.1 h
theorem keep6 (h : r ∉ W6) : after ops6 V (no_index (Proc.devRef .tc r)) = V (Proc.devRef .tc r) := after_of_writes_sub ops6 V writes.2.2.2.2.2.2.1 h
theorem keep7 (h : r ∉ W7) : after ops7 V (no_index (Proc.devRef .tc r)) = V (Proc.devRef .tc r) := after_of_writes_sub ops7 V writes.2.2.2.2.2.2.2 h

theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

theorem keep_ops (h0 : r ∉ W0) (h1 : r ∉ W1) (h2 : r ∉ W2) (h3 : r ∉ W3)
    (h4 : r ∉ W4) (h5 : r ∉ W5) (h6 : r ∉ W6) (h7 : r ∉ W7) :
    after ops V (Proc.devRef .tc r) = V (Proc.devRef .tc r) := by
  simp only [ops, after_app]
  rw [keep7 _ r h7, keep6 _ r h6, keep5 _ r h5, keep4 _ r h4, keep3 _ r h3, keep2 _ r h2, keep1 _ r h1, keep0 _ r h0]

end Cert.ReferenceIdeal.RefRun

end
-- ==== Proof.RefRun3.lean ====
import proofs.«210907_g44332652429893_cont_8to1_b_736_41_alg».proof.Proof.RefRun2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem ops_fresh : ∀ op ∈ (ops : List (HloOp τ sig (Elt F))), op.fresh = ∅ :=
  List.forall_iff_forall_mem.mp (by
    simp only [ops, List.forall_append]
    refine ⟨?_, ?_, ?_, ?_, ?_, ?_, ?_, ?_⟩ <;> simp only [ops0, ops1, ops2, ops3, ops4, ops5, ops6, ops7, List.Forall] <;> (repeat' apply And.intro) <;> rfl)

def bnRelu128' (y : Arr F S1x128x10000x16 .f32) (s : Arr F S128 .f32) (g be : Arr F S128 .f32) : Arr F S1x128x10000x16 .f32 :=
  maximumf
    (addf
      (mulf
        (Host.divf (subf y (broadcastInDim S1x128x10000x16 ![0, 1, 2, 3] bcast_S1x128x1x1_S1x128x10000x16_0_1_2_3
            (Host.divf (broadcastInDim S1x128x1x1 ![1] bcast_S128_S1x128x1x1_1 s) (broadcastInDim S1x128x1x1 ![] bcast_S_S1x128x1x1 (constant S_ .f32 0x481C4000#32)))))
          (broadcastInDim S1x128x10000x16 ![0, 1, 2, 3] bcast_S1x128x1x1_S1x128x10000x16_0_1_2_3
            (Host.sqrt (addf (var128 y) (broadcastInDim S1x128x1x1 ![] bcast_S_S1x128x1x1 (constant S_ .f32 0x3727C5AC#32))))))
        (broadcastInDim S1x128x10000x16 ![0, 1, 2, 3] bcast_S1x128x1x1_S1x128x10000x16_0_1_2_3 (broadcastInDim S1x128x1x1 ![1] bcast_S128_S1x128x1x1_1 g)))
      (broadcastInDim S1x128x10000x16 ![0, 1, 2, 3] bcast_S1x128x1x1_S1x128x10000x16_0_1_2_3 (broadcastInDim S1x128x1x1 ![1] bcast_S128_S1x128x1x1_1 be)))
    (broadcastInDim S1x128x10000x16 ![] bcast_S_S1x128x10000x16 (constant S_ .f32 0x00000000#32))

set_option maxRecDepth 8192 in
theorem w0_v9 (V : Valuation τ sig (Elt F)) :
    after ops0 V (no_index (Proc.devRef .tc main_v9)) = hI (V (Proc.devRef .tc main_arg0)) (V (Proc.devRef .tc main_arg2)) := by
  simp only [ops0]
  after_results_simp
  rfl

set_option maxRecDepth 8192 in
theorem w1_v19 (V : Valuation τ sig (Elt F)) :
    after ops1 V (no_index (Proc.devRef .tc main_v19)) = hJ (V (Proc.devRef .tc main_arg0)) (V (Proc.devRef .tc main_arg2)) := by
  simp only [ops1]
  after_results_simp
  rfl

set_option maxRecDepth 8192 in
set_option maxHeartbeats 4000000 in
theorem w2_v44 (V : Valuation τ sig (Elt F)) :
    after ops2 V (no_index (Proc.devRef .tc main_v44))
      = layer1 (V (Proc.devRef .tc main_arg1)) (V (Proc.devRef .tc main_v9)) (V (Proc.devRef .tc main_v19))
          (V (Proc.devRef .tc main_arg3)) (V (Proc.devRef .tc main_arg4)) (V (Proc.devRef .tc main_arg5)) (V (Proc.devRef .tc main_arg6)) := by
  simp only [ops2]
  after_results_simp
  rfl

set_option maxRecDepth 8192 in
theorem w3_v49 (V : Valuation τ sig (Elt F)) :
    after ops3 V (no_index (Proc.devRef .tc main_v49))
      = conv2 (V (Proc.devRef .tc main_v44)) (V (Proc.devRef .tc main_arg7)) (V (Proc.devRef .tc main_arg8)) := by
  simp only [ops3]
  after_results_simp
  rfl

set_option maxRecDepth 8192 in
theorem w3_v50 (V : Valuation τ sig (Elt F)) :
    after ops3 V (no_index (Proc.devRef .tc main_v50))
      = Host.reduceAdd (conv2 (V (Proc.devRef .tc main_v44)) (V (Proc.devRef .tc main_arg7)) (V (Proc.devRef .tc main_arg8)))
          (constant S_ .f32 0x00000000#32) reducesTo_S1x128x10000x16_S128_d0_2_3 h_S_ := by
  simp only [ops3]
  after_results_simp
  rfl

set_option maxRecDepth 8192 in
set_option maxHeartbeats 4000000 in
theorem w4_v68 (V : Valuation τ sig (Elt F)) :
    after ops4 V (no_index (Proc.devRef .tc main_v68))
      = bnRelu128' (V (Proc.devRef .tc main_v49)) (V (Proc.devRef .tc main_v50)) (V (Proc.devRef .tc main_arg9)) (V (Proc.devRef .tc main_arg10)) := by
  simp only [ops4]
  after_results_simp
  rfl

set_option maxRecDepth 8192 in
set_option maxHeartbeats 4000000 in
theorem w5_v96 (V : Valuation τ sig (Elt F)) :
    after ops5 V (no_index (Proc.devRef .tc main_v96))
      = layer3 (V (Proc.devRef .tc main_v9)) (V (Proc.devRef .tc main_v68))
          (V (Proc.devRef .tc main_arg11)) (V (Proc.devRef .tc main_arg12)) (V (Proc.devRef .tc main_arg13)) (V (Proc.devRef .tc main_arg14)) := by
  simp only [ops5]
  after_results_simp
  rfl

set_option maxRecDepth 8192 in
theorem w6_v101 (V : Valuation τ sig (Elt F)) :
    after ops6 V (no_index (Proc.devRef .tc main_v101))
      = conv2 (V (Proc.devRef .tc main_v96)) (V (Proc.devRef .tc main_arg15)) (V (Proc.devRef .tc main_arg16)) := by
  simp only [ops6]
  after_results_simp
  rfl

set_option maxRecDepth 8192 in
theorem w6_cst15 (V : Valuation τ sig (Elt F)) :
    after ops6 V (no_index (Proc.devRef .tc main_cst_15)) = constant S_ .f32 0x00000000#32 := by
  simp only [ops6]
  after_results_simp

set_option maxRecDepth 8192 in
set_option maxHeartbeats 4000000 in
theorem w7_v123 (V : Valuation τ sig (Elt F)) :
    after ops7 V (no_index (Proc.devRef .tc main_v123))
      = firstCol (bnRelu128' (V (Proc.devRef .tc main_v101))
          (Host.reduceAdd (V (Proc.devRef .tc main_v101)) (V (Proc.devRef .tc main_cst_15)) reducesTo_S1x128x10000x16_S128_d0_2_3 h_S_)
          (V (Proc.devRef .tc main_arg17)) (V (Proc.devRef .tc main_arg18))) := by
  simp only [ops7]
  after_results_simp
  rfl

theorem keep_all (V : Valuation τ sig (Elt F)) (r : Ref sig .tc)
    (h : r ∉ W0 ++ (W1 ++ (W2 ++ (W3 ++ (W4 ++ (W5 ++ (W6 ++ W7))))))) :
    after ops V (Proc.devRef .tc r) = V (Proc.devRef .tc r) := by
  simp only [List.mem_append, not_or] at h
  obtain ⟨h0, h1, h2, h3, h4, h5, h6, h7⟩ := h
  exact keep_ops V r h0 h1 h2 h3 h4 h5 h6 h7

set_option maxRecDepth 8192 in
set_option maxHeartbeats 2000000 in
theorem after_v68 (m : (ℓ : Loc nD τ sig) → Buf (Elt F) ℓ) (c : Dev nD) :
    after ops (launchContents m c) (Proc.devRef .tc main_v68) = res68 m c := by
  simp only [ops, after_app]
  simp (disch := decide) only [keep0, keep1, keep2, keep3, keep4, keep5, keep6, keep7,
    w0_v9, w1_v19, w2_v44, w3_v49, w3_v50, w4_v68]
  rfl

set_option maxRecDepth 8192 in
set_option maxHeartbeats 2000000 in
theorem after_v123 (m : (ℓ : Loc nD τ sig) → Buf (Elt F) ℓ) (c : Dev nD) :
    after ops (launchContents m c) (Proc.devRef .tc main_v123) = res123 m c := by
  simp only [ops, after_app]
  simp (disch := decide) only [keep0, keep1, keep2, keep3, keep4, keep5, keep6, keep7,
    w0_v9, w1_v19, w2_v44, w3_v49, w3_v50, w4_v68, w5_v96, w6_v101, w6_cst15, w7_v123]
  rfl

end Cert.ReferenceIdeal.RefRun

end
-- ==== Proof.RefRun.lean ====
import proofs.«210907_g44332652429893_cont_8to1_b_736_41_alg».proof.Proof.RefRun3
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread nD τ).loc main_v123) = res123 m c
        ∧ r.2.mem ((c.tc : Thread nD τ).loc main_v68) = res68 m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)) :=
  (θ_run defs _ _).mono (fun _ h c => ⟨(h c main_v123).trans (after_v123 m c), (h c main_v68).trans (after_v68 m c),
      (h c main_arg0).trans (keep_all _ _ (by decide)),
      (h c main_arg1).trans (keep_all _ _ (by decide)),
      (h c main_arg2).trans (keep_all _ _ (by decide)),
      (h c main_arg3).trans (keep_all _ _ (by decide)),
      (h c main_arg4).trans (keep_all _ _ (by decide)),
      (h c main_arg5).trans (keep_all _ _ (by decide)),
      (h c main_arg6).trans (keep_all _ _ (by decide)),
      (h c main_arg7).trans (keep_all _ _ (by decide)),
      (h c main_arg8).trans (keep_all _ _ (by decide)),
      (h c main_arg9).trans (keep_all _ _ (by decide)),
      (h c main_arg10).trans (keep_all _ _ (by decide)),
      (h c main_arg11).trans (keep_all _ _ (by decide)),
      (h c main_arg12).trans (keep_all _ _ (by decide)),
      (h c main_arg13).trans (keep_all _ _ (by decide)),
      (h c main_arg14).trans (keep_all _ _ (by decide)),
      (h c main_arg15).trans (keep_all _ _ (by decide)),
      (h c main_arg16).trans (keep_all _ _ (by decide)),
      (h c main_arg17).trans (keep_all _ _ (by decide)),
      (h c main_arg18).trans (keep_all _ _ (by decide))⟩)
    (run_seq scopedRefs_eq scopedSems_eq defs main (fun _ => ops) main_eq (fun _ => ops_sub) m ρ (fun _ => ops_fresh))

end Cert.ReferenceIdeal.RefRun

end
-- ==== Proof.RefLayer.lean ====
import proofs.«210907_g44332652429893_cont_8to1_b_736_41_alg».proof.Proof.RefRun1
import proofs.«210907_g44332652429893_cont_8to1_b_736_41_alg».proof.Proof.BnAlgebra
import Idealize.ShloMosaic.Lib.ValueIdx
import Idealize.ShloMosaic.Lib.IdealHost
import Idealize.ShloMosaic.Lib.Pipeline.Value

noncomputable section

namespace Cert.RefLayer

open Idealize.ShloMosaic Idealize.ShloMosaic.ValueIdx Cert.BnAlgebra
open scoped BigOperators

abbrev S4 (C A B : ℕ) : Shape := ⟨4, ![1, C, A, B]⟩

abbrev S4u (C : ℕ) : Shape := ⟨4, ![1, C, 1, 1]⟩

abbrev S1 (C : ℕ) : Shape := ⟨1, ![C]⟩

abbrev S0 : Shape := ⟨0, ![]⟩

structure Facts (C A B : ℕ) : Prop where
  b1 : (S1 C).BroadcastsInDim (S4u C) (![1] : Fin 1 → Fin (S4u C).rank)
  b4 : (S4u C).BroadcastsInDim (S4 C A B) (![0, 1, 2, 3] : Fin 4 → Fin (S4 C A B).rank)
  red : (S4 C A B).ReducesTo [0, 2, 3] (S1 C)
  h0 : 0 < S0.numel
  b0u : S0.BroadcastsInDim (S4u C) (![] : Fin 0 → Fin (S4u C).rank)
  b0 : S0.BroadcastsInDim (S4 C A B) (![] : Fin 0 → Fin (S4 C A B).rank)

variable {C A B : ℕ}

def dof : FVec Ideal S0 .f32 :=
  subf (constant S0 .f32 0x481C4000#32) (sitofp .f32 (constantI S0 32 0#32))

def mean (f : Facts C A B) (y : FVec Ideal (S4 C A B) .f32) : FVec Ideal (S4u C) .f32 :=
  Host.divf (broadcastInDim (S4u C) ![1] f.b1 (Host.reduceAdd y (constant S0 .f32 0x00000000#32) f.red f.h0))
    (broadcastInDim (S4u C) ![] f.b0u (constant S0 .f32 0x481C4000#32))

def var (f : Facts C A B) (y : FVec Ideal (S4 C A B) .f32) : FVec Ideal (S4u C) .f32 :=
  select (broadcastInDim (S4u C) ![] f.b0u (cmpf .ogt dof (constant S0 .f32 0x00000000#32)))
    (Host.divf
      (broadcastInDim (S4u C) ![1] f.b1
        (Host.reduceAdd
          (mulf (subf y (broadcastInDim (S4 C A B) ![0, 1, 2, 3] f.b4 (mean f y)))
            (subf y (broadcastInDim (S4 C A B) ![0, 1, 2, 3] f.b4 (mean f y))))
          (constant S0 .f32 0x00000000#32) f.red f.h0))
      (broadcastInDim (S4u C) ![] f.b0u dof))
    (broadcastInDim (S4u C) ![] f.b0u (id (constant S0 .f32 0x7FC00000#32)))

def bnRelu (f : Facts C A B) (y : FVec Ideal (S4 C A B) .f32) (g be : FVec Ideal (S1 C) .f32) : FVec Ideal (S4 C A B) .f32 :=
  maximumf
    (addf
      (mulf
        (Host.divf (subf y (broadcastInDim (S4 C A B) ![0, 1, 2, 3] f.b4 (mean f y)))
          (broadcastInDim (S4 C A B) ![0, 1, 2, 3] f.b4
            (Host.sqrt (addf (var f y) (broadcastInDim (S4u C) ![] f.b0u (constant S0 .f32 0x3727C5AC#32))))))
        (broadcastInDim (S4 C A B) ![0, 1, 2, 3] f.b4 (broadcastInDim (S4u C) ![1] f.b1 g)))
      (broadcastInDim (S4 C A B) ![0, 1, 2, 3] f.b4 (broadcastInDim (S4u C) ![1] f.b1 be)))
    (broadcastInDim (S4 C A B) ![] f.b0 (constant S0 .f32 0x00000000#32))

theorem chan_read (f : Facts C A B) {α : Type} (v : (S1 C).Idx → α) (o : Fin C) (a b : Fin 1) :
    broadcastInDim (S4u C) ![1] f.b1 v (ix4 0 o a b) = v (ix1 o) := by
  refine broadcastInDim_apply _ f.b1 v _ (ix1 o) fun a' => ?_
  match a' with
  | ⟨0, _⟩ =>
    show o.val = if C = 1 then 0 else o.val
    split
    · omega
    · rfl

theorem unit_read (f : Facts C A B) {α : Type} (w : (S4u C).Idx → α) (o : Fin C) (n : Fin A) (k : Fin B) :
    broadcastInDim (S4 C A B) ![0, 1, 2, 3] f.b4 w (ix4 0 o n k) = w (ix4 0 o 0 0) := by
  refine broadcastInDim_apply _ f.b4 w _ (ix4 0 o 0 0) fun a' => ?_
  match a' with
  | ⟨0, _⟩ => rfl
  | ⟨1, _⟩ =>
    show o.val = if C = 1 then 0 else o.val
    split
    · omega
    · rfl
  | ⟨2, _⟩ => rfl
  | ⟨3, _⟩ => rfl

theorem scalar_read_u (f : Facts C A B) {α : Type} (x : S0.Idx → α) (u : (S4u C).Idx) :
    broadcastInDim (S4u C) ![] f.b0u x u = x ix0 :=
  broadcastInDim_scalar_apply f.b0u x u

theorem scalar_read (f : Facts C A B) {α : Type} (x : S0.Idx → α) (i : (S4 C A B).Idx) :
    broadcastInDim (S4 C A B) ![] f.b0 x i = x ix0 :=
  broadcastInDim_scalar_apply f.b0 x i

theorem drop_eq (f : Facts C A B) (i : (S4 C A B).Idx) : f.red.drop i = ix1 (i 1) := by
  rw [eq_ix1 (f.red.drop i)]
  congr 1

theorem idx_eq (i : (S4 C A B).Idx) (o : Fin C) (h : i 1 = o) : ix4 0 o (i 2) (i 3) = i := by
  funext a
  match a with
  | ⟨0, _⟩ => exact Fin.ext (Nat.lt_one_iff.mp (i 0).isLt).symm
  | ⟨1, _⟩ => exact h.symm
  | ⟨2, _⟩ => rfl
  | ⟨3, _⟩ => rfl

theorem reduce_read (f : Facts C A B) (x : FVec Ideal (S4 C A B) .f32) (o : Fin C) :
    Host.reduceAdd x (constant S0 .f32 0x00000000#32) f.red f.h0 (ix1 o)
      = ∑ p : Fin A × Fin B, x (ix4 0 o p.1 p.2) := by
  rw [hostReduceAdd_apply]
  unfold Ideal.hostReduceAdd
  rw [constant_apply, Ideal.ofBits_zero_f32, zero_add]
  have hmem : ∀ i : (S4 C A B).Idx, i ∈ Finset.univ.filter (fun i => f.red.drop i = ix1 o) → i 1 = o := by
    intro i hi
    rw [Finset.mem_filter, drop_eq f] at hi
    exact congrFun hi.2 0
  refine Finset.sum_nbij' (fun i => (i 2, i 3)) (fun p => ix4 0 o p.1 p.2) ?_ ?_ ?_ ?_ ?_
  · intro i _
    exact Finset.mem_univ _
  · intro p _
    rw [Finset.mem_filter, drop_eq f]
    exact ⟨Finset.mem_univ _, rfl⟩
  · intro i hi
    exact idx_eq i o (hmem i hi)
  · intro p _
    rfl
  · intro i hi
    exact congrArg x (idx_eq i o (hmem i hi)).symm

theorem dof_read : dof ix0 = Cert.Spec.cnt := by
  show Ideal.ofBits .f32 0x481C4000#32 - (((0#32 : BitVec 32).toInt : ℝ) : EReal) = Ideal.ofBits .f32 0x481C4000#32
  simp

theorem dof_pos : cmpf .ogt dof (constant S0 .f32 0x00000000#32) ix0 = 1#1 := by
  rw [cmpf_apply, dof_read, constant_apply, Ideal.ofBits_zero_f32]
  have h : (0 : EReal) < Cert.Spec.cnt := by
    rw [show Cert.Spec.cnt = ((160000 : ℝ) : EReal) from ofBits_count]
    exact_mod_cast (by norm_num : (0 : ℝ) < 160000)
  show Ideal.cmp .ogt Cert.Spec.cnt 0 = 1#1
  simp [Ideal.cmp, h]

theorem mean_read (f : Facts C A B) (y : FVec Ideal (S4 C A B) .f32) (o : Fin C) :
    mean f y (ix4 0 o 0 0) = Ideal.div (∑ p : Fin A × Fin B, y (ix4 0 o p.1 p.2)) Cert.Spec.cnt := by
  unfold mean
  rw [hostDivf_apply, chan_read f, reduce_read f, scalar_read_u f, constant_apply]

theorem var_read (f : Facts C A B) (y : FVec Ideal (S4 C A B) .f32) (o : Fin C) :
    var f y (ix4 0 o 0 0)
      = Ideal.div (∑ p : Fin A × Fin B, (y (ix4 0 o p.1 p.2) - mean f y (ix4 0 o 0 0)) * (y (ix4 0 o p.1 p.2) - mean f y (ix4 0 o 0 0)))
          Cert.Spec.cnt := by
  unfold var
  rw [select_apply, scalar_read_u f, dof_pos, select_one, hostDivf_apply, chan_read f, reduce_read f,
    scalar_read_u f, dof_read]
  refine congrArg (fun s => Ideal.div s Cert.Spec.cnt) (Finset.sum_congr rfl fun p _ => ?_)
  rw [mulf_apply, subf_apply, unit_read f]

theorem sqrt_read {s : Shape} (v : FVec Ideal s .f32) (u : s.Idx) : Host.sqrt v u = Ideal.sqrt (v u) := rfl

theorem bnRelu_read (f : Facts C A B) (y : FVec Ideal (S4 C A B) .f32) (g be : FVec Ideal (S1 C) .f32) (o : Fin C)
    (n : Fin A) (k : Fin B) :
    bnRelu f y g be (ix4 0 o n k)
      = max (Ideal.div (y (ix4 0 o n k) - mean f y (ix4 0 o 0 0))
              (Ideal.sqrt (var f y (ix4 0 o 0 0) + Cert.Spec.eps)) * g (ix1 o) + be (ix1 o)) 0 := by
  unfold bnRelu
  rw [maximumf_apply, addf_apply, mulf_apply, hostDivf_apply, subf_apply, scalar_read f, constant_apply,
    Ideal.ofBits_zero_f32, unit_read f, unit_read f, unit_read f, unit_read f, chan_read f, chan_read f, sqrt_read,
    addf_apply, scalar_read_u f, constant_apply]

theorem card_pos (hAB : A * B = 160000) : Fintype.card (Fin A × Fin B) = 160000 := by
  rw [Fintype.card_prod, Fintype.card_fin, Fintype.card_fin, hAB]

theorem bnRelu_apply (f : Facts C A B) (hAB : A * B = 160000) (y : FVec Ideal (S4 C A B) .f32)
    (b g be : FVec Ideal (S1 C) .f32) (Y : Fin A × Fin B → Fin C → EReal)
    (hy : ∀ (o : Fin C) (n : Fin A) (k : Fin B), y (ix4 0 o n k) = Y (n, k) o + b (ix1 o))
    (hY : ∀ p o, IsReal (Y p o)) (hb : ∀ j, IsReal (b j)) (hg : ∀ j, IsReal (g j)) (hbe : ∀ j, IsReal (be j))
    (o : Fin C) (n : Fin A) (k : Fin B) :
    bnRelu f y g be (ix4 0 o n k)
      = Cert.Spec.bnRelu Y (fun o => g (ix1 o)) (fun o => be (ix1 o)) (n, k) o := by
  rw [bnRelu_read, var_read, mean_read]
  simp only [hy, Prod.mk.eta]
  exact ref_eq_bnRelu (card_pos hAB) Y (fun c => b (ix1 c)) (fun c => g (ix1 c)) (fun c => be (ix1 c)) hY
    (fun _ => hb _) (fun _ => hg _) (fun _ => hbe _) (n, k) o

open Cert.ReferenceIdeal Cert.ReferenceIdeal.Gen Cert.ReferenceIdeal.RefRun

theorem facts256 : Facts 256 10000 16 :=
  ⟨bcast_S256_S1x256x1x1_1, bcast_S1x256x1x1_S1x256x10000x16_0_1_2_3, reducesTo_S1x256x10000x16_S256_d0_2_3, h_S_,
    bcast_S_S1x256x1x1, bcast_S_S1x256x10000x16⟩

theorem facts128 : Facts 128 10000 16 :=
  ⟨bcast_S128_S1x128x1x1_1, bcast_S1x128x1x1_S1x128x10000x16_0_1_2_3, reducesTo_S1x128x10000x16_S128_d0_2_3, h_S_,
    bcast_S_S1x128x1x1, bcast_S_S1x128x10000x16⟩

end Cert.RefLayer

end
-- ==== Proof.RefValue.lean ====
import proofs.«210907_g44332652429893_cont_8to1_b_736_41_alg».proof.Proof.RefRun1
import proofs.«210907_g44332652429893_cont_8to1_b_736_41_alg».proof.Proof.Spec
import proofs.«210907_g44332652429893_cont_8to1_b_736_41_alg».proof.Proof.BnAlgebra
import proofs.«210907_g44332652429893_cont_8to1_b_736_41_alg».proof.Proof.RefLayer
import Idealize.ShloMosaic.Lib.ValueIdx
import Idealize.ShloMosaic.Lib.ValueLayout
import Idealize.ShloMosaic.PureOps.Ideal.Laws

noncomputable section

namespace Cert.RefValue

open Cert.ReferenceIdeal Cert.ReferenceIdeal.Gen Cert.ReferenceIdeal.RefRun Idealize.ShloMosaic Idealize.ShloMosaic.TcCoe
  Idealize.SL.Sem Idealize.ShloMosaic.ValueIdx Cert.BnAlgebra Cert.RefLayer
open scoped BigOperators

variable (m : (ℓ : Loc nD τ sig) → Buf (Elt Ideal) ℓ) (c : Dev nD)

abbrev A0 : Arr Ideal S1x128x10000x1 .f32 := inp m c main_arg0
abbrev A1 : Arr Ideal S1x16x10000x16 .f32 := inp m c main_arg1
abbrev A2 : Arr Ideal S2x1x10000x16 .i32 := inp m c main_arg2
abbrev A3 : Arr Ideal S256x272 .f32 := inp m c main_arg3
abbrev A4 : Arr Ideal S256 .f32 := inp m c main_arg4
abbrev A5 : Arr Ideal S256 .f32 := inp m c main_arg5
abbrev A6 : Arr Ideal S256 .f32 := inp m c main_arg6
abbrev A7 : Arr Ideal S128x256 .f32 := inp m c main_arg7
abbrev A8 : Arr Ideal S128 .f32 := inp m c main_arg8
abbrev A9 : Arr Ideal S128 .f32 := inp m c main_arg9
abbrev A10 : Arr Ideal S128 .f32 := inp m c main_arg10
abbrev A11 : Arr Ideal S256x256 .f32 := inp m c main_arg11
abbrev A12 : Arr Ideal S256 .f32 := inp m c main_arg12
abbrev A13 : Arr Ideal S256 .f32 := inp m c main_arg13
abbrev A14 : Arr Ideal S256 .f32 := inp m c main_arg14
abbrev A15 : Arr Ideal S128x256 .f32 := inp m c main_arg15
abbrev A16 : Arr Ideal S128 .f32 := inp m c main_arg16
abbrev A17 : Arr Ideal S128 .f32 := inp m c main_arg17
abbrev A18 : Arr Ideal S128 .f32 := inp m c main_arg18

def IdxOk : Prop := ∀ j : S2x1x10000x16.Idx, (A2 m c j).toNat < 10000

structure RealArgs : Prop where
  h0 : ∀ j, IsReal (A0 m c j)
  h1 : ∀ j, IsReal (A1 m c j)
  h3 : ∀ j, IsReal (A3 m c j)
  h4 : ∀ j, IsReal (A4 m c j)
  h5 : ∀ j, IsReal (A5 m c j)
  h6 : ∀ j, IsReal (A6 m c j)
  h7 : ∀ j, IsReal (A7 m c j)
  h8 : ∀ j, IsReal (A8 m c j)
  h9 : ∀ j, IsReal (A9 m c j)
  h10 : ∀ j, IsReal (A10 m c j)
  h11 : ∀ j, IsReal (A11 m c j)
  h12 : ∀ j, IsReal (A12 m c j)
  h13 : ∀ j, IsReal (A13 m c j)
  h14 : ∀ j, IsReal (A14 m c j)
  h15 : ∀ j, IsReal (A15 m c j)
  h16 : ∀ j, IsReal (A16 m c j)
  h17 : ∀ j, IsReal (A17 m c j)
  h18 : ∀ j, IsReal (A18 m c j)

def specIn (hidx : IdxOk m c) : Cert.Spec.Inputs where
  nf c' n := A0 m c (ix4 (0 : Fin 1) c' n (0 : Fin 1))
  ef c' p := A1 m c (ix4 (0 : Fin 1) c' p.1 p.2)
  i1 p := ⟨(A2 m c (ix4 (1 : Fin 2) (0 : Fin 1) p.1 p.2)).toNat, hidx _⟩
  i0 p := ⟨(A2 m c (ix4 (0 : Fin 2) (0 : Fin 1) p.1 p.2)).toNat, hidx _⟩
  W1 o c' := A3 m c (ix2 o c')
  g1 o := A5 m c (ix1 o)
  be1 o := A6 m c (ix1 o)
  W2 o c' := A7 m c (ix2 o c')
  g2 o := A9 m c (ix1 o)
  be2 o := A10 m c (ix1 o)
  W3 o c' := A11 m c (ix2 o c')
  g3 o := A13 m c (ix1 o)
  be3 o := A14 m c (ix1 o)
  W4 o c' := A15 m c (ix2 o c')
  g4 o := A17 m c (ix1 o)
  be4 o := A18 m c (ix1 o)

abbrev gd : GatherDims S1x128x10000 S1x10000x16x1 S1x128x10000x16 :=
  gather_S1x128x10000_S1x10000x16x1_S1x128x10000x16_1_2_0_0_2_3_11281

theorem gd_siIdx (c' : Fin 128) (n : Fin 10000) (k : Fin 16) (h : List.idxOf (2 : Fin 3) gd.startIndexMap < gd.startIndexMap.length) :
    gd.siIdx (ix4 (0 : Fin 1) c' n k) ⟨List.idxOf (2 : Fin 3) gd.startIndexMap, h⟩ = ix4 (0 : Fin 1) n k (0 : Fin 1) := by
  funext b; refine Fin.ext ?_
  match b with
  | ⟨0, _⟩ | ⟨1, _⟩ | ⟨2, _⟩ | ⟨3, _⟩ => rfl

theorem gd_coord0 (j : S1x128x10000x16.Idx) (idx : Arr Ideal S1x10000x16x1 .i32) : (gd.operandIdx j idx (0 : Fin 3)).val = 0 := by
  have h1 : (gd.operandIdx j idx (0 : Fin 3)).val < 1 := (gd.operandIdx j idx (0 : Fin 3)).isLt
  omega

theorem gd_coord1 (c' : Fin 128) (n : Fin 10000) (k : Fin 16) (idx : Arr Ideal S1x10000x16x1 .i32) :
    (gd.operandIdx (ix4 (0 : Fin 1) c' n k) idx (1 : Fin 3)).val = c'.val := by
  show gd.start (ix4 (0 : Fin 1) c' n k) idx (1 : Fin 3) + gd.batchCoord (ix4 (0 : Fin 1) c' n k) (1 : Fin 3)
    + gd.offCoord (ix4 (0 : Fin 1) c' n k) (1 : Fin 3) = _
  have hs : gd.start (ix4 (0 : Fin 1) c' n k) idx (1 : Fin 3) = 0 := by
    unfold GatherDims.start; rw [dif_neg (by decide)]
  rw [hs, gd.batchCoord_eq_zero _ _ (by decide)]
  unfold GatherDims.offCoord
  rw [dif_pos (by decide)]
  have key : ∀ a : Fin 4, a = 1 → (ix4 (0 : Fin 1) c' n k a).val = c'.val := by rintro a rfl; rfl
  simp only [Nat.zero_add]
  exact key _ (by decide)

theorem gd_coord2 (c' : Fin 128) (n : Fin 10000) (k : Fin 16) (idx : Arr Ideal S1x10000x16x1 .i32) :
    (gd.operandIdx (ix4 (0 : Fin 1) c' n k) idx (2 : Fin 3)).val = min (idx (ix4 (0 : Fin 1) n k (0 : Fin 1))).toInt.toNat 9999 := by
  show gd.start (ix4 (0 : Fin 1) c' n k) idx (2 : Fin 3) + gd.batchCoord (ix4 (0 : Fin 1) c' n k) (2 : Fin 3)
    + gd.offCoord (ix4 (0 : Fin 1) c' n k) (2 : Fin 3) = _
  rw [gd.batchCoord_eq_zero _ _ (by decide), gd.offCoord_eq_zero _ _ (by decide)]
  unfold GatherDims.start
  rw [dif_pos (by decide), gd_siIdx]
  rfl

theorem gather_apply (x : Arr Ideal S1x128x10000 .f32) (idx : Arr Ideal S1x10000x16x1 .i32) (c' : Fin 128) (n : Fin 10000) (k : Fin 16) :
    Host.gather gd x idx (ix4 (0 : Fin 1) c' n k)
      = x (ix3 (0 : Fin 1) c' ⟨min (idx (ix4 (0 : Fin 1) n k (0 : Fin 1))).toInt.toNat 9999, by omega⟩) := by
  unfold Host.gather
  congr 1
  funext a
  refine Fin.ext ?_
  match a with
  | ⟨0, _⟩ => exact gd_coord0 _ idx
  | ⟨1, _⟩ => exact gd_coord1 c' n k idx
  | ⟨2, _⟩ => exact gd_coord2 c' n k idx

theorem edgeRow1_apply (e : Arr Ideal S2x1x10000x16 .i32) (n : Fin 10000) (k : Fin 16) :
    edgeRow1 e (ix3 (0 : Fin 1) n k) = e (ix4 (1 : Fin 2) (0 : Fin 1) n k) := by
  unfold edgeRow1
  refine (shapeCast_1abc_abc_apply _ _ (0 : Fin 1) n k).trans ?_
  exact extractStridedSlice_apply _ _ _ _ (ix4 (1 : Fin 2) (0 : Fin 1) n k) (fun a => by
    match a with
    | ⟨0, _⟩ | ⟨1, _⟩ => rfl
    | ⟨2, _⟩ | ⟨3, _⟩ => exact (Nat.zero_add _).symm)

theorem edgeRow0_apply (e : Arr Ideal S2x1x10000x16 .i32) (n : Fin 10000) (k : Fin 16) :
    edgeRow0 e (ix3 (0 : Fin 1) n k) = e (ix4 (0 : Fin 2) (0 : Fin 1) n k) := by
  unfold edgeRow0
  refine (shapeCast_1abc_abc_apply _ _ (0 : Fin 1) n k).trans ?_
  exact extractStridedSlice_apply _ _ _ _ (ix4 (0 : Fin 2) (0 : Fin 1) n k) (fun a => by
    match a with
    | ⟨0, _⟩ | ⟨1, _⟩ => rfl
    | ⟨2, _⟩ | ⟨3, _⟩ => exact (Nat.zero_add _).symm)

theorem nodeRows_apply (x : Arr Ideal S1x128x10000x1 .f32) (c' : Fin 128) (r : Fin 10000) :
    nodeRows x (ix3 (0 : Fin 1) c' r) = x (ix4 (0 : Fin 1) c' r (0 : Fin 1)) := by
  unfold nodeRows
  exact shapeCast_apply _ _ _ _ (by
    rw [Shape.rowMajor_val_four, Shape.rowMajor_val_three]
    show ((0 * 128 + c'.val) * 10000 + r.val) * 1 + 0 = (0 * 128 + c'.val) * 10000 + r.val
    omega)

theorem toInt_of_lt {w : BitVec 32} (hw : w.toNat < 10000) : w.toInt.toNat = w.toNat ∧ IntOp.cmpi .slt w 0#32 = 0#1 := by
  have hi : w.toInt = (w.toNat : Int) := by
    rw [BitVec.toInt_eq_toNat_cond]; split <;> omega
  refine ⟨by rw [hi]; rfl, ?_⟩
  have hn : w.slt 0#32 = false := by
    have z0 : (0#32 : BitVec 32).toInt = 0 := by decide
    simp only [BitVec.slt, z0, decide_eq_false_iff_not, hi]
    omega
  show BitVec.ofBool (w.slt 0#32) = 0#1
  rw [hn]; rfl

theorem wrapIdx_apply (i : Arr Ideal S1x10000x16 .i32) (n : Fin 10000) (k : Fin 16) (hw : (i (ix3 (0 : Fin 1) n k)).toNat < 10000) :
    wrapIdx i (ix4 (0 : Fin 1) n k (0 : Fin 1)) = i (ix3 (0 : Fin 1) n k) := by
  unfold wrapIdx
  refine (broadcastInDim_apply _ _ _ _ (ix3 (0 : Fin 1) n k) (fun a => by
    match a with
    | ⟨0, _⟩ | ⟨1, _⟩ => rfl
    | ⟨2, _⟩ => rfl)).trans ?_
  show Scalar.select (IntOp.cmpi .slt (i (ix3 (0 : Fin 1) n k)) 0#32) _ (i (ix3 (0 : Fin 1) n k)) = _
  rw [(toInt_of_lt hw).2]
  exact select_zero _ _

theorem gatherNodes_apply (x : Arr Ideal S1x128x10000x1 .f32) (i : Arr Ideal S1x10000x16 .i32) (c' : Fin 128) (n : Fin 10000) (k : Fin 16)
    (hw : (i (ix3 (0 : Fin 1) n k)).toNat < 10000) :
    gatherNodes x i (ix4 (0 : Fin 1) c' n k) = x (ix4 (0 : Fin 1) c' ⟨(i (ix3 (0 : Fin 1) n k)).toNat, hw⟩ (0 : Fin 1)) := by
  unfold gatherNodes
  refine (gather_apply _ _ c' n k).trans ?_
  refine (nodeRows_apply x c' _).trans ?_
  congr 1
  have e : wrapIdx i (ix4 (0 : Fin 1) n k (0 : Fin 1)) = i (ix3 (0 : Fin 1) n k) := wrapIdx_apply i n k hw
  funext a
  refine Fin.ext ?_
  match a with
  | ⟨0, _⟩ | ⟨1, _⟩ => rfl
  | ⟨2, _⟩ =>
    show min (wrapIdx i (ix4 (0 : Fin 1) n k (0 : Fin 1))).toInt.toNat 9999 = (i (ix3 (0 : Fin 1) n k)).toNat
    rw [e, (toInt_of_lt hw).1]
    omega
  | ⟨3, _⟩ => rfl

-- A pointwise convolution read at one position: the contraction over the input channels, plus the output channel's bias.
theorem conv_apply {K O : ℕ} (d : DotDims (S4 K 10000 16) ⟨2, ![O, K]⟩ ⟨4, ![1, 10000, 16, O]⟩)
    (hr : d.contr.rank = 1) (hs : d.contr.size ⟨0, by omega⟩ = K)
    (hl : d.lhsContracting = [(1 : Fin 4)]) (hc : d.rhsContracting = [(1 : Fin 2)])
    (l0 : ∀ j q, (d.lhsIdx j q (0 : Fin 4)).val = (j (0 : Fin 4)).val)
    (l2 : ∀ j q, (d.lhsIdx j q (2 : Fin 4)).val = (j (1 : Fin 4)).val)
    (l3 : ∀ j q, (d.lhsIdx j q (3 : Fin 4)).val = (j (2 : Fin 4)).val)
    (r0 : ∀ j q, (d.rhsIdx j q (0 : Fin 2)).val = (j (3 : Fin 4)).val)
    (tr : (⟨4, ![1, 10000, 16, O]⟩ : Shape).Transposes [0, 3, 1, 2] (S4 O 10000 16)) (f : Facts O 10000 16)
    (x : FVec Ideal (S4 K 10000 16) .f32) (w : FVec Ideal ⟨2, ![O, K]⟩ .f32) (b : FVec Ideal (S1 O) .f32)
    (o : Fin O) (n : Fin 10000) (k : Fin 16) :
    addf (transpose (S4 O 10000 16) [0, 3, 1, 2] (Host.dotGeneral d none x w) tr)
        (broadcastInDim (S4 O 10000 16) ![0, 1, 2, 3] f.b4 (broadcastInDim (S4u O) ![1] f.b1 b)) (ix4 0 o n k)
      = (∑ q : Fin K, x (ix4 0 q n k) * w (ix2 o q)) + b (ix1 o) := by
  rw [addf_apply, unit_read f, chan_read f]
  congr 1
  refine (transpose_apply _ _ _ _ (ix4 (0 : Fin 1) n k o) (fun a => by
    match a with
    | ⟨0, _⟩ | ⟨1, _⟩ | ⟨2, _⟩ | ⟨3, _⟩ => rfl)).trans ?_
  refine (Ideal.dotGeneral_apply d none _ x w _).trans ?_
  rw [← Equiv.sum_comp (contrEquiv1 d K hr hs).symm]
  refine Finset.sum_congr rfl (fun i _ => ?_)
  have hx : d.lhsIdx (ix4 (0 : Fin 1) n k o) ((contrEquiv1 d K hr hs).symm i) = ix4 (0 : Fin 1) i n k := by
    funext a; refine Fin.ext ?_
    match a with
    | ⟨0, _⟩ => exact l0 _ _
    | ⟨1, _⟩ => exact (d.lhsIdx_val_of_single (cl := (1 : Fin 4)) hl _ _).trans (contrEquiv1_symm_val d K hr hs i)
    | ⟨2, _⟩ => exact l2 _ _
    | ⟨3, _⟩ => exact l3 _ _
  have hw : d.rhsIdx (ix4 (0 : Fin 1) n k o) ((contrEquiv1 d K hr hs).symm i) = ix2 o i := by
    funext a; refine Fin.ext ?_
    match a with
    | ⟨0, _⟩ => exact r0 _ _
    | ⟨1, _⟩ => exact (d.rhsIdx_val_of_single (cr := (1 : Fin 2)) hc _ _).trans (contrEquiv1_symm_val d K hr hs i)
  rw [hx, hw]

abbrev d1 : DotDims S1x272x10000x16 S256x272 S1x10000x16x256 := dot_S1x272x10000x16_S256x272_S1x10000x16x256_1_1_023_0_n_n
abbrev d2 : DotDims S1x256x10000x16 S128x256 S1x10000x16x128 := dot_S1x256x10000x16_S128x256_S1x10000x16x128_1_1_023_0_n_n
abbrev d3 : DotDims S1x256x10000x16 S256x256 S1x10000x16x256 := dot_S1x256x10000x16_S256x256_S1x10000x16x256_1_1_023_0_n_n

theorem conv1_apply (x : Arr Ideal S1x272x10000x16 .f32) (w : Arr Ideal S256x272 .f32) (b : Arr Ideal S256 .f32)
    (o : Fin 256) (n : Fin 10000) (k : Fin 16) :
    conv1 x w b (ix4 (0 : Fin 1) o n k) = (∑ q : Fin 272, x (ix4 (0 : Fin 1) q n k) * w (ix2 o q)) + b (ix1 o) :=
  conv_apply (K := 272) (O := 256) d1 rfl rfl rfl rfl (fun _ _ => rfl) (fun _ _ => rfl) (fun _ _ => rfl) (fun _ _ => rfl)
    transposes_S1x10000x16x256_S1x256x10000x16_0_3_1_2 facts256 x w b o n k

theorem conv2_apply (x : Arr Ideal S1x256x10000x16 .f32) (w : Arr Ideal S128x256 .f32) (b : Arr Ideal S128 .f32)
    (o : Fin 128) (n : Fin 10000) (k : Fin 16) :
    conv2 x w b (ix4 (0 : Fin 1) o n k) = (∑ q : Fin 256, x (ix4 (0 : Fin 1) q n k) * w (ix2 o q)) + b (ix1 o) :=
  conv_apply (K := 256) (O := 128) d2 rfl rfl rfl rfl (fun _ _ => rfl) (fun _ _ => rfl) (fun _ _ => rfl) (fun _ _ => rfl)
    transposes_S1x10000x16x128_S1x128x10000x16_0_3_1_2 facts128 x w b o n k

theorem conv3_apply (x : Arr Ideal S1x256x10000x16 .f32) (w : Arr Ideal S256x256 .f32) (b : Arr Ideal S256 .f32)
    (o : Fin 256) (n : Fin 10000) (k : Fin 16) :
    conv3 x w b (ix4 (0 : Fin 1) o n k) = (∑ q : Fin 256, x (ix4 (0 : Fin 1) q n k) * w (ix2 o q)) + b (ix1 o) :=
  conv_apply (K := 256) (O := 256) d3 rfl rfl rfl rfl (fun _ _ => rfl) (fun _ _ => rfl) (fun _ _ => rfl) (fun _ _ => rfl)
    transposes_S1x10000x16x256_S1x256x10000x16_0_3_1_2 facts256 x w b o n k

-- A concatenation along the channel axis read inside one piece: that piece's entry, its channel shifted by the widths before it.
theorem cat_piece {T Cq : ℕ} (xs : List ((s : Shape) × (s.Idx → EReal)))
    (h : Shape.Concatenates (xs.map (·.1)) (S4 T 10000 16) (1 : Fin 4)) (i : ℕ) (hi : i < xs.length)
    (x₁ : (S4 Cq 10000 16).Idx → EReal) (hx : xs[i] = ⟨S4 Cq 10000 16, x₁⟩) (pre : ℕ)
    (hpre : (((xs.take i).map (·.1)).map fun s => if h : s.rank = (S4 T 10000 16).rank then s.size ((1 : Fin 4).cast h.symm) else 0).sum = pre)
    (q : Fin Cq) (jv : ℕ) (hj : jv < T) (ha : pre + q.val = jv) (n : Fin 10000) (k : Fin 16) :
    concatenate (S4 T 10000 16) 1 xs h (ix4 (0 : Fin 1) (⟨jv, hj⟩ : Fin T) n k) = x₁ (ix4 (0 : Fin 1) q n k) :=
  concatenate_apply_piece (t := S4 T 10000 16) (1 : Fin 4) xs h _ i hi _ x₁ hx rfl pre hpre (ix4 (0 : Fin 1) q n k)
    (fun b' hb => by
      match b', hb with
      | ⟨1, _⟩, hb => exact absurd rfl hb
      | ⟨0, _⟩, _ | ⟨2, _⟩, _ | ⟨3, _⟩, _ => rfl)
    ha

theorem cat3_apply_lo (ea : Arr Ideal S1x16x10000x16 .f32) (a b : Arr Ideal S1x128x10000x16 .f32) (q : Fin 16) (n : Fin 10000) (k : Fin 16) :
    cat3 ea a b (ix4 (0 : Fin 1) (⟨q.val, by omega⟩ : Fin 272) n k) = ea (ix4 (0 : Fin 1) q n k) := by
  unfold cat3
  exact cat_piece (T := 272) [⟨S1x16x10000x16, ea⟩, ⟨S1x128x10000x16, a⟩, ⟨S1x128x10000x16, b⟩] concatenates_S1x16x10000x16_S1x128x10000x16_S1x128x10000x16_S1x272x10000x16_d1 0 (by show (0 : Nat) < 3; omega) ea rfl 0 rfl q _ _ (Nat.zero_add _) n k

theorem cat3_apply_mid (ea : Arr Ideal S1x16x10000x16 .f32) (a b : Arr Ideal S1x128x10000x16 .f32) (q : Fin 128) (n : Fin 10000) (k : Fin 16) :
    cat3 ea a b (ix4 (0 : Fin 1) (⟨16 + q.val, by omega⟩ : Fin 272) n k) = a (ix4 (0 : Fin 1) q n k) := by
  unfold cat3
  exact cat_piece (T := 272) [⟨S1x16x10000x16, ea⟩, ⟨S1x128x10000x16, a⟩, ⟨S1x128x10000x16, b⟩] concatenates_S1x16x10000x16_S1x128x10000x16_S1x128x10000x16_S1x272x10000x16_d1 1 (by show (1 : Nat) < 3; omega) a rfl 16 rfl q _ _ rfl n k

theorem cat3_apply_hi (ea : Arr Ideal S1x16x10000x16 .f32) (a b : Arr Ideal S1x128x10000x16 .f32) (q : Fin 128) (n : Fin 10000) (k : Fin 16) :
    cat3 ea a b (ix4 (0 : Fin 1) (⟨144 + q.val, by omega⟩ : Fin 272) n k) = b (ix4 (0 : Fin 1) q n k) := by
  unfold cat3
  exact cat_piece (T := 272) [⟨S1x16x10000x16, ea⟩, ⟨S1x128x10000x16, a⟩, ⟨S1x128x10000x16, b⟩] concatenates_S1x16x10000x16_S1x128x10000x16_S1x128x10000x16_S1x272x10000x16_d1 2 (by show (2 : Nat) < 3; omega) b rfl 144 rfl q _ _ rfl n k

theorem cat2_apply_lo (a b : Arr Ideal S1x128x10000x16 .f32) (q : Fin 128) (n : Fin 10000) (k : Fin 16) :
    cat2 a b (ix4 (0 : Fin 1) (⟨q.val, by omega⟩ : Fin 256) n k) = a (ix4 (0 : Fin 1) q n k) := by
  unfold cat2
  exact cat_piece (T := 256) [⟨S1x128x10000x16, a⟩, ⟨S1x128x10000x16, b⟩] concatenates_S1x128x10000x16_S1x128x10000x16_S1x256x10000x16_d1 0 (by show (0 : Nat) < 2; omega) a rfl 0 rfl q _ _ (Nat.zero_add _) n k

theorem cat2_apply_hi (a b : Arr Ideal S1x128x10000x16 .f32) (q : Fin 128) (n : Fin 10000) (k : Fin 16) :
    cat2 a b (ix4 (0 : Fin 1) (⟨128 + q.val, by omega⟩ : Fin 256) n k) = b (ix4 (0 : Fin 1) q n k) := by
  unfold cat2
  exact cat_piece (T := 256) [⟨S1x128x10000x16, a⟩, ⟨S1x128x10000x16, b⟩] concatenates_S1x128x10000x16_S1x128x10000x16_S1x256x10000x16_d1 1 (by show (1 : Nat) < 2; omega) b rfl 128 rfl q _ _ rfl n k

theorem reduces_d3 : S1x128x10000x16.Reduces [3] S1x128x10000 := by decide

theorem msgSum_apply (e : Arr Ideal S1x128x10000x16 .f32) (c' : Fin 128) (n : Fin 10000) (k : Fin 16) :
    msgSum e (ix4 (0 : Fin 1) c' n k) = ∑ k' : Fin 16, e (ix4 (0 : Fin 1) c' n k') := by
  unfold msgSum
  refine (broadcastInDim_apply _ _ _ _ (ix4 (0 : Fin 1) c' n (0 : Fin 1)) (fun a => by
    match a with
    | ⟨0, _⟩ | ⟨1, _⟩ | ⟨2, _⟩ => rfl
    | ⟨3, _⟩ => rfl)).trans ?_
  refine (broadcastInDim_apply _ _ _ _ (ix3 (0 : Fin 1) c' n) (fun a => by
    match a with
    | ⟨0, _⟩ | ⟨1, _⟩ => rfl
    | ⟨2, _⟩ => rfl)).trans ?_
  show Ideal.hostReduceAdd reducesTo_S1x128x10000x16_S1x128x10000_d3 e (Ideal.ofBits .f32 0x00000000#32) (ix3 (0 : Fin 1) c' n) = _
  rw [Ideal.hostReduceAdd_single _ reduces_d3, Ideal.ofBits_zero_f32, zero_add]
  refine Finset.sum_congr rfl (fun k' _ => ?_)
  congr 1
  funext a; refine Fin.ext ?_
  match a with
  | ⟨0, _⟩ | ⟨1, _⟩ | ⟨2, _⟩ | ⟨3, _⟩ => rfl

theorem firstCol_apply (x : Arr Ideal S1x128x10000x16 .f32) (c' : Fin 128) (n : Fin 10000) :
    firstCol x (ix4 (0 : Fin 1) c' n (0 : Fin 1)) = x (ix4 (0 : Fin 1) c' n (0 : Fin 16)) := by
  unfold firstCol
  refine (broadcastInDim_apply _ _ _ _ (ix3 (0 : Fin 1) c' n) (fun a => by
    match a with
    | ⟨0, _⟩ | ⟨1, _⟩ => rfl
    | ⟨2, _⟩ => rfl)).trans ?_
  refine (shapeCast_apply _ _ _ (ix4 (0 : Fin 1) c' n (0 : Fin 1)) (by
    rw [Shape.rowMajor_val_four, Shape.rowMajor_val_three]
    show ((0 * 128 + c'.val) * 10000 + n.val) * 1 + 0 = (0 * 128 + c'.val) * 10000 + n.val
    omega)).trans ?_
  exact extractStridedSlice_apply _ _ _ _ (ix4 (0 : Fin 1) c' n (0 : Fin 16)) (fun a => by
    match a with
    | ⟨0, _⟩ => rfl
    | ⟨1, _⟩ | ⟨2, _⟩ => exact (Nat.zero_add _).symm
    | ⟨3, _⟩ => rfl)

theorem sum_split3 (f : Fin 272 → EReal) :
    ∑ q, f q = (∑ q : Fin 16, f ⟨q.val, by omega⟩) + (∑ q : Fin 128, f ⟨16 + q.val, by omega⟩) + (∑ q : Fin 128, f ⟨144 + q.val, by omega⟩) := by
  have h1 := Fin.sum_univ_add (M := EReal) (a := 144) (b := 128) f
  have h2 := Fin.sum_univ_add (M := EReal) (a := 16) (b := 128) (fun i : Fin (16 + 128) => f (Fin.castAdd 128 i))
  rw [h1, h2]
  rfl

theorem sum_split2 (f : Fin 256 → EReal) :
    ∑ q, f q = (∑ q : Fin 128, f ⟨q.val, by omega⟩) + (∑ q : Fin 128, f ⟨128 + q.val, by omega⟩) := by
  have h1 := Fin.sum_univ_add (M := EReal) (a := 128) (b := 128) f
  rw [h1]
  rfl

-- Gathering node rows along one row of the edge list reads the node feature at that edge's endpoint, the index being in range.
theorem stage_gather (er : Arr Ideal S2x1x10000x16 .i32 → Arr Ideal S1x10000x16 .i32) (r : Fin 2)
    (he : ∀ e n k, er e (ix3 (0 : Fin 1) n k) = e (ix4 r (0 : Fin 1) n k)) (hidx : IdxOk m c) (c' : Fin 128) (n : Fin 10000) (k : Fin 16) :
    gatherNodes (A0 m c) (er (A2 m c)) (ix4 (0 : Fin 1) c' n k)
      = A0 m c (ix4 (0 : Fin 1) c' ⟨(A2 m c (ix4 r (0 : Fin 1) n k)).toNat, hidx _⟩ (0 : Fin 1)) := by
  have e := he (A2 m c) n k
  have hw : (er (A2 m c) (ix3 (0 : Fin 1) n k)).toNat < 10000 := by rw [e]; exact hidx _
  refine (gatherNodes_apply (A0 m c) (er (A2 m c)) c' n k hw).trans ?_
  congr 1
  funext a; refine Fin.ext ?_
  match a with
  | ⟨2, _⟩ =>
    show (er (A2 m c) (ix3 (0 : Fin 1) n k)).toNat = (A2 m c (ix4 r (0 : Fin 1) n k)).toNat
    rw [e]
  | ⟨0, _⟩ | ⟨1, _⟩ | ⟨3, _⟩ => rfl

theorem stageHI_apply (hidx : IdxOk m c) (c' : Fin 128) (n : Fin 10000) (k : Fin 16) :
    stageHI m c (ix4 (0 : Fin 1) c' n k) = Cert.Spec.hi (specIn m c hidx) (n, k) c' :=
  stage_gather m c edgeRow1 1 edgeRow1_apply hidx c' n k

theorem stageHJ_apply (hidx : IdxOk m c) (c' : Fin 128) (n : Fin 10000) (k : Fin 16) :
    stageHJ m c (ix4 (0 : Fin 1) c' n k) = Cert.Spec.hj (specIn m c hidx) (n, k) c' :=
  stage_gather m c edgeRow0 0 edgeRow0_apply hidx c' n k

theorem card_pos : Fintype.card Cert.Spec.Pos = 160000 := by
  show Fintype.card (Fin 10000 × Fin 16) = 160000
  rw [Fintype.card_prod, Fintype.card_fin, Fintype.card_fin]

section Stages
variable (hidx : IdxOk m c) (hreal : RealArgs m c)
include hreal

theorem hi_isReal (p : Cert.Spec.Pos) (q : Fin 128) : IsReal (Cert.Spec.hi (specIn m c hidx) p q) := hreal.h0 _
theorem hj_isReal (p : Cert.Spec.Pos) (q : Fin 128) : IsReal (Cert.Spec.hj (specIn m c hidx) p q) := hreal.h0 _

theorem y1_isReal (p : Cert.Spec.Pos) (o : Fin 256) : IsReal (Cert.Spec.y1 (specIn m c hidx) p o) := by
  unfold Cert.Spec.y1
  refine IsReal.add (IsReal.add ?_ ?_) ?_
  · exact IsReal.sum _ _ (fun q _ => IsReal.mul (hreal.h1 _) (hreal.h3 _))
  · exact IsReal.sum _ _ (fun q _ => IsReal.mul (hi_isReal m c hidx hreal p q) (hreal.h3 _))
  · exact IsReal.sum _ _ (fun q _ => IsReal.mul (hj_isReal m c hidx hreal p q) (hreal.h3 _))

theorem e1_isReal (p : Cert.Spec.Pos) (o : Fin 256) : IsReal (Cert.Spec.e1 (specIn m c hidx) p o) :=
  bnRelu_isReal card_pos _ _ _ (y1_isReal m c hidx hreal) (fun _ => hreal.h5 _) (fun _ => hreal.h6 _) p o

theorem y2_isReal (p : Cert.Spec.Pos) (o : Fin 128) : IsReal (Cert.Spec.y2 (specIn m c hidx) p o) := by
  unfold Cert.Spec.y2
  exact IsReal.sum _ _ (fun q _ => IsReal.mul (e1_isReal m c hidx hreal p q) (hreal.h7 _))

theorem e2_isReal (p : Cert.Spec.Pos) (o : Fin 128) : IsReal (Cert.Spec.e2 (specIn m c hidx) p o) :=
  bnRelu_isReal card_pos _ _ _ (y2_isReal m c hidx hreal) (fun _ => hreal.h9 _) (fun _ => hreal.h10 _) p o

theorem msum_isReal (n : Fin 10000) (q : Fin 128) : IsReal (Cert.Spec.msum (specIn m c hidx) n q) := by
  unfold Cert.Spec.msum
  exact IsReal.sum _ _ (fun k _ => e2_isReal m c hidx hreal (n, k) q)

theorem y3_isReal (p : Cert.Spec.Pos) (o : Fin 256) : IsReal (Cert.Spec.y3 (specIn m c hidx) p o) := by
  unfold Cert.Spec.y3
  refine IsReal.add ?_ ?_
  · exact IsReal.sum _ _ (fun q _ => IsReal.mul (hi_isReal m c hidx hreal p q) (hreal.h11 _))
  · exact IsReal.sum _ _ (fun q _ => IsReal.mul (msum_isReal m c hidx hreal p.1 q) (hreal.h11 _))

theorem n1_isReal (p : Cert.Spec.Pos) (o : Fin 256) : IsReal (Cert.Spec.n1 (specIn m c hidx) p o) :=
  bnRelu_isReal card_pos _ _ _ (y3_isReal m c hidx hreal) (fun _ => hreal.h13 _) (fun _ => hreal.h14 _) p o

theorem y4_isReal (p : Cert.Spec.Pos) (o : Fin 128) : IsReal (Cert.Spec.y4 (specIn m c hidx) p o) := by
  unfold Cert.Spec.y4
  exact IsReal.sum _ _ (fun q _ => IsReal.mul (n1_isReal m c hidx hreal p q) (hreal.h15 _))

theorem conv1_stage (o : Fin 256) (n : Fin 10000) (k : Fin 16) :
    conv1 (cat3 (A1 m c) (stageHI m c) (stageHJ m c)) (A3 m c) (A4 m c) (ix4 (0 : Fin 1) o n k)
      = Cert.Spec.y1 (specIn m c hidx) (n, k) o + A4 m c (ix1 o) := by
  rw [conv1_apply, sum_split3]
  unfold Cert.Spec.y1
  congr 1
  congr 1
  congr 1
  · refine Finset.sum_congr rfl (fun q _ => ?_)
    rw [cat3_apply_lo]; rfl
  · refine Finset.sum_congr rfl (fun q _ => ?_)
    rw [cat3_apply_mid, stageHI_apply m c hidx]; rfl
  · refine Finset.sum_congr rfl (fun q _ => ?_)
    rw [cat3_apply_hi, stageHJ_apply m c hidx]; rfl

theorem stageE1_apply (o : Fin 256) (n : Fin 10000) (k : Fin 16) :
    stageE1 m c (ix4 (0 : Fin 1) o n k) = Cert.Spec.e1 (specIn m c hidx) (n, k) o := by
  unfold stageE1 layer1
  exact bnRelu_apply facts256 (by norm_num) _ (A4 m c) (A5 m c) (A6 m c) (Cert.Spec.y1 (specIn m c hidx))
    (conv1_stage m c hidx hreal) (y1_isReal m c hidx hreal) hreal.h4 hreal.h5 hreal.h6 o n k

theorem conv2_stage (o : Fin 128) (n : Fin 10000) (k : Fin 16) :
    conv2 (stageE1 m c) (A7 m c) (A8 m c) (ix4 (0 : Fin 1) o n k)
      = Cert.Spec.y2 (specIn m c hidx) (n, k) o + A8 m c (ix1 o) := by
  rw [conv2_apply]
  unfold Cert.Spec.y2
  congr 1
  refine Finset.sum_congr rfl (fun q _ => ?_)
  rw [stageE1_apply m c hidx hreal]; rfl

theorem res68_e2 (c' : Fin 128) (n : Fin 10000) (k : Fin 16) :
    res68 m c (ix4 (0 : Fin 1) c' n k) = Cert.Spec.e2 (specIn m c hidx) (n, k) c' := by
  unfold res68 layer2
  exact bnRelu_apply facts128 (by norm_num) _ (A8 m c) (A9 m c) (A10 m c) (Cert.Spec.y2 (specIn m c hidx))
    (conv2_stage m c hidx hreal) (y2_isReal m c hidx hreal) hreal.h8 hreal.h9 hreal.h10 c' n k

theorem res68_apply (c' : Fin 128) (n : Fin 10000) (k : Fin 16) :
    res68 m c (ix4 (0 : Fin 1) c' n k) = Cert.Spec.outEdge (specIn m c hidx) c' n k :=
  res68_e2 m c hidx hreal c' n k

theorem conv3_stage (o : Fin 256) (n : Fin 10000) (k : Fin 16) :
    conv3 (cat2 (stageHI m c) (msgSum (res68 m c))) (A11 m c) (A12 m c) (ix4 (0 : Fin 1) o n k)
      = Cert.Spec.y3 (specIn m c hidx) (n, k) o + A12 m c (ix1 o) := by
  rw [conv3_apply, sum_split2]
  unfold Cert.Spec.y3
  congr 1
  congr 1
  · refine Finset.sum_congr rfl (fun q _ => ?_)
    rw [cat2_apply_lo, stageHI_apply m c hidx]; rfl
  · refine Finset.sum_congr rfl (fun q _ => ?_)
    rw [cat2_apply_hi, msgSum_apply]
    congr 1
    unfold Cert.Spec.msum
    exact Finset.sum_congr rfl (fun k' _ => res68_e2 m c hidx hreal q n k')

theorem stageN1_apply (o : Fin 256) (n : Fin 10000) (k : Fin 16) :
    stageN1 m c (ix4 (0 : Fin 1) o n k) = Cert.Spec.n1 (specIn m c hidx) (n, k) o := by
  unfold stageN1 layer3
  exact bnRelu_apply facts256 (by norm_num) _ (A12 m c) (A13 m c) (A14 m c) (Cert.Spec.y3 (specIn m c hidx))
    (conv3_stage m c hidx hreal) (y3_isReal m c hidx hreal) hreal.h12 hreal.h13 hreal.h14 o n k

theorem conv4_stage (o : Fin 128) (n : Fin 10000) (k : Fin 16) :
    conv2 (stageN1 m c) (A15 m c) (A16 m c) (ix4 (0 : Fin 1) o n k)
      = Cert.Spec.y4 (specIn m c hidx) (n, k) o + A16 m c (ix1 o) := by
  rw [conv2_apply]
  unfold Cert.Spec.y4
  congr 1
  refine Finset.sum_congr rfl (fun q _ => ?_)
  rw [stageN1_apply m c hidx hreal]; rfl

theorem stageN2_apply (c' : Fin 128) (n : Fin 10000) (k : Fin 16) :
    stageN2 m c (ix4 (0 : Fin 1) c' n k) = Cert.Spec.h4 (specIn m c hidx) (n, k) c' := by
  unfold stageN2 layer4
  exact bnRelu_apply facts128 (by norm_num) _ (A16 m c) (A17 m c) (A18 m c) (Cert.Spec.y4 (specIn m c hidx))
    (conv4_stage m c hidx hreal) (y4_isReal m c hidx hreal) hreal.h16 hreal.h17 hreal.h18 c' n k

theorem res123_apply (c' : Fin 128) (n : Fin 10000) :
    res123 m c (ix4 (0 : Fin 1) c' n (0 : Fin 1)) = Cert.Spec.outNode (specIn m c hidx) c' n := by
  unfold res123
  rw [firstCol_apply]
  exact stageN2_apply m c hidx hreal c' n (0 : Fin 16)

end Stages

end Cert.RefValue

end
-- ==== Proof.RefClaims.lean ====
import proofs.«210907_g44332652429893_cont_8to1_b_736_41_alg».proof.Defs
import proofs.«210907_g44332652429893_cont_8to1_b_736_41_alg».proof.Proof.Gen.ReferenceIdeal
import proofs.«210907_g44332652429893_cont_8to1_b_736_41_alg».proof.Proof.Gen.Pre_input_domain
import proofs.«210907_g44332652429893_cont_8to1_b_736_41_alg».proof.Proof.RefRun
import proofs.«210907_g44332652429893_cont_8to1_b_736_41_alg».proof.Proof.RefValue
import proofs.«210907_g44332652429893_cont_8to1_b_736_41_alg».proof.Proof.PreFacts

noncomputable section

namespace Cert.RefClaims

open Cert.ReferenceIdeal Cert.ReferenceIdeal.Gen Cert.ReferenceIdeal.RefRun Cert.RefValue Idealize.ShloMosaic Idealize.ShloMosaic.TcCoe
  Idealize.SL.Sem Idealize.ShloMosaic.ValueIdx

theorem frame_ri : Cert.frame_ReferenceIdeal (hReferenceIdeal := Cert.ReferenceIdeal.Gen.facts) (hPre_input_domain := Cert.Pre_input_domain.Gen.facts) :=
  fun m g _ => (θ_run _ _ _).mono (fun _ h c => (h c).2.2) (run m g)

def outNodeArr (I : Cert.Spec.Inputs) : Arr Ideal S1x128x10000x1 .f32 :=
  fun idx => Cert.Spec.outNode I (idx 1) (idx 2)

def outEdgeArr (I : Cert.Spec.Inputs) : Arr Ideal S1x128x10000x16 .f32 :=
  fun idx => Cert.Spec.outEdge I (idx 1) (idx 2) (idx 3)

section Pre

variable {m : (ℓ : Loc nD τ sig) → Buf (Elt Ideal) ℓ}

theorem idxOk_of_pre (hpre : Cert.Pre_ReferenceIdeal (hPre_input_domain := Cert.Pre_input_domain.Gen.facts) m) (c : Dev nD) : IdxOk m c :=
  fun j => Cert.PreFacts.arg2_toNat (hpre c) j

open Cert.PreFacts in
theorem realArgs_of_pre (hpre : Cert.Pre_ReferenceIdeal (hPre_input_domain := Cert.Pre_input_domain.Gen.facts) m) (c : Dev nD) : RealArgs m c :=
  have C := conj_of_pre (hpre c)
  ⟨fun _ => isReal_of_finAt (C.f0 _), fun _ => isReal_of_finAt (C.f1 _), fun _ => isReal_of_finAt (C.f3 _),
    fun _ => isReal_of_finAt (C.f4 _), fun _ => isReal_of_finAt (C.f5 _), fun _ => isReal_of_finAt (C.f6 _),
    fun _ => isReal_of_finAt (C.f7 _), fun _ => isReal_of_finAt (C.f8 _), fun _ => isReal_of_finAt (C.f9 _),
    fun _ => isReal_of_finAt (C.f10 _), fun _ => isReal_of_finAt (C.f11 _), fun _ => isReal_of_finAt (C.f12 _),
    fun _ => isReal_of_finAt (C.f13 _), fun _ => isReal_of_finAt (C.f14 _), fun _ => isReal_of_finAt (C.f15 _),
    fun _ => isReal_of_finAt (C.f16 _), fun _ => isReal_of_finAt (C.f17 _), fun _ => isReal_of_finAt (C.f18 _)⟩

end Pre

theorem res123_arr (m : (ℓ : Loc nD τ sig) → Buf (Elt Ideal) ℓ) (c : Dev nD) (hidx : IdxOk m c) (hreal : RealArgs m c) :
    res123 m c = outNodeArr (specIn m c hidx) := by
  funext j
  obtain ⟨a, b, n, d, rfl⟩ : ∃ (a : Fin 1) (b : Fin 128) (n : Fin 10000) (d : Fin 1), j = ix4 a b n d :=
    ⟨j 0, j 1, j 2, j 3, eq_ix4 j⟩
  obtain rfl : a = 0 := Subsingleton.elim _ _
  obtain rfl : d = 0 := Subsingleton.elim _ _
  exact res123_apply m c hidx hreal b n

theorem res68_arr (m : (ℓ : Loc nD τ sig) → Buf (Elt Ideal) ℓ) (c : Dev nD) (hidx : IdxOk m c) (hreal : RealArgs m c) :
    res68 m c = outEdgeArr (specIn m c hidx) := by
  funext j
  obtain ⟨a, b, n, k, rfl⟩ : ∃ (a : Fin 1) (b : Fin 128) (n : Fin 10000) (k : Fin 16), j = ix4 a b n k :=
    ⟨j 0, j 1, j 2, j 3, eq_ix4 j⟩
  obtain rfl : a = 0 := Subsingleton.elim _ _
  exact res68_apply m c hidx hreal b n k

theorem ref_run_spec (m : (ℓ : Loc nD τ sig) → Buf (Elt Ideal) ℓ) (ρ : Dev nD → PrngReg)
    (hpre : Cert.Pre_ReferenceIdeal (hPre_input_domain := Cert.Pre_input_domain.Gen.facts) m) :
    θ_run (Cert.ReferenceIdeal.defs (F := Ideal)) (onTc (τ := Cert.ReferenceIdeal.τ) (Cert.ReferenceIdeal.main (F := Ideal))) ⟨m, fun _ => 0, ρ⟩
      (fun r => ∀ c : Dev nD,
        r.2.mem ((c.tc : Thread nD τ).loc main_v123) = outNodeArr (specIn m c (idxOk_of_pre hpre c))
        ∧ r.2.mem ((c.tc : Thread nD τ).loc main_v68) = outEdgeArr (specIn m c (idxOk_of_pre hpre c))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)) :=
  (θ_run _ _ _).mono
    (fun _ h c => ⟨(h c).1.trans (res123_arr m c (idxOk_of_pre hpre c) (realArgs_of_pre hpre c)),
      (h c).2.1.trans (res68_arr m c (idxOk_of_pre hpre c) (realArgs_of_pre hpre c)), (h c).2.2⟩)
    (run m ρ)

theorem pre_transfer [hKernelIdeal : Cert.KernelIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_input_domain := Cert.Pre_input_domain.Gen.facts) m)
    (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.Pre_ReferenceIdeal (hPre_input_domain := Cert.Pre_input_domain.Gen.facts) m' := by
  intro c
  obtain ⟨e0, e1, e2, e3, e4, e5, e6, e7, e8, e9, e10, e11, e12, e13, e14, e15, e16, e17, e18⟩ := hag c
  rw [e0, e1, e2, e3, e4, e5, e6, e7, e8, e9, e10, e11, e12, e13, e14, e15, e16, e17, e18]
  exact hpre c

end Cert.RefClaims

end
-- ==== Proof.KSpecIn.lean ====
import proofs.«210907_g44332652429893_cont_8to1_b_736_41_alg».proof.Defs
import proofs.«210907_g44332652429893_cont_8to1_b_736_41_alg».proof.Proof.Gen.KernelIdeal
import proofs.«210907_g44332652429893_cont_8to1_b_736_41_alg».proof.Proof.RefClaims
import proofs.«210907_g44332652429893_cont_8to1_b_736_41_alg».proof.Proof.PreFacts

noncomputable section

namespace Cert.KClaims

open Cert.ReferenceIdeal.RefRun (Arr)
open Cert.RefValue Cert.RefClaims Idealize.ShloMosaic Idealize.ShloMosaic.TcCoe Idealize.SL.Sem Idealize.ShloMosaic.ValueIdx

abbrev KMem : Type := (ℓ : Loc Cert.KernelIdeal.nD Cert.KernelIdeal.τ Cert.KernelIdeal.sig) → Buf (Elt Ideal) ℓ

abbrev RMem : Type := (ℓ : Loc Cert.ReferenceIdeal.nD Cert.ReferenceIdeal.τ Cert.ReferenceIdeal.sig) → Buf (Elt Ideal) ℓ

def inputsOf (a0 : Arr Ideal Cert.ReferenceIdeal.S1x128x10000x1 .f32) (a1 : Arr Ideal Cert.ReferenceIdeal.S1x16x10000x16 .f32) (a2 : Arr Ideal Cert.ReferenceIdeal.S2x1x10000x16 .i32) (a3 : Arr Ideal Cert.ReferenceIdeal.S256x272 .f32) (a5 : Arr Ideal Cert.ReferenceIdeal.S256 .f32) (a6 : Arr Ideal Cert.ReferenceIdeal.S256 .f32) (a7 : Arr Ideal Cert.ReferenceIdeal.S128x256 .f32) (a9 : Arr Ideal Cert.ReferenceIdeal.S128 .f32) (a10 : Arr Ideal Cert.ReferenceIdeal.S128 .f32) (a11 : Arr Ideal Cert.ReferenceIdeal.S256x256 .f32) (a13 : Arr Ideal Cert.ReferenceIdeal.S256 .f32) (a14 : Arr Ideal Cert.ReferenceIdeal.S256 .f32) (a15 : Arr Ideal Cert.ReferenceIdeal.S128x256 .f32) (a17 : Arr Ideal Cert.ReferenceIdeal.S128 .f32) (a18 : Arr Ideal Cert.ReferenceIdeal.S128 .f32)
    (h2 : ∀ j : Cert.ReferenceIdeal.S2x1x10000x16.Idx, (a2 j).toNat < 10000) : Cert.Spec.Inputs where
  nf c' n := a0 (ix4 (0 : Fin 1) c' n (0 : Fin 1))
  ef c' p := a1 (ix4 (0 : Fin 1) c' p.1 p.2)
  i1 p := ⟨(a2 (ix4 (1 : Fin 2) (0 : Fin 1) p.1 p.2)).toNat, h2 _⟩
  i0 p := ⟨(a2 (ix4 (0 : Fin 2) (0 : Fin 1) p.1 p.2)).toNat, h2 _⟩
  W1 o c' := a3 (ix2 o c')
  g1 o := a5 (ix1 o)
  be1 o := a6 (ix1 o)
  W2 o c' := a7 (ix2 o c')
  g2 o := a9 (ix1 o)
  be2 o := a10 (ix1 o)
  W3 o c' := a11 (ix2 o c')
  g3 o := a13 (ix1 o)
  be3 o := a14 (ix1 o)
  W4 o c' := a15 (ix2 o c')
  g4 o := a17 (ix1 o)
  be4 o := a18 (ix1 o)

-- Equal arrays give equal inputs; the bound on the index words is a proof, so any two agree.
theorem inputsOf_congr {a0 b0 a1 b1 a2 b2 a3 b3 a5 b5 a6 b6 a7 b7 a9 b9 a10 b10 a11 b11 a13 b13 a14 b14 a15 b15 a17 b17 a18 b18}
    (e0 : a0 = b0) (e1 : a1 = b1) (e2 : a2 = b2) (e3 : a3 = b3) (e5 : a5 = b5) (e6 : a6 = b6) (e7 : a7 = b7) (e9 : a9 = b9) (e10 : a10 = b10) (e11 : a11 = b11) (e13 : a13 = b13) (e14 : a14 = b14) (e15 : a15 = b15) (e17 : a17 = b17) (e18 : a18 = b18) (h2 h2') :
    inputsOf a0 a1 a2 a3 a5 a6 a7 a9 a10 a11 a13 a14 a15 a17 a18 h2 = inputsOf b0 b1 b2 b3 b5 b6 b7 b9 b10 b11 b13 b14 b15 b17 b18 h2' := by
  subst_vars; rfl

theorem kidx {m : KMem} (hpre : Cert.Pre_KernelIdeal (hPre_input_domain := Cert.Pre_input_domain.Gen.facts) m) (c : Dev Cert.KernelIdeal.nD) :
    ∀ j : Cert.ReferenceIdeal.S2x1x10000x16.Idx, ((m ((c.tc : Thread Cert.KernelIdeal.nD Cert.KernelIdeal.τ).loc Cert.KernelIdeal.main_arg2) : Arr Ideal Cert.ReferenceIdeal.S2x1x10000x16 .i32) j).toNat < 10000 :=
  fun j => Cert.PreFacts.arg2_toNat (hpre c) j

def kSpecIn (m : KMem) (c : Dev Cert.KernelIdeal.nD)
    (h2 : ∀ j : Cert.ReferenceIdeal.S2x1x10000x16.Idx, ((m ((c.tc : Thread Cert.KernelIdeal.nD Cert.KernelIdeal.τ).loc Cert.KernelIdeal.main_arg2) : Arr Ideal Cert.ReferenceIdeal.S2x1x10000x16 .i32) j).toNat < 10000) : Cert.Spec.Inputs :=
  let a r := m ((c.tc : Thread Cert.KernelIdeal.nD Cert.KernelIdeal.τ).loc r)
  inputsOf (a Cert.KernelIdeal.main_arg0) (a Cert.KernelIdeal.main_arg1) (a Cert.KernelIdeal.main_arg2) (a Cert.KernelIdeal.main_arg3) (a Cert.KernelIdeal.main_arg5) (a Cert.KernelIdeal.main_arg6) (a Cert.KernelIdeal.main_arg7) (a Cert.KernelIdeal.main_arg9) (a Cert.KernelIdeal.main_arg10) (a Cert.KernelIdeal.main_arg11) (a Cert.KernelIdeal.main_arg13) (a Cert.KernelIdeal.main_arg14) (a Cert.KernelIdeal.main_arg15) (a Cert.KernelIdeal.main_arg17) (a Cert.KernelIdeal.main_arg18) h2

theorem specIn_eq_of_agree (m : KMem) (m' : RMem) (c : Dev Cert.KernelIdeal.nD)
    (hag :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (hidx : IdxOk m' c)
    (h2 : ∀ j : Cert.ReferenceIdeal.S2x1x10000x16.Idx, ((m ((c.tc : Thread Cert.KernelIdeal.nD Cert.KernelIdeal.τ).loc Cert.KernelIdeal.main_arg2) : Arr Ideal Cert.ReferenceIdeal.S2x1x10000x16 .i32) j).toNat < 10000) :
    specIn m' c hidx = kSpecIn m c h2 := by
  obtain ⟨e0, e1, e2, e3, e4, e5, e6, e7, e8, e9, e10, e11, e12, e13, e14, e15, e16, e17, e18⟩ := hag
  exact inputsOf_congr e0 e1 e2 e3 e5 e6 e7 e9 e10 e11 e13 e14 e15 e17 e18 hidx h2

end Cert.KClaims

end
-- ==== Proof.KValContract.lean ====
import proofs.«210907_g44332652429893_cont_8to1_b_736_41_alg».proof.Proof.KLaunchDefs
import proofs.«210907_g44332652429893_cont_8to1_b_736_41_alg».proof.Proof.Spec
import Idealize.ShloMosaic.Lib.ValueIdx

noncomputable section

namespace Cert.Proof.KI.Val

open Cert.KernelIdeal Cert.KernelIdeal.Gen Cert.Proof.KI
open Idealize.ShloMosaic Idealize.ShloMosaic.ValueIdx
open Idealize.ShloMosaic.SparseCore.Cfg (HIx)
open Idealize.SL Idealize.SL.BI Idealize.SL.Sem
open scoped BigOperators

local notation "𝕄" => MT nD τ sig (HIx 1) (Elt Ideal) ℕ UU ℕ

def mat {A B : ℕ} (f : Fin A → Fin B → EReal) : (⟨2, ![A, B]⟩ : Shape).Idx → EReal := fun i => f (i 0) (i 1)

theorem mat_apply {A B : ℕ} (f : Fin A → Fin B → EReal) (a : Fin A) (b : Fin B) : mat f (ix2 a b) = f a b := rfl

def jOf (n : Fin 10000) (k : Fin 16) : Fin 160000 := ⟨16 * n.val + k.val, by omega⟩

def nOf (j : Fin 160000) : Fin 10000 := ⟨j.val / 16, by omega⟩

def kOf (j : Fin 160000) : Fin 16 := ⟨j.val % 16, by omega⟩

def statsOf {C : ℕ} (Y : (⟨2, ![160000, C]⟩ : Shape).Idx → EReal) : (⟨2, ![2, C]⟩ : Shape).Idx → EReal :=
  mat fun r o => if r.val = 0 then ∑ j : Fin 160000, Y (ix2 j o) else ∑ j : Fin 160000, Y (ix2 j o) * Y (ix2 j o)

def bnAff {C : ℕ} (sq : (⟨2, ![2, C]⟩ : Shape).Idx → EReal) (g be : (⟨2, ![1, C]⟩ : Shape).Idx → EReal) (x : EReal) (o : Fin C) : EReal :=
  max (x * Cert.Spec.bnA (sq (ix2 (0 : Fin 2) o)) (sq (ix2 (1 : Fin 2) o)) (g (ix2 (0 : Fin 1) o))
      + Cert.Spec.bnC (sq (ix2 (0 : Fin 2) o)) (sq (ix2 (1 : Fin 2) o)) (g (ix2 (0 : Fin 1) o)) (be (ix2 (0 : Fin 1) o))) 0

def y1K (E : S16x160000.Idx → EReal) (HI HJ : S160000x128.Idx → EReal) (Wi Wj : S128x256.Idx → EReal) (We : S16x256.Idx → EReal) :
    S160000x256.Idx → EReal :=
  mat fun j o => (∑ q : Fin 16, E (ix2 q j) * We (ix2 q o)) + (∑ q : Fin 128, HI (ix2 j q) * Wi (ix2 q o))
    + (∑ q : Fin 128, HJ (ix2 j q) * Wj (ix2 q o))

def y2K (Y1 : S160000x256.Idx → EReal) (SQ1 : S2x256.Idx → EReal) (G1 BE1 : S1x256.Idx → EReal) (W2t : S256x128.Idx → EReal) :
    S160000x128.Idx → EReal :=
  mat fun j o => ∑ q : Fin 256, bnAff SQ1 G1 BE1 (Y1 (ix2 j q)) q * W2t (ix2 q o)

def e2tK (Y2 : S160000x128.Idx → EReal) (SQ2 : S2x128.Idx → EReal) (G2 BE2 : S1x128.Idx → EReal) : S128x160000.Idx → EReal :=
  mat fun q j => bnAff SQ2 G2 BE2 (Y2 (ix2 j q)) q

def mmK (Y2 : S160000x128.Idx → EReal) (SQ2 : S2x128.Idx → EReal) (G2 BE2 : S1x128.Idx → EReal) (W3m : S128x256.Idx → EReal) :
    S10000x256.Idx → EReal :=
  mat fun n o => ∑ q : Fin 128, (∑ k : Fin 16, bnAff SQ2 G2 BE2 (Y2 (ix2 (jOf n k) q)) q) * W3m (ix2 q o)

def y3K (HI : S160000x128.Idx → EReal) (W3h : S128x256.Idx → EReal) (MM : S10000x256.Idx → EReal) : S160000x256.Idx → EReal :=
  mat fun j o => (∑ q : Fin 128, HI (ix2 j q) * W3h (ix2 q o)) + MM (ix2 (nOf j) o)

def y4K (MM : S10000x256.Idx → EReal) (SQ3 : S2x256.Idx → EReal) (G3 BE3 : S1x256.Idx → EReal) (HI : S160000x128.Idx → EReal)
    (W3h : S128x256.Idx → EReal) (W4t : S256x128.Idx → EReal) : S160000x128.Idx → EReal :=
  mat fun j o => ∑ q : Fin 256, bnAff SQ3 G3 BE3 (y3K HI W3h MM (ix2 j q)) q * W4t (ix2 q o)

def y4k0K (MM : S10000x256.Idx → EReal) (SQ3 : S2x256.Idx → EReal) (G3 BE3 : S1x256.Idx → EReal) (HI : S160000x128.Idx → EReal)
    (W3h : S128x256.Idx → EReal) (W4t : S256x128.Idx → EReal) : S10000x128.Idx → EReal :=
  mat fun n o => y4K MM SQ3 G3 BE3 HI W3h W4t (ix2 (jOf n (0 : Fin 16)) o)

def outK (Y4 : S10000x128.Idx → EReal) (SQ4 : S2x128.Idx → EReal) (G4 BE4 : S1x128.Idx → EReal) : S128x10000.Idx → EReal :=
  mat fun q n => bnAff SQ4 G4 BE4 (Y4 (ix2 n q)) q

def IsEye (X : S128x128.Idx → EReal) : Prop := ∀ r j : Fin 128, X (ix2 r j) = if r = j then (1 : EReal) else 0

section Contracts

abbrev arrOf (Vv : Valuation τ sig (Elt Ideal)) (r : Ref sig .tc) := Vv (Proc.devRef .tc r)

def Contract1 (aft : Valuation τ sig (Elt Ideal) → Dev nD → (w : Fin cfg1.W) → Fin cfg1.N → (cfg1.win w).block.Idx → Elt Ideal (cfg1.win w).elt)
    (Φ : Valuation τ sig (Elt Ideal) → Dev nD → Fin (cfg1.N + 1) → sProp 𝕄) : Prop :=
  ∀ (Vv : Valuation τ sig (Elt Ideal)) (c : Dev nD),
    (dat1 Vv c (aft Vv c) (Φ Vv c)).arrAt 6 cfg1.N
        = y1K (arrOf Vv main_v3) (arrOf Vv main_v10_0) (arrOf Vv main_v10_1) (arrOf Vv main_v14) (arrOf Vv main_v16) (arrOf Vv main_v12)
    ∧ (dat1 Vv c (aft Vv c) (Φ Vv c)).arrAt 7 cfg1.N
        = statsOf (y1K (arrOf Vv main_v3) (arrOf Vv main_v10_0) (arrOf Vv main_v10_1) (arrOf Vv main_v14) (arrOf Vv main_v16) (arrOf Vv main_v12))

def Contract2 (aft : Valuation τ sig (Elt Ideal) → Dev nD → (w : Fin cfg2.W) → Fin cfg2.N → (cfg2.win w).block.Idx → Elt Ideal (cfg2.win w).elt)
    (Φ : Valuation τ sig (Elt Ideal) → Dev nD → Fin (cfg2.N + 1) → sProp 𝕄) : Prop :=
  ∀ (Vv : Valuation τ sig (Elt Ideal)) (c : Dev nD),
    (dat2 Vv c (aft Vv c) (Φ Vv c)).arrAt 5 cfg2.N
        = y2K (arrOf Vv main_v37_0) (arrOf Vv main_v37_1) (arrOf Vv main_v27) (arrOf Vv main_v28) (arrOf Vv main_v29)
    ∧ (dat2 Vv c (aft Vv c) (Φ Vv c)).arrAt 6 cfg2.N
        = statsOf (y2K (arrOf Vv main_v37_0) (arrOf Vv main_v37_1) (arrOf Vv main_v27) (arrOf Vv main_v28) (arrOf Vv main_v29))

def Contract3 (aft : Valuation τ sig (Elt Ideal) → Dev nD → (w : Fin cfg3.W) → Fin cfg3.N → (cfg3.win w).block.Idx → Elt Ideal (cfg3.win w).elt)
    (Φ : Valuation τ sig (Elt Ideal) → Dev nD → Fin (cfg3.N + 1) → sProp 𝕄) : Prop :=
  ∀ (Vv : Valuation τ sig (Elt Ideal)) (c : Dev nD), IsEye (arrOf Vv main_v26) →
    (dat3 Vv c (aft Vv c) (Φ Vv c)).arrAt 8 cfg3.N
        = e2tK (arrOf Vv main_v38_0) (arrOf Vv main_v38_1) (arrOf Vv main_v30) (arrOf Vv main_v31)
    ∧ (dat3 Vv c (aft Vv c) (Φ Vv c)).arrAt 9 cfg3.N
        = mmK (arrOf Vv main_v38_0) (arrOf Vv main_v38_1) (arrOf Vv main_v30) (arrOf Vv main_v31) (arrOf Vv main_v20)
    ∧ (dat3 Vv c (aft Vv c) (Φ Vv c)).arrAt 10 cfg3.N
        = statsOf (y3K (arrOf Vv main_v10_0) (arrOf Vv main_v18)
            (mmK (arrOf Vv main_v38_0) (arrOf Vv main_v38_1) (arrOf Vv main_v30) (arrOf Vv main_v31) (arrOf Vv main_v20)))

def Contract4 (aft : Valuation τ sig (Elt Ideal) → Dev nD → (w : Fin cfg4.W) → Fin cfg4.N → (cfg4.win w).block.Idx → Elt Ideal (cfg4.win w).elt)
    (Φ : Valuation τ sig (Elt Ideal) → Dev nD → Fin (cfg4.N + 1) → sProp 𝕄) : Prop :=
  ∀ (Vv : Valuation τ sig (Elt Ideal)) (c : Dev nD),
    (dat4 Vv c (aft Vv c) (Φ Vv c)).arrAt 7 cfg4.N
        = y4k0K (arrOf Vv main_v39_1) (arrOf Vv main_v39_2) (arrOf Vv main_v32) (arrOf Vv main_v33) (arrOf Vv main_v10_0) (arrOf Vv main_v18) (arrOf Vv main_v34)
    ∧ (dat4 Vv c (aft Vv c) (Φ Vv c)).arrAt 8 cfg4.N
        = statsOf (y4K (arrOf Vv main_v39_1) (arrOf Vv main_v39_2) (arrOf Vv main_v32) (arrOf Vv main_v33) (arrOf Vv main_v10_0) (arrOf Vv main_v18) (arrOf Vv main_v34))

def Contract5 (aft : Valuation τ sig (Elt Ideal) → Dev nD → (w : Fin cfg5.W) → Fin cfg5.N → (cfg5.win w).block.Idx → Elt Ideal (cfg5.win w).elt)
    (Φ : Valuation τ sig (Elt Ideal) → Dev nD → Fin (cfg5.N + 1) → sProp 𝕄) : Prop :=
  ∀ (Vv : Valuation τ sig (Elt Ideal)) (c : Dev nD), IsEye (arrOf Vv main_v26) →
    (dat5 Vv c (aft Vv c) (Φ Vv c)).arrAt 5 cfg5.N
        = outK (arrOf Vv main_v40_0) (arrOf Vv main_v40_1) (arrOf Vv main_v35) (arrOf Vv main_v36)

end Contracts

end Cert.Proof.KI.Val

end
-- ==== Proof.KSums.lean ====
import Mathlib.Logic.Equiv.Fin.Basic
import Mathlib.Algebra.BigOperators.Fin
import Mathlib.Algebra.BigOperators.Group.Finset.Basic
import Mathlib.Algebra.BigOperators.Group.Finset.Sigma
import Mathlib.Data.EReal.Basic
import Mathlib.Tactic.Ring
import Mathlib.Tactic.Linarith

namespace Cert.Proof.KI.Sums

open scoped BigOperators

variable {M : Type*} [AddCommMonoid M]

-- Any enumeration e of n · b indices by block t and offset r, with value b · t + r, is the product bijection.
theorem sum_cut {n b : ℕ} (f : Fin (n * b) → M) (e : Fin n → Fin b → Fin (n * b))
    (he : ∀ t r, (e t r).val = r.val + b * t.val) : ∑ t, ∑ r, f (e t r) = ∑ j, f j := by
  rw [← Equiv.sum_comp finProdFinEquiv f, Fintype.sum_prod_type]
  exact Finset.sum_congr rfl fun t _ => Finset.sum_congr rfl fun r _ => congrArg f (Fin.ext (he t r))

def blk (t : Fin 50) (r : Fin 3200) : Fin 160000 := ⟨3200 * t.val + r.val, by have := t.isLt; have := r.isLt; omega⟩
def pos (n : Fin 10000) (k : Fin 16) : Fin 160000 := ⟨16 * n.val + k.val, by have := n.isLt; have := k.isLt; omega⟩

theorem sum_blocks (f : Fin 160000 → M) : ∑ t : Fin 50, ∑ r : Fin 3200, f (blk t r) = ∑ j : Fin 160000, f j :=
  sum_cut (n := 50) (b := 3200) f blk fun _ _ => Nat.add_comm _ _

theorem sum_rows_of (f : Fin 3200 → M) (ρ : Fin 200 → Fin 16 → Fin 3200) (hρ : ∀ g k, (ρ g k).val = g.val * 16 + k.val) :
    ∑ g : Fin 200, ∑ k : Fin 16, f (ρ g k) = ∑ r : Fin 3200, f r :=
  sum_cut (n := 200) (b := 16) f ρ fun g k => (hρ g k).trans (by omega)

theorem sum_pos (f : Fin 160000 → M) : ∑ j : Fin 160000, f j = ∑ p : Fin 10000 × Fin 16, f (pos p.1 p.2) :=
  ((Fintype.sum_prod_type _).trans (sum_cut (n := 10000) (b := 16) f pos fun _ _ => Nat.add_comm _ _)).symm

-- A row started at z = 0 plus the first contribution and increased by one contribution a step ends as their sum.
theorem fold_grid_of_zero (acc b : ℕ → M) (z : M) (hz : z = 0) (h0 : acc 0 = z + b 0)
    (hs : ∀ t, t < 49 → acc (t + 1) = acc t + b (t + 1)) : acc 49 = ∑ t : Fin 50, b t.val := by
  have h : ∀ n, n ≤ 49 → acc n = ∑ t ∈ Finset.range (n + 1), b t := fun n => by
    induction n with
    | zero => intro _; rw [h0, hz, zero_add, Finset.sum_range_one]
    | succ m ih => intro hm; rw [hs m hm, ih (by omega), Finset.sum_range_succ _ (m + 1)]
  rw [h 49 le_rfl, Finset.sum_range]

theorem fold_grid (acc b : ℕ → M) (h0 : acc 0 = 0 + b 0) (hs : ∀ t, t < 49 → acc (t + 1) = acc t + b (t + 1)) :
    acc 49 = ∑ t : Fin 50, b t.val :=
  fold_grid_of_zero acc b 0 rfl h0 hs

-- The same for a row indexed by the points below N = 50, each step adding a block's sum: it ends as the sum over all positions.
theorem fold_blocks {N : ℕ} (hN : N = 50) (g : Fin 160000 → M) (acc : (n : ℕ) → n < N → M)
    (h0 : ∀ h, acc 0 h = 0 + ∑ r, g (blk ⟨0, by omega⟩ r))
    (hs : ∀ n h (h' : n + 1 < 50), acc (n + 1) h = acc n (Nat.lt_of_succ_lt h) + ∑ r, g (blk ⟨n + 1, h'⟩ r))
    (h : 49 < N) : acc 49 h = ∑ j, g j := by
  subst hN
  have key : ∀ n (hn : n < 50), acc n hn = ∑ t : Fin (n + 1), ∑ r, g (blk ⟨t.val, by omega⟩ r) := fun n => by
    induction n with
    | zero => intro hn; rw [h0, zero_add]; exact (Fin.sum_univ_one (fun t : Fin 1 => ∑ r, g (blk ⟨t.val, by omega⟩ r))).symm
    | succ m ih =>
      intro hn; rw [hs m hn hn, ih]
      exact (Fin.sum_univ_castSucc (fun t : Fin (m + 1 + 1) => ∑ r, g (blk ⟨t.val, by omega⟩ r))).symm
  exact (key 49 h).trans (sum_blocks g)

end Cert.Proof.KI.Sums
-- ==== Proof.KValue.lean ====
import proofs.«210907_g44332652429893_cont_8to1_b_736_41_alg».proof.Proof.KValContract
import proofs.«210907_g44332652429893_cont_8to1_b_736_41_alg».proof.Proof.KSums

noncomputable section

namespace Cert.Proof.KI.Val

open Cert.KernelIdeal Cert.KernelIdeal.Gen Cert.Proof.KI
open Idealize.ShloMosaic Idealize.ShloMosaic.ValueIdx
open scoped BigOperators

theorem nOf_jOf (n : Fin 10000) (k : Fin 16) : nOf (jOf n k) = n := by
  apply Fin.ext; show (16 * n.val + k.val) / 16 = n.val; omega

-- A sum over the flat positions is the sum over the pairs (node, neighbour slot).
theorem sum_pos (f : Fin 160000 → EReal) : ∑ j : Fin 160000, f j = ∑ p : Cert.Spec.Pos, f (jOf p.1 p.2) :=
  Cert.Proof.KI.Sums.sum_pos f

section Bn
variable {C : ℕ} (Y : (⟨2, ![160000, C]⟩ : Shape).Idx → EReal) (y : Cert.Spec.Pos → Fin C → EReal)
  (hY : ∀ (p : Cert.Spec.Pos) (o : Fin C), Y (ix2 (jOf p.1 p.2) o) = y p o)
include hY

theorem stats0 (o : Fin C) : statsOf Y (ix2 (0 : Fin 2) o) = ∑ p, y p o := by
  show (∑ j : Fin 160000, Y (ix2 j o)) = _
  rw [sum_pos]
  exact Finset.sum_congr rfl (fun p _ => hY p o)

theorem stats1 (o : Fin C) : statsOf Y (ix2 (1 : Fin 2) o) = ∑ p, y p o * y p o := by
  show (∑ j : Fin 160000, Y (ix2 j o) * Y (ix2 j o)) = _
  rw [sum_pos]
  exact Finset.sum_congr rfl (fun p _ => by rw [hY p o])

-- The affine form over a matrix's own statistics is the batch norm and rectifier of its entries.
theorem bnAff_spec (G BE : (⟨2, ![1, C]⟩ : Shape).Idx → EReal) (g be : Fin C → EReal)
    (hg : ∀ o, G (ix2 (0 : Fin 1) o) = g o) (hbe : ∀ o, BE (ix2 (0 : Fin 1) o) = be o) (p : Cert.Spec.Pos) (o : Fin C) :
    bnAff (statsOf Y) G BE (y p o) o = Cert.Spec.bnRelu y g be p o := by
  unfold bnAff Cert.Spec.bnRelu
  rw [stats0 Y y hY, stats1 Y y hY, hg, hbe]

end Bn

section Chain

variable (I : Cert.Spec.Inputs)
  (E : S16x160000.Idx → EReal) (HI HJ : S160000x128.Idx → EReal) (W1i W1j : S128x256.Idx → EReal) (W1e : S16x256.Idx → EReal)
  (G1 BE1 : S1x256.Idx → EReal) (W2t : S256x128.Idx → EReal) (G2 BE2 : S1x128.Idx → EReal)
  (W3h W3m : S128x256.Idx → EReal) (G3 BE3 : S1x256.Idx → EReal) (W4t : S256x128.Idx → EReal) (G4 BE4 : S1x128.Idx → EReal)

structure Reads : Prop where
  e : ∀ (q : Fin 16) (n : Fin 10000) (k : Fin 16), E (ix2 q (jOf n k)) = I.ef q (n, k)
  hi : ∀ (n : Fin 10000) (k : Fin 16) (q : Fin 128), HI (ix2 (jOf n k) q) = Cert.Spec.hi I (n, k) q
  hj : ∀ (n : Fin 10000) (k : Fin 16) (q : Fin 128), HJ (ix2 (jOf n k) q) = Cert.Spec.hj I (n, k) q
  w1e : ∀ (q : Fin 16) (o : Fin 256), W1e (ix2 q o) = I.W1 o ⟨q.val, by omega⟩
  w1i : ∀ (q : Fin 128) (o : Fin 256), W1i (ix2 q o) = I.W1 o ⟨16 + q.val, by omega⟩
  w1j : ∀ (q : Fin 128) (o : Fin 256), W1j (ix2 q o) = I.W1 o ⟨144 + q.val, by omega⟩
  g1 : ∀ o : Fin 256, G1 (ix2 (0 : Fin 1) o) = I.g1 o
  be1 : ∀ o : Fin 256, BE1 (ix2 (0 : Fin 1) o) = I.be1 o
  w2 : ∀ (q : Fin 256) (o : Fin 128), W2t (ix2 q o) = I.W2 o q
  g2 : ∀ o : Fin 128, G2 (ix2 (0 : Fin 1) o) = I.g2 o
  be2 : ∀ o : Fin 128, BE2 (ix2 (0 : Fin 1) o) = I.be2 o
  w3h : ∀ (q : Fin 128) (o : Fin 256), W3h (ix2 q o) = I.W3 o ⟨q.val, by omega⟩
  w3m : ∀ (q : Fin 128) (o : Fin 256), W3m (ix2 q o) = I.W3 o ⟨128 + q.val, by omega⟩
  g3 : ∀ o : Fin 256, G3 (ix2 (0 : Fin 1) o) = I.g3 o
  be3 : ∀ o : Fin 256, BE3 (ix2 (0 : Fin 1) o) = I.be3 o
  w4 : ∀ (q : Fin 256) (o : Fin 128), W4t (ix2 q o) = I.W4 o q
  g4 : ∀ o : Fin 128, G4 (ix2 (0 : Fin 1) o) = I.g4 o
  be4 : ∀ o : Fin 128, BE4 (ix2 (0 : Fin 1) o) = I.be4 o

abbrev aY1 := y1K E HI HJ W1i W1j W1e
abbrev aY2 := y2K (aY1 E HI HJ W1i W1j W1e) (statsOf (aY1 E HI HJ W1i W1j W1e)) G1 BE1 W2t
abbrev aE2t := e2tK (aY2 E HI HJ W1i W1j W1e G1 BE1 W2t) (statsOf (aY2 E HI HJ W1i W1j W1e G1 BE1 W2t)) G2 BE2
abbrev aMM := mmK (aY2 E HI HJ W1i W1j W1e G1 BE1 W2t) (statsOf (aY2 E HI HJ W1i W1j W1e G1 BE1 W2t)) G2 BE2 W3m
abbrev aY3 := y3K HI W3h (aMM E HI HJ W1i W1j W1e G1 BE1 W2t G2 BE2 W3m)
abbrev aY4 := y4K (aMM E HI HJ W1i W1j W1e G1 BE1 W2t G2 BE2 W3m) (statsOf (aY3 E HI HJ W1i W1j W1e G1 BE1 W2t G2 BE2 W3h W3m)) G3 BE3 HI W3h W4t
abbrev aY4k0 := y4k0K (aMM E HI HJ W1i W1j W1e G1 BE1 W2t G2 BE2 W3m) (statsOf (aY3 E HI HJ W1i W1j W1e G1 BE1 W2t G2 BE2 W3h W3m)) G3 BE3 HI W3h W4t
abbrev aOut := outK (aY4k0 E HI HJ W1i W1j W1e G1 BE1 W2t G2 BE2 W3h W3m G3 BE3 W4t)
  (statsOf (aY4 E HI HJ W1i W1j W1e G1 BE1 W2t G2 BE2 W3h W3m G3 BE3 W4t)) G4 BE4

variable {I E HI HJ W1i W1j W1e G1 BE1 W2t G2 BE2 W3h W3m G3 BE3 W4t G4 BE4} (R : Reads I E HI HJ W1i W1j W1e G1 BE1 W2t G2 BE2 W3h W3m G3 BE3 W4t G4 BE4)
include R

theorem aY1_spec (p : Cert.Spec.Pos) (o : Fin 256) : aY1 E HI HJ W1i W1j W1e (ix2 (jOf p.1 p.2) o) = Cert.Spec.y1 I p o := by
  obtain ⟨n, k⟩ := p
  rw [aY1, y1K, mat_apply]
  unfold Cert.Spec.y1
  congr 1
  congr 1
  · exact Finset.sum_congr rfl (fun q _ => by rw [R.e, R.w1e])
  · exact Finset.sum_congr rfl (fun q _ => by rw [R.hi, R.w1i])
  · exact Finset.sum_congr rfl (fun q _ => by rw [R.hj, R.w1j])

theorem aY2_spec (p : Cert.Spec.Pos) (o : Fin 128) :
    aY2 E HI HJ W1i W1j W1e G1 BE1 W2t (ix2 (jOf p.1 p.2) o) = Cert.Spec.y2 I p o := by
  rw [aY2, y2K, mat_apply]
  unfold Cert.Spec.y2
  refine Finset.sum_congr rfl (fun q _ => ?_)
  rw [aY1_spec R p q, bnAff_spec _ (Cert.Spec.y1 I) (aY1_spec R) G1 BE1 I.g1 I.be1 R.g1 R.be1 p q, R.w2]
  rfl

-- The normalised second convolution is the new edge feature.
theorem e2_spec (p : Cert.Spec.Pos) (q : Fin 128) :
    bnAff (statsOf (aY2 E HI HJ W1i W1j W1e G1 BE1 W2t)) G2 BE2 (aY2 E HI HJ W1i W1j W1e G1 BE1 W2t (ix2 (jOf p.1 p.2) q)) q
      = Cert.Spec.e2 I p q := by
  rw [aY2_spec R p q, bnAff_spec _ (Cert.Spec.y2 I) (aY2_spec R) G2 BE2 I.g2 I.be2 R.g2 R.be2 p q]
  rfl

theorem aMM_spec (n : Fin 10000) (o : Fin 256) :
    aMM E HI HJ W1i W1j W1e G1 BE1 W2t G2 BE2 W3m (ix2 n o)
      = ∑ q : Fin 128, Cert.Spec.msum I n q * I.W3 o ⟨128 + q.val, by omega⟩ := by
  rw [aMM, mmK, mat_apply]
  refine Finset.sum_congr rfl (fun q _ => ?_)
  rw [R.w3m]
  congr 1
  unfold Cert.Spec.msum
  exact Finset.sum_congr rfl (fun k _ => e2_spec R (n, k) q)

theorem aY3_spec (p : Cert.Spec.Pos) (o : Fin 256) :
    aY3 E HI HJ W1i W1j W1e G1 BE1 W2t G2 BE2 W3h W3m (ix2 (jOf p.1 p.2) o) = Cert.Spec.y3 I p o := by
  obtain ⟨n, k⟩ := p
  rw [aY3, y3K, mat_apply, nOf_jOf, aMM_spec R]
  unfold Cert.Spec.y3
  congr 1
  exact Finset.sum_congr rfl (fun q _ => by rw [R.hi, R.w3h])

theorem aY4_spec (p : Cert.Spec.Pos) (o : Fin 128) :
    aY4 E HI HJ W1i W1j W1e G1 BE1 W2t G2 BE2 W3h W3m G3 BE3 W4t (ix2 (jOf p.1 p.2) o) = Cert.Spec.y4 I p o := by
  rw [aY4, y4K, mat_apply]
  unfold Cert.Spec.y4
  refine Finset.sum_congr rfl (fun q _ => ?_)
  rw [show y3K HI W3h _ (ix2 (jOf p.1 p.2) q) = _ from aY3_spec R p q, bnAff_spec _ (Cert.Spec.y3 I) (aY3_spec R) G3 BE3 I.g3 I.be3 R.g3 R.be3 p q, R.w4]
  rfl

theorem aY4k0_spec (n : Fin 10000) (o : Fin 128) :
    aY4k0 E HI HJ W1i W1j W1e G1 BE1 W2t G2 BE2 W3h W3m G3 BE3 W4t (ix2 n o) = Cert.Spec.y4 I (n, 0) o :=
  aY4_spec R (n, 0) o

variable (I E HI HJ W1i W1j W1e G1 BE1 W2t G2 BE2 W3h W3m G3 BE3 W4t G4 BE4)

theorem aE2t_spec (q : Fin 128) (n : Fin 10000) (k : Fin 16) :
    aE2t E HI HJ W1i W1j W1e G1 BE1 W2t G2 BE2 (ix2 q (jOf n k)) = Cert.Spec.e2 I (n, k) q :=
  e2_spec R (n, k) q

theorem aOut_spec (q : Fin 128) (n : Fin 10000) :
    aOut E HI HJ W1i W1j W1e G1 BE1 W2t G2 BE2 W3h W3m G3 BE3 W4t G4 BE4 (ix2 q n) = Cert.Spec.h4 I (n, 0) q := by
  rw [aOut, outK, mat_apply, aY4k0_spec R n q,
    bnAff_spec _ (Cert.Spec.y4 I) (aY4_spec R) G4 BE4 I.g4 I.be4 R.g4 R.be4 (n, 0) q]
  rfl

end Chain

end Cert.Proof.KI.Val

end
-- ==== Proof.KGatherVal.lean ====
import proofs.«210907_g44332652429893_cont_8to1_b_736_41_alg».proof.Proof.KTileDefs
import proofs.«210907_g44332652429893_cont_8to1_b_736_41_alg».proof.Proof.KHost
import proofs.«210907_g44332652429893_cont_8to1_b_736_41_alg».proof.Proof.Spec
import Idealize.ShloMosaic.Lib.ValueIdx

noncomputable section

namespace Cert.Proof.KI.GatherVal

open Idealize.ShloMosaic Idealize.ShloMosaic.ValueIdx Cert.KernelIdeal Cert.Proof.KI Cert.Proof.KI.Host

variable [Facts]

variable {F : FTy → Type}

theorem rowMajor_symm_ix1 (j : Fin 160000) (hj : S160000.numel = 160000) :
    S160000.rowMajor.symm (j.cast hj.symm) = ix1 j := by
  rw [Equiv.symm_apply_eq]
  apply Fin.ext
  rw [Shape.rowMajor_val_one]
  rfl

theorem rowsT_val (ix : S160000.Idx → Elt F .i32) (h : ∀ k, (ix k).toNat < 10000)
    (k : Fin (S160000x128.size gathersW.axis')) :
    (rowsT ix k).val = (ix (S160000.rowMajor.symm (k.cast (show S160000x128.size gathersW.axis' = S160000.numel from rfl)))).toNat := by
  unfold rowsT
  split
  · rfl
  · rename_i hn
    exact absurd (h _) hn

theorem gathered_apply (tab : S10000x128.Idx → Elt F .f32) (ix : S160000.Idx → Elt F .i32)
    (h : ∀ k, (ix k).toNat < 10000) (j : Fin 160000) (c' : Fin 128) :
    gathered tab ix (ix2 j c') = tab (ix2 (⟨(ix (ix1 j)).toNat, h _⟩ : Fin 10000) c') := by
  unfold gathered SparseCore.gatherPayload
  refine congrArg tab (funext fun b => ?_)
  match b with
  | ⟨0, _⟩ =>
    apply Fin.ext
    have e0 := congrArg Fin.val (Shape.Gathers.idx_axis gathersW (rowsT ix) (ix2 j c'))
    refine e0.trans ((rowsT_val ix h _).trans ?_)
    exact congrArg (fun x => (ix x).toNat) (rowMajor_symm_ix1 j rfl)
  | ⟨1, _⟩ =>
    apply Fin.ext
    exact Shape.Gathers.idx_of_ne gathersW (rowsT ix) (ix2 j c') ⟨1, by decide⟩ (by decide)

-- A gathered row is the table's row the index word names; the table is the node features re-laid.
theorem gathered_spec (I : Cert.Spec.Inputs) (a0 : S1x128x10000x1.Idx → Elt Ideal .f32) (ix : S160000.Idx → Elt Ideal .i32)
    (h : ∀ k, (ix k).toNat < 10000) (hnf : ∀ (c : Fin 128) (n : Fin 10000), I.nf c n = a0 (ix4 (0 : Fin 1) c n (0 : Fin 1)))
    (j : Fin 160000) (i : Fin 10000) (hi : i.val = (ix (ix1 j)).toNat) (c' : Fin 128) :
    gathered (nodeTab a0) ix (ix2 j c') = I.nf c' i := by
  rw [gathered_apply _ _ h, nodeTab_apply, hnf]
  exact congrArg (fun n => a0 (ix4 (0 : Fin 1) c' n (0 : Fin 1))) (Fin.ext hi.symm)

theorem gatheredA_spec (I : Cert.Spec.Inputs) (a0 : S1x128x10000x1.Idx → Elt Ideal .f32) (a2 : S2x1x10000x16.Idx → Elt Ideal .i32)
    (h : ∀ x, (a2 x).toNat < 10000)
    (hnf : ∀ (c : Fin 128) (n : Fin 10000), I.nf c n = a0 (ix4 (0 : Fin 1) c n (0 : Fin 1)))
    (hi1 : ∀ (n : Fin 10000) (k : Fin 16), (I.i1 (n, k)).val = (a2 (ix4 (1 : Fin 2) (0 : Fin 1) n k)).toNat)
    (j : Fin 160000) (c' : Fin 128) :
    gathered (nodeTab a0) (idxA a2) (ix2 j c') = Cert.Spec.hi I ((⟨j.val / 16, by omega⟩ : Fin 10000), (⟨j.val % 16, by omega⟩ : Fin 16)) c' :=
  gathered_spec I a0 _ (idxA_lt h) hnf j _ (by rw [idxA_apply]; exact hi1 _ _) c'

theorem gatheredB_spec (I : Cert.Spec.Inputs) (a0 : S1x128x10000x1.Idx → Elt Ideal .f32) (a2 : S2x1x10000x16.Idx → Elt Ideal .i32)
    (h : ∀ x, (a2 x).toNat < 10000)
    (hnf : ∀ (c : Fin 128) (n : Fin 10000), I.nf c n = a0 (ix4 (0 : Fin 1) c n (0 : Fin 1)))
    (hi0 : ∀ (n : Fin 10000) (k : Fin 16), (I.i0 (n, k)).val = (a2 (ix4 (0 : Fin 2) (0 : Fin 1) n k)).toNat)
    (j : Fin 160000) (c' : Fin 128) :
    gathered (nodeTab a0) (idxB a2) (ix2 j c') = Cert.Spec.hj I ((⟨j.val / 16, by omega⟩ : Fin 10000), (⟨j.val % 16, by omega⟩ : Fin 16)) c' :=
  gathered_spec I a0 _ (idxB_lt h) hnf j _ (by rw [idxB_apply]; exact hi0 _ _) c'

end Cert.Proof.KI.GatherVal

end
-- ==== Proof.KValueAsm.lean ====
import proofs.«210907_g44332652429893_cont_8to1_b_736_41_alg».proof.Proof.KValue
import proofs.«210907_g44332652429893_cont_8to1_b_736_41_alg».proof.Proof.KHost
import proofs.«210907_g44332652429893_cont_8to1_b_736_41_alg».proof.Proof.KLaunchAux
import proofs.«210907_g44332652429893_cont_8to1_b_736_41_alg».proof.Proof.KGatherVal
import Idealize.ShloMosaic.Lib.Pipeline.Value

noncomputable section

namespace Cert.Proof.KI.Val

open Cert.KernelIdeal Cert.KernelIdeal.Gen Cert.Proof.KI
open Idealize.ShloMosaic Idealize.ShloMosaic.ValueIdx
open Idealize.ShloMosaic.SparseCore.Cfg (HIx)
open Idealize.SL Idealize.SL.BI Idealize.SL.Sem
open scoped BigOperators

local notation "𝕄" => MT nD τ sig (HIx 1) (Elt Ideal) ℕ UU ℕ

abbrev Vl := Valuation τ sig (Elt Ideal)

abbrev Aft (cfg : Pipeline.Cfg sig Λ₀) := Vl → Dev nD → (w : Fin cfg.W) → Fin cfg.N → (cfg.win w).block.Idx → Elt Ideal (cfg.win w).elt

abbrev Inv (cfg : Pipeline.Cfg sig Λ₀) := Vl → Dev nD → Fin (cfg.N + 1) → sProp 𝕄

section RegVal

def regVal {gr W : Nat} (spec : Fin W → Pipeline.WinSpec sig gr)
    (Fa : (w : Fin W) → (Proc.devRef (τ := τ) .tc (Pipeline.arrRef spec w)).ty.Contents (Elt Ideal)) (Vv : Vl) : Vl :=
  fun b => if h : ∃ w, (Proc.devRef (τ := τ) .tc (Pipeline.arrRef spec w) : DevRef τ sig) = b then h.choose_spec ▸ Fa h.choose else Vv b

variable {gr W : Nat} (spec : Fin W → Pipeline.WinSpec sig gr)
  (Fa : (w : Fin W) → (Proc.devRef (τ := τ) .tc (Pipeline.arrRef spec w)).ty.Contents (Elt Ideal)) (Vv : Vl)

theorem regVal_off (r : Ref sig .tc) (h : ∀ w, Pipeline.arrRef spec w ≠ r) : regVal spec Fa Vv (Proc.devRef .tc r) = Vv (Proc.devRef .tc r) :=
  dif_neg fun ⟨w, hw⟩ => h w (Proc.devRef_injective _ hw)

-- Distinct windows have distinct arrays, so the chosen window is the one asked for.
theorem regVal_win (hinj : Function.Injective (Pipeline.arrRef spec)) (w : Fin W) :
    regVal spec Fa Vv (Proc.devRef .tc (Pipeline.arrRef spec w)) = Fa w := by
  have h : ∃ w', (Proc.devRef (τ := τ) .tc (Pipeline.arrRef spec w') : DevRef τ sig) = Proc.devRef .tc (Pipeline.arrRef spec w) := ⟨w, rfl⟩
  have key : ∀ (w' : Fin W) (e : (Proc.devRef (τ := τ) .tc (Pipeline.arrRef spec w') : DevRef τ sig) = Proc.devRef .tc (Pipeline.arrRef spec w)),
      e ▸ Fa w' = Fa w := fun w' e => by
    obtain rfl : w' = w := hinj (Proc.devRef_injective _ e)
    rfl
  unfold regVal
  rw [dif_pos h]
  exact key _ _

end RegVal

section Step

variable (cfg : Pipeline.Cfg sig Λ₀)
  (D : Vl → (c : Dev nD) → ((w : Fin cfg.W) → Fin cfg.N → (cfg.win w).block.Idx → Elt Ideal (cfg.win w).elt) → (Fin (cfg.N + 1) → sProp 𝕄) →
    Pipeline.Dat τ (Elt Ideal) (HIx 1) ℕ UU ℕ cfg c)
  (aft : Aft cfg) (Φ : Inv cfg) (c : Dev nD) (Vp : Vl)

def step : Vl := regVal cfg.spec (fun w => (D Vp c (aft Vp c) (Φ Vp c)).arrAt w cfg.N) Vp

theorem step_win (hinj : Function.Injective (Pipeline.arrRef cfg.spec)) (w : Fin cfg.W) :
    step cfg D aft Φ c Vp (Proc.devRef .tc (Pipeline.arrRef cfg.spec w)) = (D Vp c (aft Vp c) (Φ Vp c)).arrAt w cfg.N :=
  regVal_win cfg.spec _ Vp hinj w

-- An input window's array is never written back, and off the windows' arrays nothing changes.
theorem step_keep (hinj : Function.Injective (Pipeline.arrRef cfg.spec)) (hA : ∀ w, (D Vp c (aft Vp c) (Φ Vp c)).A w = Vp (Proc.devRef .tc (Pipeline.arrRef cfg.spec w)))
    (r : Ref sig .tc) (h : ∀ w, Pipeline.arrRef cfg.spec w = r → (cfg.win w).isOut = false) :
    arrOf (step cfg D aft Φ c Vp) r = arrOf Vp r := by
  by_cases hw : ∃ w, Pipeline.arrRef cfg.spec w = r
  · obtain ⟨w, rfl⟩ := hw
    exact (step_win cfg D aft Φ c Vp hinj w).trans ((Pipeline.Dat.arrAt_in _ w (h w rfl) cfg.N).trans (hA w))
  · exact regVal_off cfg.spec _ Vp r (fun w e => hw ⟨w, e⟩)

end Step

abbrev eAt (V : Vl) := aE2t (arrOf V main_v3) (arrOf V main_v10_0) (arrOf V main_v10_1) (arrOf V main_v14) (arrOf V main_v16) (arrOf V main_v12) (arrOf V main_v27) (arrOf V main_v28) (arrOf V main_v29) (arrOf V main_v30) (arrOf V main_v31)

abbrev nAt (V : Vl) := aOut (arrOf V main_v3) (arrOf V main_v10_0) (arrOf V main_v10_1) (arrOf V main_v14) (arrOf V main_v16) (arrOf V main_v12) (arrOf V main_v27) (arrOf V main_v28) (arrOf V main_v29) (arrOf V main_v30) (arrOf V main_v31) (arrOf V main_v18) (arrOf V main_v20) (arrOf V main_v32) (arrOf V main_v33) (arrOf V main_v34) (arrOf V main_v35) (arrOf V main_v36)

abbrev ReadsAt (I : Cert.Spec.Inputs) (V : Vl) := Reads I (arrOf V main_v3) (arrOf V main_v10_0) (arrOf V main_v10_1) (arrOf V main_v14) (arrOf V main_v16) (arrOf V main_v12) (arrOf V main_v27) (arrOf V main_v28) (arrOf V main_v29) (arrOf V main_v30) (arrOf V main_v31) (arrOf V main_v18) (arrOf V main_v20) (arrOf V main_v32) (arrOf V main_v33) (arrOf V main_v34) (arrOf V main_v35) (arrOf V main_v36)

theorem kOf_jOf (n : Fin 10000) (k : Fin 16) : kOf (jOf n k) = k := by
  apply Fin.ext; show (16 * n.val + k.val) % 16 = k.val; omega

def specOf (a0 : S1x128x10000x1.Idx → EReal) (a1 : S1x16x10000x16.Idx → EReal) (a2 : S2x1x10000x16.Idx → BitVec 32)
    (a3 : S256x272.Idx → EReal) (a5 a6 : S256.Idx → EReal) (a7 : S128x256.Idx → EReal) (a9 a10 : S128.Idx → EReal)
    (a11 : S256x256.Idx → EReal) (a13 a14 : S256.Idx → EReal) (a15 : S128x256.Idx → EReal) (a17 a18 : S128.Idx → EReal)
    (hidx : ∀ j, (a2 j).toNat < 10000) : Cert.Spec.Inputs where
  nf c' n := a0 (ix4 (0 : Fin 1) c' n (0 : Fin 1))
  ef c' p := a1 (ix4 (0 : Fin 1) c' p.1 p.2)
  i1 p := ⟨(a2 (ix4 (1 : Fin 2) (0 : Fin 1) p.1 p.2)).toNat, hidx _⟩
  i0 p := ⟨(a2 (ix4 (0 : Fin 2) (0 : Fin 1) p.1 p.2)).toNat, hidx _⟩
  W1 o c' := a3 (ix2 o c')
  g1 o := a5 (ix1 o)
  be1 o := a6 (ix1 o)
  W2 o c' := a7 (ix2 o c')
  g2 o := a9 (ix1 o)
  be2 o := a10 (ix1 o)
  W3 o c' := a11 (ix2 o c')
  g3 o := a13 (ix1 o)
  be3 o := a14 (ix1 o)
  W4 o c' := a15 (ix2 o c')
  g4 o := a17 (ix1 o)
  be4 o := a18 (ix1 o)

theorem ops3_v43 (V8 : Vl) : StableHlo.after ops3 V8 (Proc.devRef .tc main_v43) = Host.outE (V8 (Proc.devRef .tc main_v39_0)) := by
  unfold ops3; after_results; rfl

theorem ops3_v44 (V8 : Vl) : StableHlo.after ops3 V8 (Proc.devRef .tc main_v44) = Host.outN (V8 (Proc.devRef .tc main_v41)) := by
  unfold ops3; after_results; rfl

section Out

variable (aft1 : Aft cfg1) (Φ1 : Inv cfg1) (aft2 : Aft cfg2) (Φ2 : Inv cfg2) (aft3 : Aft cfg3) (Φ3 : Inv cfg3)
  (aft4 : Aft cfg4) (Φ4 : Inv cfg4) (aft5 : Aft cfg5) (Φ5 : Inv cfg5) (c : Dev nD)

abbrev chain (V3 : Vl) : Vl :=
  step cfg5 dat5 aft5 Φ5 c (step cfg4 dat4 aft4 Φ4 c (step cfg3 dat3 aft3 Φ3 c (step cfg2 dat2 aft2 Φ2 c (step cfg1 dat1 aft1 Φ1 c V3))))

-- Each region leaves its contract's arrays and keeps every array that is no output of its own; so each later input is still the first valuation's.
theorem steps_out (V3 : Vl) (C1 : Contract1 aft1 Φ1) (C2 : Contract2 aft2 Φ2) (C3 : Contract3 aft3 Φ3) (C4 : Contract4 aft4 Φ4)
    (C5 : Contract5 aft5 Φ5) (hEye : IsEye (arrOf V3 main_v26)) :
    arrOf (chain aft1 Φ1 aft2 Φ2 aft3 Φ3 aft4 Φ4 aft5 Φ5 c V3) main_v39_0 = eAt V3
      ∧ arrOf (chain aft1 Φ1 aft2 Φ2 aft3 Φ3 aft4 Φ4 aft5 Φ5 c V3) main_v41 = nAt V3 := by
  unfold chain
  have a37_0 : arrOf (step cfg1 dat1 aft1 Φ1 c V3) main_v37_0 = _ := (step_win cfg1 dat1 aft1 Φ1 c V3 winFacts1.arr_inj 6).trans (C1 V3 c).1
  have a37_1 : arrOf (step cfg1 dat1 aft1 Φ1 c V3) main_v37_1 = _ := (step_win cfg1 dat1 aft1 Φ1 c V3 winFacts1.arr_inj 7).trans (C1 V3 c).2
  have k4 := step_keep cfg1 dat1 aft1 Φ1 c V3 winFacts1.arr_inj (fun _ => rfl)
  generalize step cfg1 dat1 aft1 Φ1 c V3 = V4 at *
  have a38_0 : arrOf (step cfg2 dat2 aft2 Φ2 c V4) main_v38_0 = _ := (step_win cfg2 dat2 aft2 Φ2 c V4 winFacts2.arr_inj 5).trans (C2 V4 c).1
  have a38_1 : arrOf (step cfg2 dat2 aft2 Φ2 c V4) main_v38_1 = _ := (step_win cfg2 dat2 aft2 Φ2 c V4 winFacts2.arr_inj 6).trans (C2 V4 c).2
  have k5 := fun r h5 h4 => (step_keep cfg2 dat2 aft2 Φ2 c V4 winFacts2.arr_inj (fun _ => rfl) r h5).trans (k4 r h4)
  generalize step cfg2 dat2 aft2 Φ2 c V4 = V5 at *
  have e5 : IsEye (arrOf V5 main_v26) := by rw [k5 main_v26 (by decide) (by decide)]; exact hEye
  have a39_0 : arrOf (step cfg3 dat3 aft3 Φ3 c V5) main_v39_0 = _ := (step_win cfg3 dat3 aft3 Φ3 c V5 winFacts3.arr_inj 8).trans (C3 V5 c e5).1
  have a39_1 : arrOf (step cfg3 dat3 aft3 Φ3 c V5) main_v39_1 = _ := (step_win cfg3 dat3 aft3 Φ3 c V5 winFacts3.arr_inj 9).trans (C3 V5 c e5).2.1
  have a39_2 : arrOf (step cfg3 dat3 aft3 Φ3 c V5) main_v39_2 = _ := (step_win cfg3 dat3 aft3 Φ3 c V5 winFacts3.arr_inj 10).trans (C3 V5 c e5).2.2
  have k6 := fun r h6 h5 h4 => (step_keep cfg3 dat3 aft3 Φ3 c V5 winFacts3.arr_inj (fun _ => rfl) r h6).trans (k5 r h5 h4)
  generalize step cfg3 dat3 aft3 Φ3 c V5 = V6 at *
  have a40_0 : arrOf (step cfg4 dat4 aft4 Φ4 c V6) main_v40_0 = _ := (step_win cfg4 dat4 aft4 Φ4 c V6 winFacts4.arr_inj 7).trans (C4 V6 c).1
  have a40_1 : arrOf (step cfg4 dat4 aft4 Φ4 c V6) main_v40_1 = _ := (step_win cfg4 dat4 aft4 Φ4 c V6 winFacts4.arr_inj 8).trans (C4 V6 c).2
  have k7 := fun r h7 h6 h5 h4 => (step_keep cfg4 dat4 aft4 Φ4 c V6 winFacts4.arr_inj (fun _ => rfl) r h7).trans (k6 r h6 h5 h4)
  have k7' := step_keep cfg4 dat4 aft4 Φ4 c V6 winFacts4.arr_inj (fun _ => rfl)
  generalize step cfg4 dat4 aft4 Φ4 c V6 = V7 at *
  have e7 : IsEye (arrOf V7 main_v26) := by rw [k7 main_v26 (by decide) (by decide) (by decide) (by decide)]; exact hEye
  have a41 : arrOf (step cfg5 dat5 aft5 Φ5 c V7) main_v41 = _ := (step_win cfg5 dat5 aft5 Φ5 c V7 winFacts5.arr_inj 5).trans (C5 V7 c e7)
  refine ⟨?_, ?_⟩
  · rw [step_keep cfg5 dat5 aft5 Φ5 c V7 winFacts5.arr_inj (fun _ => rfl) main_v39_0 (by decide), k7' main_v39_0 (by decide), a39_0, a38_0, a38_1, a37_0, a37_1,
      k5 main_v30 (by decide) (by decide), k5 main_v31 (by decide) (by decide), k4 main_v27 (by decide), k4 main_v28 (by decide), k4 main_v29 (by decide)]
  · rw [a41, a40_0, a40_1, a39_1, a39_2, a38_0, a38_1, a37_0, a37_1,
      k7 main_v35 (by decide) (by decide) (by decide) (by decide), k7 main_v36 (by decide) (by decide) (by decide) (by decide),
      k6 main_v32 (by decide) (by decide) (by decide), k6 main_v33 (by decide) (by decide) (by decide), k6 main_v10_0 (by decide) (by decide) (by decide), k6 main_v18 (by decide) (by decide) (by decide), k6 main_v34 (by decide) (by decide) (by decide),
      k5 main_v30 (by decide) (by decide), k5 main_v31 (by decide) (by decide), k5 main_v20 (by decide) (by decide), k5 main_v10_0 (by decide) (by decide), k5 main_v18 (by decide) (by decide),
      k4 main_v27 (by decide), k4 main_v28 (by decide), k4 main_v29 (by decide)]

variable (C1 : Contract1 aft1 Φ1) (C2 : Contract2 aft2 Φ2) (C3 : Contract3 aft3 Φ3) (C4 : Contract4 aft4 Φ4) (C5 : Contract5 aft5 Φ5)
  (a0 : S1x128x10000x1.Idx → EReal) (a1 : S1x16x10000x16.Idx → EReal) (a2 : S2x1x10000x16.Idx → BitVec 32)
  (a3 : S256x272.Idx → EReal) (a5 a6 : S256.Idx → EReal) (a7 : S128x256.Idx → EReal) (a9 a10 : S128.Idx → EReal)
  (a11 : S256x256.Idx → EReal) (a13 a14 : S256.Idx → EReal) (a15 : S128x256.Idx → EReal) (a17 a18 : S128.Idx → EReal)
  (hidx : ∀ j, (a2 j).toNat < 10000) (V2 : Vl)

open Cert.Proof.KI.Host

structure Holds : Prop where
  v3 : arrOf V2 main_v3 = edgeT a1
  ga : ∀ (j : Fin 160000) (q : Fin 128), arrOf V2 main_v10_0 (ix2 j q) = Cert.Spec.hi (specOf a0 a1 a2 a3 a5 a6 a7 a9 a10 a11 a13 a14 a15 a17 a18 hidx) (nOf j, kOf j) q
  gb : ∀ (j : Fin 160000) (q : Fin 128), arrOf V2 main_v10_1 (ix2 j q) = Cert.Spec.hj (specOf a0 a1 a2 a3 a5 a6 a7 a9 a10 a11 a13 a14 a15 a17 a18 hidx) (nOf j, kOf j) q
  h3 : arrOf V2 main_arg3 = a3
  h5 : arrOf V2 main_arg5 = a5
  h6 : arrOf V2 main_arg6 = a6
  h7 : arrOf V2 main_arg7 = a7
  h9 : arrOf V2 main_arg9 = a9
  h10 : arrOf V2 main_arg10 = a10
  h11 : arrOf V2 main_arg11 = a11
  h13 : arrOf V2 main_arg13 = a13
  h14 : arrOf V2 main_arg14 = a14
  h15 : arrOf V2 main_arg15 = a15
  h17 : arrOf V2 main_arg17 = a17
  h18 : arrOf V2 main_arg18 = a18

theorem ops2_v3 : arrOf (StableHlo.after ops2 V2) main_v3 = arrOf V2 main_v3 := by
  show StableHlo.after ops2 V2 _ = _; unfold ops2; after_results
theorem ops2_v10_0 : arrOf (StableHlo.after ops2 V2) main_v10_0 = arrOf V2 main_v10_0 := by
  show StableHlo.after ops2 V2 _ = _; unfold ops2; after_results
theorem ops2_v10_1 : arrOf (StableHlo.after ops2 V2) main_v10_1 = arrOf V2 main_v10_1 := by
  show StableHlo.after ops2 V2 _ = _; unfold ops2; after_results
theorem ops2_v12 : arrOf (StableHlo.after ops2 V2) main_v12 = w1e (arrOf V2 main_arg3) := by
  show StableHlo.after ops2 V2 _ = _; unfold ops2; after_results; rfl
theorem ops2_v14 : arrOf (StableHlo.after ops2 V2) main_v14 = w1i (arrOf V2 main_arg3) := by
  show StableHlo.after ops2 V2 _ = _; unfold ops2; after_results; rfl
theorem ops2_v16 : arrOf (StableHlo.after ops2 V2) main_v16 = w1j (arrOf V2 main_arg3) := by
  show StableHlo.after ops2 V2 _ = _; unfold ops2; after_results; rfl
theorem ops2_v18 : arrOf (StableHlo.after ops2 V2) main_v18 = w3h (arrOf V2 main_arg11) := by
  show StableHlo.after ops2 V2 _ = _; unfold ops2; after_results; rfl
theorem ops2_v20 : arrOf (StableHlo.after ops2 V2) main_v20 = w3m (arrOf V2 main_arg11) := by
  show StableHlo.after ops2 V2 _ = _; unfold ops2; after_results; rfl
theorem ops2_v26 : arrOf (StableHlo.after ops2 V2) main_v26 = eye (F := Ideal) := by
  show StableHlo.after ops2 V2 _ = _; unfold ops2; after_results; rfl
theorem ops2_v27 : arrOf (StableHlo.after ops2 V2) main_v27 = row256 (arrOf V2 main_arg5) := by
  show StableHlo.after ops2 V2 _ = _; unfold ops2; after_results; rfl
theorem ops2_v28 : arrOf (StableHlo.after ops2 V2) main_v28 = row256 (arrOf V2 main_arg6) := by
  show StableHlo.after ops2 V2 _ = _; unfold ops2; after_results; rfl
theorem ops2_v29 : arrOf (StableHlo.after ops2 V2) main_v29 = wT (arrOf V2 main_arg7) := by
  show StableHlo.after ops2 V2 _ = _; unfold ops2; after_results; rfl
theorem ops2_v30 : arrOf (StableHlo.after ops2 V2) main_v30 = row128 (arrOf V2 main_arg9) := by
  show StableHlo.after ops2 V2 _ = _; unfold ops2; after_results; rfl
theorem ops2_v31 : arrOf (StableHlo.after ops2 V2) main_v31 = row128 (arrOf V2 main_arg10) := by
  show StableHlo.after ops2 V2 _ = _; unfold ops2; after_results; rfl
theorem ops2_v32 : arrOf (StableHlo.after ops2 V2) main_v32 = row256 (arrOf V2 main_arg13) := by
  show StableHlo.after ops2 V2 _ = _; unfold ops2; after_results; rfl
theorem ops2_v33 : arrOf (StableHlo.after ops2 V2) main_v33 = row256 (arrOf V2 main_arg14) := by
  show StableHlo.after ops2 V2 _ = _; unfold ops2; after_results; rfl
theorem ops2_v34 : arrOf (StableHlo.after ops2 V2) main_v34 = wT (arrOf V2 main_arg15) := by
  show StableHlo.after ops2 V2 _ = _; unfold ops2; after_results; rfl
theorem ops2_v35 : arrOf (StableHlo.after ops2 V2) main_v35 = row128 (arrOf V2 main_arg17) := by
  show StableHlo.after ops2 V2 _ = _; unfold ops2; after_results; rfl
theorem ops2_v36 : arrOf (StableHlo.after ops2 V2) main_v36 = row128 (arrOf V2 main_arg18) := by
  show StableHlo.after ops2 V2 _ = _; unfold ops2; after_results; rfl

def endVal : Vl := StableHlo.after ops3 (chain aft1 Φ1 aft2 Φ2 aft3 Φ3 aft4 Φ4 aft5 Φ5 c (StableHlo.after ops2 V2))

variable (H : Holds a0 a1 a2 a3 a5 a6 a7 a9 a10 a11 a13 a14 a15 a17 a18 hidx V2)
include H

theorem reads_V3 : ReadsAt (specOf a0 a1 a2 a3 a5 a6 a7 a9 a10 a11 a13 a14 a15 a17 a18 hidx) (StableHlo.after ops2 V2) where
  e q n k := by
    rw [ops2_v3, H.v3, edgeT_apply]
    show a1 (ix4 (0 : Fin 1) q (nOf (jOf n k)) (kOf (jOf n k))) = _
    rw [nOf_jOf, kOf_jOf]
    rfl
  hi n k q := by rw [ops2_v10_0, H.ga, nOf_jOf, kOf_jOf]
  hj n k q := by rw [ops2_v10_1, H.gb, nOf_jOf, kOf_jOf]
  w1e q o := by rw [ops2_v12, H.h3, w1e_apply]; rfl
  w1i q o := by rw [ops2_v14, H.h3, w1i_apply]; rfl
  w1j q o := by rw [ops2_v16, H.h3, w1j_apply]; rfl
  g1 o := by rw [ops2_v27, H.h5, row256_apply]; rfl
  be1 o := by rw [ops2_v28, H.h6, row256_apply]; rfl
  w2 q o := by rw [ops2_v29, H.h7, wT_apply]; rfl
  g2 o := by rw [ops2_v30, H.h9, row128_apply]; rfl
  be2 o := by rw [ops2_v31, H.h10, row128_apply]; rfl
  w3h q o := by rw [ops2_v18, H.h11, w3h_apply]; rfl
  w3m q o := by rw [ops2_v20, H.h11, w3m_apply]; rfl
  g3 o := by rw [ops2_v32, H.h13, row256_apply]; rfl
  be3 o := by rw [ops2_v33, H.h14, row256_apply]; rfl
  w4 q o := by rw [ops2_v34, H.h15, wT_apply]; rfl
  g4 o := by rw [ops2_v35, H.h17, row128_apply]; rfl
  be4 o := by rw [ops2_v36, H.h18, row128_apply]; rfl

include C1 C2 C3 C4 C5

theorem end_v43 (c' : Fin 128) (n : Fin 10000) (k : Fin 16) :
    endVal aft1 Φ1 aft2 Φ2 aft3 Φ3 aft4 Φ4 aft5 Φ5 c V2 (Proc.devRef .tc main_v43) (ix4 (0 : Fin 1) c' n k)
      = Cert.Spec.outEdge (specOf a0 a1 a2 a3 a5 a6 a7 a9 a10 a11 a13 a14 a15 a17 a18 hidx) c' n k := by
  unfold endVal
  rw [ops3_v43, Host.outE_apply]
  exact (congrFun (steps_out aft1 Φ1 aft2 Φ2 aft3 Φ3 aft4 Φ4 aft5 Φ5 c _ C1 C2 C3 C4 C5 fun r j => (congrFun (ops2_v26 V2) _).trans (Host.eye_ideal r j)).1 _).trans
    (aE2t_spec _ _ _ _ _ _ _ _ _ _ _ _ _ _ _ _ _ _ _ (reads_V3 a0 a1 a2 a3 a5 a6 a7 a9 a10 a11 a13 a14 a15 a17 a18 hidx V2 H) c' n k)

theorem end_v44 (c' : Fin 128) (n : Fin 10000) :
    endVal aft1 Φ1 aft2 Φ2 aft3 Φ3 aft4 Φ4 aft5 Φ5 c V2 (Proc.devRef .tc main_v44) (ix4 (0 : Fin 1) c' n (0 : Fin 1))
      = Cert.Spec.outNode (specOf a0 a1 a2 a3 a5 a6 a7 a9 a10 a11 a13 a14 a15 a17 a18 hidx) c' n := by
  unfold endVal
  rw [ops3_v44, Host.outN_apply]
  exact (congrFun (steps_out aft1 Φ1 aft2 Φ2 aft3 Φ3 aft4 Φ4 aft5 Φ5 c _ C1 C2 C3 C4 C5 fun r j => (congrFun (ops2_v26 V2) _).trans (Host.eye_ideal r j)).2 _).trans
    (aOut_spec _ _ _ _ _ _ _ _ _ _ _ _ _ _ _ _ _ _ _ (reads_V3 a0 a1 a2 a3 a5 a6 a7 a9 a10 a11 a13 a14 a15 a17 a18 hidx V2 H) c' n)

end Out

section HoldsVal2

open Cert.Proof.KI.Host Cert.Proof.KI.GatherVal

variable (m : (ℓ : Loc nD τ sig) → Buf (Elt Ideal) ℓ) (c : Dev nD)
  (hidx : ∀ j : S2x1x10000x16.Idx, (m ((SparseCore.T c : Thread nD τ).loc main_arg2) j).toNat < 10000)

abbrev argAt (r : Ref sig .tc) := m ((SparseCore.T c : Thread nD τ).loc r)

abbrev mC : (ℓ : Loc nD τ sig) → Buf (Elt Ideal) ℓ := fun ℓ => StableHlo.after ops1 (StableHlo.launchContents m ℓ.1) ℓ.2

def V2k : Vl :=
  Function.update (Function.update (StableHlo.after ops1 (StableHlo.launchContents m c)) (Proc.devRef .tc main_v10_0) (gatheredA (mC m) c))
    (Proc.devRef .tc main_v10_1) (gatheredB (mC m) c)

-- Off the call's two results the valuation is the first host stretch's.
theorem V2k_arg (r : Ref sig .tc) (h0 : r ≠ main_v10_0) (h1 : r ≠ main_v10_1) {x}
    (e : StableHlo.after ops1 (StableHlo.launchContents m c) (Proc.devRef .tc r) = x) : V2k m c (Proc.devRef .tc r) = x := by
  unfold V2k
  rw [Function.update_of_ne (StableHlo.devRef_ne_of_ne h1), Function.update_of_ne (StableHlo.devRef_ne_of_ne h0), e]

theorem holds_V2k : Holds (argAt m c main_arg0) (argAt m c main_arg1) (argAt m c main_arg2) (argAt m c main_arg3) (argAt m c main_arg5) (argAt m c main_arg6) (argAt m c main_arg7) (argAt m c main_arg9) (argAt m c main_arg10) (argAt m c main_arg11) (argAt m c main_arg13) (argAt m c main_arg14) (argAt m c main_arg15) (argAt m c main_arg17) (argAt m c main_arg18) hidx (V2k m c) where
  v3 := V2k_arg m c main_v3 (by decide) (by decide) (by unfold ops1; after_results; rfl)
  ga j q := by
    have e : V2k m c (Proc.devRef .tc main_v10_0) = gatheredA (mC m) c := by
      unfold V2k
      rw [Function.update_of_ne (StableHlo.devRef_ne_of_ne (by decide)), Function.update_self]
    show V2k m c (Proc.devRef .tc main_v10_0) (ix2 j q) = _
    rw [e]
    show gathered (StableHlo.after ops1 (StableHlo.launchContents m c) (Proc.devRef .tc main_v1))
      (StableHlo.after ops1 (StableHlo.launchContents m c) (Proc.devRef .tc main_v6)) (ix2 j q) = _
    rw [after1_v1, after1_v6]
    exact gatheredA_spec _ _ _ hidx (fun _ _ => rfl) (fun _ _ => rfl) j q
  gb j q := by
    have e : V2k m c (Proc.devRef .tc main_v10_1) = gatheredB (mC m) c := by
      unfold V2k
      rw [Function.update_self]
    show V2k m c (Proc.devRef .tc main_v10_1) (ix2 j q) = _
    rw [e]
    show gathered (StableHlo.after ops1 (StableHlo.launchContents m c) (Proc.devRef .tc main_v1))
      (StableHlo.after ops1 (StableHlo.launchContents m c) (Proc.devRef .tc main_v9)) (ix2 j q) = _
    rw [after1_v1, after1_v9]
    exact gatheredB_spec _ _ _ hidx (fun _ _ => rfl) (fun _ _ => rfl) j q
  h3 := V2k_arg m c main_arg3 (by decide) (by decide) (by unfold ops1; after_results)
  h5 := V2k_arg m c main_arg5 (by decide) (by decide) (by unfold ops1; after_results)
  h6 := V2k_arg m c main_arg6 (by decide) (by decide) (by unfold ops1; after_results)
  h7 := V2k_arg m c main_arg7 (by decide) (by decide) (by unfold ops1; after_results)
  h9 := V2k_arg m c main_arg9 (by decide) (by decide) (by unfold ops1; after_results)
  h10 := V2k_arg m c main_arg10 (by decide) (by decide) (by unfold ops1; after_results)
  h11 := V2k_arg m c main_arg11 (by decide) (by decide) (by unfold ops1; after_results)
  h13 := V2k_arg m c main_arg13 (by decide) (by decide) (by unfold ops1; after_results)
  h14 := V2k_arg m c main_arg14 (by decide) (by decide) (by unfold ops1; after_results)
  h15 := V2k_arg m c main_arg15 (by decide) (by decide) (by unfold ops1; after_results)
  h17 := V2k_arg m c main_arg17 (by decide) (by decide) (by unfold ops1; after_results)
  h18 := V2k_arg m c main_arg18 (by decide) (by decide) (by unfold ops1; after_results)

end HoldsVal2

end Cert.Proof.KI.Val

end
-- ==== Proof.KPay1.lean ====
import proofs.«210907_g44332652429893_cont_8to1_b_736_41_alg».proof.Proof.Gen.KernelIdeal.Skeleton
import proofs.«210907_g44332652429893_cont_8to1_b_736_41_alg».proof.Proof.BnAlgebra
import Idealize.ShloMosaic.Lib.ValueIdx
import Idealize.ShloMosaic.Lib.ValueLayout
import Idealize.ShloMosaic.Lib.Pipeline.Value

noncomputable section

namespace Cert.Proof.KI.Pay1

open Cert.KernelIdeal Cert.KernelIdeal.Gen Idealize.ShloMosaic Idealize.ShloMosaic.ValueIdx
open scoped BigOperators

section Generic

variable {M K N : ℕ}

abbrev Dnn (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

abbrev Dtn (w : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], w⟩

-- An entry of a product into zero is the sum over the contracted coordinate of the products of the entries.
theorem matmul_nn_apply (w : DotDims.WF ⟨2, ![M, K]⟩ ⟨2, ![K, N]⟩ ⟨2, ![M, N]⟩ [1] [0] [0] [1] [] [])
    (X : FVec Ideal ⟨2, ![M, K]⟩ .f32) (W : FVec Ideal ⟨2, ![K, N]⟩ .f32) (r : Fin M) (o : Fin N) :
    matmul (F := Ideal) (Dnn w) none X W (constant ⟨2, ![M, N]⟩ .f32 0x00000000#32) (ix2 r o)
      = ∑ c : Fin K, X (ix2 r c) * W (ix2 c o) := by
  show FloatOps.matmul (Dnn w) none X W (constant ⟨2, ![M, N]⟩ .f32 0x00000000#32) (ix2 r o) = _
  rw [Ideal.matmul_constant_zero_apply, ← Equiv.sum_comp (contrEquiv1 (Dnn w) K rfl rfl).symm]
  refine Finset.sum_congr rfl fun c _ => ?_
  have hc := contrEquiv1_symm_val (Dnn w) K rfl rfl c
  exact congrArg₂ (fun a b => X a * W b)
    (Shape.idx_ext₂ (by simp [DotDims.lhsIdx]; rfl) (by simp [DotDims.lhsIdx]; exact hc))
    (Shape.idx_ext₂ (by simp [DotDims.rhsIdx]; exact hc) (by simp [DotDims.rhsIdx]; rfl))

theorem matmul_tn_apply (w : DotDims.WF ⟨2, ![K, M]⟩ ⟨2, ![K, N]⟩ ⟨2, ![M, N]⟩ [0] [0] [1] [1] [] [])
    (X : FVec Ideal ⟨2, ![K, M]⟩ .f32) (W : FVec Ideal ⟨2, ![K, N]⟩ .f32) (r : Fin M) (o : Fin N) :
    matmul (F := Ideal) (Dtn w) none X W (constant ⟨2, ![M, N]⟩ .f32 0x00000000#32) (ix2 r o)
      = ∑ c : Fin K, X (ix2 c r) * W (ix2 c o) := by
  show FloatOps.matmul (Dtn w) none X W (constant ⟨2, ![M, N]⟩ .f32 0x00000000#32) (ix2 r o) = _
  rw [Ideal.matmul_constant_zero_apply, ← Equiv.sum_comp (contrEquiv1 (Dtn w) K rfl rfl).symm]
  refine Finset.sum_congr rfl fun c _ => ?_
  have hc := contrEquiv1_symm_val (Dtn w) K rfl rfl c
  exact congrArg₂ (fun a b => X a * W b)
    (Shape.idx_ext₂ (by simp [DotDims.lhsIdx]; exact hc) (by simp [DotDims.lhsIdx]; rfl))
    (Shape.idx_ext₂ (by simp [DotDims.rhsIdx]; exact hc) (by simp [DotDims.rhsIdx]; rfl))

-- The sum over the rows of an M × N array, kept as a 1 × N row.
theorem colsum_apply (h : (⟨2, ![M, N]⟩ : Shape).Reduces [0] ⟨1, ![N]⟩) (hc : (⟨1, ![N]⟩ : Shape).ShapeCasts ⟨2, ![1, N]⟩)
    (v : FVec Ideal ⟨2, ![M, N]⟩ .f32) (hφ : FKind.Formats .f32) (hacc : (0x00000000#32 : BitVec 32) = FKind.add.neutral .f32 hφ)
    (u : Fin 1) (o : Fin N) :
    shapeCast ⟨2, ![1, N]⟩ (multiReduction (F := Ideal) .add [0] ⟨1, ![N]⟩ v 0x00000000#32 h hφ hacc) hc (ix2 u o)
      = ∑ r : Fin M, v (ix2 r o) := by
  rw [shapeCast_a_1a_apply, Ideal.multiReduction_add_single]
  exact Finset.sum_congr rfl fun r _ => congrArg v (Shape.idx_ext₂ rfl rfl)

-- A carried row increased by those column sums.
theorem carry_apply (h : (⟨2, ![M, N]⟩ : Shape).Reduces [0] ⟨1, ![N]⟩) (hc : (⟨1, ![N]⟩ : Shape).ShapeCasts ⟨2, ![1, N]⟩)
    (v : FVec Ideal ⟨2, ![M, N]⟩ .f32) (hφ : FKind.Formats .f32) (hacc : (0x00000000#32 : BitVec 32) = FKind.add.neutral .f32 hφ)
    (s : FVec Ideal ⟨2, ![1, N]⟩ .f32) (hs : (⟨2, ![1, N]⟩ : Shape).ShapeCasts ⟨2, ![1, N]⟩) (o : Fin N) :
    shapeCast ⟨2, ![1, N]⟩ (addf s (shapeCast ⟨2, ![1, N]⟩ (multiReduction (F := Ideal) .add [0] ⟨1, ![N]⟩ v 0x00000000#32 h hφ hacc) hc))
        hs (ix2 (0 : Fin 1) o)
      = s (ix2 (0 : Fin 1) o) + ∑ r : Fin M, v (ix2 r o) := by
  rw [shapeCast_self, addf_apply, colsum_apply]

-- A reset row is zero everywhere.
theorem zero_apply {s : Shape} (h : s.ShapeCasts s) (j : s.Idx) :
    shapeCast s (broadcast s (Scalar.ofBits (F := Ideal) .f32 0x00000000#32)) h j = 0 := by
  rw [shapeCast_self]; exact Ideal.ofBits_zero_f32

end Generic

variable (x0 : Vec Ideal S16x3200 .f32) (x5 : Vec Ideal S16x256 .f32) (x1 : Vec Ideal S3200x128 .f32)
  (x3 : Vec Ideal S128x256 .f32) (x2 : Vec Ideal S3200x128 .f32) (x4 : Vec Ideal S128x256 .f32)

theorem pay2_apply (r : Fin 3200) (o : Fin 256) :
    k1_pay2 (F := Ideal) x0 x5 x1 x3 x2 x4 (ix2 r o)
      = (∑ c : Fin 16, x0 (ix2 c r) * x5 (ix2 c o)) + (∑ c : Fin 128, x1 (ix2 r c) * x3 (ix2 c o))
          + ∑ c : Fin 128, x2 (ix2 r c) * x4 (ix2 c o) := by
  unfold k1_pay2
  simp only [addf_apply, shapeCast_self]
  exact congrArg₂ (· + ·) (congrArg₂ (· + ·) (matmul_tn_apply _ x0 x5 r o) (matmul_nn_apply _ x1 x3 r o)) (matmul_nn_apply _ x2 x4 r o)

theorem pay6_apply (s : Vec Ideal S1x256 .f32) (o : Fin 256) :
    k1_pay6 (F := Ideal) x0 x5 x1 x3 x2 x4 s (ix2 (0 : Fin 1) o)
      = s (ix2 (0 : Fin 1) o) + ∑ r : Fin 3200, k1_pay2 (F := Ideal) x0 x5 x1 x3 x2 x4 (ix2 r o) :=
  carry_apply _ _ (k1_pay2 (F := Ideal) x0 x5 x1 x3 x2 x4) _ _ s _ o

theorem pay1_apply (s : Vec Ideal S1x256 .f32) (o : Fin 256) :
    k1_pay1 (F := Ideal) (k1_pay3 (F := Ideal) x0 x5 x1 x3 x2 x4) s (ix2 (0 : Fin 1) o)
      = s (ix2 (0 : Fin 1) o)
          + ∑ r : Fin 3200, k1_pay2 (F := Ideal) x0 x5 x1 x3 x2 x4 (ix2 r o) * k1_pay2 (F := Ideal) x0 x5 x1 x3 x2 x4 (ix2 r o) :=
  carry_apply _ _ (mulf (k1_pay2 (F := Ideal) x0 x5 x1 x3 x2 x4) (k1_pay2 (F := Ideal) x0 x5 x1 x3 x2 x4)) _ _ s _ o

theorem pay4_apply (j : S1x256.Idx) : k1_pay4 (F := Ideal) j = 0 := zero_apply _ j

theorem pay5_apply (j : S1x256.Idx) : k1_pay5 (F := Ideal) j = 0 := zero_apply _ j

end Cert.Proof.KI.Pay1

end
-- ==== Proof.KValue1.lean ====
import proofs.«210907_g44332652429893_cont_8to1_b_736_41_alg».proof.Proof.KValContract
import proofs.«210907_g44332652429893_cont_8to1_b_736_41_alg».proof.Proof.KReg1
import proofs.«210907_g44332652429893_cont_8to1_b_736_41_alg».proof.Proof.KPay1
import proofs.«210907_g44332652429893_cont_8to1_b_736_41_alg».proof.Proof.KSums
import Idealize.ShloMosaic.Lib.Pipeline.Value
import Idealize.ShloMosaic.Lib.ValueIdx

set_option maxRecDepth 16384

noncomputable section

namespace Cert.Proof.KI.R1

open Cert.KernelIdeal Cert.KernelIdeal.Gen Cert.Proof.KI Cert.Proof.KI.Val
open Idealize.ShloMosaic Idealize.ShloMosaic.TcCoe Idealize.ShloMosaic.ValueIdx
open Idealize.ShloMosaic.SparseCore.Cfg (HIx)
open Idealize.SL Idealize.SL.BI Idealize.SL.Sem
open Idealize.ShloMosaic.Pipeline (Dat)
open scoped BigOperators

variable (Vv : Valuation τ sig (Elt Ideal)) (c : Dev nD)

theorem index1 : ∀ t : Fin grid1.N,
    (win1_0.index t 0 = 0 ∧ win1_0.index t 1 = t.val) ∧ (win1_1.index t 0 = t.val ∧ win1_1.index t 1 = 0)
    ∧ (win1_2.index t 0 = t.val ∧ win1_2.index t 1 = 0) ∧ (win1_6.index t 0 = t.val ∧ win1_6.index t 1 = 0) := by decide +kernel
theorem index1w : ∀ t : Fin grid1.N,
    (win1_3.index t 0 = 0 ∧ win1_3.index t 1 = 0) ∧ (win1_4.index t 0 = 0 ∧ win1_4.index t 1 = 0)
    ∧ (win1_5.index t 0 = 0 ∧ win1_5.index t 1 = 0) ∧ (win1_7.index t 0 = 0 ∧ win1_7.index t 1 = 0) := by decide +kernel
theorem xsize1_6 : ∀ t : Fin grid1.N, win1_6.xsize (grid1.coords t) 0 = 3200 ∧ win1_6.xsize (grid1.coords t) 1 = 256 := by decide +kernel

theorem lt_rows (t : Fin cfg1.N) (r : Fin 3200) : 3200 * t.val + r.val < 160000 := by
  have := lt_of_lt_of_eq t.isLt N_1; have := r.isLt; omega

abbrev Y1 : S160000x256.Idx → EReal :=
  y1K (arrOf Vv main_v3) (arrOf Vv main_v10_0) (arrOf Vv main_v10_1) (arrOf Vv main_v14) (arrOf Vv main_v16) (arrOf Vv main_v12)

-- An entry of a window's block sits in the array at the block's offset plus its own coordinates, axis by axis.
theorem yb1_apply (t : Fin cfg1.N) (r : Fin 3200) (o : Fin 256) :
    yb1 Vv t (ix2 r o) = Y1 Vv (ix2 ⟨3200 * t.val + r.val, lt_rows t r⟩ o) := by
  obtain ⟨⟨e0, e1⟩, ⟨i0, i1⟩, ⟨j0, j1⟩, -⟩ := index1 t
  obtain ⟨⟨a0, a1⟩, ⟨b0, b1⟩, ⟨c0, c1⟩, -⟩ := index1w t
  refine (Pay1.pay2_apply _ _ _ _ _ _ r o).trans (congrArg₂ (· + ·) (congrArg₂ (· + ·) ?_ ?_) ?_) <;>
    refine Finset.sum_congr rfl fun q _ => congrArg₂ (· * ·) (congrArg (Vv _) (Shape.idx_ext₂ ?_ ?_))
      (congrArg (Vv _) (Shape.idx_ext₂ ?_ ?_))
  · show win1_0.index t 0 * 16 + 1 * q.val = q.val; omega
  · show win1_0.index t 1 * 3200 + 1 * r.val = 3200 * t.val + r.val; omega
  · show win1_5.index t 0 * 16 + 1 * q.val = q.val; omega
  · show win1_5.index t 1 * 256 + 1 * o.val = o.val; omega
  · show win1_1.index t 0 * 3200 + 1 * r.val = 3200 * t.val + r.val; omega
  · show win1_1.index t 1 * 128 + 1 * q.val = q.val; omega
  · show win1_3.index t 0 * 128 + 1 * q.val = q.val; omega
  · show win1_3.index t 1 * 256 + 1 * o.val = o.val; omega
  · show win1_2.index t 0 * 3200 + 1 * r.val = 3200 * t.val + r.val; omega
  · show win1_2.index t 1 * 128 + 1 * q.val = q.val; omega
  · show win1_4.index t 0 * 128 + 1 * q.val = q.val; omega
  · show win1_4.index t 1 * 256 + 1 * o.val = o.val; omega

theorem flushed1_6 (t : Fin cfg1.N) (hf : (cfg1.win 6).flush t = true) :
    (D1 Vv c).flushed 6 t = ((cfg1.win 6).blk t).view.read (Elt Ideal) (Y1 Vv) := by
  show (yb1 Vv t : S3200x256.Idx → EReal) = (((cfg1.win 6).blk t).view.read (Elt Ideal) (Y1 Vv) : S3200x256.Idx → EReal)
  funext y
  obtain ⟨r, o, rfl⟩ : ∃ (r : Fin 3200) (o : Fin 256), y = ix2 r o := ⟨y 0, y 1, eq_ix2 y⟩
  have hi := (index1 t).2.2.2
  refine (yb1_apply Vv t r o).trans (congrArg (Y1 Vv) (Shape.idx_ext₂ ?_ ?_)).symm
  · show win1_6.index t 0 * 3200 + 1 * r.val = 3200 * t.val + r.val; rw [hi.1]; omega
  · show win1_6.index t 1 * 256 + 1 * o.val = o.val; rw [hi.2]; omega

-- Position i lies in the block of point i / 3200.
theorem arr1_6 : (D1 Vv c).arrAt 6 cfg1.N = Y1 Vv :=
  (D1 Vv c).arrAt_eq_of_cover 6 (Y1 Vv) (flushed1_6 Vv c) fun i => by
    have h0 : (i 0 : ℕ) < 160000 := (i 0).isLt
    have h1 : (i 1 : ℕ) < 256 := (i 1).isLt
    have ht : (i 0 : ℕ) / 3200 < cfg1.N := by rw [show cfg1.N = 50 from N_1]; omega
    refine ⟨⟨(i 0 : ℕ) / 3200, ht⟩, flush1_6 _, ?_⟩
    show i ∈ ((View.whole main_v37_0).slice (win1_6.rect ⟨(i 0 : ℕ) / 3200, ht⟩)).set
    rw [View.set_slice_whole, Rect.mem_set_unit]
    intro a
    have hi := (index1 ⟨(i 0 : ℕ) / 3200, ht⟩).2.2.2
    have hx := xsize1_6 ⟨(i 0 : ℕ) / 3200, ht⟩
    match a with
    | ⟨0, _⟩ =>
      show win1_6.index _ 0 * 3200 ≤ (i 0 : ℕ) ∧ (i 0 : ℕ) < win1_6.index _ 0 * 3200 + win1_6.xsize _ 0
      rw [hi.1, hx.1]; dsimp only; omega
    | ⟨1, _⟩ =>
      show win1_6.index _ 1 * 256 ≤ (i 1 : ℕ) ∧ (i 1 : ℕ) < win1_6.index _ 1 * 256 + win1_6.xsize _ 1
      rw [hi.2, hx.2]; omega

theorem t49_lt : 49 < cfg1.N := by rw [show cfg1.N = 50 from N_1]; decide

abbrev t49 : Fin cfg1.N := ⟨49, t49_lt⟩

def statLast : S2x256.Idx → EReal := stat2 (accS1 Vv 49 t49_lt) (accQ1 Vv 49 t49_lt)

theorem flushed1_7 (t : Fin cfg1.N) (hf : (cfg1.win 7).flush t = true) :
    (D1 Vv c).flushed 7 t = ((cfg1.win 7).blk t).view.read (Elt Ideal) (statLast Vv) := by
  obtain rfl : t = t49 := Fin.ext (by show t.val = 49; have := (flush1_7 t).mp hf; have := lt_of_lt_of_eq t.isLt N_1; omega)
  have hz' : (fun a => win1_7.index t49 a * main_v37_1.ty.shape.size a) = fun _ => 0 := funext fun a => by fin_cases a <;> decide +kernel
  exact (Memref.read_access_unit_zero (Elt Ideal) main_v37_1 hz' (fun a => by rw [congrFun hz' a]; simp) (statLast Vv)).symm

theorem arr1_7 : (D1 Vv c).arrAt 7 cfg1.N = statLast Vv :=
  (D1 Vv c).arrAt_eq_of_cover 7 (statLast Vv) (flushed1_7 Vv c) fun i => by
    refine ⟨t49, (flush1_7 t49).mpr rfl, ?_⟩
    show i ∈ ((View.whole main_v37_1).slice (win1_7.rect t49)).set
    rw [View.set_slice_whole, Rect.mem_set_unit]
    intro a
    have h0 : (i 0 : ℕ) < 2 := (i 0).isLt
    have h1 : (i 1 : ℕ) < 256 := (i 1).isLt
    match a with
    | ⟨0, _⟩ =>
      show win1_7.index t49 0 * win1_7.size 0 ≤ (i 0 : ℕ) ∧ (i 0 : ℕ) < win1_7.index t49 0 * win1_7.size 0 + win1_7.xsize (grid1.coords t49) 0
      rw [show win1_7.index t49 0 * win1_7.size 0 = 0 from by decide +kernel, show win1_7.xsize (grid1.coords t49) 0 = 2 from by decide +kernel]; omega
    | ⟨1, _⟩ =>
      show win1_7.index t49 1 * win1_7.size 1 ≤ (i 1 : ℕ) ∧ (i 1 : ℕ) < win1_7.index t49 1 * win1_7.size 1 + win1_7.xsize (grid1.coords t49) 1
      rw [show win1_7.index t49 1 * win1_7.size 1 = 0 from by decide +kernel, show win1_7.xsize (grid1.coords t49) 1 = 256 from by decide +kernel]; omega

-- Of the two row pieces laid into the two-row block, row 0 reads the piece laid at row 0, row 1 the piece laid at row 1.
theorem stat2_row0 (s q : S1x256.Idx → EReal) (o : Fin 256) :
    stat2 (F := Idealize.ShloMosaic.Ideal) s q (ix2 (0 : Fin 2) o) = s (ix2 (0 : Fin 1) o) := by
  have hn : ix2 (0 : Fin 2) o ∉ (Rect.unit (s := S2x256) ![1, 0] S1x256.size inb_S2x256_S1x256_1_0).set := by
    rw [Rect.mem_set_unit]; intro h
    have h'' : (1 : ℕ) ≤ 0 := (h 0).1
    omega
  have e : ix2 (0 : Fin 2) o = (Rect.unit (s := S2x256) ![0, 0] S1x256.size inb_S2x256_S1x256_0_0).emb (ix2 (0 : Fin 1) o) :=
    Shape.idx_ext₂ rfl (by show o.val = 0 + 1 * o.val; omega)
  unfold stat2
  rw [View.canon_cons_of_not_mem (Val := Elt Idealize.ShloMosaic.Ideal)
    (⟨Rect.unit (s := S2x256) ![1, 0] S1x256.size inb_S2x256_S1x256_1_0, q⟩ : View.Piece (Elt Idealize.ShloMosaic.Ideal) S2x256 .f32)
    [⟨Rect.unit (s := S2x256) ![0, 0] S1x256.size inb_S2x256_S1x256_0_0, s⟩] hn, e]
  exact View.canon_cons_emb (Val := Elt Idealize.ShloMosaic.Ideal) (e := .f32) (Rect.unit (s := S2x256) ![0, 0] S1x256.size inb_S2x256_S1x256_0_0) s [] (ix2 (0 : Fin 1) o)

theorem stat2_row1 (s q : S1x256.Idx → EReal) (o : Fin 256) :
    stat2 (F := Idealize.ShloMosaic.Ideal) s q (ix2 (1 : Fin 2) o) = q (ix2 (0 : Fin 1) o) := by
  have e : ix2 (1 : Fin 2) o = (Rect.unit (s := S2x256) ![1, 0] S1x256.size inb_S2x256_S1x256_1_0).emb (ix2 (0 : Fin 1) o) :=
    Shape.idx_ext₂ rfl (by show o.val = 0 + 1 * o.val; omega)
  unfold stat2
  rw [e]
  exact View.canon_cons_emb (Val := Elt Idealize.ShloMosaic.Ideal) (e := .f32) (Rect.unit (s := S2x256) ![1, 0] S1x256.size inb_S2x256_S1x256_1_0) q
    [⟨Rect.unit (s := S2x256) ![0, 0] S1x256.size inb_S2x256_S1x256_0_0, s⟩] (ix2 (0 : Fin 1) o)

theorem accS1_last (o : Fin 256) : accS1 Vv 49 t49_lt (ix2 (0 : Fin 1) o) = ∑ j : Fin 160000, Y1 Vv (ix2 j o) :=
  Sums.fold_blocks N_1 (fun j => Y1 Vv (ix2 j o)) (fun n h => accS1 Vv n h (ix2 (0 : Fin 1) o))
    (fun h => (Pay1.pay6_apply _ _ _ _ _ _ _ o).trans (congrArg₂ (· + ·) (Pay1.pay4_apply _)
      (Finset.sum_congr rfl fun r _ => yb1_apply Vv ⟨0, h⟩ r o)))
    (fun n h _ => (Pay1.pay6_apply _ _ _ _ _ _ _ o).trans (congrArg (_ + ·)
      (Finset.sum_congr rfl fun r _ => yb1_apply Vv ⟨n + 1, h⟩ r o))) t49_lt

theorem accQ1_last (o : Fin 256) : accQ1 Vv 49 t49_lt (ix2 (0 : Fin 1) o) = ∑ j : Fin 160000, Y1 Vv (ix2 j o) * Y1 Vv (ix2 j o) :=
  Sums.fold_blocks N_1 (fun j => Y1 Vv (ix2 j o) * Y1 Vv (ix2 j o)) (fun n h => accQ1 Vv n h (ix2 (0 : Fin 1) o))
    (fun h => (Pay1.pay1_apply _ _ _ _ _ _ _ o).trans (congrArg₂ (· + ·) (Pay1.pay5_apply _)
      (Finset.sum_congr rfl fun r _ => congrArg₂ (· * ·) (yb1_apply Vv ⟨0, h⟩ r o) (yb1_apply Vv ⟨0, h⟩ r o))))
    (fun n h _ => (Pay1.pay1_apply _ _ _ _ _ _ _ o).trans (congrArg (_ + ·)
      (Finset.sum_congr rfl fun r _ => congrArg₂ (· * ·) (yb1_apply Vv ⟨n + 1, h⟩ r o) (yb1_apply Vv ⟨n + 1, h⟩ r o)))) t49_lt

theorem statLast_eq : statLast Vv = statsOf (Y1 Vv) := by
  funext i
  obtain ⟨a, o, rfl⟩ : ∃ (a : Fin 2) (o : Fin 256), i = ix2 a o := ⟨i 0, i 1, eq_ix2 i⟩
  unfold statLast Val.statsOf
  rw [Val.mat_apply]
  match a with
  | ⟨0, _⟩ => exact ((stat2_row0 _ _ o).trans (accS1_last Vv o)).trans (if_pos rfl).symm
  | ⟨1, _⟩ => exact ((stat2_row1 _ _ o).trans (accQ1_last Vv o)).trans (if_neg Nat.one_ne_zero).symm

end Cert.Proof.KI.R1

namespace Cert.Proof.KI

open Cert.KernelIdeal Cert.KernelIdeal.Gen Cert.Proof.KI.R1
open Idealize.ShloMosaic

theorem contract1 : Val.Contract1 (after1 (F := Ideal)) (Phi1 (F := Ideal)) := fun Vv c =>
  ⟨arr1_6 Vv c, (arr1_7 Vv c).trans (statLast_eq Vv)⟩

end Cert.Proof.KI

end
-- ==== Proof.KPay2.lean ====
import proofs.«210907_g44332652429893_cont_8to1_b_736_41_alg».proof.Proof.KPay1

noncomputable section

namespace Cert.Proof.KI.Pay2

open Cert.KernelIdeal Cert.KernelIdeal.Gen Idealize.ShloMosaic Idealize.ShloMosaic.ValueIdx Cert.Proof.KI.Pay1
open scoped BigOperators

theorem row0_read {n : ℕ} (x : (⟨2, ![2, n]⟩ : Shape).Idx → EReal) (h : (⟨2, ![2, n]⟩ : Shape).Slices ![0, 0] ⟨2, ![1, n]⟩)
    (u : Fin 1) (c : Fin n) : extractStridedSlice ⟨2, ![1, n]⟩ ![0, 0] x h (ix2 u c) = x (ix2 (0 : Fin 2) c) :=
  slice2_axis0_apply 0 x h u c 0 (by have := u.isLt; omega)

theorem row1_read {n : ℕ} (x : (⟨2, ![2, n]⟩ : Shape).Idx → EReal) (h : (⟨2, ![2, n]⟩ : Shape).Slices ![1, 0] ⟨2, ![1, n]⟩)
    (u : Fin 1) (c : Fin n) : extractStridedSlice ⟨2, ![1, n]⟩ ![1, 0] x h (ix2 u c) = x (ix2 (1 : Fin 2) c) :=
  slice2_axis0_apply 1 x h u c 1 (by have := u.isLt; omega)

theorem rsqrt_apply {s : Shape} (v : FVec Ideal s .f32) (i : s.Idx) : rsqrt v i = Ideal.rsqrt (v i) := rfl

theorem scalar_ofBits (b : BitVec 32) : (Scalar.ofBits (F := Ideal) .f32 b) = Ideal.ofBits .f32 b := rfl

variable (x2 : Vec Ideal S2x256 .f32) (x3 x4 : Vec Ideal S1x256 .f32) (x1 : Vec Ideal S3200x256 .f32) (x5 : Vec Ideal S256x128 .f32)

theorem pay5_apply (r : Fin 3200) (o : Fin 128) :
    k2_pay5 (F := Ideal) x2 x3 x4 x1 x5 (ix2 r o)
      = ∑ c : Fin 256,
          max (x1 (ix2 r c) * Cert.Spec.bnA (x2 (ix2 (0 : Fin 2) c)) (x2 (ix2 (1 : Fin 2) c)) (x3 (ix2 (0 : Fin 1) c))
              + Cert.Spec.bnC (x2 (ix2 (0 : Fin 2) c)) (x2 (ix2 (1 : Fin 2) c)) (x3 (ix2 (0 : Fin 1) c)) (x4 (ix2 (0 : Fin 1) c))) 0
            * x5 (ix2 c o) := by
  unfold k2_pay5
  simp only [shapeCast_self]
  refine (matmul_nn_apply _ _ x5 r o).trans (Finset.sum_congr rfl fun c _ => ?_)
  simp only [maximumf_apply, addf_apply, mulf_apply, subf_apply, divf_apply, rsqrt_apply, broadcast_apply,
    broadcastTo_1b_ab_apply, row0_read, row1_read, scalar_ofBits, Ideal.ofBits_zero_f32]
  rfl

theorem pay3_apply (s : Vec Ideal S1x128 .f32) (o : Fin 128) :
    k2_pay3 (F := Ideal) (k2_pay6 (F := Ideal) x2 x3 x4 x1 x5) s (ix2 (0 : Fin 1) o)
      = s (ix2 (0 : Fin 1) o) + ∑ r : Fin 3200, k2_pay5 (F := Ideal) x2 x3 x4 x1 x5 (ix2 r o) :=
  carry_apply _ _ (k2_pay5 (F := Ideal) x2 x3 x4 x1 x5) _ _ s _ o

theorem pay4_apply (s : Vec Ideal S1x128 .f32) (o : Fin 128) :
    k2_pay4 (F := Ideal) (k2_pay7 (F := Ideal) x2 x3 x4 x1 x5) s (ix2 (0 : Fin 1) o)
      = s (ix2 (0 : Fin 1) o)
          + ∑ r : Fin 3200, k2_pay5 (F := Ideal) x2 x3 x4 x1 x5 (ix2 r o) * k2_pay5 (F := Ideal) x2 x3 x4 x1 x5 (ix2 r o) :=
  carry_apply _ _ (mulf (k2_pay5 (F := Ideal) x2 x3 x4 x1 x5) (k2_pay5 (F := Ideal) x2 x3 x4 x1 x5)) _ _ s _ o

theorem pay1_apply (j : S1x128.Idx) : k2_pay1 (F := Ideal) j = 0 := zero_apply _ j

theorem pay2_apply (j : S1x128.Idx) : k2_pay2 (F := Ideal) j = 0 := zero_apply _ j

end Cert.Proof.KI.Pay2

end
-- ==== Proof.KValue2.lean ====
import proofs.«210907_g44332652429893_cont_8to1_b_736_41_alg».proof.Proof.KValContract
import proofs.«210907_g44332652429893_cont_8to1_b_736_41_alg».proof.Proof.KReg2
import proofs.«210907_g44332652429893_cont_8to1_b_736_41_alg».proof.Proof.KPay2
import proofs.«210907_g44332652429893_cont_8to1_b_736_41_alg».proof.Proof.KSums
import Idealize.ShloMosaic.Lib.Pipeline.Value
import Idealize.ShloMosaic.Lib.ValueIdx

set_option maxRecDepth 16384

noncomputable section

namespace Cert.Proof.KI.R2

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.KI.R2
open Idealize.ShloMosaic.ValueIdx
open scoped BigOperators

variable {F : FTy → Type} [FloatOps F]

variable (Vv : Valuation τ sig (Elt F)) (c : Dev nD)

theorem idx_rows : ∀ t : Fin cfg2.N, win2_0.index t (0 : Fin 2) = t.val ∧ win2_0.index t (1 : Fin 2) = 0
    ∧ win2_5.index t (0 : Fin 2) = t.val ∧ win2_5.index t (1 : Fin 2) = 0 :=
  (by decide +kernel : ∀ t : Fin grid2.N, _)

theorem idx_whole : ∀ t : Fin cfg2.N, (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_6.index t (0 : Fin 2) = 0 ∧ win2_6.index t (1 : Fin 2) = 0) :=
  (by decide +kernel : ∀ t : Fin grid2.N, _)

theorem lt50 (t : Fin cfg2.N) : t.val < 50 := lt_of_lt_of_eq t.isLt N_2

def in0 : S160000x256.Idx → Elt F .f32 := Vv (Proc.devRef .tc main_v37_0)
def in1 : S2x256.Idx → Elt F .f32 := Vv (Proc.devRef .tc main_v37_1)
def in2 : S1x256.Idx → Elt F .f32 := Vv (Proc.devRef .tc main_v27)
def in3 : S1x256.Idx → Elt F .f32 := Vv (Proc.devRef .tc main_v28)
def in4 : S256x128.Idx → Elt F .f32 := Vv (Proc.devRef .tc main_v29)

-- An entry of a window's block sits in the array at the block's offset plus its own coordinates, axis by axis.
theorem blk2_0_apply (t : Fin cfg2.N) (r : Fin 3200) (q : Fin 256) :
    blk2 Vv c 0 t (ix2 r q) = in0 Vv (ix2 (Sums.blk ⟨t.val, lt50 t⟩ r) q) := by
  obtain ⟨e0, e1, -, -⟩ := idx_rows t
  show in0 Vv (((cfg2.win 0).blk t).view.emb (ix2 r q)) = in0 Vv _
  exact congrArg (in0 Vv) (Shape.idx_ext₂ (by show win2_0.index t (0 : Fin 2) * 3200 + 1 * r.val = 3200 * t.val + r.val; omega)
    (by show win2_0.index t (1 : Fin 2) * 256 + 1 * q.val = q.val; omega))

theorem blk2_1_apply (t : Fin cfg2.N) (y : S2x256.Idx) : blk2 Vv c 1 t y = in1 Vv y := by
  obtain ⟨⟨e0, e1⟩, -⟩ := idx_whole t
  show in1 Vv (((cfg2.win 1).blk t).view.emb y) = in1 Vv y
  exact congrArg (in1 Vv) (Shape.idx_ext₂ (by show win2_1.index t (0 : Fin 2) * 2 + 1 * (y 0).val = (y 0).val; omega)
    (by show win2_1.index t (1 : Fin 2) * 256 + 1 * (y 1).val = (y 1).val; omega))
theorem blk2_2_apply (t : Fin cfg2.N) (y : S1x256.Idx) : blk2 Vv c 2 t y = in2 Vv y := by
  obtain ⟨-, ⟨e0, e1⟩, -⟩ := idx_whole t
  show in2 Vv (((cfg2.win 2).blk t).view.emb y) = in2 Vv y
  exact congrArg (in2 Vv) (Shape.idx_ext₂ (by show win2_2.index t (0 : Fin 2) * 1 + 1 * (y 0).val = (y 0).val; omega)
    (by show win2_2.index t (1 : Fin 2) * 256 + 1 * (y 1).val = (y 1).val; omega))
theorem blk2_3_apply (t : Fin cfg2.N) (y : S1x256.Idx) : blk2 Vv c 3 t y = in3 Vv y := by
  obtain ⟨-, -, ⟨e0, e1⟩, -⟩ := idx_whole t
  show in3 Vv (((cfg2.win 3).blk t).view.emb y) = in3 Vv y
  exact congrArg (in3 Vv) (Shape.idx_ext₂ (by show win2_3.index t (0 : Fin 2) * 1 + 1 * (y 0).val = (y 0).val; omega)
    (by show win2_3.index t (1 : Fin 2) * 256 + 1 * (y 1).val = (y 1).val; omega))
theorem blk2_4_apply (t : Fin cfg2.N) (y : S256x128.Idx) : blk2 Vv c 4 t y = in4 Vv y := by
  obtain ⟨-, -, -, ⟨e0, e1⟩, -⟩ := idx_whole t
  show in4 Vv (((cfg2.win 4).blk t).view.emb y) = in4 Vv y
  exact congrArg (in4 Vv) (Shape.idx_ext₂ (by show win2_4.index t (0 : Fin 2) * 256 + 1 * (y 0).val = (y 0).val; omega)
    (by show win2_4.index t (1 : Fin 2) * 128 + 1 * (y 1).val = (y 1).val; omega))

def y2Arr : S160000x128.Idx → Elt F .f32 := fun i =>
  prod2 Vv c ⟨(i 0).val / 3200, by have := idx2_lt0 i; rw [show cfg2.N = 50 from N_2]; omega⟩
    (ix2 (n0 := 3200) (n1 := 128) ⟨(i 0).val % 3200, Nat.mod_lt _ (by decide)⟩ ⟨(i 1).val, idx2_lt1 i⟩)

-- Row R of the array is row R % 3200 of the block of point R / 3200.
theorem y2Arr_at (t : Fin cfg2.N) (r : Fin 3200) (o : Fin 128) (i : S160000x128.Idx) (h0 : (i 0).val = 3200 * t.val + r.val)
    (h1 : (i 1).val = o.val) : y2Arr Vv c i = prod2 Vv c t (ix2 r o) := by
  have hr := r.isLt
  exact congrArg₂ (fun (t' : Fin cfg2.N) (y' : S3200x128.Idx) => prod2 Vv c t' y') (Fin.ext (by show (i 0).val / 3200 = t.val; omega))
    (Shape.idx_ext₂ (by show (i 0).val % 3200 = r.val; omega) h1)

theorem flushed2_5 (t : Fin cfg2.N) :
    (D2 Vv c).flushed 5 t = ((cfg2.win 5).blk t).view.read (Elt F) (y2Arr Vv c) := by
  obtain ⟨-, -, e0, e1⟩ := idx_rows t
  funext y
  obtain ⟨r, o, rfl⟩ : ∃ (r : Fin 3200) (o : Fin 128), y = ix2 r o := ⟨y 0, y 1, eq_ix2 y⟩
  show prod2 Vv c t (ix2 r o) = y2Arr Vv c (((cfg2.win 5).blk t).view.emb (ix2 r o))
  exact (y2Arr_at Vv c t r o _ (by show win2_5.index t (0 : Fin 2) * 3200 + 1 * r.val = _; omega)
    (by show win2_5.index t (1 : Fin 2) * 128 + 1 * o.val = _; omega)).symm

-- Position i lies in the block of point i / 3200.
theorem final2_5 : (D2 Vv c).arrAt 5 cfg2.N = y2Arr Vv c :=
  (D2 Vv c).arrAt_eq_of_cover 5 (y2Arr Vv c) (fun t _ => flushed2_5 Vv c t) fun i => by
    have hi0 : (i 0).val < 160000 := idx2_lt0 i
    have hi1 : (i 1).val < 128 := idx2_lt1 i
    have hq : (i 0).val / 3200 < cfg2.N := by rw [show cfg2.N = 50 from N_2]; omega
    obtain ⟨-, -, e0, e1⟩ := idx_rows ⟨(i 0).val / 3200, hq⟩
    refine ⟨⟨(i 0).val / 3200, hq⟩, flush2_5 _, ?_⟩
    show i ∈ ((View.whole main_v38_0).slice (win2_5.rect ⟨(i 0).val / 3200, hq⟩)).set
    rw [View.set_slice_whole, Rect.mem_set_unit]
    intro a
    match a with
    | ⟨0, _⟩ =>
      show win2_5.index ⟨(i 0).val / 3200, hq⟩ (0 : Fin 2) * 3200 ≤ (i 0).val ∧ (i 0).val < win2_5.index ⟨(i 0).val / 3200, hq⟩ (0 : Fin 2) * 3200 + 3200
      rw [e0]; show (i 0).val / 3200 * 3200 ≤ (i 0).val ∧ (i 0).val < (i 0).val / 3200 * 3200 + 3200; omega
    | ⟨1, _⟩ =>
      show win2_5.index ⟨(i 0).val / 3200, hq⟩ (1 : Fin 2) * 128 ≤ (i 1).val ∧ (i 1).val < win2_5.index ⟨(i 0).val / 3200, hq⟩ (1 : Fin 2) * 128 + 128
      omega

theorem h49 : 49 < cfg2.N := by rw [show cfg2.N = 50 from N_2]; decide

def statsArr : S2x128.Idx → Elt F .f32 := stats2 (accAt Vv c 49 h49).1 (accAt Vv c 49 h49).2

theorem flushed2_6 (t : Fin cfg2.N) (h : (cfg2.win 6).flush t = true) :
    (D2 Vv c).flushed 6 t = ((cfg2.win 6).blk t).view.read (Elt F) (statsArr Vv c) := by
  obtain rfl : t = ⟨49, h49⟩ := Fin.ext (by have := (flush2_6 t).mp h; have := lt50 t; show t.val = 49; omega)
  obtain ⟨-, -, -, -, e0, e1⟩ := idx_whole ⟨49, h49⟩
  funext y
  show statsArr Vv c y = statsArr Vv c (((cfg2.win 6).blk ⟨49, h49⟩).view.emb y)
  exact congrArg (statsArr Vv c) (Shape.idx_ext₂ (by show (y 0).val = win2_6.index ⟨49, h49⟩ (0 : Fin 2) * 2 + 1 * (y 0).val; omega)
    (by show (y 1).val = win2_6.index ⟨49, h49⟩ (1 : Fin 2) * 128 + 1 * (y 1).val; omega))

theorem final2_6 : (D2 Vv c).arrAt 6 cfg2.N = statsArr Vv c :=
  (D2 Vv c).arrAt_eq_of_cover 6 (statsArr Vv c) (flushed2_6 Vv c) fun i => by
    have hi0 : (i 0).val < 2 := idx2_lt0 i
    have hi1 : (i 1).val < 128 := idx2_lt1 i
    obtain ⟨-, -, -, -, e0, e1⟩ := idx_whole ⟨49, h49⟩
    refine ⟨⟨49, h49⟩, (flush2_6 _).mpr (by decide), ?_⟩
    show i ∈ ((View.whole main_v38_1).slice (win2_6.rect ⟨49, h49⟩)).set
    rw [View.set_slice_whole, Rect.mem_set_unit]
    intro a
    match a with
    | ⟨0, _⟩ =>
      show win2_6.index ⟨49, h49⟩ (0 : Fin 2) * 2 ≤ (i 0).val ∧ (i 0).val < win2_6.index ⟨49, h49⟩ (0 : Fin 2) * 2 + 2
      omega
    | ⟨1, _⟩ =>
      show win2_6.index ⟨49, h49⟩ (1 : Fin 2) * 128 ≤ (i 1).val ∧ (i 1).val < win2_6.index ⟨49, h49⟩ (1 : Fin 2) * 128 + 128
      omega

variable (Vi : Valuation τ sig (Elt Ideal))

theorem y2Arr_eq : y2Arr Vi c = Val.y2K (in0 Vi) (in1 Vi) (in2 Vi) (in3 Vi) (in4 Vi) := by
  funext i
  obtain ⟨R, o, rfl⟩ : ∃ (R : Fin 160000) (o : Fin 128), i = ix2 R o := ⟨i 0, i 1, eq_ix2 i⟩
  have hR := R.isLt
  have hq : R.val / 3200 < cfg2.N := by rw [show cfg2.N = 50 from N_2]; omega
  show prod2 Vi c ⟨R.val / 3200, hq⟩ (ix2 (n0 := 3200) (n1 := 128) ⟨R.val % 3200, Nat.mod_lt _ (by decide)⟩ o) = _
  unfold prod2
  refine (Pay2.pay5_apply _ _ _ _ _ _ o).trans ?_
  show _ = ∑ q : Fin 256, Val.bnAff (in1 Vi) (in2 Vi) (in3 Vi) (in0 Vi (ix2 R q)) q * in4 Vi (ix2 q o)
  refine Finset.sum_congr rfl fun q _ => ?_
  have e0 : blk2 Vi c 0 ⟨R.val / 3200, hq⟩ (ix2 (n0 := 3200) (n1 := 256) ⟨R.val % 3200, Nat.mod_lt _ (by decide)⟩ q) = in0 Vi (ix2 R q) :=
    (blk2_0_apply Vi c ⟨R.val / 3200, hq⟩ _ q).trans (congrArg (fun R' : Fin 160000 => in0 Vi (ix2 (n0 := 160000) (n1 := 256) R' q))
      (Fin.ext (by show 3200 * (R.val / 3200) + R.val % 3200 = R.val; omega)))
  rw [e0, blk2_1_apply, blk2_1_apply, blk2_2_apply, blk2_3_apply, blk2_4_apply]
  rfl

theorem prod2_blk (t : Fin cfg2.N) (r : Fin 3200) (o : Fin 128) :
    prod2 Vv c t (ix2 r o) = y2Arr Vv c (ix2 (Sums.blk ⟨t.val, lt50 t⟩ r) o) := (y2Arr_at Vv c t r o _ rfl rfl).symm

theorem acc_fst_last (o : Fin 128) :
    (accAt Vi c 49 h49).1 (ix2 (n0 := 1) (n1 := 128) 0 o) = ∑ j : Fin 160000, y2Arr Vi c (ix2 j o) :=
  Sums.fold_blocks N_2 (fun j => y2Arr Vi c (ix2 j o)) (fun n h => (accAt Vi c n h).1 (ix2 (n0 := 1) (n1 := 128) 0 o))
    (fun h => (Pay2.pay3_apply _ _ _ _ _ _ o).trans (congrArg₂ (· + ·) (Pay2.pay1_apply _)
      (Finset.sum_congr rfl fun r _ => prod2_blk Vi c ⟨0, h⟩ r o)))
    (fun n h _ => (Pay2.pay3_apply _ _ _ _ _ _ o).trans (congrArg (_ + ·)
      (Finset.sum_congr rfl fun r _ => prod2_blk Vi c ⟨n + 1, h⟩ r o))) h49

theorem acc_snd_last (o : Fin 128) :
    (accAt Vi c 49 h49).2 (ix2 (n0 := 1) (n1 := 128) 0 o) = ∑ j : Fin 160000, y2Arr Vi c (ix2 j o) * y2Arr Vi c (ix2 j o) :=
  Sums.fold_blocks N_2 (fun j => y2Arr Vi c (ix2 j o) * y2Arr Vi c (ix2 j o)) (fun n h => (accAt Vi c n h).2 (ix2 (n0 := 1) (n1 := 128) 0 o))
    (fun h => (Pay2.pay4_apply _ _ _ _ _ _ o).trans (congrArg₂ (· + ·) (Pay2.pay2_apply _)
      (Finset.sum_congr rfl fun r _ => congrArg₂ (· * ·) (prod2_blk Vi c ⟨0, h⟩ r o) (prod2_blk Vi c ⟨0, h⟩ r o))))
    (fun n h _ => (Pay2.pay4_apply _ _ _ _ _ _ o).trans (congrArg (_ + ·)
      (Finset.sum_congr rfl fun r _ => congrArg₂ (· * ·) (prod2_blk Vi c ⟨n + 1, h⟩ r o) (prod2_blk Vi c ⟨n + 1, h⟩ r o)))) h49

attribute [local irreducible] accAt y2Arr in
theorem statsArr_eq : statsArr Vi c = Val.statsOf (y2Arr Vi c) := by
  funext i
  obtain ⟨ρ, o, rfl⟩ : ∃ (ρ : Fin 2) (o : Fin 128), i = ix2 ρ o := ⟨i 0, i 1, eq_ix2 i⟩
  unfold Val.statsOf
  rw [Val.mat_apply]
  match ρ with
  | ⟨0, _⟩ =>
    have e : statsArr Vi c (ix2 (n0 := 2) (n1 := 128) 0 o) = (accAt Vi c 49 h49).1 (ix2 (n0 := 1) (n1 := 128) 0 o) := by
      unfold statsArr stats2; exact if_pos rfl
    exact (e.trans (acc_fst_last c Vi o)).trans (if_pos rfl).symm
  | ⟨1, _⟩ =>
    have e : statsArr Vi c (ix2 (n0 := 2) (n1 := 128) 1 o) = (accAt Vi c 49 h49).2 (ix2 (n0 := 1) (n1 := 128) 0 o) := by
      unfold statsArr stats2; exact if_neg (show ¬((1 : Fin 2).val = 0) by decide)
    exact (e.trans (acc_snd_last c Vi o)).trans (if_neg (show ¬((1 : Fin 2).val = 0) by decide)).symm

end Cert.Proof.KI.R2

namespace Cert.Proof.KI

open Cert.KernelIdeal Cert.KernelIdeal.Gen Idealize.ShloMosaic

theorem contract2 : Val.Contract2 (after2 (F := Ideal)) (Phi2 (F := Ideal)) := fun Vv c =>
  ⟨(R2.final2_5 Vv c).trans (R2.y2Arr_eq c Vv),
    (R2.final2_6 Vv c).trans ((R2.statsArr_eq c Vv).trans (congrArg Val.statsOf (R2.y2Arr_eq c Vv)))⟩

end Cert.Proof.KI

end
-- ==== Proof.KPay3.lean ====
import proofs.«210907_g44332652429893_cont_8to1_b_736_41_alg».proof.Proof.KPay2

noncomputable section

namespace Cert.Proof.KI.Pay3

open Cert.KernelIdeal Cert.KernelIdeal.Gen Idealize.ShloMosaic Idealize.ShloMosaic.ValueIdx Cert.Proof.KI.Pay1
  Cert.Proof.KI.Pay2
open scoped BigOperators

section Generic

variable {M K N G n R : ℕ} {α : Type}

abbrev Dnt (w : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], w⟩

theorem matmul_nt_apply (w : DotDims.WF ⟨2, ![M, K]⟩ ⟨2, ![N, K]⟩ ⟨2, ![M, N]⟩ [1] [1] [0] [0] [] [])
    (X : FVec Ideal ⟨2, ![M, K]⟩ .f32) (W : FVec Ideal ⟨2, ![N, K]⟩ .f32) (r : Fin M) (o : Fin N) :
    matmul (F := Ideal) (Dnt w) none X W (constant ⟨2, ![M, N]⟩ .f32 0x00000000#32) (ix2 r o)
      = ∑ c : Fin K, X (ix2 r c) * W (ix2 o c) := by
  show FloatOps.matmul (Dnt w) none X W (constant ⟨2, ![M, N]⟩ .f32 0x00000000#32) (ix2 r o) = _
  rw [Ideal.matmul_constant_zero_apply, ← Equiv.sum_comp (contrEquiv1 (Dnt w) K rfl rfl).symm]
  refine Finset.sum_congr rfl fun c _ => ?_
  have hc := contrEquiv1_symm_val (Dnt w) K rfl rfl c
  exact congrArg₂ (fun a b => X a * W b)
    (Shape.idx_ext₂ (by simp [DotDims.lhsIdx]; rfl) (by simp [DotDims.lhsIdx]; exact hc))
    (Shape.idx_ext₂ (by simp [DotDims.rhsIdx]; rfl) (by simp [DotDims.rhsIdx]; exact hc))

theorem eye_sum (E : (⟨2, ![K, K]⟩ : Shape).Idx → EReal) (hE : ∀ j c : Fin K, E (ix2 j c) = if j = c then 1 else 0)
    (f : Fin K → EReal) (j : Fin K) : ∑ c : Fin K, E (ix2 j c) * f c = f j := by
  simp only [hE, ite_mul, one_mul, zero_mul]
  rw [Finset.sum_ite_eq]
  simp

theorem group_read (x : (⟨2, ![R, n]⟩ : Shape).Idx → α) (h : (⟨2, ![R, n]⟩ : Shape).ShapeCasts ⟨3, ![G, K, n]⟩)
    (g : Fin G) (k : Fin K) (c : Fin n) (r : Fin R) (hr : r.val = g.val * K + k.val) :
    shapeCast ⟨3, ![G, K, n]⟩ x h (ix3 g k c) = x (ix2 r c) :=
  shapeCast_apply x h _ _ (by
    rw [Shape.rowMajor_val_two, Shape.rowMajor_val_three]
    show r.val * n + c.val = (g.val * K + k.val) * n + c.val
    rw [hr])

theorem ungroup_read (v : (⟨3, ![G, K, n]⟩ : Shape).Idx → α) (h : (⟨3, ![G, K, n]⟩ : Shape).ShapeCasts ⟨2, ![R, n]⟩)
    (g : Fin G) (k : Fin K) (c : Fin n) (r : Fin R) (hr : r.val = g.val * K + k.val) :
    shapeCast ⟨2, ![R, n]⟩ v h (ix2 r c) = v (ix3 g k c) :=
  shapeCast_apply v h _ _ (by
    rw [Shape.rowMajor_val_two, Shape.rowMajor_val_three]
    show (g.val * K + k.val) * n + c.val = r.val * n + c.val
    rw [hr])

theorem groupsum_apply (h : (⟨3, ![G, K, n]⟩ : Shape).Reduces [1] ⟨2, ![G, n]⟩) (v : FVec Ideal ⟨3, ![G, K, n]⟩ .f32)
    (hφ : FKind.Formats .f32) (hacc : (0x00000000#32 : BitVec 32) = FKind.add.neutral .f32 hφ) (g : Fin G) (c : Fin n) :
    multiReduction (F := Ideal) .add [1] ⟨2, ![G, n]⟩ v 0x00000000#32 h hφ hacc (ix2 g c) = ∑ k : Fin K, v (ix3 g k c) := by
  rw [Ideal.multiReduction_add_single]
  refine Finset.sum_congr rfl fun k _ => congrArg v ?_
  funext ax
  apply Fin.ext
  match ax with
  | ⟨0, _⟩ => rfl
  | ⟨1, _⟩ => rfl
  | ⟨2, _⟩ => rfl

theorem spread_read (v : (⟨3, ![G, 1, n]⟩ : Shape).Idx → α) (h : (⟨3, ![G, 1, n]⟩ : Shape).Broadcasts ⟨3, ![G, K, n]⟩)
    (g : Fin G) (k : Fin K) (c : Fin n) : broadcastTo ⟨3, ![G, K, n]⟩ v h (ix3 g k c) = v (ix3 g (0 : Fin 1) c) := by
  refine broadcastTo_apply v h (ix3 g k c) (ix3 g (0 : Fin 1) c) fun ax => ?_
  match ax with
  | ⟨0, _⟩ =>
    show g.val = if G = 1 then 0 else g.val
    split
    · have := g.isLt; omega
    · rfl
  | ⟨1, _⟩ => rfl
  | ⟨2, _⟩ =>
    show c.val = if n = 1 then 0 else c.val
    split
    · have := c.isLt; omega
    · rfl

theorem firstslot_read (v : (⟨3, ![G, K, n]⟩ : Shape).Idx → α) (h : (⟨3, ![G, K, n]⟩ : Shape).Slices ![0, 0, 0] ⟨3, ![G, 1, n]⟩)
    (g : Fin G) (u : Fin 1) (c : Fin n) (k0 : Fin K) (hk0 : k0.val = 0) :
    extractStridedSlice ⟨3, ![G, 1, n]⟩ ![0, 0, 0] v h (ix3 g u c) = v (ix3 g k0 c) :=
  slice3_axis1_apply 0 v h g u c k0 (by have := u.isLt; omega)

end Generic

def row16 (g : Fin 200) (k : Fin 16) : Fin 3200 := ⟨g.val * 16 + k.val, by omega⟩

variable (x0 : Vec Ideal S2x128 .f32) (x2 x4 : Vec Ideal S1x128 .f32) (x20 : Vec Ideal S3200x128 .f32)
  (mm : FVec Ideal S200x256 .f32) (hi : Vec Ideal S3200x128 .f32) (w : Vec Ideal S128x256 .f32)

theorem pay6_apply (r : Fin 3200) (c : Fin 128) :
    k3_pay6 (F := Ideal) x0 x2 x4 x20 (ix2 r c)
      = max (x20 (ix2 r c) * Cert.Spec.bnA (x0 (ix2 (0 : Fin 2) c)) (x0 (ix2 (1 : Fin 2) c)) (x2 (ix2 (0 : Fin 1) c))
            + Cert.Spec.bnC (x0 (ix2 (0 : Fin 2) c)) (x0 (ix2 (1 : Fin 2) c)) (x2 (ix2 (0 : Fin 1) c)) (x4 (ix2 (0 : Fin 1) c))) 0 := by
  unfold k3_pay6
  simp only [shapeCast_self, maximumf_apply, addf_apply, mulf_apply, subf_apply, divf_apply, rsqrt_apply, broadcast_apply,
    broadcastTo_1b_ab_apply, row0_read, row1_read, scalar_ofBits, Ideal.ofBits_zero_f32]
  rfl

theorem pay7_apply (E : Vec Ideal S128x128 .f32) (hE : ∀ j c : Fin 128, E (ix2 j c) = if j = c then 1 else 0) (j : Fin 128) (r : Fin 3200) :
    k3_pay7 (F := Ideal) x0 x2 x4 x20 E (ix2 j r) = k3_pay6 (F := Ideal) x0 x2 x4 x20 (ix2 r j) := by
  unfold k3_pay7
  simp only [shapeCast_self]
  exact (matmul_nt_apply _ E (k3_pay6 (F := Ideal) x0 x2 x4 x20) j r).trans
    (eye_sum E hE (fun c => k3_pay6 (F := Ideal) x0 x2 x4 x20 (ix2 r c)) j)

theorem pay8_apply (g : Fin 200) (o : Fin 256) :
    k3_pay8 (F := Ideal) x0 x2 x4 x20 w (ix2 g o)
      = ∑ c : Fin 128, (∑ k : Fin 16, k3_pay6 (F := Ideal) x0 x2 x4 x20 (ix2 (row16 g k) c)) * w (ix2 c o) := by
  unfold k3_pay8
  simp only [shapeCast_self]
  refine (matmul_nn_apply _ _ w g o).trans (Finset.sum_congr rfl fun c _ => ?_)
  refine congrArg (· * w (ix2 c o)) ?_
  refine (groupsum_apply _ _ _ _ g c).trans (Finset.sum_congr rfl fun k _ => ?_)
  exact group_read (k3_pay6 (F := Ideal) x0 x2 x4 x20) _ g k c (row16 g k) rfl

theorem pay1_apply (g : Fin 200) (k : Fin 16) (o : Fin 256) :
    k3_pay1 (F := Ideal) mm hi w (ix2 (row16 g k) o)
      = (∑ c : Fin 128, hi (ix2 (row16 g k) c) * w (ix2 c o)) + mm (ix2 g o) := by
  unfold k3_pay1
  simp only [shapeCast_self, addf_apply]
  refine congrArg₂ (· + ·) (matmul_nn_apply _ hi w (row16 g k) o) ?_
  exact (ungroup_read _ _ g k o (row16 g k) rfl).trans ((spread_read _ _ g k o).trans (group_read (K := 1) mm _ g 0 o g (by show g.val = g.val * 1 + 0; omega)))

theorem pay4_apply (s : Vec Ideal S1x256 .f32) (o : Fin 256) :
    k3_pay4 (F := Ideal) mm hi w s (ix2 (0 : Fin 1) o)
      = s (ix2 (0 : Fin 1) o) + ∑ r : Fin 3200, k3_pay1 (F := Ideal) mm hi w (ix2 r o) :=
  carry_apply _ _ (k3_pay1 (F := Ideal) mm hi w) _ _ s _ o

theorem pay5_apply (s : Vec Ideal S1x256 .f32) (o : Fin 256) :
    k3_pay5 (F := Ideal) mm hi w s (ix2 (0 : Fin 1) o)
      = s (ix2 (0 : Fin 1) o)
          + ∑ r : Fin 3200, k3_pay1 (F := Ideal) mm hi w (ix2 r o) * k3_pay1 (F := Ideal) mm hi w (ix2 r o) :=
  carry_apply _ _ (mulf (k3_pay1 (F := Ideal) mm hi w) (k3_pay1 (F := Ideal) mm hi w)) _ _ s _ o

theorem pay2_apply (j : S1x256.Idx) : k3_pay2 (F := Ideal) j = 0 := zero_apply _ j

theorem pay3_apply (j : S1x256.Idx) : k3_pay3 (F := Ideal) j = 0 := zero_apply _ j

end Cert.Proof.KI.Pay3

end
-- ==== Proof.KValue3.lean ====
import proofs.«210907_g44332652429893_cont_8to1_b_736_41_alg».proof.Proof.KValContract
import proofs.«210907_g44332652429893_cont_8to1_b_736_41_alg».proof.Proof.KReg3
import proofs.«210907_g44332652429893_cont_8to1_b_736_41_alg».proof.Proof.KPay3
import proofs.«210907_g44332652429893_cont_8to1_b_736_41_alg».proof.Proof.KSums
import Idealize.ShloMosaic.Lib.Pipeline.Value

set_option maxRecDepth 16384

noncomputable section

namespace Cert.Proof.KI

namespace R3

open Cert.KernelIdeal Cert.KernelIdeal.Gen Cert.Proof.KI
open Idealize.ShloMosaic Idealize.ShloMosaic.ValueIdx
open Idealize.ShloMosaic.SparseCore.Cfg (HIx)
open Idealize.SL Idealize.SL.BI Idealize.SL.Sem
open Idealize.ShloMosaic.Pipeline (Dat Cfg Window)
open Cert.Proof.KI.Val Cert.Proof.KI.Pay3
open scoped BigOperators

section Stats

variable {F : FTy → Type} [FloatOps F]

theorem statsOut_row1 (r0 r1 : Vec F S1x256 .f32) (o : Fin 256) : statsOut r0 r1 (ix2 (1 : Fin 2) o) = r1 (ix2 (0 : Fin 1) o) := by
  unfold statsOut statsPieces
  have e := View.read_writes_cons_emb (v := VS) (f := (VS.junk : VS.ty.Contents (Elt F)))
    (Rect.unit (s := S2x256) ![1, 0] S1x256.size inb_S2x256_S1x256_1_0) r1
    [⟨Rect.unit (s := S2x256) ![0, 0] S1x256.size inb_S2x256_S1x256_0_0, r0⟩] (ix2 (0 : Fin 1) o)
  have h : (Rect.unit (s := S2x256) ![1, 0] S1x256.size inb_S2x256_S1x256_1_0).emb (ix2 (0 : Fin 1) o) = ix2 (1 : Fin 2) o := by
    exact Shape.idx_ext₂ (by rfl) (by show 0 + 1 * o.val = o.val; omega)
  rw [h] at e; exact e

theorem statsOut_row0 (r0 r1 : Vec F S1x256 .f32) (o : Fin 256) : statsOut r0 r1 (ix2 (0 : Fin 2) o) = r0 (ix2 (0 : Fin 1) o) := by
  unfold statsOut statsPieces
  rw [View.writes_cons, View.read_slice_write_of_not_mem _ _ _ _ (by
    rw [Rect.map_emb_univ, Rect.mem_set_unit]
    intro h
    exact absurd (h 0).1 (by show ¬ (1 ≤ 0); omega))]
  have e := View.read_writes_cons_emb (v := VS) (f := (VS.junk : VS.ty.Contents (Elt F)))
    (Rect.unit (s := S2x256) ![0, 0] S1x256.size inb_S2x256_S1x256_0_0) r0 [] (ix2 (0 : Fin 1) o)
  have h : (Rect.unit (s := S2x256) ![0, 0] S1x256.size inb_S2x256_S1x256_0_0).emb (ix2 (0 : Fin 1) o) = ix2 (0 : Fin 2) o := by
    exact Shape.idx_ext₂ (by rfl) (by show 0 + 1 * o.val = o.val; omega)
  rw [h] at e; exact e

end Stats

theorem funext_ix2 {n0 n1 : ℕ} {α : Type} {f g : (⟨2, ![n0, n1]⟩ : Shape).Idx → α} (h : ∀ a b, f (ix2 a b) = g (ix2 a b)) : f = g :=
  funext fun y => by rw [eq_ix2 y]; exact h _ _

theorem statsOf_row0 {C : ℕ} (Y : (⟨2, ![160000, C]⟩ : Shape).Idx → EReal) (o : Fin C) :
    statsOf Y (ix2 (0 : Fin 2) o) = ∑ j : Fin 160000, Y (ix2 j o) := by
  unfold statsOf; rw [mat_apply]; exact if_pos rfl
theorem statsOf_row1 {C : ℕ} (Y : (⟨2, ![160000, C]⟩ : Shape).Idx → EReal) (o : Fin C) :
    statsOf Y (ix2 (1 : Fin 2) o) = ∑ j : Fin 160000, Y (ix2 j o) * Y (ix2 j o) := by
  unfold statsOf; rw [mat_apply]; exact if_neg (by decide)

variable (Vv : Valuation τ sig (Elt Ideal)) (c : Dev nD)

theorem idx3 : ∀ t : Fin cfg3.N,
    win3_0.index t (0 : Fin 2) = t.val ∧ win3_0.index t (1 : Fin 2) = 0
    ∧ win3_4.index t (0 : Fin 2) = t.val ∧ win3_4.index t (1 : Fin 2) = 0
    ∧ win3_8.index t (0 : Fin 2) = 0 ∧ win3_8.index t (1 : Fin 2) = t.val
    ∧ win3_9.index t (0 : Fin 2) = t.val ∧ win3_9.index t (1 : Fin 2) = 0
    ∧ win3_10.index t (0 : Fin 2) = 0 ∧ win3_10.index t (1 : Fin 2) = 0 :=
  (by decide +kernel : ∀ t : Fin grid3.N, _)

theorem idxz : ∀ t : Fin cfg3.N,
    (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0) :=
  (by decide +kernel : ∀ t : Fin grid3.N, _)

theorem tlt (t : Fin cfg3.N) : t.val < 50 := lt_of_lt_of_eq t.isLt (show cfg3.N = 50 from N_3)

abbrev b0 (t : Fin cfg3.N) : Vec Ideal S3200x128 .f32 := iblk Vv c 0 t
abbrev b1 (t : Fin cfg3.N) : Vec Ideal S2x128 .f32 := iblk Vv c 1 t
abbrev b2 (t : Fin cfg3.N) : Vec Ideal S1x128 .f32 := iblk Vv c 2 t
abbrev b3 (t : Fin cfg3.N) : Vec Ideal S1x128 .f32 := iblk Vv c 3 t
abbrev b4 (t : Fin cfg3.N) : Vec Ideal S3200x128 .f32 := iblk Vv c 4 t
abbrev b5 (t : Fin cfg3.N) : Vec Ideal S128x256 .f32 := iblk Vv c 5 t
abbrev b6 (t : Fin cfg3.N) : Vec Ideal S128x256 .f32 := iblk Vv c 6 t
abbrev b7 (t : Fin cfg3.N) : Vec Ideal S128x128 .f32 := iblk Vv c 7 t

abbrev MM := mmK (arrOf Vv main_v38_0) (arrOf Vv main_v38_1) (arrOf Vv main_v30) (arrOf Vv main_v31) (arrOf Vv main_v20)
abbrev Y3 := y3K (arrOf Vv main_v10_0) (arrOf Vv main_v18) (MM Vv)
abbrev E2 := e2tK (arrOf Vv main_v38_0) (arrOf Vv main_v38_1) (arrOf Vv main_v30) (arrOf Vv main_v31)
abbrev oM (t : Fin cfg3.N) := outM (b0 Vv c t) (b1 Vv c t) (b2 Vv c t) (b3 Vv c t) (b6 Vv c t)
abbrev yB (t : Fin cfg3.N) : Vec Ideal S3200x256 .f32 := k3_pay1 (F := Ideal) (oM Vv c t) (b4 Vv c t) (b5 Vv c t)

theorem x1_read (t : Fin cfg3.N) (r : Fin 3200) (q : Fin 128) (j : Fin 160000) (hj : j.val = 3200 * t.val + r.val) :
    b0 Vv c t (ix2 r q) = arrOf Vv main_v38_0 (ix2 j q) := by
  obtain ⟨e0, e1, -⟩ := idx3 t
  exact congrArg (Vv _) (Shape.idx_ext₂ (by show win3_0.index t (0 : Fin 2) * 3200 + 1 * r.val = j.val; omega) (by show win3_0.index t (1 : Fin 2) * 128 + 1 * q.val = q.val; omega))

theorem x5_read (t : Fin cfg3.N) (r : Fin 3200) (q : Fin 128) (j : Fin 160000) (hj : j.val = 3200 * t.val + r.val) :
    b4 Vv c t (ix2 r q) = arrOf Vv main_v10_0 (ix2 j q) := by
  obtain ⟨-, -, e0, e1, -⟩ := idx3 t
  exact congrArg (Vv _) (Shape.idx_ext₂ (by show win3_4.index t (0 : Fin 2) * 3200 + 1 * r.val = j.val; omega) (by show win3_4.index t (1 : Fin 2) * 128 + 1 * q.val = q.val; omega))

theorem x2_read (t : Fin cfg3.N) (a : Fin 2) (b : Fin 128) :
    b1 Vv c t (ix2 a b) = arrOf Vv main_v38_1 (ix2 a b) := by
  obtain ⟨e0, e1⟩ := (idxz t).1
  exact congrArg (Vv _) (Shape.idx_ext₂ (by show win3_1.index t (0 : Fin 2) * 2 + 1 * a.val = a.val; omega) (by show win3_1.index t (1 : Fin 2) * 128 + 1 * b.val = b.val; omega))

theorem x3_read (t : Fin cfg3.N) (a : Fin 1) (b : Fin 128) :
    b2 Vv c t (ix2 a b) = arrOf Vv main_v30 (ix2 a b) := by
  obtain ⟨e0, e1⟩ := (idxz t).2.1
  exact congrArg (Vv _) (Shape.idx_ext₂ (by show win3_2.index t (0 : Fin 2) * 1 + 1 * a.val = a.val; omega) (by show win3_2.index t (1 : Fin 2) * 128 + 1 * b.val = b.val; omega))

theorem x4_read (t : Fin cfg3.N) (a : Fin 1) (b : Fin 128) :
    b3 Vv c t (ix2 a b) = arrOf Vv main_v31 (ix2 a b) := by
  obtain ⟨e0, e1⟩ := (idxz t).2.2.1
  exact congrArg (Vv _) (Shape.idx_ext₂ (by show win3_3.index t (0 : Fin 2) * 1 + 1 * a.val = a.val; omega) (by show win3_3.index t (1 : Fin 2) * 128 + 1 * b.val = b.val; omega))

theorem x6_read (t : Fin cfg3.N) (a : Fin 128) (b : Fin 256) :
    b5 Vv c t (ix2 a b) = arrOf Vv main_v18 (ix2 a b) := by
  obtain ⟨e0, e1⟩ := (idxz t).2.2.2.1
  exact congrArg (Vv _) (Shape.idx_ext₂ (by show win3_5.index t (0 : Fin 2) * 128 + 1 * a.val = a.val; omega) (by show win3_5.index t (1 : Fin 2) * 256 + 1 * b.val = b.val; omega))

theorem x7_read (t : Fin cfg3.N) (a : Fin 128) (b : Fin 256) :
    b6 Vv c t (ix2 a b) = arrOf Vv main_v20 (ix2 a b) := by
  obtain ⟨e0, e1⟩ := (idxz t).2.2.2.2.1
  exact congrArg (Vv _) (Shape.idx_ext₂ (by show win3_6.index t (0 : Fin 2) * 128 + 1 * a.val = a.val; omega) (by show win3_6.index t (1 : Fin 2) * 256 + 1 * b.val = b.val; omega))

theorem x8_read (t : Fin cfg3.N) (a : Fin 128) (b : Fin 128) :
    b7 Vv c t (ix2 a b) = arrOf Vv main_v26 (ix2 a b) := by
  obtain ⟨e0, e1⟩ := (idxz t).2.2.2.2.2
  exact congrArg (Vv _) (Shape.idx_ext₂ (by show win3_7.index t (0 : Fin 2) * 128 + 1 * a.val = a.val; omega) (by show win3_7.index t (1 : Fin 2) * 128 + 1 * b.val = b.val; omega))

abbrev aHI : S160000x128.Idx → EReal := arrOf Vv main_v10_0
abbrev aW3h : S128x256.Idx → EReal := arrOf Vv main_v18

theorem e6_eq (t : Fin cfg3.N) (r : Fin 3200) (q : Fin 128) (j : Fin 160000) (hj : j.val = 3200 * t.val + r.val) :
    k3_pay6 (F := Ideal) (b1 Vv c t) (b2 Vv c t) (b3 Vv c t) (b0 Vv c t) (ix2 r q)
      = bnAff (arrOf Vv main_v38_1) (arrOf Vv main_v30) (arrOf Vv main_v31) (arrOf Vv main_v38_0 (ix2 j q)) q := by
  refine (pay6_apply (b1 Vv c t) (b2 Vv c t) (b3 Vv c t) (b0 Vv c t) r q).trans ?_
  unfold bnAff
  rw [x1_read Vv c t r q j hj, x2_read Vv c t 0 q, x2_read Vv c t 1 q, x3_read Vv c t 0 q, x4_read Vv c t 0 q]

theorem outT_eq (hI : IsEye (arrOf Vv main_v26)) (t : Fin cfg3.N) (q : Fin 128) (r : Fin 3200) (j : Fin 160000)
    (hj : j.val = 3200 * t.val + r.val) :
    outT (b0 Vv c t) (b1 Vv c t) (b2 Vv c t) (b3 Vv c t) (b7 Vv c t) (ix2 q r) = (E2 Vv) (ix2 q j) := by
  refine (pay7_apply (b1 Vv c t) (b2 Vv c t) (b3 Vv c t) (b0 Vv c t) (b7 Vv c t)
    (fun a b => (x8_read Vv c t a b).trans (hI a b)) q r).trans ?_
  exact e6_eq Vv c t r q j hj

theorem outM_eq (t : Fin cfg3.N) (g : Fin 200) (o : Fin 256) (n : Fin 10000) (hn : n.val = 200 * t.val + g.val) :
    (oM Vv c t) (ix2 g o) = (MM Vv) (ix2 n o) := by
  refine (pay8_apply (b1 Vv c t) (b2 Vv c t) (b3 Vv c t) (b0 Vv c t) (b6 Vv c t) g o).trans ?_
  show _ = ∑ q : Fin 128, (∑ k : Fin 16, bnAff (arrOf Vv main_v38_1) (arrOf Vv main_v30) (arrOf Vv main_v31)
    (arrOf Vv main_v38_0 (ix2 (jOf n k) q)) q) * arrOf Vv main_v20 (ix2 q o)
  refine Finset.sum_congr rfl fun q _ => ?_
  rw [x7_read Vv c t q o]
  refine congrArg (· * arrOf Vv main_v20 (ix2 q o)) ?_
  refine Finset.sum_congr rfl fun k _ => ?_
  have hk := k.isLt
  have hg := g.isLt
  exact e6_eq Vv c t (row16 g k) q (jOf n k) (by show 16 * n.val + k.val = 3200 * t.val + (g.val * 16 + k.val); omega)

theorem y3_eq (t : Fin cfg3.N) (g : Fin 200) (k : Fin 16) (o : Fin 256) (j : Fin 160000)
    (hj : j.val = 3200 * t.val + (g.val * 16 + k.val)) :
    yB Vv c t (ix2 (row16 g k) o) = (Y3 Vv) (ix2 j o) := by
  refine (pay1_apply (oM Vv c t) (b4 Vv c t) (b5 Vv c t) g k o).trans ?_
  show _ = (∑ q : Fin 128, aHI Vv (ix2 j q) * aW3h Vv (ix2 q o)) + (MM Vv) (ix2 (nOf j) o)
  have hk := k.isLt
  have hg := g.isLt
  refine congrArg₂ (· + ·) (Finset.sum_congr rfl fun q _ => ?_) ?_
  · rw [x5_read Vv c t (row16 g k) q j hj, x6_read Vv c t q o]
  · exact outM_eq Vv c t g o (nOf j) (by show j.val / 16 = 200 * t.val + g.val; omega)

-- Row r of a block is slot r % 16 of the block's node r / 16, so the block's third convolution is the region's on its positions.
theorem yB_eq (t : Fin cfg3.N) (r : Fin 3200) (o : Fin 256) :
    yB Vv c t (ix2 r o) = Y3 Vv (ix2 (Sums.blk ⟨t.val, tlt t⟩ r) o) := by
  have hr : r = row16 ⟨r.val / 16, by have := r.isLt; omega⟩ ⟨r.val % 16, by omega⟩ :=
    Fin.ext (by show r.val = r.val / 16 * 16 + r.val % 16; omega)
  rw [hr]
  exact y3_eq Vv c t _ _ o _ rfl

theorem acc0_last (o : Fin 256) (h49 : 49 < cfg3.N) :
    acc0 Vv c 49 h49 (ix2 (0 : Fin 1) o) = ∑ j : Fin 160000, Y3 Vv (ix2 j o) :=
  Sums.fold_blocks N_3 (fun j => Y3 Vv (ix2 j o)) (fun n h => acc0 Vv c n h (ix2 (0 : Fin 1) o))
    (fun h => (pay4_apply _ _ _ _ o).trans (congrArg₂ (· + ·) (pay2_apply _)
      (Finset.sum_congr rfl fun r _ => yB_eq Vv c ⟨0, h⟩ r o)))
    (fun n h _ => (pay4_apply _ _ _ _ o).trans (congrArg (_ + ·)
      (Finset.sum_congr rfl fun r _ => yB_eq Vv c ⟨n + 1, h⟩ r o))) h49

theorem acc1_last (o : Fin 256) (h49 : 49 < cfg3.N) :
    acc1 Vv c 49 h49 (ix2 (0 : Fin 1) o) = ∑ j : Fin 160000, Y3 Vv (ix2 j o) * Y3 Vv (ix2 j o) :=
  Sums.fold_blocks N_3 (fun j => Y3 Vv (ix2 j o) * Y3 Vv (ix2 j o)) (fun n h => acc1 Vv c n h (ix2 (0 : Fin 1) o))
    (fun h => (pay5_apply _ _ _ _ o).trans (congrArg₂ (· + ·) (pay3_apply _)
      (Finset.sum_congr rfl fun r _ => congrArg₂ (· * ·) (yB_eq Vv c ⟨0, h⟩ r o) (yB_eq Vv c ⟨0, h⟩ r o))))
    (fun n h _ => (pay5_apply _ _ _ _ o).trans (congrArg (_ + ·)
      (Finset.sum_congr rfl fun r _ => congrArg₂ (· * ·) (yB_eq Vv c ⟨n + 1, h⟩ r o) (yB_eq Vv c ⟨n + 1, h⟩ r o)))) h49

theorem flushed8 (hI : IsEye (arrOf Vv main_v26)) (t : Fin cfg3.N) :
    (D3 Vv c).flushed 8 t = ((cfg3.win 8).blk t).view.read (Elt Ideal) (E2 Vv) := by
  obtain ⟨-, -, -, -, e0, e1, -⟩ := idx3 t
  have ht := tlt t
  refine funext_ix2 (n0 := 128) (n1 := 3200) fun q r => ?_
  have hr := r.isLt
  show outT (b0 Vv c t) (b1 Vv c t) (b2 Vv c t) (b3 Vv c t) (b7 Vv c t) (ix2 q r) = (E2 Vv) (((cfg3.win 8).blk t).view.emb (ix2 q r))
  refine (outT_eq Vv c hI t q r ⟨3200 * t.val + r.val, by omega⟩ rfl).trans (congrArg (E2 Vv) ?_)
  exact Shape.idx_ext₂ (by show q.val = win3_8.index t (0 : Fin 2) * 128 + 1 * q.val; omega) (by show 3200 * t.val + r.val = win3_8.index t (1 : Fin 2) * 3200 + 1 * r.val; omega)

theorem flushed9 (t : Fin cfg3.N) :
    (D3 Vv c).flushed 9 t = ((cfg3.win 9).blk t).view.read (Elt Ideal) (MM Vv) := by
  obtain ⟨-, -, -, -, -, -, e0, e1, -⟩ := idx3 t
  have ht := tlt t
  refine funext_ix2 (n0 := 200) (n1 := 256) fun g o => ?_
  have hg := g.isLt
  show (oM Vv c t) (ix2 g o) = (MM Vv) (((cfg3.win 9).blk t).view.emb (ix2 g o))
  refine (outM_eq Vv c t g o ⟨200 * t.val + g.val, by omega⟩ rfl).trans (congrArg (MM Vv) ?_)
  exact Shape.idx_ext₂ (by show 200 * t.val + g.val = win3_9.index t (0 : Fin 2) * 200 + 1 * g.val; omega) (by show o.val = win3_9.index t (1 : Fin 2) * 256 + 1 * o.val; omega)

theorem flushed10 (t : Fin cfg3.N) (hf : (cfg3.win 10).flush t = true) :
    (D3 Vv c).flushed 10 t = ((cfg3.win 10).blk t).view.read (Elt Ideal) (statsOf (Y3 Vv)) := by
  have ht : t.val = 49 := by have := (flush3_10 t).mp hf; have := tlt t; omega
  obtain ⟨-, -, -, -, -, -, -, -, e0, e1⟩ := idx3 t
  show (cfg3.win 10).cut (grid3.coords t) ((D3 Vv c).after 10 t) = _
  rw [after_10, after3_10]
  refine funext_ix2 (n0 := 2) (n1 := 256) fun a o => ?_
  show statsOut (acc0 Vv c t.val t.isLt) (acc1 Vv c t.val t.isLt) (ix2 a o) = statsOf (Y3 Vv) (((cfg3.win 10).blk t).view.emb (ix2 a o))
  have hemb : ((cfg3.win 10).blk t).view.emb (ix2 a o) = ix2 a o := by
    exact Shape.idx_ext₂ (by show win3_10.index t (0 : Fin 2) * 2 + 1 * a.val = a.val; omega) (by show win3_10.index t (1 : Fin 2) * 256 + 1 * o.val = o.val; omega)
  refine Eq.trans ?_ (congrArg (statsOf (Y3 Vv)) hemb.symm)
  obtain ⟨n, hn⟩ := t
  have hn49 : n = 49 := ht
  subst hn49
  match a with
  | ⟨0, _⟩ =>
    show statsOut (acc0 Vv c 49 hn) (acc1 Vv c 49 hn) (ix2 (0 : Fin 2) o) = statsOf (Y3 Vv) (ix2 (0 : Fin 2) o)
    rw [statsOut_row0, statsOf_row0]
    exact acc0_last Vv c o hn
  | ⟨1, _⟩ =>
    show statsOut (acc0 Vv c 49 hn) (acc1 Vv c 49 hn) (ix2 (1 : Fin 2) o) = statsOf (Y3 Vv) (ix2 (1 : Fin 2) o)
    rw [statsOut_row1, statsOf_row1]
    exact acc1_last Vv c o hn

theorem cover8 (i : S128x160000.Idx) : ∃ t : Fin cfg3.N, (cfg3.win 8).flush t = true ∧ i ∈ ((cfg3.win 8).blk t).view.set := by
  have h0 : (i 0).val < 128 := (i 0).isLt
  have h1 : (i 1).val < 160000 := (i 1).isLt
  have ht : (i 1).val / 3200 < cfg3.N := by rw [show cfg3.N = 50 from N_3]; omega
  refine ⟨⟨(i 1).val / 3200, ht⟩, flush3_8 _, ?_⟩
  show i ∈ ((View.whole main_v39_0).slice (win3_8.rect ⟨(i 1).val / 3200, ht⟩)).set
  rw [View.set_slice_whole, Rect.mem_set_unit]
  obtain ⟨-, -, -, -, e0, e1, -⟩ := idx3 ⟨(i 1).val / 3200, ht⟩
  intro a
  match a with
  | ⟨0, _⟩ => show win3_8.index _ (0 : Fin 2) * 128 ≤ (i 0).val ∧ (i 0).val < win3_8.index _ (0 : Fin 2) * 128 + 128; rw [e0]; omega
  | ⟨1, _⟩ => show win3_8.index _ (1 : Fin 2) * 3200 ≤ (i 1).val ∧ (i 1).val < win3_8.index _ (1 : Fin 2) * 3200 + 3200; rw [e1]; show (i 1).val / 3200 * 3200 ≤ (i 1).val ∧ (i 1).val < (i 1).val / 3200 * 3200 + 3200; omega

theorem cover9 (i : S10000x256.Idx) : ∃ t : Fin cfg3.N, (cfg3.win 9).flush t = true ∧ i ∈ ((cfg3.win 9).blk t).view.set := by
  have h0 : (i 0).val < 10000 := (i 0).isLt
  have h1 : (i 1).val < 256 := (i 1).isLt
  have ht : (i 0).val / 200 < cfg3.N := by rw [show cfg3.N = 50 from N_3]; omega
  refine ⟨⟨(i 0).val / 200, ht⟩, flush3_9 _, ?_⟩
  show i ∈ ((View.whole main_v39_1).slice (win3_9.rect ⟨(i 0).val / 200, ht⟩)).set
  rw [View.set_slice_whole, Rect.mem_set_unit]
  obtain ⟨-, -, -, -, -, -, e0, e1, -⟩ := idx3 ⟨(i 0).val / 200, ht⟩
  intro a
  match a with
  | ⟨0, _⟩ => show win3_9.index _ (0 : Fin 2) * 200 ≤ (i 0).val ∧ (i 0).val < win3_9.index _ (0 : Fin 2) * 200 + 200; rw [e0]; show (i 0).val / 200 * 200 ≤ (i 0).val ∧ (i 0).val < (i 0).val / 200 * 200 + 200; omega
  | ⟨1, _⟩ => show win3_9.index _ (1 : Fin 2) * 256 ≤ (i 1).val ∧ (i 1).val < win3_9.index _ (1 : Fin 2) * 256 + 256; rw [e1]; omega

theorem cover10 (i : S2x256.Idx) : ∃ t : Fin cfg3.N, (cfg3.win 10).flush t = true ∧ i ∈ ((cfg3.win 10).blk t).view.set := by
  have h0 : (i 0).val < 2 := (i 0).isLt
  have h1 : (i 1).val < 256 := (i 1).isLt
  have ht : 49 < cfg3.N := by rw [show cfg3.N = 50 from N_3]; omega
  refine ⟨⟨49, ht⟩, (flush3_10 _).mpr rfl, ?_⟩
  show i ∈ ((View.whole main_v39_2).slice (win3_10.rect ⟨49, ht⟩)).set
  rw [View.set_slice_whole, Rect.mem_set_unit]
  obtain ⟨-, -, -, -, -, -, -, -, e0, e1⟩ := idx3 ⟨49, ht⟩
  intro a
  match a with
  | ⟨0, _⟩ => show win3_10.index _ (0 : Fin 2) * 2 ≤ (i 0).val ∧ (i 0).val < win3_10.index _ (0 : Fin 2) * 2 + 2; rw [e0]; omega
  | ⟨1, _⟩ => show win3_10.index _ (1 : Fin 2) * 256 ≤ (i 1).val ∧ (i 1).val < win3_10.index _ (1 : Fin 2) * 256 + 256; rw [e1]; omega

end R3

open R3 Val

theorem contract3 : Val.Contract3 (after3 (F := Idealize.ShloMosaic.Ideal)) (Phi3 (F := Idealize.ShloMosaic.Ideal)) := fun Vv c hI =>
  ⟨(D3 Vv c).arrAt_eq_of_cover 8 _ (fun t _ => flushed8 Vv c hI t) (cover8),
   (D3 Vv c).arrAt_eq_of_cover 9 _ (fun t _ => flushed9 Vv c t) (cover9),
   (D3 Vv c).arrAt_eq_of_cover 10 _ (fun t hf => flushed10 Vv c t hf) (cover10)⟩

end Cert.Proof.KI

end
-- ==== Proof.KPay4.lean ====
import proofs.«210907_g44332652429893_cont_8to1_b_736_41_alg».proof.Proof.KPay3

noncomputable section

namespace Cert.Proof.KI.Pay4

open Cert.KernelIdeal Cert.KernelIdeal.Gen Idealize.ShloMosaic Idealize.ShloMosaic.ValueIdx Cert.Proof.KI.Pay1
  Cert.Proof.KI.Pay2 Cert.Proof.KI.Pay3
open scoped BigOperators

section
variable (x0 : Vec Ideal S2x256 .f32) (x2 x4 : Vec Ideal S1x256 .f32) (mm : Vec Ideal S200x256 .f32)
  (hi : Vec Ideal S3200x128 .f32) (w : Vec Ideal S128x256 .f32)

theorem pay7_eq (r : Fin 3200) (o : Fin 256) :
    k4_pay7 (F := Ideal) x0 x2 x4 mm hi w (ix2 r o)
      = max (k3_pay1 (F := Ideal) mm hi w (ix2 r o)
              * Cert.Spec.bnA (x0 (ix2 (0 : Fin 2) o)) (x0 (ix2 (1 : Fin 2) o)) (x2 (ix2 (0 : Fin 1) o))
            + Cert.Spec.bnC (x0 (ix2 (0 : Fin 2) o)) (x0 (ix2 (1 : Fin 2) o)) (x2 (ix2 (0 : Fin 1) o)) (x4 (ix2 (0 : Fin 1) o))) 0 := by
  unfold k4_pay7 k3_pay1
  simp only [shapeCast_self, maximumf_apply, addf_apply, mulf_apply, subf_apply, divf_apply, rsqrt_apply, broadcast_apply,
    broadcastTo_1b_ab_apply, row0_read, row1_read, scalar_ofBits, Ideal.ofBits_zero_f32]
  rfl

theorem pay7_apply (g : Fin 200) (k : Fin 16) (o : Fin 256) :
    k4_pay7 (F := Ideal) x0 x2 x4 mm hi w (ix2 (row16 g k) o)
      = max (((∑ c : Fin 128, hi (ix2 (row16 g k) c) * w (ix2 c o)) + mm (ix2 g o))
              * Cert.Spec.bnA (x0 (ix2 (0 : Fin 2) o)) (x0 (ix2 (1 : Fin 2) o)) (x2 (ix2 (0 : Fin 1) o))
            + Cert.Spec.bnC (x0 (ix2 (0 : Fin 2) o)) (x0 (ix2 (1 : Fin 2) o)) (x2 (ix2 (0 : Fin 1) o)) (x4 (ix2 (0 : Fin 1) o))) 0 := by
  rw [pay7_eq, Pay3.pay1_apply]

end

theorem pay8_apply (x : Vec Ideal S256x128 .f32) : k4_pay8 (F := Ideal) x = x := by
  unfold k4_pay8
  simp only [shapeCast_self]

variable (v : FVec Ideal S3200x256 .f32) (w : FVec Ideal S256x128 .f32)

theorem pay1_apply (r : Fin 3200) (o : Fin 128) :
    k4_pay1 (F := Ideal) v w (ix2 r o) = ∑ c : Fin 256, v (ix2 r c) * w (ix2 c o) := by
  unfold k4_pay1
  exact matmul_nn_apply _ v w r o

theorem pay2_apply (g : Fin 200) (o : Fin 128) :
    k4_pay2 (F := Ideal) v w (ix2 g o) = k4_pay1 (F := Ideal) v w (ix2 (row16 g 0) o) := by
  unfold k4_pay2
  exact (ungroup_read (K := 1) _ _ g 0 o g (by show g.val = g.val * 1 + 0; omega)).trans ((firstslot_read _ _ g 0 o (0 : Fin 16) rfl).trans
    (group_read (k4_pay1 (F := Ideal) v w) _ g 0 o (row16 g 0) rfl))

theorem pay5_apply (s : Vec Ideal S1x128 .f32) (o : Fin 128) :
    k4_pay5 (F := Ideal) v w s (ix2 (0 : Fin 1) o)
      = s (ix2 (0 : Fin 1) o) + ∑ r : Fin 3200, k4_pay1 (F := Ideal) v w (ix2 r o) :=
  carry_apply _ _ (k4_pay1 (F := Ideal) v w) _ _ s _ o

theorem pay6_apply (s : Vec Ideal S1x128 .f32) (o : Fin 128) :
    k4_pay6 (F := Ideal) v w s (ix2 (0 : Fin 1) o)
      = s (ix2 (0 : Fin 1) o) + ∑ r : Fin 3200, k4_pay1 (F := Ideal) v w (ix2 r o) * k4_pay1 (F := Ideal) v w (ix2 r o) :=
  carry_apply _ _ (mulf (k4_pay1 (F := Ideal) v w) (k4_pay1 (F := Ideal) v w)) _ _ s _ o

theorem pay3_apply (j : S1x128.Idx) : k4_pay3 (F := Ideal) j = 0 := zero_apply _ j

theorem pay4_apply (j : S1x128.Idx) : k4_pay4 (F := Ideal) j = 0 := zero_apply _ j

end Cert.Proof.KI.Pay4

end
-- ==== Proof.KValue4.lean ====
import proofs.«210907_g44332652429893_cont_8to1_b_736_41_alg».proof.Proof.KValContract
import proofs.«210907_g44332652429893_cont_8to1_b_736_41_alg».proof.Proof.KReg4
import proofs.«210907_g44332652429893_cont_8to1_b_736_41_alg».proof.Proof.KPay4
import proofs.«210907_g44332652429893_cont_8to1_b_736_41_alg».proof.Proof.KSums
import Idealize.ShloMosaic.Lib.Pipeline.Value
import Idealize.ShloMosaic.Lib.ValueIdx

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.Sem
open Idealize.ShloMosaic.Pipeline (Dat Cfg Window)

namespace V4

open Idealize.ShloMosaic.ValueIdx
open scoped BigOperators

variable (Vv : Valuation τ sig (Elt Ideal)) (c : Dev nD)

abbrev aMM : Vec Ideal S10000x256 .f32 := Val.arrOf Vv main_v39_1
abbrev aSQ : Vec Ideal S2x256 .f32 := Val.arrOf Vv main_v39_2
abbrev aG : Vec Ideal S1x256 .f32 := Val.arrOf Vv main_v32
abbrev aB : Vec Ideal S1x256 .f32 := Val.arrOf Vv main_v33
abbrev aHI : Vec Ideal S160000x128 .f32 := Val.arrOf Vv main_v10_0
abbrev aW3 : Vec Ideal S128x256 .f32 := Val.arrOf Vv main_v18
abbrev aW4 : Vec Ideal S256x128 .f32 := Val.arrOf Vv main_v34

abbrev b0 (t : Fin cfg4.N) : Vec Ideal S200x256 .f32 := R4.iblk Vv 0 t
abbrev b1 (t : Fin cfg4.N) : Vec Ideal S2x256 .f32 := R4.iblk Vv 1 t
abbrev b2 (t : Fin cfg4.N) : Vec Ideal S1x256 .f32 := R4.iblk Vv 2 t
abbrev b3 (t : Fin cfg4.N) : Vec Ideal S1x256 .f32 := R4.iblk Vv 3 t
abbrev b4 (t : Fin cfg4.N) : Vec Ideal S3200x128 .f32 := R4.iblk Vv 4 t
abbrev b5 (t : Fin cfg4.N) : Vec Ideal S128x256 .f32 := R4.iblk Vv 5 t
abbrev b6 (t : Fin cfg4.N) : Vec Ideal S256x128 .f32 := R4.iblk Vv 6 t

theorem idx_facts : ∀ t : Fin cfg4.N,
    (win4_0.index t (0 : Fin 2) = t.val ∧ win4_0.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = t.val ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = t.val ∧ win4_7.index t (1 : Fin 2) = 0)
    ∧ (win4_8.index t (0 : Fin 2) = 0 ∧ win4_8.index t (1 : Fin 2) = 0) :=
  (by decide +kernel : ∀ t : Fin grid4.N, _)

theorem b0_apply (t : Fin cfg4.N) (g : Fin 200) (o : Fin 256) (n : Fin 10000) (hn : n.val = 200 * t.val + g.val) :
    b0 Vv t (ix2 g o) = aMM Vv (ix2 n o) := by
  obtain ⟨⟨e0, e1⟩, -⟩ := idx_facts t
  exact congrArg (Vv _) (Shape.idx_ext₂ (by show win4_0.index t (0 : Fin 2) * 200 + 1 * g.val = n.val; rw [e0, hn]; omega) (by show win4_0.index t (1 : Fin 2) * 256 + 1 * o.val = o.val; rw [e1]; omega))

theorem b4_apply (t : Fin cfg4.N) (r : Fin 3200) (q : Fin 128) (j : Fin 160000) (hj : j.val = 3200 * t.val + r.val) :
    b4 Vv t (ix2 r q) = aHI Vv (ix2 j q) := by
  obtain ⟨-, -, -, -, ⟨e0, e1⟩, -⟩ := idx_facts t
  exact congrArg (Vv _) (Shape.idx_ext₂ (by show win4_4.index t (0 : Fin 2) * 3200 + 1 * r.val = j.val; rw [e0, hj]; omega) (by show win4_4.index t (1 : Fin 2) * 128 + 1 * q.val = q.val; rw [e1]; omega))

theorem b1_apply (t : Fin cfg4.N) (r : Fin 2) (o : Fin 256) : b1 Vv t (ix2 r o) = aSQ Vv (ix2 r o) := by
  obtain ⟨-, ⟨e0, e1⟩, -⟩ := idx_facts t
  exact congrArg (Vv _) (Shape.idx_ext₂ (by show win4_1.index t (0 : Fin 2) * 2 + 1 * r.val = r.val; rw [e0]; omega) (by show win4_1.index t (1 : Fin 2) * 256 + 1 * o.val = o.val; rw [e1]; omega))
theorem b2_apply (t : Fin cfg4.N) (r : Fin 1) (o : Fin 256) : b2 Vv t (ix2 r o) = aG Vv (ix2 r o) := by
  obtain ⟨-, -, ⟨e0, e1⟩, -⟩ := idx_facts t
  exact congrArg (Vv _) (Shape.idx_ext₂ (by show win4_2.index t (0 : Fin 2) * 1 + 1 * r.val = r.val; rw [e0]; omega) (by show win4_2.index t (1 : Fin 2) * 256 + 1 * o.val = o.val; rw [e1]; omega))
theorem b3_apply (t : Fin cfg4.N) (r : Fin 1) (o : Fin 256) : b3 Vv t (ix2 r o) = aB Vv (ix2 r o) := by
  obtain ⟨-, -, -, ⟨e0, e1⟩, -⟩ := idx_facts t
  exact congrArg (Vv _) (Shape.idx_ext₂ (by show win4_3.index t (0 : Fin 2) * 1 + 1 * r.val = r.val; rw [e0]; omega) (by show win4_3.index t (1 : Fin 2) * 256 + 1 * o.val = o.val; rw [e1]; omega))
theorem b5_apply (t : Fin cfg4.N) (r : Fin 128) (o : Fin 256) : b5 Vv t (ix2 r o) = aW3 Vv (ix2 r o) := by
  obtain ⟨-, -, -, -, -, ⟨e0, e1⟩, -⟩ := idx_facts t
  exact congrArg (Vv _) (Shape.idx_ext₂ (by show win4_5.index t (0 : Fin 2) * 128 + 1 * r.val = r.val; rw [e0]; omega) (by show win4_5.index t (1 : Fin 2) * 256 + 1 * o.val = o.val; rw [e1]; omega))
theorem b6_apply (t : Fin cfg4.N) (r : Fin 256) (o : Fin 128) : b6 Vv t (ix2 r o) = aW4 Vv (ix2 r o) := by
  obtain ⟨-, -, -, -, -, -, ⟨e0, e1⟩, -⟩ := idx_facts t
  exact congrArg (Vv _) (Shape.idx_ext₂ (by show win4_6.index t (0 : Fin 2) * 256 + 1 * r.val = r.val; rw [e0]; omega) (by show win4_6.index t (1 : Fin 2) * 128 + 1 * o.val = o.val; rw [e1]; omega))

def vB (t : Fin cfg4.N) : FVec Ideal S3200x256 .f32 :=
  k4_pay7 (F := Ideal) (b1 Vv t) (b2 Vv t) (b3 Vv t) (b0 Vv t) (b4 Vv t) (b5 Vv t)
def wB (t : Fin cfg4.N) : FVec Ideal S256x128 .f32 := k4_pay8 (F := Ideal) (b6 Vv t)

abbrev Y4 : S160000x128.Idx → EReal :=
  Val.y4K (aMM Vv) (aSQ Vv) (aG Vv) (aB Vv) (aHI Vv) (aW3 Vv) (aW4 Vv)

abbrev Y40 := Val.y4k0K (aMM Vv) (aSQ Vv) (aG Vv) (aB Vv) (aHI Vv) (aW3 Vv) (aW4 Vv)

theorem y4blk_apply (t : Fin cfg4.N) (g : Fin 200) (k : Fin 16) (o : Fin 128) (j : Fin 160000)
    (hj : j.val = 3200 * t.val + (16 * g.val + k.val)) :
    k4_pay1 (F := Ideal) (vB Vv t) (wB Vv t) (ix2 (Pay3.row16 g k) o) = Y4 Vv (ix2 j o) := by
  rw [Pay4.pay1_apply]
  show _ = ∑ q : Fin 256, Val.bnAff (aSQ Vv) (aG Vv) (aB Vv) (Val.y3K (aHI Vv) (aW3 Vv) (aMM Vv) (ix2 j q)) q * aW4 Vv (ix2 q o)
  refine Finset.sum_congr rfl fun q _ => ?_
  unfold vB wB
  rw [Pay4.pay7_apply, Pay4.pay8_apply, b6_apply]
  rw [b0_apply Vv t g q (Val.nOf j) (by show j.val / 16 = _; omega), b1_apply, b1_apply, b2_apply, b3_apply]
  have hs : (∑ cc : Fin 128, b4 Vv t (ix2 (Pay3.row16 g k) cc) * b5 Vv t (ix2 cc q))
      = ∑ cc : Fin 128, aHI Vv (ix2 j cc) * aW3 Vv (ix2 cc q) :=
    Finset.sum_congr rfl fun cc _ => by
      rw [b4_apply Vv t (Pay3.row16 g k) cc j (by show j.val = 3200 * t.val + (g.val * 16 + k.val); omega), b5_apply]
  rw [hs]
  rfl

theorem y4blk_row (t : Fin cfg4.N) (r : Fin 3200) (o : Fin 128) (j : Fin 160000) (hj : j.val = 3200 * t.val + r.val) :
    k4_pay1 (F := Ideal) (vB Vv t) (wB Vv t) (ix2 r o) = Y4 Vv (ix2 j o) := by
  have hr : r = Pay3.row16 ⟨r.val / 16, by have := r.isLt; omega⟩ ⟨r.val % 16, by omega⟩ :=
    Fin.ext (by show r.val = r.val / 16 * 16 + r.val % 16; omega)
  rw [hr]
  exact y4blk_apply Vv t _ _ o j (by show j.val = 3200 * t.val + (16 * (r.val / 16) + r.val % 16); omega)

theorem out8At_apply (t : Fin cfg4.N) (g : Fin 200) (o : Fin 128) (n : Fin 10000) (hn : n.val = 200 * t.val + g.val) :
    R4.out8At Vv t (ix2 g o)
      = Y40 Vv (ix2 n o) := by
  show k4_pay2 (F := Ideal) (vB Vv t) (wB Vv t) (ix2 g o) = Y4 Vv (ix2 (Val.jOf n (0 : Fin 16)) o)
  rw [Pay4.pay2_apply]
  exact y4blk_apply Vv t g 0 o (Val.jOf n 0) (by show 16 * n.val + (0 : Fin 16).val = _; rw [hn]; show _ + 0 = _; omega)

theorem hN : cfg4.N = 50 := N_4

theorem acc_fst_last (o : Fin 128) (h : 49 < cfg4.N) :
    (R4.accAt Vv 49 h).1 (ix2 (0 : Fin 1) o) = ∑ j : Fin 160000, Y4 Vv (ix2 j o) :=
  Sums.fold_blocks hN (fun j => Y4 Vv (ix2 j o)) (fun n h => (R4.accAt Vv n h).1 (ix2 (0 : Fin 1) o))
    (fun h => (Pay4.pay5_apply (vB Vv ⟨0, h⟩) (wB Vv ⟨0, h⟩) _ o).trans (congrArg₂ (· + ·) (Pay4.pay3_apply _)
      (Finset.sum_congr rfl fun r _ => y4blk_row Vv ⟨0, h⟩ r o (Sums.blk ⟨0, by omega⟩ r) rfl)))
    (fun n h h' => (Pay4.pay5_apply (vB Vv ⟨n + 1, h⟩) (wB Vv ⟨n + 1, h⟩) _ o).trans (congrArg (_ + ·)
      (Finset.sum_congr rfl fun r _ => y4blk_row Vv ⟨n + 1, h⟩ r o (Sums.blk ⟨n + 1, h'⟩ r) rfl))) h

theorem acc_snd_last (o : Fin 128) (h : 49 < cfg4.N) :
    (R4.accAt Vv 49 h).2 (ix2 (0 : Fin 1) o) = ∑ j : Fin 160000, Y4 Vv (ix2 j o) * Y4 Vv (ix2 j o) :=
  Sums.fold_blocks hN (fun j => Y4 Vv (ix2 j o) * Y4 Vv (ix2 j o)) (fun n h => (R4.accAt Vv n h).2 (ix2 (0 : Fin 1) o))
    (fun h => (Pay4.pay6_apply (vB Vv ⟨0, h⟩) (wB Vv ⟨0, h⟩) _ o).trans (congrArg₂ (· + ·) (Pay4.pay4_apply _)
      (Finset.sum_congr rfl fun r _ => congrArg₂ (· * ·) (y4blk_row Vv ⟨0, h⟩ r o (Sums.blk ⟨0, by omega⟩ r) rfl)
        (y4blk_row Vv ⟨0, h⟩ r o (Sums.blk ⟨0, by omega⟩ r) rfl))))
    (fun n h h' => (Pay4.pay6_apply (vB Vv ⟨n + 1, h⟩) (wB Vv ⟨n + 1, h⟩) _ o).trans (congrArg (_ + ·)
      (Finset.sum_congr rfl fun r _ => congrArg₂ (· * ·) (y4blk_row Vv ⟨n + 1, h⟩ r o (Sums.blk ⟨n + 1, h'⟩ r) rfl)
        (y4blk_row Vv ⟨n + 1, h⟩ r o (Sums.blk ⟨n + 1, h'⟩ r) rfl)))) h

theorem flushed7_eq (t : Fin cfg4.N) :
    (R4.D Vv c).flushed 7 t = ((cfg4.win 7).blk t).view.read (Elt Ideal)
      (Y40 Vv) := by
  show (cfg4.win 7).cut (grid4.coords t) ((R4.D Vv c).after 7 t) = _
  rw [R4.after_7]
  obtain ⟨-, -, -, -, -, -, -, ⟨e0, e1⟩, -⟩ := idx_facts t
  funext y
  obtain ⟨g, o, rfl⟩ : ∃ (g : Fin 200) (o : Fin 128), y = ix2 g o := ⟨y 0, y 1, eq_ix2 y⟩
  show R4.out8At Vv t (ix2 g o) = Y40 Vv (((cfg4.win 7).blk t).view.emb (ix2 g o))
  have ht : t.val < 50 := lt_of_lt_of_eq t.isLt hN
  have hg := g.isLt
  refine (out8At_apply Vv t g o ⟨200 * t.val + g.val, by omega⟩ rfl).trans (congrArg (Y40 Vv) (Shape.idx_ext₂ ?_ ?_))
  · show 200 * t.val + g.val = win4_7.index t (0 : Fin 2) * 200 + 1 * g.val; rw [e0]; omega
  · show o.val = win4_7.index t (1 : Fin 2) * 128 + 1 * o.val; rw [e1]; omega

theorem cover7 (i : S10000x128.Idx) : ∃ t : Fin cfg4.N, (cfg4.win 7).flush t = true ∧ i ∈ ((cfg4.win 7).blk t).view.set := by
  have hi0 : (i 0).val < 10000 := (i 0).isLt
  have hi1 : (i 1).val < 128 := (i 1).isLt
  have ht : (i 0).val / 200 < cfg4.N := by rw [hN]; omega
  refine ⟨⟨(i 0).val / 200, ht⟩, flush4_7 _, ?_⟩
  obtain ⟨-, -, -, -, -, -, -, ⟨e0, e1⟩, -⟩ := idx_facts ⟨(i 0).val / 200, ht⟩
  show i ∈ ((View.whole main_v40_0).slice (win4_7.rect ⟨(i 0).val / 200, ht⟩)).set
  rw [View.set_slice_whole, Rect.mem_set_unit]
  intro a
  match a with
  | ⟨0, _⟩ =>
    show win4_7.index ⟨(i 0).val / 200, ht⟩ (0 : Fin 2) * 200 ≤ (i 0).val
      ∧ (i 0).val < win4_7.index ⟨(i 0).val / 200, ht⟩ (0 : Fin 2) * 200 + 200
    rw [e0]; show (i 0).val / 200 * 200 ≤ (i 0).val ∧ (i 0).val < (i 0).val / 200 * 200 + 200; omega
  | ⟨1, _⟩ =>
    show win4_7.index ⟨(i 0).val / 200, ht⟩ (1 : Fin 2) * 128 ≤ (i 1).val
      ∧ (i 1).val < win4_7.index ⟨(i 0).val / 200, ht⟩ (1 : Fin 2) * 128 + 128
    rw [e1]; omega

theorem arr7 : (dat4 Vv c (after4 Vv c) (Phi4 Vv c)).arrAt 7 cfg4.N
    = Y40 Vv :=
  (R4.D Vv c).arrAt_eq_of_cover 7 _ (fun t _ => flushed7_eq Vv c t) (cover7)

theorem flushed8_eq (t : Fin cfg4.N) (hf : (cfg4.win 8).flush t = true) :
    (R4.D Vv c).flushed 8 t = ((cfg4.win 8).blk t).view.read (Elt Ideal) (Val.statsOf (Y4 Vv)) := by
  obtain ⟨n, hn⟩ := t
  have h49 : n = 49 := by
    have h1 := (flush4_8 ⟨n, hn⟩).mp hf
    have h2 : n < 50 := lt_of_lt_of_eq hn hN
    show n = 49
    have h3 : n % 50 = 49 := h1
    omega
  subst h49
  show (cfg4.win 8).cut (grid4.coords ⟨49, hn⟩) ((R4.D Vv c).after 8 ⟨49, hn⟩) = _
  rw [R4.after_8]
  obtain ⟨-, -, -, -, -, -, -, -, ⟨e0, e1⟩⟩ := idx_facts ⟨49, hn⟩
  funext y
  obtain ⟨a, o, rfl⟩ : ∃ (a : Fin 2) (o : Fin 128), y = ix2 a o := ⟨y 0, y 1, eq_ix2 y⟩
  show R4.rows2 (R4.accAt Vv 49 hn).1 (R4.accAt Vv 49 hn).2 (ix2 a o) = Val.statsOf (Y4 Vv) (((cfg4.win 8).blk ⟨49, hn⟩).view.emb (ix2 a o))
  rw [show ((cfg4.win 8).blk ⟨49, hn⟩).view.emb (ix2 a o) = ix2 a o from Shape.idx_ext₂
    (by show win4_8.index ⟨49, hn⟩ (0 : Fin 2) * 2 + 1 * a.val = a.val; rw [e0]; omega)
    (by show win4_8.index ⟨49, hn⟩ (1 : Fin 2) * 128 + 1 * o.val = o.val; rw [e1]; omega)]
  by_cases h0 : a.val = 0
  · exact ((if_pos h0).trans (acc_fst_last Vv o hn)).trans (if_pos h0).symm
  · exact ((if_neg h0).trans (acc_snd_last Vv o hn)).trans (if_neg h0).symm

theorem cover8 (i : S2x128.Idx) : ∃ t : Fin cfg4.N, (cfg4.win 8).flush t = true ∧ i ∈ ((cfg4.win 8).blk t).view.set := by
  have hi0 : (i 0).val < 2 := (i 0).isLt
  have hi1 : (i 1).val < 128 := (i 1).isLt
  have ht : 49 < cfg4.N := by rw [hN]; decide
  refine ⟨⟨49, ht⟩, (flush4_8 _).mpr rfl, ?_⟩
  obtain ⟨-, -, -, -, -, -, -, -, ⟨e0, e1⟩⟩ := idx_facts ⟨49, ht⟩
  show i ∈ ((View.whole main_v40_1).slice (win4_8.rect ⟨49, ht⟩)).set
  rw [View.set_slice_whole, Rect.mem_set_unit]
  intro a
  match a with
  | ⟨0, _⟩ =>
    show win4_8.index ⟨49, ht⟩ (0 : Fin 2) * 2 ≤ (i 0).val ∧ (i 0).val < win4_8.index ⟨49, ht⟩ (0 : Fin 2) * 2 + 2
    rw [e0]; omega
  | ⟨1, _⟩ =>
    show win4_8.index ⟨49, ht⟩ (1 : Fin 2) * 128 ≤ (i 1).val ∧ (i 1).val < win4_8.index ⟨49, ht⟩ (1 : Fin 2) * 128 + 128
    rw [e1]; omega

theorem arr8 : (dat4 Vv c (after4 Vv c) (Phi4 Vv c)).arrAt 8 cfg4.N = Val.statsOf (Y4 Vv) :=
  (R4.D Vv c).arrAt_eq_of_cover 8 _ (flushed8_eq Vv c) (cover8)

end V4

theorem contract4 : Val.Contract4 (after4 (F := Ideal)) (Phi4 (F := Ideal)) := fun Vv c =>
  ⟨V4.arr7 Vv c, V4.arr8 Vv c⟩

end Cert.Proof.KI

end
-- ==== Proof.KPay5.lean ====
import proofs.«210907_g44332652429893_cont_8to1_b_736_41_alg».proof.Proof.KPay4

noncomputable section

namespace Cert.Proof.KI.Pay5

open Cert.KernelIdeal Cert.KernelIdeal.Gen Idealize.ShloMosaic Idealize.ShloMosaic.ValueIdx Cert.Proof.KI.Pay1
  Cert.Proof.KI.Pay2 Cert.Proof.KI.Pay3
open scoped BigOperators

theorem pay1_apply (x0 : Vec Ideal S2x128 .f32) (x2 x4 : Vec Ideal S1x128 .f32) (y : Vec Ideal S10000x128 .f32)
    (E : Vec Ideal S128x128 .f32) (hE : ∀ j c : Fin 128, E (ix2 j c) = if j = c then 1 else 0) (j : Fin 128) (n : Fin 10000) :
    k5_pay1 (F := Ideal) x0 x2 x4 y E (ix2 j n)
      = max (y (ix2 n j) * Cert.Spec.bnA (x0 (ix2 (0 : Fin 2) j)) (x0 (ix2 (1 : Fin 2) j)) (x2 (ix2 (0 : Fin 1) j))
            + Cert.Spec.bnC (x0 (ix2 (0 : Fin 2) j)) (x0 (ix2 (1 : Fin 2) j)) (x2 (ix2 (0 : Fin 1) j)) (x4 (ix2 (0 : Fin 1) j))) 0 := by
  unfold k5_pay1
  simp only [shapeCast_self]
  refine ((matmul_nt_apply _ E _ j n).trans (eye_sum E hE _ j)).trans ?_
  simp only [maximumf_apply, addf_apply, mulf_apply, subf_apply, divf_apply, rsqrt_apply, broadcast_apply,
    broadcastTo_1b_ab_apply, row0_read, row1_read, scalar_ofBits, Ideal.ofBits_zero_f32]
  rfl

end Cert.Proof.KI.Pay5

end
-- ==== Proof.KValue5.lean ====
import proofs.«210907_g44332652429893_cont_8to1_b_736_41_alg».proof.Proof.KValContract
import proofs.«210907_g44332652429893_cont_8to1_b_736_41_alg».proof.Proof.KReg5
import proofs.«210907_g44332652429893_cont_8to1_b_736_41_alg».proof.Proof.KPay5
import Idealize.ShloMosaic.Lib.Pipeline.Value
import Idealize.ShloMosaic.Lib.ValueIdx

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.Sem
open Idealize.ShloMosaic.Pipeline (Dat Cfg Window)

namespace V5

open Idealize.ShloMosaic.ValueIdx
open scoped BigOperators

variable (Vv : Valuation τ sig (Elt Ideal)) (c : Dev nD)

abbrev a0 : Vec Ideal S10000x128 .f32 := Val.arrOf Vv main_v40_0
abbrev a1 : Vec Ideal S2x128 .f32 := Val.arrOf Vv main_v40_1
abbrev a2 : Vec Ideal S1x128 .f32 := Val.arrOf Vv main_v35
abbrev a3 : Vec Ideal S1x128 .f32 := Val.arrOf Vv main_v36
abbrev a4 : Vec Ideal S128x128 .f32 := Val.arrOf Vv main_v26
abbrev b0 (t : Fin cfg5.N) : Vec Ideal S10000x128 .f32 := R5.iblk Vv 0 t
abbrev b1 (t : Fin cfg5.N) : Vec Ideal S2x128 .f32 := R5.iblk Vv 1 t
abbrev b2 (t : Fin cfg5.N) : Vec Ideal S1x128 .f32 := R5.iblk Vv 2 t
abbrev b3 (t : Fin cfg5.N) : Vec Ideal S1x128 .f32 := R5.iblk Vv 3 t
abbrev b4 (t : Fin cfg5.N) : Vec Ideal S128x128 .f32 := R5.iblk Vv 4 t

theorem idx_facts : ∀ t : Fin cfg5.N,
    (win5_0.index t (0 : Fin 2) = 0 ∧ win5_0.index t (1 : Fin 2) = 0)
    ∧ (win5_1.index t (0 : Fin 2) = 0 ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0) :=
  (by decide +kernel : ∀ t : Fin grid5.N, _)

theorem b0_apply (t : Fin cfg5.N) (r : Fin 10000) (o : Fin 128) : b0 Vv t (ix2 r o) = a0 Vv (ix2 r o) := by
  obtain ⟨⟨e0, e1⟩, -, -, -, -, -⟩ := idx_facts t
  exact congrArg (Vv _) (Shape.idx_ext₂ (by show win5_0.index t (0 : Fin 2) * 10000 + 1 * r.val = r.val; rw [e0]; omega) (by show win5_0.index t (1 : Fin 2) * 128 + 1 * o.val = o.val; rw [e1]; omega))
theorem b1_apply (t : Fin cfg5.N) (r : Fin 2) (o : Fin 128) : b1 Vv t (ix2 r o) = a1 Vv (ix2 r o) := by
  obtain ⟨-, ⟨e0, e1⟩, -, -, -, -⟩ := idx_facts t
  exact congrArg (Vv _) (Shape.idx_ext₂ (by show win5_1.index t (0 : Fin 2) * 2 + 1 * r.val = r.val; rw [e0]; omega) (by show win5_1.index t (1 : Fin 2) * 128 + 1 * o.val = o.val; rw [e1]; omega))
theorem b2_apply (t : Fin cfg5.N) (r : Fin 1) (o : Fin 128) : b2 Vv t (ix2 r o) = a2 Vv (ix2 r o) := by
  obtain ⟨-, -, ⟨e0, e1⟩, -, -, -⟩ := idx_facts t
  exact congrArg (Vv _) (Shape.idx_ext₂ (by show win5_2.index t (0 : Fin 2) * 1 + 1 * r.val = r.val; rw [e0]; omega) (by show win5_2.index t (1 : Fin 2) * 128 + 1 * o.val = o.val; rw [e1]; omega))
theorem b3_apply (t : Fin cfg5.N) (r : Fin 1) (o : Fin 128) : b3 Vv t (ix2 r o) = a3 Vv (ix2 r o) := by
  obtain ⟨-, -, -, ⟨e0, e1⟩, -, -⟩ := idx_facts t
  exact congrArg (Vv _) (Shape.idx_ext₂ (by show win5_3.index t (0 : Fin 2) * 1 + 1 * r.val = r.val; rw [e0]; omega) (by show win5_3.index t (1 : Fin 2) * 128 + 1 * o.val = o.val; rw [e1]; omega))
theorem b4_apply (t : Fin cfg5.N) (r : Fin 128) (o : Fin 128) : b4 Vv t (ix2 r o) = a4 Vv (ix2 r o) := by
  obtain ⟨-, -, -, -, ⟨e0, e1⟩, -⟩ := idx_facts t
  exact congrArg (Vv _) (Shape.idx_ext₂ (by show win5_4.index t (0 : Fin 2) * 128 + 1 * r.val = r.val; rw [e0]; omega) (by show win5_4.index t (1 : Fin 2) * 128 + 1 * o.val = o.val; rw [e1]; omega))

theorem flushed5_eq (hE : Val.IsEye (a4 Vv)) (t : Fin cfg5.N) :
    (R5.D Vv c).flushed 5 t = ((cfg5.win 5).blk t).view.read (Elt Ideal) (Val.outK (a0 Vv) (a1 Vv) (a2 Vv) (a3 Vv)) := by
  show (cfg5.win 5).cut (grid5.coords t) ((R5.D Vv c).after 5 t) = _
  rw [R5.after_5]
  obtain ⟨-, -, -, -, -, ⟨e0, e1⟩⟩ := idx_facts t
  funext y
  obtain ⟨q, n, rfl⟩ : ∃ (q : Fin 128) (n : Fin 10000), y = ix2 q n := ⟨y 0, y 1, eq_ix2 y⟩
  show k5_pay1 (F := Ideal) (b1 Vv t) (b2 Vv t) (b3 Vv t) (b0 Vv t) (b4 Vv t) (ix2 q n)
    = Val.outK _ _ _ _ (((cfg5.win 5).blk t).view.emb (ix2 q n))
  rw [show ((cfg5.win 5).blk t).view.emb (ix2 q n) = ix2 q n from Shape.idx_ext₂
      (by show win5_5.index t (0 : Fin 2) * 128 + 1 * q.val = q.val; rw [e0]; omega)
      (by show win5_5.index t (1 : Fin 2) * 10000 + 1 * n.val = n.val; rw [e1]; omega),
    Pay5.pay1_apply (b1 Vv t) (b2 Vv t) (b3 Vv t) (b0 Vv t) (b4 Vv t) (fun j cc => by rw [b4_apply]; exact hE j cc),
    b0_apply, b1_apply, b1_apply, b2_apply, b3_apply]
  rfl

theorem cover5 (i : S128x10000.Idx) : ∃ t : Fin cfg5.N, (cfg5.win 5).flush t = true ∧ i ∈ ((cfg5.win 5).blk t).view.set := by
  have hi0 : (i 0).val < 128 := (i 0).isLt
  have hi1 : (i 1).val < 10000 := (i 1).isLt
  refine ⟨t5_0, flush5_5 _, ?_⟩
  obtain ⟨-, -, -, -, -, ⟨e0, e1⟩⟩ := idx_facts t5_0
  show i ∈ ((View.whole main_v41).slice (win5_5.rect t5_0)).set
  rw [View.set_slice_whole, Rect.mem_set_unit]
  intro a
  match a with
  | ⟨0, _⟩ =>
    show win5_5.index t5_0 (0 : Fin 2) * 128 ≤ (i 0).val ∧ (i 0).val < win5_5.index t5_0 (0 : Fin 2) * 128 + 128
    rw [e0]; omega
  | ⟨1, _⟩ =>
    show win5_5.index t5_0 (1 : Fin 2) * 10000 ≤ (i 1).val ∧ (i 1).val < win5_5.index t5_0 (1 : Fin 2) * 10000 + 10000
    rw [e1]; omega

theorem arr5 (hE : Val.IsEye (a4 Vv)) : (dat5 Vv c (after5 Vv c) (Phi5 Vv c)).arrAt 5 cfg5.N
    = Val.outK (a0 Vv) (a1 Vv) (a2 Vv) (a3 Vv) :=
  (R5.D Vv c).arrAt_eq_of_cover 5 _ (fun t _ => flushed5_eq Vv c hE t) (cover5)

end V5

theorem contract5 : Val.Contract5 (after5 (F := Ideal)) (Phi5 (F := Ideal)) := fun Vv c hE => V5.arr5 Vv c hE

end Cert.Proof.KI

end
-- ==== Proof.KValueFin.lean ====
import proofs.«210907_g44332652429893_cont_8to1_b_736_41_alg».proof.Proof.KValueAsm
import proofs.«210907_g44332652429893_cont_8to1_b_736_41_alg».proof.Proof.KLaunch
import proofs.«210907_g44332652429893_cont_8to1_b_736_41_alg».proof.Proof.KSpecIn
import proofs.«210907_g44332652429893_cont_8to1_b_736_41_alg».proof.Proof.KValue1
import proofs.«210907_g44332652429893_cont_8to1_b_736_41_alg».proof.Proof.KValue2
import proofs.«210907_g44332652429893_cont_8to1_b_736_41_alg».proof.Proof.KValue3
import proofs.«210907_g44332652429893_cont_8to1_b_736_41_alg».proof.Proof.KValue4
import proofs.«210907_g44332652429893_cont_8to1_b_736_41_alg».proof.Proof.KValue5

noncomputable section

namespace Cert.Proof.KI.Val

open Cert.KernelIdeal Cert.KernelIdeal.Gen Cert.Proof.KI
open Idealize.ShloMosaic Idealize.ShloMosaic.ValueIdx
open Cert.ReferenceIdeal.RefRun (Arr)

variable (m : Cert.KClaims.KMem) (c : Dev nD)

theorem val9_eq : val9 m c
    = endVal (after1 (F := Ideal)) (Phi1 (F := Ideal)) (after2 (F := Ideal)) (Phi2 (F := Ideal)) (after3 (F := Ideal)) (Phi3 (F := Ideal))
        (after4 (F := Ideal)) (Phi4 (F := Ideal)) (after5 (F := Ideal)) (Phi5 (F := Ideal)) c (V2k m c) := rfl

theorem k_v43_apply (hpre : Cert.Pre_KernelIdeal (hPre_input_domain := Cert.Pre_input_domain.Gen.facts) m)
    (c' : Fin 128) (n : Fin 10000) (k : Fin 16) :
    (val9 m c (Proc.devRef .tc main_v43) : Arr Ideal Cert.ReferenceIdeal.S1x128x10000x16 .f32) (ix4 (0 : Fin 1) c' n k)
      = Cert.Spec.outEdge (Cert.KClaims.kSpecIn m c (Cert.KClaims.kidx hpre c)) c' n k := by
  rw [val9_eq]
  exact end_v43 _ _ _ _ _ _ _ _ _ _ c contract1 contract2 contract3 contract4 contract5 _ _ _ _ _ _ _ _ _ _ _ _ _ _ _
    (Cert.KClaims.kidx hpre c) (V2k m c) (holds_V2k m c (Cert.KClaims.kidx hpre c)) c' n k

theorem k_v44_apply (hpre : Cert.Pre_KernelIdeal (hPre_input_domain := Cert.Pre_input_domain.Gen.facts) m)
    (c' : Fin 128) (n : Fin 10000) :
    (val9 m c (Proc.devRef .tc main_v44) : Arr Ideal Cert.ReferenceIdeal.S1x128x10000x1 .f32) (ix4 (0 : Fin 1) c' n (0 : Fin 1))
      = Cert.Spec.outNode (Cert.KClaims.kSpecIn m c (Cert.KClaims.kidx hpre c)) c' n := by
  rw [val9_eq]
  exact end_v44 _ _ _ _ _ _ _ _ _ _ c contract1 contract2 contract3 contract4 contract5 _ _ _ _ _ _ _ _ _ _ _ _ _ _ _
    (Cert.KClaims.kidx hpre c) (V2k m c) (holds_V2k m c (Cert.KClaims.kidx hpre c)) c' n

end Cert.Proof.KI.Val

end
-- ==== Proof.KClaims.lean ====
import proofs.«210907_g44332652429893_cont_8to1_b_736_41_alg».proof.Defs
import proofs.«210907_g44332652429893_cont_8to1_b_736_41_alg».proof.Proof.Gen.KernelIdeal
import proofs.«210907_g44332652429893_cont_8to1_b_736_41_alg».proof.Proof.KFrame
import proofs.«210907_g44332652429893_cont_8to1_b_736_41_alg».proof.Proof.KSpecIn
import proofs.«210907_g44332652429893_cont_8to1_b_736_41_alg».proof.Proof.KValueFin

noncomputable section

namespace Cert.KClaims

open Cert.ReferenceIdeal.RefRun (Arr)
open Cert.RefValue Cert.RefClaims Idealize.ShloMosaic Idealize.ShloMosaic.TcCoe Idealize.SL.Sem Idealize.ShloMosaic.ValueIdx

theorem frame_ki : Cert.frame_KernelIdeal (hKernelIdeal := Cert.KernelIdeal.Gen.facts) (hPre_input_domain := Cert.Pre_input_domain.Gen.facts) :=
  fun m g hpre => Cert.Proof.KI.frame_of_pre m g hpre

-- Index by index the second result is the specification's edge output; a [1, 128, 10000, 16] index is its four coordinates.
theorem k_v43_arr (m : KMem) (hpre : Cert.Pre_KernelIdeal (hPre_input_domain := Cert.Pre_input_domain.Gen.facts) m) (c : Dev Cert.KernelIdeal.nD) :
    (Cert.Proof.KI.val9 m c (Proc.devRef .tc Cert.KernelIdeal.main_v43) : Arr Ideal Cert.ReferenceIdeal.S1x128x10000x16 .f32) = outEdgeArr (kSpecIn m c (kidx hpre c)) := by
  funext j
  obtain ⟨a, b, n, k, rfl⟩ : ∃ (a : Fin 1) (b : Fin 128) (n : Fin 10000) (k : Fin 16), j = ix4 a b n k :=
    ⟨j 0, j 1, j 2, j 3, eq_ix4 j⟩
  obtain rfl : a = 0 := Subsingleton.elim _ _
  exact Cert.Proof.KI.Val.k_v43_apply m c hpre b n k

theorem k_v44_arr (m : KMem) (hpre : Cert.Pre_KernelIdeal (hPre_input_domain := Cert.Pre_input_domain.Gen.facts) m) (c : Dev Cert.KernelIdeal.nD) :
    (Cert.Proof.KI.val9 m c (Proc.devRef .tc Cert.KernelIdeal.main_v44) : Arr Ideal Cert.ReferenceIdeal.S1x128x10000x1 .f32) = outNodeArr (kSpecIn m c (kidx hpre c)) := by
  funext j
  obtain ⟨a, b, n, d, rfl⟩ : ∃ (a : Fin 1) (b : Fin 128) (n : Fin 10000) (d : Fin 1), j = ix4 a b n d :=
    ⟨j 0, j 1, j 2, j 3, eq_ix4 j⟩
  obtain rfl : a = 0 := Subsingleton.elim _ _
  obtain rfl : d = 0 := Subsingleton.elim _ _
  exact Cert.Proof.KI.Val.k_v44_apply m c hpre b n

-- Both programs' results are the specification's arrays of the inputs the (agreeing) arguments denote.
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) :=
  fun m g m' g' hpre hag =>
    ⟨fun c => outNodeArr (kSpecIn m c (kidx hpre c)), fun c => outEdgeArr (kSpecIn m c (kidx hpre c)),
      fun c => m ((c.tc : Thread Cert.KernelIdeal.nD Cert.KernelIdeal.τ).loc Cert.KernelIdeal.main_arg2),
      (θ_run _ _ _).mono
        (fun _ h c => ⟨(h c).1.trans (k_v44_arr m hpre c), (h c).2.1.trans (k_v43_arr m hpre c), (h c).2.2⟩)
        (Cert.Proof.KI.run_main m g (Cert.Proof.KI.preArg_of_pre m hpre)),
      (θ_run _ _ _).mono
        (fun _ h c =>
          ⟨(h c).1.trans (congrArg outNodeArr (specIn_eq_of_agree m m' c (hag c) _ (kidx hpre c))),
            (h c).2.1.trans (congrArg outEdgeArr (specIn_eq_of_agree m m' c (hag c) _ (kidx hpre c))),
            (h c).2.2.2.2.1.trans (hag c).2.2.1,
            (h c).2.2⟩)
        (ref_run_spec m' g' (pre_transfer m m' hpre hag))⟩

end Cert.KClaims

end
-- ==== Proof.lean ====
import proofs.«210907_g44332652429893_cont_8to1_b_736_41_alg».proof.Defs
import proofs.«210907_g44332652429893_cont_8to1_b_736_41_alg».proof.Proof.Gen.Kernel
import proofs.«210907_g44332652429893_cont_8to1_b_736_41_alg».proof.Proof.Gen.Kernel.Skeleton
import proofs.«210907_g44332652429893_cont_8to1_b_736_41_alg».proof.Proof.Gen.Kernel.Launch
import proofs.«210907_g44332652429893_cont_8to1_b_736_41_alg».proof.Proof.Gen.Kernel.Regions
import proofs.«210907_g44332652429893_cont_8to1_b_736_41_alg».proof.Proof.Gen.Kernel.Points
import proofs.«210907_g44332652429893_cont_8to1_b_736_41_alg».proof.Proof.Gen.KernelIdeal
import proofs.«210907_g44332652429893_cont_8to1_b_736_41_alg».proof.Proof.Gen.KernelIdeal.Skeleton
import proofs.«210907_g44332652429893_cont_8to1_b_736_41_alg».proof.Proof.Gen.KernelIdeal.Launch
import proofs.«210907_g44332652429893_cont_8to1_b_736_41_alg».proof.Proof.Gen.KernelIdeal.Regions
import proofs.«210907_g44332652429893_cont_8to1_b_736_41_alg».proof.Proof.Gen.KernelIdeal.Points
import proofs.«210907_g44332652429893_cont_8to1_b_736_41_alg».proof.Proof.Gen.ReferenceIdeal
import proofs.«210907_g44332652429893_cont_8to1_b_736_41_alg».proof.Proof.Gen.Pre_input_domain
import proofs.«210907_g44332652429893_cont_8to1_b_736_41_alg».proof.Proof.BClaims
import proofs.«210907_g44332652429893_cont_8to1_b_736_41_alg».proof.Proof.KClaims
import proofs.«210907_g44332652429893_cont_8to1_b_736_41_alg».proof.Proof.RefClaims
import Idealize.ShloMosaic.Adequacy
import Idealize.ShloMosaic.Init

noncomputable section

namespace Cert.Proof

open Idealize.ShloMosaic Idealize.SL.Sem Cert.Kernel

/-- The three frames are the runs with their values dropped; nothing was idealized; both ideal runs end at one specification's arrays. -/
theorem claim : Cert.Claim := ⟨Cert.Kernel.Gen.facts, Cert.KernelIdeal.Gen.facts, Cert.ReferenceIdeal.Gen.facts, Cert.Pre_input_domain.Gen.facts,
  Cert.BClaims.frame_k, Cert.KClaims.frame_ki, Cert.RefClaims.frame_ri, trivial, Cert.KClaims.algebraic⟩

end Cert.Proof

end
